-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v230)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v230) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v324) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x6 : Shape := ⟨2, ![250000, 6]⟩
abbrev S2x4000000 : Shape := ⟨2, ![2, 4000000]⟩
abbrev S250000 : Shape := ⟨1, ![250000]⟩
abbrev S1024x5 : Shape := ⟨2, ![1024, 5]⟩
abbrev S6x64 : Shape := ⟨2, ![6, 64]⟩
abbrev S64 : Shape := ⟨1, ![64]⟩
abbrev S64x64 : Shape := ⟨2, ![64, 64]⟩
abbrev S138x128 : Shape := ⟨2, ![138, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S_ : Shape := ⟨0, ![]⟩

class Facts : Prop where
  bcast_S_S250000x6 : S_.BroadcastsInDim S250000x6 (![] : Fin 0 → Fin S250000x6.rank)
  reducesTo_S250000x6_S_d0_1 : S250000x6.ReducesTo [0, 1] S_
  h_S_ : 0 < S_.numel
  bcast_S_S1024x5 : S_.BroadcastsInDim S1024x5 (![] : Fin 0 → Fin S1024x5.rank)
  reducesTo_S1024x5_S_d0_1 : S1024x5.ReducesTo [0, 1] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S138x128 : S_.BroadcastsInDim S138x128 (![] : Fin 0 → Fin S138x128.rank)
  reducesTo_S138x128_S_d0_1 : S138x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg25 : FVec F S1 .f32) (main_v98 : IVec S_ 1) (main_v101 : IVec S64x1 1) (main_c_39 : IVec S_ 1) : IVec S_ 1 :=
  let main_v102 : IVec S_ 1 := (fun x v => Host.reduce IntOp.andi x v reducesTo_S64x1_S_d0_1 h_S_) main_v101 main_c_39
  let main_v103 : IVec S_ 1 := andi main_v98 main_v102
  let main_v104 : FVec F S1 .f32 := Host.absf main_arg25
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg22 : FVec F S128x64 .f32) (main_arg23 : FVec F S64 .f32) (main_arg24 : FVec F S64x1 .f32) (main_arg25 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x64 .f32 := Host.absf main_arg22
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg23
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x1 .f32 := Host.absf main_arg24
  let main_cst_38 : FVec F S_ .f32 := constant S_ .f32 0x7F800000#32
  let main_v100 : FVec F S64x1 .f32 := broadcastInDim S64x1 ![] bcast_S_S64x1 main_cst_38
  let main_v101 : IVec S64x1 1 := cmpf .olt main_v99 main_v100
  let main_c_39 : IVec S_ 1 := constantI S_ 1 1#1
  fn_part6 (F := F) main_arg25 main_v98 main_v101 main_c_39

def fn_part4 {F : FTy → Type} [FloatOps F] (main_arg18 : FVec F S64 .f32) (main_arg19 : FVec F S64 .f32) (main_arg20 : FVec F S138x128 .f32) (main_arg21 : FVec F S128 .f32) (main_arg22 : FVec F S128x64 .f32) (main_arg23 : FVec F S64 .f32) (main_arg24 : FVec F S64x1 .f32) (main_arg25 : FVec F S1 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S138x128 .f32 := Host.absf main_arg20
  let main_cst_30 : FVec F S_ .f32 := constant S_ .f32 0x7F800000#32
  let main_v80 : FVec F S138x128 .f32 := broadcastInDim S138x128 ![] bcast_S_S138x128 main_cst_30
  let main_v81 : IVec S138x128 1 := cmpf .olt main_v79 main_v80
  let main_c_31 : IVec S_ 1 := constantI S_ 1 1#1
  let main_v82 : IVec S_ 1 := (fun x v => Host.reduce IntOp.andi x v reducesTo_S138x128_S_d0_1 h_S_) main_v81 main_c_31
  let main_v83 : IVec S_ 1 := andi main_v78 main_v82
  let main_v84 : FVec F S128 .f32 := Host.absf main_arg21
  let main_cst_32 : FVec F S_ .f32 := constant S_ .f32 0x7F800000#32
  fn_part5 (F := F) main_arg22 main_arg23 main_arg24 main_arg25 main_v83 main_v84 main_cst_32

def fn_part3 {F : FTy → Type} [FloatOps F] (main_arg15 : FVec F S64 .f32) (main_arg16 : FVec F S64x64 .f32) (main_arg17 : FVec F S64 .f32) (main_arg18 : FVec F S64 .f32) (main_arg19 : FVec F S64 .f32) (main_arg20 : FVec F S138x128 .f32) (main_arg21 : FVec F S128 .f32) (main_arg22 : FVec F S128x64 .f32) (main_arg23 : FVec F S64 .f32) (main_arg24 : FVec F S64x1 .f32) (main_arg25 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg16
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg18 main_arg19 main_arg20 main_arg21 main_arg22 main_arg23 main_arg24 main_arg25 main_v63 main_v67

def fn_part2 {F : FTy → Type} [FloatOps F] (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S138x128 .f32) (main_arg21 : FVec F S128 .f32) (main_arg22 : FVec F S128x64 .f32) (main_arg23 : FVec F S64 .f32) (main_arg24 : FVec F S64x1 .f32) (main_arg25 : FVec F S1 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg13
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg14
  let main_cst_18 : FVec F S_ .f32 := constant S_ .f32 0x7F800000#32
  let main_v50 : FVec F S64x64 .f32 := broadcastInDim S64x64 ![] bcast_S_S64x64 main_cst_18
  fn_part3 (F := F) main_arg15 main_arg16 main_arg17 main_arg18 main_arg19 main_arg20 main_arg21 main_arg22 main_arg23 main_arg24 main_arg25 main_v48 main_v49 main_v50

def fn_part1 {F : FTy → Type} [FloatOps F] (main_arg8 : FVec F S6x64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S138x128 .f32) (main_arg21 : FVec F S128 .f32) (main_arg22 : FVec F S128x64 .f32) (main_arg23 : FVec F S64 .f32) (main_arg24 : FVec F S64x1 .f32) (main_arg25 : FVec F S1 .f32) (main_v13 : IVec S_ 1) (main_v16 : IVec S1024x5 1) : IVec S_ 1 :=
  let main_c_5 : IVec S_ 1 := constantI S_ 1 1#1
  let main_v17 : IVec S_ 1 := (fun x v => Host.reduce IntOp.andi x v reducesTo_S1024x5_S_d0_1 h_S_) main_v16 main_c_5
  let main_v18 : IVec S_ 1 := andi main_v13 main_v17
  let main_v19 : FVec F S6x64 .f32 := Host.absf main_arg8
  let main_cst_6 : FVec F S_ .f32 := constant S_ .f32 0x7F800000#32
  let main_v20 : FVec F S6x64 .f32 := broadcastInDim S6x64 ![] bcast_S_S6x64 main_cst_6
  let main_v21 : IVec S6x64 1 := cmpf .olt main_v19 main_v20
  let main_c_7 : IVec S_ 1 := constantI S_ 1 1#1
  let main_v22 : IVec S_ 1 := (fun x v => Host.reduce IntOp.andi x v reducesTo_S6x64_S_d0_1 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg10
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S250000x6 .f32) (main_arg1 : IVec S2x4000000 32) (main_arg2 : IVec S250000 32) (main_arg3 : FVec F S250000x6 .f32) (main_arg4 : IVec S2x4000000 32) (main_arg5 : IVec S250000 32) (main_arg6 : FVec F S1024x5 .f32) (main_arg7 : FVec F S1024x5 .f32) (main_arg8 : FVec F S6x64 .f32) (main_arg9 : FVec F S64 .f32) (main_arg10 : FVec F S64x64 .f32) (main_arg11 : FVec F S64 .f32) (main_arg12 : FVec F S64 .f32) (main_arg13 : FVec F S64 .f32) (main_arg14 : FVec F S64x64 .f32) (main_arg15 : FVec F S64 .f32) (main_arg16 : FVec F S64x64 .f32) (main_arg17 : FVec F S64 .f32) (main_arg18 : FVec F S64 .f32) (main_arg19 : FVec F S64 .f32) (main_arg20 : FVec F S138x128 .f32) (main_arg21 : FVec F S128 .f32) (main_arg22 : FVec F S128x64 .f32) (main_arg23 : FVec F S64 .f32) (main_arg24 : FVec F S64x1 .f32) (main_arg25 : FVec F S1 .f32) : IVec S_ 1 :=
  let main_v0 : FVec F S250000x6 .f32 := Host.absf main_arg0
  let main_cst : FVec F S_ .f32 := constant S_ .f32 0x7F800000#32
  let main_v1 : FVec F S250000x6 .f32 := broadcastInDim S250000x6 ![] bcast_S_S250000x6 main_cst
  let main_v2 : IVec S250000x6 1 := cmpf .olt main_v0 main_v1
  let main_c : IVec S_ 1 := constantI S_ 1 1#1
  let main_v3 : IVec S_ 1 := (fun x v => Host.reduce IntOp.andi x v reducesTo_S250000x6_S_d0_1 h_S_) main_v2 main_c
  let main_v4 : FVec F S250000x6 .f32 := Host.absf main_arg3
  let main_cst_0 : FVec F S_ .f32 := constant S_ .f32 0x7F800000#32
  let main_v5 : FVec F S250000x6 .f32 := broadcastInDim S250000x6 ![] bcast_S_S250000x6 main_cst_0
  let main_v6 : IVec S250000x6 1 := cmpf .olt main_v4 main_v5
  let main_c_1 : IVec S_ 1 := constantI S_ 1 1#1
  let main_v7 : IVec S_ 1 := (fun x v => Host.reduce IntOp.andi x v reducesTo_S250000x6_S_d0_1 h_S_) main_v6 main_c_1
  let main_v8 : IVec S_ 1 := andi main_v3 main_v7
  let main_v9 : FVec F S1024x5 .f32 := Host.absf main_arg6
  let main_cst_2 : FVec F S_ .f32 := constant S_ .f32 0x7F800000#32
  let main_v10 : FVec F S1024x5 .f32 := broadcastInDim S1024x5 ![] bcast_S_S1024x5 main_cst_2
  let main_v11 : IVec S1024x5 1 := cmpf .olt main_v9 main_v10
  let main_c_3 : IVec S_ 1 := constantI S_ 1 1#1
  let main_v12 : IVec S_ 1 := (fun x v => Host.reduce IntOp.andi x v reducesTo_S1024x5_S_d0_1 h_S_) main_v11 main_c_3
  let main_v13 : IVec S_ 1 := andi main_v8 main_v12
  let main_v14 : FVec F S1024x5 .f32 := Host.absf main_arg7
  let main_cst_4 : FVec F S_ .f32 := constant S_ .f32 0x7F800000#32
  let main_v15 : FVec F S1024x5 .f32 := broadcastInDim S1024x5 ![] bcast_S_S1024x5 main_cst_4
  let main_v16 : IVec S1024x5 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S250000x6 : Shape := ⟨2, ![250000, 6]⟩
abbrev S2x4000000 : Shape := ⟨2, ![2, 4000000]⟩
abbrev S250000 : Shape := ⟨1, ![250000]⟩
abbrev S1024x5 : Shape := ⟨2, ![1024, 5]⟩
abbrev S6x64 : Shape := ⟨2, ![6, 64]⟩
abbrev S64 : Shape := ⟨1, ![64]⟩
abbrev S64x64 : Shape := ⟨2, ![64, 64]⟩
abbrev S138x128 : Shape := ⟨2, ![138, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x4000000 : Shape := ⟨2, ![1, 4000000]⟩
abbrev S4000000 : Shape := ⟨1, ![4000000]⟩
abbrev S_ : Shape := ⟨0, ![]⟩
abbrev S1024 : Shape := ⟨1, ![1024]⟩
abbrev S250000x1 : Shape := ⟨2, ![250000, 1]⟩
abbrev S4000000x1 : Shape := ⟨2, ![4000000, 1]⟩
abbrev S4000000x6 : Shape := ⟨2, ![4000000, 6]⟩
abbrev S1x64 : Shape := ⟨2, ![1, 64]⟩
abbrev S250000x64 : Shape := ⟨2, ![250000, 64]⟩
abbrev S2000x6 : Shape := ⟨2, ![2000, 6]⟩
abbrev S2000x64 : Shape := ⟨2, ![2000, 64]⟩
abbrev S2000x1 : Shape := ⟨2, ![2000, 1]⟩
abbrev S2000 : Shape := ⟨1, ![2000]⟩
abbrev S4000000x64 : Shape := ⟨2, ![4000000, 64]⟩
abbrev S1024x64 : Shape := ⟨2, ![1024, 64]⟩
abbrev S2000x1024 : Shape := ⟨2, ![2000, 1024]⟩
abbrev S1024x1 : Shape := ⟨2, ![1024, 1]⟩
abbrev S1024x138 : Shape := ⟨2, ![1024, 138]⟩
abbrev S1024x128 : Shape := ⟨2, ![1024, 128]⟩
abbrev S1x128 : Shape := ⟨2, ![1, 128]⟩
abbrev S1x1 : Shape := ⟨2, ![1, 1]⟩

abbrev nBuf : Space → Nat
  | .hbm => 315
  | .vmem => 108
  | .smem => 0
  | _ => 0

abbrev hbmTy0_0 (i : Nat) : BufTy := match i % 128 with
  | 0 => ⟨S250000x6, .f32⟩
  | 1 => ⟨S2x4000000, .i32⟩
  | 2 => ⟨S250000, .i32⟩
  | 3 => ⟨S250000x6, .f32⟩
  | 4 => ⟨S2x4000000, .i32⟩
  | 5 => ⟨S250000, .i32⟩
  | 6 => ⟨S1024x5, .f32⟩
  | 7 => ⟨S1024x5, .f32⟩
  | 8 => ⟨S6x64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64, .f32⟩
  | 19 => ⟨S64, .f32⟩
  | 20 => ⟨S138x128, .f32⟩
  | 21 => ⟨S128, .f32⟩
  | 22 => ⟨S128x64, .f32⟩
  | 23 => ⟨S64, .f32⟩
  | 24 => ⟨S64x1, .f32⟩
  | 25 => ⟨S1, .f32⟩
  | 26 => ⟨S1x4000000, .i32⟩
  | 27 => ⟨S4000000, .i32⟩
  | 28 => ⟨S1x4000000, .i32⟩
  | 29 => ⟨S4000000, .i32⟩
  | 30 => ⟨S_, .f32⟩
  | 31 => ⟨S250000, .f32⟩
  | 32 => ⟨S_, .f32⟩
  | 33 => ⟨S1024, .f32⟩
  | 34 => ⟨S250000x1, .i32⟩
  | 35 => ⟨S1024, .f32⟩
  | 36 => ⟨S_, .f32⟩
  | 37 => ⟨S1024, .f32⟩
  | 38 => ⟨S1024, .f32⟩
  | 39 => ⟨S_, .f32⟩
  | 40 => ⟨S1024, .f32⟩
  | 41 => ⟨S1024, .f32⟩
  | 42 => ⟨S_, .i32⟩
  | 43 => ⟨S4000000, .i32⟩
  | 44 => ⟨S4000000, .i1⟩
  | 45 => ⟨S_, .i32⟩
  | 46 => ⟨S4000000, .i32⟩
  | 47 => ⟨S4000000, .i32⟩
  | 48 => ⟨S4000000, .i32⟩
  | 49 => ⟨S4000000x1, .i32⟩
  | 50 => ⟨S4000000x6, .f32⟩
  | 51 => ⟨S_, .f32⟩
  | 52 => ⟨S250000x6, .f32⟩
  | 53 => ⟨S4000000x1, .i32⟩
  | 54 => ⟨S250000x6, .f32⟩
  | 55 => ⟨S1x64, .f32⟩
  | 56 => ⟨S1x64, .f32⟩
  | 57 => ⟨S250000x64, .f32⟩
  | 58 => ⟨S250000x1, .f32⟩
  | 59 => ⟨S250000x1, .f32⟩
  | 60 => ⟨S250000, .f32⟩
  | 61 => ⟨S_, .f32⟩
  | 62 => ⟨S1024, .f32⟩
  | 63 => ⟨S250000x1, .i32⟩
  | 64 => ⟨S1024, .f32⟩
  | 65 => ⟨S250000, .f32⟩
  | 66 => ⟨S_, .f32⟩
  | 67 => ⟨S1024, .f32⟩
  | 68 => ⟨S250000x1, .i32⟩
  | 69 => ⟨S1024, .f32⟩
  | 70 => ⟨S1024, .f32⟩
  | 71 => ⟨S1024, .f32⟩
  | 72 => ⟨S1024, .f32⟩
  | 73 => ⟨S1024, .f32⟩
  | 74 => ⟨S_, .i32⟩
  | 75 => ⟨S250000, .i32⟩
  | 76 => ⟨S250000, .i1⟩
  | 77 => ⟨S_, .i32⟩
  | 78 => ⟨S250000, .i32⟩
  | 79 => ⟨S250000, .i32⟩
  | 80 => ⟨S250000, .i32⟩
  | 81 => ⟨S250000x1, .i32⟩
  | 82 => ⟨S250000, .f32⟩
  | 83 => ⟨S_, .i32⟩
  | 84 => ⟨S250000, .i32⟩
  | 85 => ⟨S250000, .i1⟩
  | 86 => ⟨S_, .i32⟩
  | 87 => ⟨S250000, .i32⟩
  | 88 => ⟨S250000, .i32⟩
  | 89 => ⟨S250000, .i32⟩
  | 90 => ⟨S250000x1, .i32⟩
  | 91 => ⟨S250000, .f32⟩
  | 92 => ⟨S250000x1, .f32⟩
  | 93 => ⟨S250000x1, .f32⟩
  | 94 => ⟨S1x64, .f32⟩
  | 95 => ⟨S1x64, .f32⟩
  | 96 => ⟨S250000x64, .f32⟩
  | 97 => ⟨S_, .i32⟩
  | 98 => ⟨S4000000, .i32⟩
  | 99 => ⟨S4000000, .i1⟩
  | 100 => ⟨S_, .i32⟩
  | 101 => ⟨S4000000, .i32⟩
  | 102 => ⟨S4000000, .i32⟩
  | 103 => ⟨S4000000, .i32⟩
  | 104 => ⟨S4000000x1, .i32⟩
  | 105 => ⟨S4000000x64, .f32⟩
  | 106 => ⟨S_, .f32⟩
  | 107 => ⟨S250000x64, .f32⟩
  | 108 => ⟨S4000000x1, .i32⟩
  | 109 => ⟨S250000x64, .f32⟩
  | 110 => ⟨S1x64, .f32⟩
  | 111 => ⟨S1x64, .f32⟩
  | 112 => ⟨S250000x64, .f32⟩
  | 113 => ⟨S250000x1, .f32⟩
  | 114 => ⟨S250000x1, .f32⟩
  | 115 => ⟨S250000, .f32⟩
  | 116 => ⟨S_, .f32⟩
  | 117 => ⟨S1024, .f32⟩
  | 118 => ⟨S250000x1, .i32⟩
  | 119 => ⟨S1024, .f32⟩
  | 120 => ⟨S250000, .f32⟩
  | 121 => ⟨S_, .f32⟩
  | 122 => ⟨S1024, .f32⟩
  | 123 => ⟨S250000x1, .i32⟩
  | 124 => ⟨S1024, .f32⟩
  | 125 => ⟨S1024, .f32⟩
  | 126 => ⟨S1024, .f32⟩
  | 127 => ⟨S1024, .f32⟩
  | _ => ⟨S250000x6, .f32⟩

abbrev hbmTy0_1 (i : Nat) : BufTy := match i % 128 with
  | 0 => ⟨S1024, .f32⟩
  | 1 => ⟨S_, .i32⟩
  | 2 => ⟨S250000, .i32⟩
  | 3 => ⟨S250000, .i1⟩
  | 4 => ⟨S_, .i32⟩
  | 5 => ⟨S250000, .i32⟩
  | 6 => ⟨S250000, .i32⟩
  | 7 => ⟨S250000, .i32⟩
  | 8 => ⟨S250000x1, .i32⟩
  | 9 => ⟨S250000, .f32⟩
  | 10 => ⟨S_, .i32⟩
  | 11 => ⟨S250000, .i32⟩
  | 12 => ⟨S250000, .i1⟩
  | 13 => ⟨S_, .i32⟩
  | 14 => ⟨S250000, .i32⟩
  | 15 => ⟨S250000, .i32⟩
  | 16 => ⟨S250000, .i32⟩
  | 17 => ⟨S250000x1, .i32⟩
  | 18 => ⟨S250000, .f32⟩
  | 19 => ⟨S250000x1, .f32⟩
  | 20 => ⟨S250000x1, .f32⟩
  | 21 => ⟨S1x64, .f32⟩
  | 22 => ⟨S1x64, .f32⟩
  | 23 => ⟨S250000x64, .f32⟩
  | 24 => ⟨S250000x1, .i32⟩
  | 25 => ⟨S1024x64, .f32⟩
  | 26 => ⟨S_, .f32⟩
  | 27 => ⟨S1024, .f32⟩
  | 28 => ⟨S1024, .f32⟩
  | 29 => ⟨S1024x1, .f32⟩
  | 30 => ⟨S1024x64, .f32⟩
  | 31 => ⟨S1024x64, .f32⟩
  | 32 => ⟨S1024x64, .f32⟩
  | 33 => ⟨S1x4000000, .i32⟩
  | 34 => ⟨S4000000, .i32⟩
  | 35 => ⟨S1x4000000, .i32⟩
  | 36 => ⟨S4000000, .i32⟩
  | 37 => ⟨S_, .f32⟩
  | 38 => ⟨S250000, .f32⟩
  | 39 => ⟨S_, .f32⟩
  | 40 => ⟨S1024, .f32⟩
  | 41 => ⟨S250000x1, .i32⟩
  | 42 => ⟨S1024, .f32⟩
  | 43 => ⟨S_, .f32⟩
  | 44 => ⟨S1024, .f32⟩
  | 45 => ⟨S1024, .f32⟩
  | 46 => ⟨S_, .f32⟩
  | 47 => ⟨S1024, .f32⟩
  | 48 => ⟨S1024, .f32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S4000000x6, .f32⟩
  | 58 => ⟨S_, .f32⟩
  | 59 => ⟨S250000x6, .f32⟩
  | 60 => ⟨S4000000x1, .i32⟩
  | 61 => ⟨S250000x6, .f32⟩
  | 62 => ⟨S1x64, .f32⟩
  | 63 => ⟨S1x64, .f32⟩
  | 64 => ⟨S250000x64, .f32⟩
  | 65 => ⟨S250000x1, .f32⟩
  | 66 => ⟨S250000x1, .f32⟩
  | 67 => ⟨S250000, .f32⟩
  | 68 => ⟨S_, .f32⟩
  | 69 => ⟨S1024, .f32⟩
  | 70 => ⟨S250000x1, .i32⟩
  | 71 => ⟨S1024, .f32⟩
  | 72 => ⟨S250000, .f32⟩
  | 73 => ⟨S_, .f32⟩
  | 74 => ⟨S1024, .f32⟩
  | 75 => ⟨S250000x1, .i32⟩
  | 76 => ⟨S1024, .f32⟩
  | 77 => ⟨S1024, .f32⟩
  | 78 => ⟨S1024, .f32⟩
  | 79 => ⟨S1024, .f32⟩
  | 80 => ⟨S1024, .f32⟩
  | 81 => ⟨S_, .i32⟩
  | 82 => ⟨S250000, .i32⟩
  | 83 => ⟨S250000, .i1⟩
  | 84 => ⟨S_, .i32⟩
  | 85 => ⟨S250000, .i32⟩
  | 86 => ⟨S250000, .i32⟩
  | 87 => ⟨S250000, .i32⟩
  | 88 => ⟨S250000x1, .i32⟩
  | 89 => ⟨S250000, .f32⟩
  | 90 => ⟨S_, .i32⟩
  | 91 => ⟨S250000, .i32⟩
  | 92 => ⟨S250000, .i1⟩
  | 93 => ⟨S_, .i32⟩
  | 94 => ⟨S250000, .i32⟩
  | 95 => ⟨S250000, .i32⟩
  | 96 => ⟨S250000, .i32⟩
  | 97 => ⟨S250000x1, .i32⟩
  | 98 => ⟨S250000, .f32⟩
  | 99 => ⟨S250000x1, .f32⟩
  | 100 => ⟨S250000x1, .f32⟩
  | 101 => ⟨S1x64, .f32⟩
  | 102 => ⟨S1x64, .f32⟩
  | 103 => ⟨S250000x64, .f32⟩
  | 104 => ⟨S_, .i32⟩
  | 105 => ⟨S4000000, .i32⟩
  | 106 => ⟨S4000000, .i1⟩
  | 107 => ⟨S_, .i32⟩
  | 108 => ⟨S4000000, .i32⟩
  | 109 => ⟨S4000000, .i32⟩
  | 110 => ⟨S4000000, .i32⟩
  | 111 => ⟨S4000000x1, .i32⟩
  | 112 => ⟨S4000000x64, .f32⟩
  | 113 => ⟨S_, .f32⟩
  | 114 => ⟨S250000x64, .f32⟩
  | 115 => ⟨S4000000x1, .i32⟩
  | 116 => ⟨S250000x64, .f32⟩
  | 117 => ⟨S1x64, .f32⟩
  | 118 => ⟨S1x64, .f32⟩
  | 119 => ⟨S250000x64, .f32⟩
  | 120 => ⟨S250000x1, .f32⟩
  | 121 => ⟨S250000x1, .f32⟩
  | 122 => ⟨S250000, .f32⟩
  | 123 => ⟨S_, .f32⟩
  | 124 => ⟨S1024, .f32⟩
  | 125 => ⟨S250000x1, .i32⟩
  | 126 => ⟨S1024, .f32⟩
  | 127 => ⟨S250000, .f32⟩
  | _ => ⟨S250000x6, .f32⟩

abbrev hbmTy0_2 (i : Nat) : BufTy := match i % 128 with
  | 0 => ⟨S_, .f32⟩
  | 1 => ⟨S1024, .f32⟩
  | 2 => ⟨S250000x1, .i32⟩
  | 3 => ⟨S1024, .f32⟩
  | 4 => ⟨S1024, .f32⟩
  | 5 => ⟨S1024, .f32⟩
  | 6 => ⟨S1024, .f32⟩
  | 7 => ⟨S1024, .f32⟩
  | 8 => ⟨S_, .i32⟩
  | 9 => ⟨S250000, .i32⟩
  | 10 => ⟨S250000, .i1⟩
  | 11 => ⟨S_, .i32⟩
  | 12 => ⟨S250000, .i32⟩
  | 13 => ⟨S250000, .i32⟩
  | 14 => ⟨S250000, .i32⟩
  | 15 => ⟨S250000x1, .i32⟩
  | 16 => ⟨S250000, .f32⟩
  | 17 => ⟨S_, .i32⟩
  | 18 => ⟨S250000, .i32⟩
  | 19 => ⟨S250000, .i1⟩
  | 20 => ⟨S_, .i32⟩
  | 21 => ⟨S250000, .i32⟩
  | 22 => ⟨S250000, .i32⟩
  | 23 => ⟨S250000, .i32⟩
  | 24 => ⟨S250000x1, .i32⟩
  | 25 => ⟨S250000, .f32⟩
  | 26 => ⟨S250000x1, .f32⟩
  | 27 => ⟨S250000x1, .f32⟩
  | 28 => ⟨S1x64, .f32⟩
  | 29 => ⟨S1x64, .f32⟩
  | 30 => ⟨S250000x64, .f32⟩
  | 31 => ⟨S250000x1, .i32⟩
  | 32 => ⟨S1024x64, .f32⟩
  | 33 => ⟨S_, .f32⟩
  | 34 => ⟨S1024, .f32⟩
  | 35 => ⟨S1024, .f32⟩
  | 36 => ⟨S1024x1, .f32⟩
  | 37 => ⟨S1024x64, .f32⟩
  | 38 => ⟨S1024x64, .f32⟩
  | 39 => ⟨S1024x64, .f32⟩
  | 40 => ⟨S1024x138, .f32⟩
  | 41 => ⟨S1024x128, .f32⟩
  | 42 => ⟨S1x128, .f32⟩
  | 43 => ⟨S1024x128, .f32⟩
  | 44 => ⟨S1024x128, .f32⟩
  | 45 => ⟨S_, .f32⟩
  | 46 => ⟨S1024x128, .f32⟩
  | 47 => ⟨S1024x128, .f32⟩
  | 48 => ⟨S1024x64, .f32⟩
  | 49 => ⟨S1x64, .f32⟩
  | 50 => ⟨S1024x64, .f32⟩
  | 51 => ⟨S1024x64, .f32⟩
  | 52 => ⟨S_, .f32⟩
  | 53 => ⟨S1024x64, .f32⟩
  | 54 => ⟨S1024x64, .f32⟩
  | 55 => ⟨S1024x1, .f32⟩
  | 56 => ⟨S1x1, .f32⟩
  | 57 => ⟨S1024x1, .f32⟩
  | 58 => ⟨S1024x1, .f32⟩
  | _ => ⟨S250000x6, .f32⟩

abbrev hbmTy (i : Nat) : BufTy := match i / 128 with
  | 0 => hbmTy0_0 i
  | 1 => hbmTy0_1 i
  | 2 => hbmTy0_2 i
  | _ => ⟨S250000x6, .f32⟩

abbrev bufTy : (tb : Table) → Fin (tcTables nBuf tb) → BufTy
  | .hbm, ⟨i, _⟩ => hbmTy i
  | .local _ .vmem, ⟨0, _⟩ => ⟨S2000x6, .f32⟩
  | .local _ .vmem, ⟨1, _⟩ => ⟨S2000x6, .f32⟩
  | .local _ .vmem, ⟨2, _⟩ => ⟨S2000x6, .f32⟩
  | .local _ .vmem, ⟨3, _⟩ => ⟨S2000x6, .f32⟩
  | .local _ .vmem, ⟨4, _⟩ => ⟨S6x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S2000x64, .f32⟩
  | .local _ .vmem, ⟨9, _⟩ => ⟨S2000x64, .f32⟩
  | .local _ .vmem, ⟨10, _⟩ => ⟨S2000x1, .f32⟩
  | .local _ .vmem, ⟨11, _⟩ => ⟨S2000x1, .f32⟩
  | .local _ .vmem, ⟨12, _⟩ => ⟨S2000x1, .f32⟩
  | .local _ .vmem, ⟨13, _⟩ => ⟨S2000x1, .f32⟩
  | .local _ .vmem, ⟨14, _⟩ => ⟨S2000x64, .f32⟩
  | .local _ .vmem, ⟨15, _⟩ => ⟨S2000x64, .f32⟩
  | .local _ .vmem, ⟨16, _⟩ => ⟨S2000x1, .f32⟩
  | .local _ .vmem, ⟨17, _⟩ => ⟨S2000x1, .f32⟩
  | .local _ .vmem, ⟨18, _⟩ => ⟨S2000x1, .f32⟩
  | .local _ .vmem, ⟨19, _⟩ => ⟨S2000x1, .f32⟩
  | .local _ .vmem, ⟨20, _⟩ => ⟨S1x64, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S2000x1, .f32⟩
  | .local _ .vmem, ⟨35, _⟩ => ⟨S2000x1, .f32⟩
  | .local _ .vmem, ⟨36, _⟩ => ⟨S2000x1, .f32⟩
  | .local _ .vmem, ⟨37, _⟩ => ⟨S2000x1, .f32⟩
  | .local _ .vmem, ⟨38, _⟩ => ⟨S2000x64, .f32⟩
  | .local _ .vmem, ⟨39, _⟩ => ⟨S2000x64, .f32⟩
  | .local _ .vmem, ⟨40, _⟩ => ⟨S2000x1, .f32⟩
  | .local _ .vmem, ⟨41, _⟩ => ⟨S2000x1, .f32⟩
  | .local _ .vmem, ⟨42, _⟩ => ⟨S2000x1, .f32⟩
  | .local _ .vmem, ⟨43, _⟩ => ⟨S2000x1, .f32⟩
  | .local _ .vmem, ⟨44, _⟩ => ⟨S1x64, .f32⟩
  | .local _ .vmem, ⟨45, _⟩ => ⟨S1x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x1, .i32⟩
  | .local _ .vmem, ⟨51, _⟩ => ⟨S2000x1, .i32⟩
  | .local _ .vmem, ⟨52, _⟩ => ⟨S1024x64, .f32⟩
  | .local _ .vmem, ⟨53, _⟩ => ⟨S1024x64, .f32⟩
  | .local _ .vmem, ⟨54, _⟩ => ⟨S2000x6, .f32⟩
  | .local _ .vmem, ⟨55, _⟩ => ⟨S2000x6, .f32⟩
  | .local _ .vmem, ⟨56, _⟩ => ⟨S2000x6, .f32⟩
  | .local _ .vmem, ⟨57, _⟩ => ⟨S2000x6, .f32⟩
  | .local _ .vmem, ⟨58, _⟩ => ⟨S6x64, .f32⟩
  | .local _ .vmem, ⟨59, _⟩ => ⟨S1x64, .f32⟩
  | .local _ .vmem, ⟨60, _⟩ => ⟨S64x64, .f32⟩
  | .local _ .vmem, ⟨61, _⟩ => ⟨S1x64, .f32⟩
  | .local _ .vmem, ⟨62, _⟩ => ⟨S2000x64, .f32⟩
  | .local _ .vmem, ⟨63, _⟩ => ⟨S2000x64, .f32⟩
  | .local _ .vmem, ⟨64, _⟩ => ⟨S2000x1, .f32⟩
  | .local _ .vmem, ⟨65, _⟩ => ⟨S2000x1, .f32⟩
  | .local _ .vmem, ⟨66, _⟩ => ⟨S2000x1, .f32⟩
  | .local _ .vmem, ⟨67, _⟩ => ⟨S2000x1, .f32⟩
  | .local _ .vmem, ⟨68, _⟩ => ⟨S2000x64, .f32⟩
  | .local _ .vmem, ⟨69, _⟩ => ⟨S2000x64, .f32⟩
  | .local _ .vmem, ⟨70, _⟩ => ⟨S2000x1, .f32⟩
  | .local _ .vmem, ⟨71, _⟩ => ⟨S2000x1, .f32⟩
  | .local _ .vmem, ⟨72, _⟩ => ⟨S2000x1, .f32⟩
  | .local _ .vmem, ⟨73, _⟩ => ⟨S2000x1, .f32⟩
  | .local _ .vmem, ⟨74, _⟩ => ⟨S1x64, .f32⟩
  | .local _ .vmem, ⟨75, _⟩ => ⟨S1x64, .f32⟩
  | .local _ .vmem, ⟨76, _⟩ => ⟨S2000x64, .f32⟩
  | .local _ .vmem, ⟨77, _⟩ => ⟨S2000x64, .f32⟩
  | .local _ .vmem, ⟨78, _⟩ => ⟨S2000x64, .f32⟩
  | .local _ .vmem, ⟨79, _⟩ => ⟨S2000x64, .f32⟩
  | .local _ .vmem, ⟨80, _⟩ => ⟨S2000x64, .f32⟩
  | .local _ .vmem, ⟨81, _⟩ => ⟨S2000x64, .f32⟩
  | .local _ .vmem, ⟨82, _⟩ => ⟨S64x64, .f32⟩
  | .local _ .vmem, ⟨83, _⟩ => ⟨S1x64, .f32⟩
  | .local _ .vmem, ⟨84, _⟩ => ⟨S64x64, .f32⟩
  | .local _ .vmem, ⟨85, _⟩ => ⟨S1x64, .f32⟩
  | .local _ .vmem, ⟨86, _⟩ => ⟨S2000x64, .f32⟩
  | .local _ .vmem, ⟨87, _⟩ => ⟨S2000x64, .f32⟩
  | .local _ .vmem, ⟨88, _⟩ => ⟨S2000x1, .f32⟩
  | .local _ .vmem, ⟨89, _⟩ => ⟨S2000x1, .f32⟩
  | .local _ .vmem, ⟨90, _⟩ => ⟨S2000x1, .f32⟩
  | .local _ .vmem, ⟨91, _⟩ => ⟨S2000x1, .f32⟩
  | .local _ .vmem, ⟨92, _⟩ => ⟨S2000x64, .f32⟩
  | .local _ .vmem, ⟨93, _⟩ => ⟨S2000x64, .f32⟩
  | .local _ .vmem, ⟨94, _⟩ => ⟨S2000x1, .f32⟩
  | .local _ .vmem, ⟨95, _⟩ => ⟨S2000x1, .f32⟩
  | .local _ .vmem, ⟨96, _⟩ => ⟨S2000x1, .f32⟩
  | .local _ .vmem, ⟨97, _⟩ => ⟨S2000x1, .f32⟩
  | .local _ .vmem, ⟨98, _⟩ => ⟨S1x64, .f32⟩
  | .local _ .vmem, ⟨99, _⟩ => ⟨S1x64, .f32⟩
  | .local _ .vmem, ⟨100, _⟩ => ⟨S2000x64, .f32⟩
  | .local _ .vmem, ⟨101, _⟩ => ⟨S2000x64, .f32⟩
  | .local _ .vmem, ⟨102, _⟩ => ⟨S2000x64, .f32⟩
  | .local _ .vmem, ⟨103, _⟩ => ⟨S2000x64, .f32⟩
  | .local _ .vmem, ⟨104, _⟩ => ⟨S2000x1, .i32⟩
  | .local _ .vmem, ⟨105, _⟩ => ⟨S2000x1, .i32⟩
  | .local _ .vmem, ⟨106, _⟩ => ⟨S1024x64, .f32⟩
  | .local _ .vmem, ⟨107, _⟩ => ⟨S1024x64, .f32⟩
  | _, _ => ⟨S250000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 106 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | _ => false

abbrev sig : RefSig :=
  ofTc nBuf bufTy 0 106 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_cst_0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_1 : Ref sig .tc := ⟨.hbm, 36, rfl⟩
abbrev main_v8 : Ref sig .tc := ⟨.hbm, 37, rfl⟩
abbrev main_v9 : Ref sig .tc := ⟨.hbm, 38, rfl⟩
abbrev main_cst_2 : Ref sig .tc := ⟨.hbm, 39, rfl⟩
abbrev main_v10 : Ref sig .tc := ⟨.hbm, 40, rfl⟩
abbrev main_v11 : Ref sig .tc := ⟨.hbm, 41, rfl⟩
abbrev main_c : Ref sig .tc := ⟨.hbm, 42, rfl⟩
abbrev main_v12 : Ref sig .tc := ⟨.hbm, 43, rfl⟩
abbrev main_v13 : Ref sig .tc := ⟨.hbm, 44, rfl⟩
abbrev main_c_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_4 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24_0 : Ref sig .tc := ⟨.hbm, 57, rfl⟩
abbrev main_v24_1 : Ref sig .tc := ⟨.hbm, 58, rfl⟩
abbrev main_v24_2 : Ref sig .tc := ⟨.hbm, 59, rfl⟩
abbrev main_v25 : Ref sig .tc := ⟨.hbm, 60, rfl⟩
abbrev main_cst_5 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_6 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_7 : Ref sig .tc := ⟨.hbm, 74, rfl⟩
abbrev main_v37 : Ref sig .tc := ⟨.hbm, 75, rfl⟩
abbrev main_v38 : Ref sig .tc := ⟨.hbm, 76, rfl⟩
abbrev main_c_8 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c_9 : Ref sig .tc := ⟨.hbm, 83, rfl⟩
abbrev main_v44 : Ref sig .tc := ⟨.hbm, 84, rfl⟩
abbrev main_v45 : Ref sig .tc := ⟨.hbm, 85, rfl⟩
abbrev main_c_10 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_11 : Ref sig .tc := ⟨.hbm, 97, rfl⟩
abbrev main_v56 : Ref sig .tc := ⟨.hbm, 98, rfl⟩
abbrev main_v57 : Ref sig .tc := ⟨.hbm, 99, rfl⟩
abbrev main_c_12 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_13 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68_0 : Ref sig .tc := ⟨.hbm, 112, rfl⟩
abbrev main_v68_1 : Ref sig .tc := ⟨.hbm, 113, rfl⟩
abbrev main_v68_2 : Ref sig .tc := ⟨.hbm, 114, rfl⟩
abbrev main_v69 : Ref sig .tc := ⟨.hbm, 115, rfl⟩
abbrev main_cst_14 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_15 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_c_16 : Ref sig .tc := ⟨.hbm, 129, rfl⟩
abbrev main_v81 : Ref sig .tc := ⟨.hbm, 130, rfl⟩
abbrev main_v82 : Ref sig .tc := ⟨.hbm, 131, rfl⟩
abbrev main_c_17 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_c_18 : Ref sig .tc := ⟨.hbm, 138, rfl⟩
abbrev main_v88 : Ref sig .tc := ⟨.hbm, 139, rfl⟩
abbrev main_v89 : Ref sig .tc := ⟨.hbm, 140, rfl⟩
abbrev main_c_19 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_20 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_21 : Ref sig .tc := ⟨.hbm, 165, rfl⟩
abbrev main_v112 : Ref sig .tc := ⟨.hbm, 166, rfl⟩
abbrev main_cst_22 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_cst_23 : Ref sig .tc := ⟨.hbm, 171, rfl⟩
abbrev main_v116 : Ref sig .tc := ⟨.hbm, 172, rfl⟩
abbrev main_v117 : Ref sig .tc := ⟨.hbm, 173, rfl⟩
abbrev main_cst_24 : Ref sig .tc := ⟨.hbm, 174, rfl⟩
abbrev main_v118 : Ref sig .tc := ⟨.hbm, 175, rfl⟩
abbrev main_v119 : Ref sig .tc := ⟨.hbm, 176, rfl⟩
abbrev main_c_25 : Ref sig .tc := ⟨.hbm, 177, rfl⟩
abbrev main_v120 : Ref sig .tc := ⟨.hbm, 178, rfl⟩
abbrev main_v121 : Ref sig .tc := ⟨.hbm, 179, rfl⟩
abbrev main_c_26 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_cst_27 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_v132_0 : Ref sig .tc := ⟨.hbm, 192, rfl⟩
abbrev main_v132_1 : Ref sig .tc := ⟨.hbm, 193, rfl⟩
abbrev main_v132_2 : Ref sig .tc := ⟨.hbm, 194, rfl⟩
abbrev main_v133 : Ref sig .tc := ⟨.hbm, 195, rfl⟩
abbrev main_cst_28 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_cst_29 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_c_30 : Ref sig .tc := ⟨.hbm, 209, rfl⟩
abbrev main_v145 : Ref sig .tc := ⟨.hbm, 210, rfl⟩
abbrev main_v146 : Ref sig .tc := ⟨.hbm, 211, rfl⟩
abbrev main_c_31 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_c_32 : Ref sig .tc := ⟨.hbm, 218, rfl⟩
abbrev main_v152 : Ref sig .tc := ⟨.hbm, 219, rfl⟩
abbrev main_v153 : Ref sig .tc := ⟨.hbm, 220, rfl⟩
abbrev main_c_33 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_c_34 : Ref sig .tc := ⟨.hbm, 232, rfl⟩
abbrev main_v164 : Ref sig .tc := ⟨.hbm, 233, rfl⟩
abbrev main_v165 : Ref sig .tc := ⟨.hbm, 234, rfl⟩
abbrev main_c_35 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_cst_36 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176_0 : Ref sig .tc := ⟨.hbm, 247, rfl⟩
abbrev main_v176_1 : Ref sig .tc := ⟨.hbm, 248, rfl⟩
abbrev main_v176_2 : Ref sig .tc := ⟨.hbm, 249, rfl⟩
abbrev main_v177 : Ref sig .tc := ⟨.hbm, 250, rfl⟩
abbrev main_cst_37 : Ref sig .tc := ⟨.hbm, 251, rfl⟩
abbrev main_v178 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_cst_38 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_c_39 : Ref sig .tc := ⟨.hbm, 264, rfl⟩
abbrev main_v189 : Ref sig .tc := ⟨.hbm, 265, rfl⟩
abbrev main_v190 : Ref sig .tc := ⟨.hbm, 266, rfl⟩
abbrev main_c_40 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_c_41 : Ref sig .tc := ⟨.hbm, 273, rfl⟩
abbrev main_v196 : Ref sig .tc := ⟨.hbm, 274, rfl⟩
abbrev main_v197 : Ref sig .tc := ⟨.hbm, 275, rfl⟩
abbrev main_c_42 : Ref sig .tc := ⟨.hbm, 276, rfl⟩
abbrev main_v198 : Ref sig .tc := ⟨.hbm, 277, rfl⟩
abbrev main_v199 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_v204 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_v208 : Ref sig .tc := ⟨.hbm, 287, rfl⟩
abbrev main_v209 : Ref sig .tc := ⟨.hbm, 288, rfl⟩
abbrev main_cst_43 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_v216 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_call0_cst : Ref sig .tc := ⟨.hbm, 301, rfl⟩
abbrev main_call0_v0 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_call1_cst : Ref sig .tc := ⟨.hbm, 308, rfl⟩
abbrev main_call1_v0 : Ref sig .tc := ⟨.hbm, 309, rfl⟩
abbrev main_v226 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg1_1 : Ref sig .tc := ⟨.vmem, 41, rfl⟩
abbrev cc3_stg2_0 : Ref sig .tc := ⟨.vmem, 42, rfl⟩
abbrev cc3_stg2_1 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg5_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_scratch0 : Ref sig .tc := ⟨.vmem, 53, rfl⟩
abbrev cc5_stg0_0 : Ref sig .tc := ⟨.vmem, 54, rfl⟩
abbrev cc5_stg0_1 : Ref sig .tc := ⟨.vmem, 55, rfl⟩
abbrev cc5_stg1_0 : Ref sig .tc := ⟨.vmem, 56, rfl⟩
abbrev cc5_stg1_1 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg6_0 : Ref sig .tc := ⟨.vmem, 62, rfl⟩
abbrev cc5_stg6_1 : Ref sig .tc := ⟨.vmem, 63, rfl⟩
abbrev cc5_stg7_0 : Ref sig .tc := ⟨.vmem, 64, rfl⟩
abbrev cc5_stg7_1 : Ref sig .tc := ⟨.vmem, 65, rfl⟩
abbrev cc5_stg8_0 : Ref sig .tc := ⟨.vmem, 66, rfl⟩
abbrev cc5_stg8_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg2_1 : Ref sig .tc := ⟨.vmem, 73, rfl⟩
abbrev cc6_stg3_0 : Ref sig .tc := ⟨.vmem, 74, rfl⟩
abbrev cc6_stg4_0 : Ref sig .tc := ⟨.vmem, 75, rfl⟩
abbrev cc6_stg5_0 : Ref sig .tc := ⟨.vmem, 76, rfl⟩
abbrev cc6_stg5_1 : Ref sig .tc := ⟨.vmem, 77, rfl⟩
abbrev cc7_stg0_0 : Ref sig .tc := ⟨.vmem, 78, rfl⟩
abbrev cc7_stg0_1 : Ref sig .tc := ⟨.vmem, 79, rfl⟩
abbrev cc7_stg1_0 : Ref sig .tc := ⟨.vmem, 80, rfl⟩
abbrev cc7_stg1_1 : Ref sig .tc := ⟨.vmem, 81, rfl⟩
abbrev cc7_stg2_0 : Ref sig .tc := ⟨.vmem, 82, rfl⟩
abbrev cc7_stg3_0 : Ref sig .tc := ⟨.vmem, 83, rfl⟩
abbrev cc7_stg4_0 : Ref sig .tc := ⟨.vmem, 84, rfl⟩
abbrev cc7_stg5_0 : Ref sig .tc := ⟨.vmem, 85, rfl⟩
abbrev cc7_stg6_0 : Ref sig .tc := ⟨.vmem, 86, rfl⟩
abbrev cc7_stg6_1 : Ref sig .tc := ⟨.vmem, 87, rfl⟩
abbrev cc7_stg7_0 : Ref sig .tc := ⟨.vmem, 88, rfl⟩
abbrev cc7_stg7_1 : Ref sig .tc := ⟨.vmem, 89, rfl⟩
abbrev cc7_stg8_0 : Ref sig .tc := ⟨.vmem, 90, rfl⟩
abbrev cc7_stg8_1 : Ref sig .tc := ⟨.vmem, 91, rfl⟩
abbrev cc8_stg0_0 : Ref sig .tc := ⟨.vmem, 92, rfl⟩
abbrev cc8_stg0_1 : Ref sig .tc := ⟨.vmem, 93, rfl⟩
abbrev cc8_stg1_0 : Ref sig .tc := ⟨.vmem, 94, rfl⟩
abbrev cc8_stg1_1 : Ref sig .tc := ⟨.vmem, 95, rfl⟩
abbrev cc8_stg2_0 : Ref sig .tc := ⟨.vmem, 96, rfl⟩
abbrev cc8_stg2_1 : Ref sig .tc := ⟨.vmem, 97, rfl⟩
abbrev cc8_stg3_0 : Ref sig .tc := ⟨.vmem, 98, rfl⟩
abbrev cc8_stg4_0 : Ref sig .tc := ⟨.vmem, 99, rfl⟩
abbrev cc8_stg5_0 : Ref sig .tc := ⟨.vmem, 100, rfl⟩
abbrev cc8_stg5_1 : Ref sig .tc := ⟨.vmem, 101, rfl⟩
abbrev cc9_stg0_0 : Ref sig .tc := ⟨.vmem, 102, rfl⟩
abbrev cc9_stg0_1 : Ref sig .tc := ⟨.vmem, 103, rfl⟩
abbrev cc9_stg1_0 : Ref sig .tc := ⟨.vmem, 104, rfl⟩
abbrev cc9_stg1_1 : Ref sig .tc := ⟨.vmem, 105, rfl⟩
abbrev cc9_stg2_0 : Ref sig .tc := ⟨.vmem, 106, rfl⟩
abbrev cc9_scratch0 : Ref sig .tc := ⟨.vmem, 107, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35
abbrev cc2_sem8_0 : DmaSem sig := 36
abbrev cc2_sem8_1 : DmaSem sig := 37
abbrev cc3_sem0_0 : DmaSem sig := 38
abbrev cc3_sem0_1 : DmaSem sig := 39
abbrev cc3_sem1_0 : DmaSem sig := 40
abbrev cc3_sem1_1 : DmaSem sig := 41
abbrev cc3_sem2_0 : DmaSem sig := 42
abbrev cc3_sem2_1 : DmaSem sig := 43
abbrev cc3_sem3_0 : DmaSem sig := 44
abbrev cc3_sem4_0 : DmaSem sig := 45
abbrev cc3_sem5_0 : DmaSem sig := 46
abbrev cc3_sem5_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem3_0 : DmaSem sig := 58
abbrev cc5_sem4_0 : DmaSem sig := 59
abbrev cc5_sem5_0 : DmaSem sig := 60
abbrev cc5_sem6_0 : DmaSem sig := 61
abbrev cc5_sem6_1 : DmaSem sig := 62
abbrev cc5_sem7_0 : DmaSem sig := 63
abbrev cc5_sem7_1 : DmaSem sig := 64
abbrev cc5_sem8_0 : DmaSem sig := 65
abbrev cc5_sem8_1 : DmaSem sig := 66
abbrev cc6_sem0_0 : DmaSem sig := 67
abbrev cc6_sem0_1 : DmaSem sig := 68
abbrev cc6_sem1_0 : DmaSem sig := 69
abbrev cc6_sem1_1 : DmaSem sig := 70
abbrev cc6_sem2_0 : DmaSem sig := 71
abbrev cc6_sem2_1 : DmaSem sig := 72
abbrev cc6_sem3_0 : DmaSem sig := 73
abbrev cc6_sem4_0 : DmaSem sig := 74
abbrev cc6_sem5_0 : DmaSem sig := 75
abbrev cc6_sem5_1 : DmaSem sig := 76
abbrev cc7_sem0_0 : DmaSem sig := 77
abbrev cc7_sem0_1 : DmaSem sig := 78
abbrev cc7_sem1_0 : DmaSem sig := 79
abbrev cc7_sem1_1 : DmaSem sig := 80
abbrev cc7_sem2_0 : DmaSem sig := 81
abbrev cc7_sem3_0 : DmaSem sig := 82
abbrev cc7_sem4_0 : DmaSem sig := 83
abbrev cc7_sem5_0 : DmaSem sig := 84
abbrev cc7_sem6_0 : DmaSem sig := 85
abbrev cc7_sem6_1 : DmaSem sig := 86
abbrev cc7_sem7_0 : DmaSem sig := 87
abbrev cc7_sem7_1 : DmaSem sig := 88
abbrev cc7_sem8_0 : DmaSem sig := 89
abbrev cc7_sem8_1 : DmaSem sig := 90
abbrev cc8_sem0_0 : DmaSem sig := 91
abbrev cc8_sem0_1 : DmaSem sig := 92
abbrev cc8_sem1_0 : DmaSem sig := 93
abbrev cc8_sem1_1 : DmaSem sig := 94
abbrev cc8_sem2_0 : DmaSem sig := 95
abbrev cc8_sem2_1 : DmaSem sig := 96
abbrev cc8_sem3_0 : DmaSem sig := 97
abbrev cc8_sem4_0 : DmaSem sig := 98
abbrev cc8_sem5_0 : DmaSem sig := 99
abbrev cc8_sem5_1 : DmaSem sig := 100
abbrev cc9_sem0_0 : DmaSem sig := 101
abbrev cc9_sem0_1 : DmaSem sig := 102
abbrev cc9_sem1_0 : DmaSem sig := 103
abbrev cc9_sem1_1 : DmaSem sig := 104
abbrev cc9_sem2_0 : DmaSem sig := 105

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![125], ![false]⟩

def k4_cond2 (i : grid4.Coords) : BitVec 1 :=
  let arg0 : BitVec 32 := BitVec.ofNat 32 (i 0).val
  let c124_i32 : BitVec 32 := 124#32
  let v20 : BitVec 1 := Scalar.cmpi .eq arg0 c124_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1024x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![125], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x6 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x6 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S6x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S2000x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S2000x1 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![125], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S2000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 2 → Memref sig .tc .vmem S2000x1 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S2000x1 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

abbrev grid8 : Pipeline.Grid := ⟨1, ![125], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S2000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![125], ![false]⟩

def k9_cond2 (i : grid9.Coords) : BitVec 1 :=
  let arg0 : BitVec 32 := BitVec.ofNat 32 (i 0).val
  let c124_i32 : BitVec 32 := 124#32
  let v20 : BitVec 1 := Scalar.cmpi .eq arg0 c124_i32
  let v21 : BitVec 32 := Scalar.extui v20
  let c0_i32_8 : BitVec 32 := 0#32
  let v22 : BitVec 1 := Scalar.cmpi .ne v21 c0_i32_8
  v22

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x1 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1024x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S250000 : S_.BroadcastsInDim S250000 (![] : Fin 0 → Fin S250000.rank)
  bcast_S_S1024 : S_.BroadcastsInDim S1024 (![] : Fin 0 → Fin S1024.rank)
  bcast_S250000_S250000x1_0 : S250000.BroadcastsInDim S250000x1 (![0] : Fin 1 → Fin S250000x1.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S250000x6 : S_.BroadcastsInDim S250000x6 (![] : Fin 0 → Fin S250000x6.rank)
  shapeCasts_S64_S1x64 : S64.ShapeCasts S1x64
  inb_S2000x6_S2000x6_0_0 : ∀ a, (![0, 0] : Fin 2 → Nat) a + S2000x6.size a ≤ S2000x6.size a
  h_S2000x6 : 0 < S2000x6.numel
  shapeCasts_S2000x6_S2000x6 : S2000x6.ShapeCasts S2000x6
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  reduces_S2000x64_S2000 : S2000x64.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  shapeCasts_S250000x1_S250000 : S250000x1.ShapeCasts S250000
  shapeCasts_S250000_S250000x1 : S250000.ShapeCasts S250000x1
  shapeCasts_S2000x64_S2000x64 : S2000x64.ShapeCasts S2000x64
  shapeCasts_S2000x1_S2000x1 : S2000x1.ShapeCasts S2000x1
  broadcasts_S2000x1_S2000x64 : S2000x1.Broadcasts S2000x64
  bcast_S_S250000x64 : S_.BroadcastsInDim S250000x64 (![] : Fin 0 → Fin S250000x64.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  iota_S2000x1024_d1_w32 : S2000x1024.Iotas .tc 32 [1]
  broadcasts_S2000x1_S2000x1024 : S2000x1.Broadcasts S2000x1024
  natLt_1_32 : 1 < 32
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  concatenates_S1024x64_S1024x64_S1024x5_S1024x5_S1024x138_d1 : Shape.Concatenates [S1024x64, S1024x64, S1024x5, S1024x5] S1024x138 1
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  scatter_S1024_S250000x1_S250000_n_0_0_1_wf : ScatterDims.WF S1024 S250000x1 S250000 [] [0] [0] 1
  gather_S250000x6_S4000000x1_S4000000x6_1_0_n_n_0_1_16_wf : GatherDims.WF S250000x6 S4000000x1 S4000000x6 [1] [0] [] [0] [] 1 ![1, 6]
  scatter_S250000x6_S4000000x1_S4000000x6_1_0_0_1_wf : ScatterDims.WF S250000x6 S4000000x1 S4000000x6 [1] [0] [0] 1
  dot_S2000x6_S6x64_S2000x64_1_0_0_1_n_n_wf : DotDims.WF S2000x6 S6x64 S2000x64 [1] [0] [0] [1] [] []
  dot_S2000x64_S64x64_S2000x64_1_0_0_1_n_n_wf : DotDims.WF S2000x64 S64x64 S2000x64 [1] [0] [0] [1] [] []
  gather_S1024_S250000x1_S250000_n_0_n_n_0_1_1_wf : GatherDims.WF S1024 S250000x1 S250000 [] [0] [] [0] [] 1 ![1]
  gather_S250000x64_S4000000x1_S4000000x64_1_0_n_n_0_1_164_wf : GatherDims.WF S250000x64 S4000000x1 S4000000x64 [1] [0] [] [0] [] 1 ![1, 64]
  scatter_S250000x64_S4000000x1_S4000000x64_1_0_0_1_wf : ScatterDims.WF S250000x64 S4000000x1 S4000000x64 [1] [0] [0] 1
  dot_S2000x1024_S2000x64_S1024x64_0_0_1_1_n_n_wf : DotDims.WF S2000x1024 S2000x64 S1024x64 [0] [0] [1] [1] [] []
  dot_S1024x138_S138x128_S1024x128_1_0_0_1_n_n_wf : DotDims.WF S1024x138 S138x128 S1024x128 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x6.size a ≤ S250000x6.size a
  hwx0_0 : ∀ i : grid0.Coords, EltTy.bits .f32 = 32 ∨ (Rect.block (s := S250000x6) S2000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x6.size a ≤ S250000x6.size a
  hwx0_1 : ∀ i : grid0.Coords, EltTy.bits .f32 = 32 ∨ (Rect.block (s := S250000x6) S2000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x64.size a ≤ S6x64.size a
  hwx0_2 : ∀ i : grid0.Coords, EltTy.bits .f32 = 32 ∨ (Rect.block (s := S6x64) S6x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S250000x64.size a
  hwx0_6 : ∀ i : grid0.Coords, EltTy.bits .f32 = 32 ∨ (Rect.block (s := S250000x64) S2000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S250000x1.size a
  hwx0_7 : ∀ i : grid0.Coords, EltTy.bits .f32 = 32 ∨ (Rect.block (s := S250000x1) S2000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x1.size a ≤ S250000x1.size a
  hwx0_8 : ∀ i : grid0.Coords, EltTy.bits .f32 = 32 ∨ (Rect.block (s := S250000x1) S2000x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S250000x64.size a
  hwx1_0 : ∀ i : grid1.Coords, EltTy.bits .f32 = 32 ∨ (Rect.block (s := S250000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S250000x1.size a
  hwx1_1 : ∀ i : grid1.Coords, EltTy.bits .f32 = 32 ∨ (Rect.block (s := S250000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S250000x1.size a
  hwx1_2 : ∀ i : grid1.Coords, EltTy.bits .f32 = 32 ∨ (Rect.block (s := S250000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S250000x64.size a
  hwx1_5 : ∀ i : grid1.Coords, EltTy.bits .f32 = 32 ∨ (Rect.block (s := S250000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S250000x64.size a
  hwx2_0 : ∀ i : grid2.Coords, EltTy.bits .f32 = 32 ∨ (Rect.block (s := S250000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S250000x64.size a
  hwx2_1 : ∀ i : grid2.Coords, EltTy.bits .f32 = 32 ∨ (Rect.block (s := S250000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S250000x64.size a
  hwx2_6 : ∀ i : grid2.Coords, EltTy.bits .f32 = 32 ∨ (Rect.block (s := S250000x64) S2000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x1.size a ≤ S250000x1.size a
  hwx2_7 : ∀ i : grid2.Coords, EltTy.bits .f32 = 32 ∨ (Rect.block (s := S250000x1) S2000x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x1.size a ≤ S250000x1.size a
  hwx2_8 : ∀ i : grid2.Coords, EltTy.bits .f32 = 32 ∨ (Rect.block (s := S250000x1) S2000x1.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S250000x64.size a
  hwx3_0 : ∀ i : grid3.Coords, EltTy.bits .f32 = 32 ∨ (Rect.block (s := S250000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S250000x1.size a
  hwx3_1 : ∀ i : grid3.Coords, EltTy.bits .f32 = 32 ∨ (Rect.block (s := S250000x1) S2000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S250000x1.size a
  hwx3_2 : ∀ i : grid3.Coords, EltTy.bits .f32 = 32 ∨ (Rect.block (s := S250000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S250000x64.size a
  hwx3_5 : ∀ i : grid3.Coords, EltTy.bits .f32 = 32 ∨ (Rect.block (s := S250000x64) S2000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S250000x64.size a
  hwx4_0 : ∀ i : grid4.Coords, EltTy.bits .f32 = 32 ∨ (Rect.block (s := S250000x64) S2000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S250000x1.size a
  hwx4_1 : ∀ i : grid4.Coords, EltTy.bits .i32 = 32 ∨ (Rect.block (s := S250000x1) S2000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024x64.size a ≤ S1024x64.size a
  hwx4_2 : ∀ i : grid4.Coords, EltTy.bits .f32 = 32 ∨ (Rect.block (s := S1024x64) S1024x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x6.size a ≤ S250000x6.size a
  hwx5_0 : ∀ i : grid5.Coords, EltTy.bits .f32 = 32 ∨ (Rect.block (s := S250000x6) S2000x6.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x6.size a ≤ S250000x6.size a
  hwx5_1 : ∀ i : grid5.Coords, EltTy.bits .f32 = 32 ∨ (Rect.block (s := S250000x6) S2000x6.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S6x64.size a ≤ S6x64.size a
  hwx5_2 : ∀ i : grid5.Coords, EltTy.bits .f32 = 32 ∨ (Rect.block (s := S6x64) S6x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x64.size a ≤ S64x64.size a
  hwx5_4 : ∀ i : grid5.Coords, EltTy.bits .f32 = 32 ∨ (Rect.block (s := S64x64) S64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S250000x64.size a
  hwx5_6 : ∀ i : grid5.Coords, EltTy.bits .f32 = 32 ∨ (Rect.block (s := S250000x64) S2000x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x1.size a ≤ S250000x1.size a
  hwx5_7 : ∀ i : grid5.Coords, EltTy.bits .f32 = 32 ∨ (Rect.block (s := S250000x1) S2000x1.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S2000x1.size a ≤ S250000x1.size a
  hwx5_8 : ∀ i : grid5.Coords, EltTy.bits .f32 = 32 ∨ (Rect.block (s := S250000x1) S2000x1.size (cc5_transform_8 i) (hinb5_8 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S250000x64.size a
  hwx6_0 : ∀ i : grid6.Coords, EltTy.bits .f32 = 32 ∨ (Rect.block (s := S250000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S250000x1.size a
  hwx6_1 : ∀ i : grid6.Coords, EltTy.bits .f32 = 32 ∨ (Rect.block (s := S250000x1) S2000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S250000x1.size a
  hwx6_2 : ∀ i : grid6.Coords, EltTy.bits .f32 = 32 ∨ (Rect.block (s := S250000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x64.size a ≤ S250000x64.size a
  hwx6_5 : ∀ i : grid6.Coords, EltTy.bits .f32 = 32 ∨ (Rect.block (s := S250000x64) S2000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S250000x64.size a
  hwx7_0 : ∀ i : grid7.Coords, EltTy.bits .f32 = 32 ∨ (Rect.block (s := S250000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S250000x64.size a
  hwx7_1 : ∀ i : grid7.Coords, EltTy.bits .f32 = 32 ∨ (Rect.block (s := S250000x64) S2000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x64.size a ≤ S250000x64.size a
  hwx7_6 : ∀ i : grid7.Coords, EltTy.bits .f32 = 32 ∨ (Rect.block (s := S250000x64) S2000x64.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x1.size a ≤ S250000x1.size a
  hwx7_7 : ∀ i : grid7.Coords, EltTy.bits .f32 = 32 ∨ (Rect.block (s := S250000x1) S2000x1.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S2000x1.size a ≤ S250000x1.size a
  hwx7_8 : ∀ i : grid7.Coords, EltTy.bits .f32 = 32 ∨ (Rect.block (s := S250000x1) S2000x1.size (cc7_transform_8 i) (hinb7_8 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S250000x64.size a
  hwx8_0 : ∀ i : grid8.Coords, EltTy.bits .f32 = 32 ∨ (Rect.block (s := S250000x64) S2000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S250000x1.size a
  hwx8_1 : ∀ i : grid8.Coords, EltTy.bits .f32 = 32 ∨ (Rect.block (s := S250000x1) S2000x1.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2000x1.size a ≤ S250000x1.size a
  hwx8_2 : ∀ i : grid8.Coords, EltTy.bits .f32 = 32 ∨ (Rect.block (s := S250000x1) S2000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x64.size a ≤ S250000x64.size a
  hwx8_5 : ∀ i : grid8.Coords, EltTy.bits .f32 = 32 ∨ (Rect.block (s := S250000x64) S2000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S250000x64.size a
  hwx9_0 : ∀ i : grid9.Coords, EltTy.bits .f32 = 32 ∨ (Rect.block (s := S250000x64) S2000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x1.size a ≤ S250000x1.size a
  hwx9_1 : ∀ i : grid9.Coords, EltTy.bits .i32 = 32 ∨ (Rect.block (s := S250000x1) S2000x1.size (cc9_transform_1 i) (hinb9_1 i)).WholeWords (EltTy.packing .i32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1024x64.size a ≤ S1024x64.size a
  hwx9_2 : ∀ i : grid9.Coords, EltTy.bits .f32 = 32 ∨ (Rect.block (s := S1024x64) S1024x64.size (cc9_transform_2 i) (hinb9_2 i)).WholeWords (EltTy.packing .f32)

variable [Facts₀]

def scatter_S1024_S250000x1_S250000_n_0_0_1 : ScatterDims S1024 S250000x1 S250000 where
  updateWindowDims := []
  insertedWindowDims := [0]
  scatterDimsToOperandDims := [0]
  indexVectorDim := 1
  wf := scatter_S1024_S250000x1_S250000_n_0_0_1_wf
def gather_S250000x6_S4000000x1_S4000000x6_1_0_n_n_0_1_16 : GatherDims S250000x6 S4000000x1 S4000000x6 where
  offsetDims := [1]
  collapsedSliceDims := [0]
  operandBatchingDims := []
  startIndicesBatchingDims := []
  startIndexMap := [0]
  indexVectorDim := 1
  sliceSizes := ![1, 6]
  wf := gather_S250000x6_S4000000x1_S4000000x6_1_0_n_n_0_1_16_wf
def scatter_S250000x6_S4000000x1_S4000000x6_1_0_0_1 : ScatterDims S250000x6 S4000000x1 S4000000x6 where
  updateWindowDims := [1]
  insertedWindowDims := [0]
  scatterDimsToOperandDims := [0]
  indexVectorDim := 1
  wf := scatter_S250000x6_S4000000x1_S4000000x6_1_0_0_1_wf
def dot_S2000x6_S6x64_S2000x64_1_0_0_1_n_n : DotDims S2000x6 S6x64 S2000x64 where
  lhsContracting := [1]
  rhsContracting := [0]
  lhsNonContracting := [0]
  rhsNonContracting := [1]
  lhsBatch := []
  rhsBatch := []
  wf := dot_S2000x6_S6x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S1024_S250000x1_S250000_n_0_n_n_0_1_1 : GatherDims S1024 S250000x1 S250000 where
  offsetDims := []
  collapsedSliceDims := [0]
  operandBatchingDims := []
  startIndicesBatchingDims := []
  startIndexMap := [0]
  indexVectorDim := 1
  sliceSizes := ![1]
  wf := gather_S1024_S250000x1_S250000_n_0_n_n_0_1_1_wf
def gather_S250000x64_S4000000x1_S4000000x64_1_0_n_n_0_1_164 : GatherDims S250000x64 S4000000x1 S4000000x64 where
  offsetDims := [1]
  collapsedSliceDims := [0]
  operandBatchingDims := []
  startIndicesBatchingDims := []
  startIndexMap := [0]
  indexVectorDim := 1
  sliceSizes := ![1, 64]
  wf := gather_S250000x64_S4000000x1_S4000000x64_1_0_n_n_0_1_164_wf
def scatter_S250000x64_S4000000x1_S4000000x64_1_0_0_1 : ScatterDims S250000x64 S4000000x1 S4000000x64 where
  updateWindowDims := [1]
  insertedWindowDims := [0]
  scatterDimsToOperandDims := [0]
  indexVectorDim := 1
  wf := scatter_S250000x64_S4000000x1_S4000000x64_1_0_0_1_wf
def dot_S2000x1024_S2000x64_S1024x64_0_0_1_1_n_n : DotDims S2000x1024 S2000x64 S1024x64 where
  lhsContracting := [0]
  rhsContracting := [0]
  lhsNonContracting := [1]
  rhsNonContracting := [1]
  lhsBatch := []
  rhsBatch := []
  wf := dot_S2000x1024_S2000x64_S1024x64_0_0_1_1_n_n_wf
def dot_S1024x138_S138x128_S1024x128_1_0_0_1_n_n : DotDims S1024x138 S138x128 S1024x128 where
  lhsContracting := [1]
  rhsContracting := [0]
  lhsNonContracting := [0]
  rhsNonContracting := [1]
  lhsBatch := []
  rhsBatch := []
  wf := dot_S1024x138_S138x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_arg0) S2000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S6x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24_0) S2000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v24_1) S2000x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v24_2) S2000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v24_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v55) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg16) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68_0) S2000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v68_1) S2000x1.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v68_2) S2000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v68_0) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v95) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v96) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v97) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v98) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v99) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v99) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v100) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v101) S1024x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_arg3) S2000x6.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v129) S2000x6.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S6x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v130) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg10) S64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v131) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v132_0) S2000x64.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v132_1) S2000x1.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v132_2) S2000x1.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v132_0) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v159) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v160) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v161) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v162) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v163) S2000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v163) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v173) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg14) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v174) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg16) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v175) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v176_0) S2000x64.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v176_1) S2000x1.size cc7_transform_7 reads7_7 true false 2 stage7_7 sem7_7
    hrank7 hreads7_7 hinb7_7 nbuf7_7 (Memref.isWhole_whole _) hwx7_7 hstage7_7

abbrev win7_8 : Pipeline.Window sig grid7 :=
  Pipeline.Window.ofSpec (Memref.whole main_v176_2) S2000x1.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

abbrev win8_0 : Pipeline.Window sig grid8 :=
  Pipeline.Window.ofSpec (Memref.whole main_v176_0) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v203) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v204) S2000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v205) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v206) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v207) S2000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v207) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v208) S2000x1.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v209) S1024x64.size cc9_transform_2 reads9_2 true true 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

class Facts : Prop extends Facts₀ where

variable [Facts]
-- ==== ReferenceIdeal.lean ====
abbrev S250000x6 : Shape := ⟨2, ![250000, 6]⟩
abbrev S2x4000000 : Shape := ⟨2, ![2, 4000000]⟩
abbrev S250000 : Shape := ⟨1, ![250000]⟩
abbrev S1024x5 : Shape := ⟨2, ![1024, 5]⟩
abbrev S6x64 : Shape := ⟨2, ![6, 64]⟩
abbrev S64 : Shape := ⟨1, ![64]⟩
abbrev S64x64 : Shape := ⟨2, ![64, 64]⟩
abbrev S138x128 : Shape := ⟨2, ![138, 128]⟩
abbrev S128 : Shape := ⟨1, ![128]⟩
abbrev S128x64 : Shape := ⟨2, ![128, 64]⟩
abbrev S64x1 : Shape := ⟨2, ![64, 1]⟩
abbrev S1 : Shape := ⟨1, ![1]⟩
abbrev S1x4000000 : Shape := ⟨2, ![1, 4000000]⟩
abbrev S4000000 : Shape := ⟨1, ![4000000]⟩
abbrev S_ : Shape := ⟨0, ![]⟩
abbrev S4000000x1 : Shape := ⟨2, ![4000000, 1]⟩
abbrev S4000000x6 : Shape := ⟨2, ![4000000, 6]⟩
abbrev S250000x64 : Shape := ⟨2, ![250000, 64]⟩
abbrev S1x64 : Shape := ⟨2, ![1, 64]⟩
abbrev S1024 : Shape := ⟨1, ![1024]⟩
abbrev S250000x1 : Shape := ⟨2, ![250000, 1]⟩
abbrev S4000000x64 : Shape := ⟨2, ![4000000, 64]⟩
abbrev S1024x64 : Shape := ⟨2, ![1024, 64]⟩
abbrev S1024x1 : Shape := ⟨2, ![1024, 1]⟩
abbrev S1024x138 : Shape := ⟨2, ![1024, 138]⟩
abbrev S1024x128 : Shape := ⟨2, ![1024, 128]⟩
abbrev S1x128 : Shape := ⟨2, ![1, 128]⟩
abbrev S1x1 : Shape := ⟨2, ![1, 1]⟩

abbrev nBuf : Space → Nat
  | .hbm => 443
  | .vmem => 0
  | .smem => 0
  | _ => 0

abbrev hbmTy0_0 (i : Nat) : BufTy := match i % 128 with
  | 0 => ⟨S250000x6, .f32⟩
  | 1 => ⟨S2x4000000, .i32⟩
  | 2 => ⟨S250000, .i32⟩
  | 3 => ⟨S250000x6, .f32⟩
  | 4 => ⟨S2x4000000, .i32⟩
  | 5 => ⟨S250000, .i32⟩
  | 6 => ⟨S1024x5, .f32⟩
  | 7 => ⟨S1024x5, .f32⟩
  | 8 => ⟨S6x64, .f32⟩
  | 9 => ⟨S64, .f32⟩
  | 10 => ⟨S64x64, .f32⟩
  | 11 => ⟨S64, .f32⟩
  | 12 => ⟨S64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64, .f32⟩
  | 19 => ⟨S64, .f32⟩
  | 20 => ⟨S138x128, .f32⟩
  | 21 => ⟨S128, .f32⟩
  | 22 => ⟨S128x64, .f32⟩
  | 23 => ⟨S64, .f32⟩
  | 24 => ⟨S64x1, .f32⟩
  | 25 => ⟨S1, .f32⟩
  | 26 => ⟨S1x4000000, .i32⟩
  | 27 => ⟨S4000000, .i32⟩
  | 28 => ⟨S1x4000000, .i32⟩
  | 29 => ⟨S4000000, .i32⟩
  | 30 => ⟨S_, .i32⟩
  | 31 => ⟨S4000000, .i32⟩
  | 32 => ⟨S4000000, .i1⟩
  | 33 => ⟨S_, .i32⟩
  | 34 => ⟨S4000000, .i32⟩
  | 35 => ⟨S4000000, .i32⟩
  | 36 => ⟨S4000000, .i32⟩
  | 37 => ⟨S4000000x1, .i32⟩
  | 38 => ⟨S4000000x6, .f32⟩
  | 39 => ⟨S_, .f32⟩
  | 40 => ⟨S250000x6, .f32⟩
  | 41 => ⟨S4000000x1, .i32⟩
  | 42 => ⟨S250000x6, .f32⟩
  | 43 => ⟨S250000x6, .f32⟩
  | 44 => ⟨S250000x64, .f32⟩
  | 45 => ⟨S1x64, .f32⟩
  | 46 => ⟨S250000x64, .f32⟩
  | 47 => ⟨S250000x64, .f32⟩
  | 48 => ⟨S_, .f32⟩
  | 49 => ⟨S250000x64, .f32⟩
  | 50 => ⟨S250000x64, .f32⟩
  | 51 => ⟨S250000x64, .f32⟩
  | 52 => ⟨S1x64, .f32⟩
  | 53 => ⟨S250000x64, .f32⟩
  | 54 => ⟨S250000x64, .f32⟩
  | 55 => ⟨S_, .f32⟩
  | 56 => ⟨S250000, .f32⟩
  | 57 => ⟨S_, .f32⟩
  | 58 => ⟨S1024, .f32⟩
  | 59 => ⟨S250000x1, .i32⟩
  | 60 => ⟨S1024, .f32⟩
  | 61 => ⟨S_, .f32⟩
  | 62 => ⟨S1024, .f32⟩
  | 63 => ⟨S1024, .f32⟩
  | 64 => ⟨S_, .f32⟩
  | 65 => ⟨S1024, .f32⟩
  | 66 => ⟨S1024, .f32⟩
  | 67 => ⟨S_, .f32⟩
  | 68 => ⟨S250000, .f32⟩
  | 69 => ⟨S_, .f32⟩
  | 70 => ⟨S1024, .f32⟩
  | 71 => ⟨S250000x1, .i32⟩
  | 72 => ⟨S1024, .f32⟩
  | 73 => ⟨S1024, .f32⟩
  | 74 => ⟨S_, .i32⟩
  | 75 => ⟨S250000, .i32⟩
  | 76 => ⟨S250000, .i1⟩
  | 77 => ⟨S_, .i32⟩
  | 78 => ⟨S250000, .i32⟩
  | 79 => ⟨S250000, .i32⟩
  | 80 => ⟨S250000, .i32⟩
  | 81 => ⟨S250000x1, .i32⟩
  | 82 => ⟨S250000, .f32⟩
  | 83 => ⟨S250000x1, .f32⟩
  | 84 => ⟨S250000x64, .f32⟩
  | 85 => ⟨S250000x64, .f32⟩
  | 86 => ⟨S250000x64, .f32⟩
  | 87 => ⟨S_, .f32⟩
  | 88 => ⟨S250000, .f32⟩
  | 89 => ⟨S_, .f32⟩
  | 90 => ⟨S1024, .f32⟩
  | 91 => ⟨S250000x1, .i32⟩
  | 92 => ⟨S1024, .f32⟩
  | 93 => ⟨S1024, .f32⟩
  | 94 => ⟨S_, .f32⟩
  | 95 => ⟨S1024, .f32⟩
  | 96 => ⟨S1024, .f32⟩
  | 97 => ⟨S1024, .f32⟩
  | 98 => ⟨S_, .i32⟩
  | 99 => ⟨S250000, .i32⟩
  | 100 => ⟨S250000, .i1⟩
  | 101 => ⟨S_, .i32⟩
  | 102 => ⟨S250000, .i32⟩
  | 103 => ⟨S250000, .i32⟩
  | 104 => ⟨S250000, .i32⟩
  | 105 => ⟨S250000x1, .i32⟩
  | 106 => ⟨S250000, .f32⟩
  | 107 => ⟨S250000x1, .f32⟩
  | 108 => ⟨S250000x64, .f32⟩
  | 109 => ⟨S250000x64, .f32⟩
  | 110 => ⟨S1x64, .f32⟩
  | 111 => ⟨S250000x64, .f32⟩
  | 112 => ⟨S250000x64, .f32⟩
  | 113 => ⟨S1x64, .f32⟩
  | 114 => ⟨S250000x64, .f32⟩
  | 115 => ⟨S250000x64, .f32⟩
  | 116 => ⟨S_, .f32⟩
  | 117 => ⟨S250000x64, .f32⟩
  | 118 => ⟨S250000x64, .f32⟩
  | 119 => ⟨S_, .i32⟩
  | 120 => ⟨S4000000, .i32⟩
  | 121 => ⟨S4000000, .i1⟩
  | 122 => ⟨S_, .i32⟩
  | 123 => ⟨S4000000, .i32⟩
  | 124 => ⟨S4000000, .i32⟩
  | 125 => ⟨S4000000, .i32⟩
  | 126 => ⟨S4000000x1, .i32⟩
  | 127 => ⟨S4000000x64, .f32⟩
  | _ => ⟨S250000x6, .f32⟩

abbrev hbmTy0_1 (i : Nat) : BufTy := match i % 128 with
  | 0 => ⟨S_, .f32⟩
  | 1 => ⟨S250000x64, .f32⟩
  | 2 => ⟨S4000000x1, .i32⟩
  | 3 => ⟨S250000x64, .f32⟩
  | 4 => ⟨S250000x64, .f32⟩
  | 5 => ⟨S250000x64, .f32⟩
  | 6 => ⟨S1x64, .f32⟩
  | 7 => ⟨S250000x64, .f32⟩
  | 8 => ⟨S250000x64, .f32⟩
  | 9 => ⟨S_, .f32⟩
  | 10 => ⟨S250000x64, .f32⟩
  | 11 => ⟨S250000x64, .f32⟩
  | 12 => ⟨S250000x64, .f32⟩
  | 13 => ⟨S1x64, .f32⟩
  | 14 => ⟨S250000x64, .f32⟩
  | 15 => ⟨S250000x64, .f32⟩
  | 16 => ⟨S_, .f32⟩
  | 17 => ⟨S250000, .f32⟩
  | 18 => ⟨S_, .f32⟩
  | 19 => ⟨S1024, .f32⟩
  | 20 => ⟨S250000x1, .i32⟩
  | 21 => ⟨S1024, .f32⟩
  | 22 => ⟨S_, .f32⟩
  | 23 => ⟨S1024, .f32⟩
  | 24 => ⟨S1024, .f32⟩
  | 25 => ⟨S_, .f32⟩
  | 26 => ⟨S1024, .f32⟩
  | 27 => ⟨S1024, .f32⟩
  | 28 => ⟨S_, .f32⟩
  | 29 => ⟨S250000, .f32⟩
  | 30 => ⟨S_, .f32⟩
  | 31 => ⟨S1024, .f32⟩
  | 32 => ⟨S250000x1, .i32⟩
  | 33 => ⟨S1024, .f32⟩
  | 34 => ⟨S1024, .f32⟩
  | 35 => ⟨S_, .i32⟩
  | 36 => ⟨S250000, .i32⟩
  | 37 => ⟨S250000, .i1⟩
  | 38 => ⟨S_, .i32⟩
  | 39 => ⟨S250000, .i32⟩
  | 40 => ⟨S250000, .i32⟩
  | 41 => ⟨S250000, .i32⟩
  | 42 => ⟨S250000x1, .i32⟩
  | 43 => ⟨S250000, .f32⟩
  | 44 => ⟨S250000x1, .f32⟩
  | 45 => ⟨S250000x64, .f32⟩
  | 46 => ⟨S250000x64, .f32⟩
  | 47 => ⟨S250000x64, .f32⟩
  | 48 => ⟨S_, .f32⟩
  | 49 => ⟨S250000, .f32⟩
  | 50 => ⟨S_, .f32⟩
  | 51 => ⟨S1024, .f32⟩
  | 52 => ⟨S250000x1, .i32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .i32⟩
  | 60 => ⟨S250000, .i32⟩
  | 61 => ⟨S250000, .i1⟩
  | 62 => ⟨S_, .i32⟩
  | 63 => ⟨S250000, .i32⟩
  | 64 => ⟨S250000, .i32⟩
  | 65 => ⟨S250000, .i32⟩
  | 66 => ⟨S250000x1, .i32⟩
  | 67 => ⟨S250000, .f32⟩
  | 68 => ⟨S250000x1, .f32⟩
  | 69 => ⟨S250000x64, .f32⟩
  | 70 => ⟨S250000x64, .f32⟩
  | 71 => ⟨S1x64, .f32⟩
  | 72 => ⟨S250000x64, .f32⟩
  | 73 => ⟨S250000x64, .f32⟩
  | 74 => ⟨S1x64, .f32⟩
  | 75 => ⟨S250000x64, .f32⟩
  | 76 => ⟨S250000x64, .f32⟩
  | 77 => ⟨S_, .f32⟩
  | 78 => ⟨S250000x64, .f32⟩
  | 79 => ⟨S250000x64, .f32⟩
  | 80 => ⟨S_, .f32⟩
  | 81 => ⟨S1024x64, .f32⟩
  | 82 => ⟨S250000x1, .i32⟩
  | 83 => ⟨S1024x64, .f32⟩
  | 84 => ⟨S_, .f32⟩
  | 85 => ⟨S250000, .f32⟩
  | 86 => ⟨S_, .f32⟩
  | 87 => ⟨S1024, .f32⟩
  | 88 => ⟨S250000x1, .i32⟩
  | 89 => ⟨S1024, .f32⟩
  | 90 => ⟨S_, .f32⟩
  | 91 => ⟨S1024, .f32⟩
  | 92 => ⟨S1024, .f32⟩
  | 93 => ⟨S1024x1, .f32⟩
  | 94 => ⟨S1024x64, .f32⟩
  | 95 => ⟨S1024x64, .f32⟩
  | 96 => ⟨S1024x64, .f32⟩
  | 97 => ⟨S1x4000000, .i32⟩
  | 98 => ⟨S4000000, .i32⟩
  | 99 => ⟨S1x4000000, .i32⟩
  | 100 => ⟨S4000000, .i32⟩
  | 101 => ⟨S_, .i32⟩
  | 102 => ⟨S4000000, .i32⟩
  | 103 => ⟨S4000000, .i1⟩
  | 104 => ⟨S_, .i32⟩
  | 105 => ⟨S4000000, .i32⟩
  | 106 => ⟨S4000000, .i32⟩
  | 107 => ⟨S4000000, .i32⟩
  | 108 => ⟨S4000000x1, .i32⟩
  | 109 => ⟨S4000000x6, .f32⟩
  | 110 => ⟨S_, .f32⟩
  | 111 => ⟨S250000x6, .f32⟩
  | 112 => ⟨S4000000x1, .i32⟩
  | 113 => ⟨S250000x6, .f32⟩
  | 114 => ⟨S250000x6, .f32⟩
  | 115 => ⟨S250000x64, .f32⟩
  | 116 => ⟨S1x64, .f32⟩
  | 117 => ⟨S250000x64, .f32⟩
  | 118 => ⟨S250000x64, .f32⟩
  | 119 => ⟨S_, .f32⟩
  | 120 => ⟨S250000x64, .f32⟩
  | 121 => ⟨S250000x64, .f32⟩
  | 122 => ⟨S250000x64, .f32⟩
  | 123 => ⟨S1x64, .f32⟩
  | 124 => ⟨S250000x64, .f32⟩
  | 125 => ⟨S250000x64, .f32⟩
  | 126 => ⟨S_, .f32⟩
  | 127 => ⟨S250000, .f32⟩
  | _ => ⟨S250000x6, .f32⟩

abbrev hbmTy0_2 (i : Nat) : BufTy := match i % 128 with
  | 0 => ⟨S_, .f32⟩
  | 1 => ⟨S1024, .f32⟩
  | 2 => ⟨S250000x1, .i32⟩
  | 3 => ⟨S1024, .f32⟩
  | 4 => ⟨S_, .f32⟩
  | 5 => ⟨S1024, .f32⟩
  | 6 => ⟨S1024, .f32⟩
  | 7 => ⟨S_, .f32⟩
  | 8 => ⟨S1024, .f32⟩
  | 9 => ⟨S1024, .f32⟩
  | 10 => ⟨S_, .f32⟩
  | 11 => ⟨S250000, .f32⟩
  | 12 => ⟨S_, .f32⟩
  | 13 => ⟨S1024, .f32⟩
  | 14 => ⟨S250000x1, .i32⟩
  | 15 => ⟨S1024, .f32⟩
  | 16 => ⟨S1024, .f32⟩
  | 17 => ⟨S_, .i32⟩
  | 18 => ⟨S250000, .i32⟩
  | 19 => ⟨S250000, .i1⟩
  | 20 => ⟨S_, .i32⟩
  | 21 => ⟨S250000, .i32⟩
  | 22 => ⟨S250000, .i32⟩
  | 23 => ⟨S250000, .i32⟩
  | 24 => ⟨S250000x1, .i32⟩
  | 25 => ⟨S250000, .f32⟩
  | 26 => ⟨S250000x1, .f32⟩
  | 27 => ⟨S250000x64, .f32⟩
  | 28 => ⟨S250000x64, .f32⟩
  | 29 => ⟨S250000x64, .f32⟩
  | 30 => ⟨S_, .f32⟩
  | 31 => ⟨S250000, .f32⟩
  | 32 => ⟨S_, .f32⟩
  | 33 => ⟨S1024, .f32⟩
  | 34 => ⟨S250000x1, .i32⟩
  | 35 => ⟨S1024, .f32⟩
  | 36 => ⟨S1024, .f32⟩
  | 37 => ⟨S_, .f32⟩
  | 38 => ⟨S1024, .f32⟩
  | 39 => ⟨S1024, .f32⟩
  | 40 => ⟨S1024, .f32⟩
  | 41 => ⟨S_, .i32⟩
  | 42 => ⟨S250000, .i32⟩
  | 43 => ⟨S250000, .i1⟩
  | 44 => ⟨S_, .i32⟩
  | 45 => ⟨S250000, .i32⟩
  | 46 => ⟨S250000, .i32⟩
  | 47 => ⟨S250000, .i32⟩
  | 48 => ⟨S250000x1, .i32⟩
  | 49 => ⟨S250000, .f32⟩
  | 50 => ⟨S250000x1, .f32⟩
  | 51 => ⟨S250000x64, .f32⟩
  | 52 => ⟨S250000x64, .f32⟩
  | 53 => ⟨S1x64, .f32⟩
  | 54 => ⟨S250000x64, .f32⟩
  | 55 => ⟨S250000x64, .f32⟩
  | 56 => ⟨S1x64, .f32⟩
  | 57 => ⟨S250000x64, .f32⟩
  | 58 => ⟨S250000x64, .f32⟩
  | 59 => ⟨S_, .f32⟩
  | 60 => ⟨S250000x64, .f32⟩
  | 61 => ⟨S250000x64, .f32⟩
  | 62 => ⟨S_, .i32⟩
  | 63 => ⟨S4000000, .i32⟩
  | 64 => ⟨S4000000, .i1⟩
  | 65 => ⟨S_, .i32⟩
  | 66 => ⟨S4000000, .i32⟩
  | 67 => ⟨S4000000, .i32⟩
  | 68 => ⟨S4000000, .i32⟩
  | 69 => ⟨S4000000x1, .i32⟩
  | 70 => ⟨S4000000x64, .f32⟩
  | 71 => ⟨S_, .f32⟩
  | 72 => ⟨S250000x64, .f32⟩
  | 73 => ⟨S4000000x1, .i32⟩
  | 74 => ⟨S250000x64, .f32⟩
  | 75 => ⟨S250000x64, .f32⟩
  | 76 => ⟨S250000x64, .f32⟩
  | 77 => ⟨S1x64, .f32⟩
  | 78 => ⟨S250000x64, .f32⟩
  | 79 => ⟨S250000x64, .f32⟩
  | 80 => ⟨S_, .f32⟩
  | 81 => ⟨S250000x64, .f32⟩
  | 82 => ⟨S250000x64, .f32⟩
  | 83 => ⟨S250000x64, .f32⟩
  | 84 => ⟨S1x64, .f32⟩
  | 85 => ⟨S250000x64, .f32⟩
  | 86 => ⟨S250000x64, .f32⟩
  | 87 => ⟨S_, .f32⟩
  | 88 => ⟨S250000, .f32⟩
  | 89 => ⟨S_, .f32⟩
  | 90 => ⟨S1024, .f32⟩
  | 91 => ⟨S250000x1, .i32⟩
  | 92 => ⟨S1024, .f32⟩
  | 93 => ⟨S_, .f32⟩
  | 94 => ⟨S1024, .f32⟩
  | 95 => ⟨S1024, .f32⟩
  | 96 => ⟨S_, .f32⟩
  | 97 => ⟨S1024, .f32⟩
  | 98 => ⟨S1024, .f32⟩
  | 99 => ⟨S_, .f32⟩
  | 100 => ⟨S250000, .f32⟩
  | 101 => ⟨S_, .f32⟩
  | 102 => ⟨S1024, .f32⟩
  | 103 => ⟨S250000x1, .i32⟩
  | 104 => ⟨S1024, .f32⟩
  | 105 => ⟨S1024, .f32⟩
  | 106 => ⟨S_, .i32⟩
  | 107 => ⟨S250000, .i32⟩
  | 108 => ⟨S250000, .i1⟩
  | 109 => ⟨S_, .i32⟩
  | 110 => ⟨S250000, .i32⟩
  | 111 => ⟨S250000, .i32⟩
  | 112 => ⟨S250000, .i32⟩
  | 113 => ⟨S250000x1, .i32⟩
  | 114 => ⟨S250000, .f32⟩
  | 115 => ⟨S250000x1, .f32⟩
  | 116 => ⟨S250000x64, .f32⟩
  | 117 => ⟨S250000x64, .f32⟩
  | 118 => ⟨S250000x64, .f32⟩
  | 119 => ⟨S_, .f32⟩
  | 120 => ⟨S250000, .f32⟩
  | 121 => ⟨S_, .f32⟩
  | 122 => ⟨S1024, .f32⟩
  | 123 => ⟨S250000x1, .i32⟩
  | 124 => ⟨S1024, .f32⟩
  | 125 => ⟨S1024, .f32⟩
  | 126 => ⟨S_, .f32⟩
  | 127 => ⟨S1024, .f32⟩
  | _ => ⟨S250000x6, .f32⟩

abbrev hbmTy0_3 (i : Nat) : BufTy := match i % 128 with
  | 0 => ⟨S1024, .f32⟩
  | 1 => ⟨S1024, .f32⟩
  | 2 => ⟨S_, .i32⟩
  | 3 => ⟨S250000, .i32⟩
  | 4 => ⟨S250000, .i1⟩
  | 5 => ⟨S_, .i32⟩
  | 6 => ⟨S250000, .i32⟩
  | 7 => ⟨S250000, .i32⟩
  | 8 => ⟨S250000, .i32⟩
  | 9 => ⟨S250000x1, .i32⟩
  | 10 => ⟨S250000, .f32⟩
  | 11 => ⟨S250000x1, .f32⟩
  | 12 => ⟨S250000x64, .f32⟩
  | 13 => ⟨S250000x64, .f32⟩
  | 14 => ⟨S1x64, .f32⟩
  | 15 => ⟨S250000x64, .f32⟩
  | 16 => ⟨S250000x64, .f32⟩
  | 17 => ⟨S1x64, .f32⟩
  | 18 => ⟨S250000x64, .f32⟩
  | 19 => ⟨S250000x64, .f32⟩
  | 20 => ⟨S_, .f32⟩
  | 21 => ⟨S250000x64, .f32⟩
  | 22 => ⟨S250000x64, .f32⟩
  | 23 => ⟨S_, .f32⟩
  | 24 => ⟨S1024x64, .f32⟩
  | 25 => ⟨S250000x1, .i32⟩
  | 26 => ⟨S1024x64, .f32⟩
  | 27 => ⟨S_, .f32⟩
  | 28 => ⟨S250000, .f32⟩
  | 29 => ⟨S_, .f32⟩
  | 30 => ⟨S1024, .f32⟩
  | 31 => ⟨S250000x1, .i32⟩
  | 32 => ⟨S1024, .f32⟩
  | 33 => ⟨S_, .f32⟩
  | 34 => ⟨S1024, .f32⟩
  | 35 => ⟨S1024, .f32⟩
  | 36 => ⟨S1024x1, .f32⟩
  | 37 => ⟨S1024x64, .f32⟩
  | 38 => ⟨S1024x64, .f32⟩
  | 39 => ⟨S1024x64, .f32⟩
  | 40 => ⟨S1024x138, .f32⟩
  | 41 => ⟨S1024x128, .f32⟩
  | 42 => ⟨S1x128, .f32⟩
  | 43 => ⟨S1024x128, .f32⟩
  | 44 => ⟨S1024x128, .f32⟩
  | 45 => ⟨S_, .f32⟩
  | 46 => ⟨S1024x128, .f32⟩
  | 47 => ⟨S1024x128, .f32⟩
  | 48 => ⟨S1024x64, .f32⟩
  | 49 => ⟨S1x64, .f32⟩
  | 50 => ⟨S1024x64, .f32⟩
  | 51 => ⟨S1024x64, .f32⟩
  | 52 => ⟨S_, .f32⟩
  | 53 => ⟨S1024x64, .f32⟩
  | 54 => ⟨S1024x64, .f32⟩
  | 55 => ⟨S1024x1, .f32⟩
  | 56 => ⟨S1x1, .f32⟩
  | 57 => ⟨S1024x1, .f32⟩
  | 58 => ⟨S1024x1, .f32⟩
  | _ => ⟨S250000x6, .f32⟩

abbrev hbmTy (i : Nat) : BufTy := match i / 128 with
  | 0 => hbmTy0_0 i
  | 1 => hbmTy0_1 i
  | 2 => hbmTy0_2 i
  | 3 => hbmTy0_3 i
  | _ => ⟨S250000x6, .f32⟩

abbrev bufTy : (tb : Table) → Fin (tcTables nBuf tb) → BufTy
  | .hbm, ⟨i, _⟩ => hbmTy i
  | _, _ => ⟨S250000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call0_cst : Ref sig .tc := ⟨.hbm, 48, rfl⟩
abbrev main_call0_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_1 : Ref sig .tc := ⟨.hbm, 55, rfl⟩
abbrev main_v24 : Ref sig .tc := ⟨.hbm, 56, rfl⟩
abbrev main_cst_2 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_3 : Ref sig .tc := ⟨.hbm, 61, rfl⟩
abbrev main_v28 : Ref sig .tc := ⟨.hbm, 62, rfl⟩
abbrev main_v29 : Ref sig .tc := ⟨.hbm, 63, rfl⟩
abbrev main_cst_4 : Ref sig .tc := ⟨.hbm, 64, rfl⟩
abbrev main_v30 : Ref sig .tc := ⟨.hbm, 65, rfl⟩
abbrev main_v31 : Ref sig .tc := ⟨.hbm, 66, rfl⟩
abbrev main_cst_5 : Ref sig .tc := ⟨.hbm, 67, rfl⟩
abbrev main_v32 : Ref sig .tc := ⟨.hbm, 68, rfl⟩
abbrev main_cst_6 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_7 : Ref sig .tc := ⟨.hbm, 74, rfl⟩
abbrev main_v37 : Ref sig .tc := ⟨.hbm, 75, rfl⟩
abbrev main_v38 : Ref sig .tc := ⟨.hbm, 76, rfl⟩
abbrev main_c_8 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_9 : Ref sig .tc := ⟨.hbm, 87, rfl⟩
abbrev main_v48 : Ref sig .tc := ⟨.hbm, 88, rfl⟩
abbrev main_cst_10 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_11 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_c_12 : Ref sig .tc := ⟨.hbm, 98, rfl⟩
abbrev main_v56 : Ref sig .tc := ⟨.hbm, 99, rfl⟩
abbrev main_v57 : Ref sig .tc := ⟨.hbm, 100, rfl⟩
abbrev main_c_13 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_call1_cst : Ref sig .tc := ⟨.hbm, 116, rfl⟩
abbrev main_call1_v0 : Ref sig .tc := ⟨.hbm, 117, rfl⟩
abbrev main_v72 : Ref sig .tc := ⟨.hbm, 118, rfl⟩
abbrev main_c_14 : Ref sig .tc := ⟨.hbm, 119, rfl⟩
abbrev main_v73 : Ref sig .tc := ⟨.hbm, 120, rfl⟩
abbrev main_v74 : Ref sig .tc := ⟨.hbm, 121, rfl⟩
abbrev main_c_15 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_16 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_call2_cst : Ref sig .tc := ⟨.hbm, 137, rfl⟩
abbrev main_call2_v0 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_17 : Ref sig .tc := ⟨.hbm, 144, rfl⟩
abbrev main_v93 : Ref sig .tc := ⟨.hbm, 145, rfl⟩
abbrev main_cst_18 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_cst_19 : Ref sig .tc := ⟨.hbm, 150, rfl⟩
abbrev main_v97 : Ref sig .tc := ⟨.hbm, 151, rfl⟩
abbrev main_v98 : Ref sig .tc := ⟨.hbm, 152, rfl⟩
abbrev main_cst_20 : Ref sig .tc := ⟨.hbm, 153, rfl⟩
abbrev main_v99 : Ref sig .tc := ⟨.hbm, 154, rfl⟩
abbrev main_v100 : Ref sig .tc := ⟨.hbm, 155, rfl⟩
abbrev main_cst_21 : Ref sig .tc := ⟨.hbm, 156, rfl⟩
abbrev main_v101 : Ref sig .tc := ⟨.hbm, 157, rfl⟩
abbrev main_cst_22 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_c_23 : Ref sig .tc := ⟨.hbm, 163, rfl⟩
abbrev main_v106 : Ref sig .tc := ⟨.hbm, 164, rfl⟩
abbrev main_v107 : Ref sig .tc := ⟨.hbm, 165, rfl⟩
abbrev main_c_24 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_25 : Ref sig .tc := ⟨.hbm, 176, rfl⟩
abbrev main_v117 : Ref sig .tc := ⟨.hbm, 177, rfl⟩
abbrev main_cst_26 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_cst_27 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_c_28 : Ref sig .tc := ⟨.hbm, 187, rfl⟩
abbrev main_v125 : Ref sig .tc := ⟨.hbm, 188, rfl⟩
abbrev main_v126 : Ref sig .tc := ⟨.hbm, 189, rfl⟩
abbrev main_c_29 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_call3_cst : Ref sig .tc := ⟨.hbm, 205, rfl⟩
abbrev main_call3_v0 : Ref sig .tc := ⟨.hbm, 206, rfl⟩
abbrev main_v141 : Ref sig .tc := ⟨.hbm, 207, rfl⟩
abbrev main_cst_30 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_cst_31 : Ref sig .tc := ⟨.hbm, 212, rfl⟩
abbrev main_v145 : Ref sig .tc := ⟨.hbm, 213, rfl⟩
abbrev main_cst_32 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_cst_33 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_c_34 : Ref sig .tc := ⟨.hbm, 229, rfl⟩
abbrev main_v159 : Ref sig .tc := ⟨.hbm, 230, rfl⟩
abbrev main_v160 : Ref sig .tc := ⟨.hbm, 231, rfl⟩
abbrev main_c_35 : Ref sig .tc := ⟨.hbm, 232, rfl⟩
abbrev main_v161 : Ref sig .tc := ⟨.hbm, 233, rfl⟩
abbrev main_v162 : Ref sig .tc := ⟨.hbm, 234, rfl⟩
abbrev main_v163 : Ref sig .tc := ⟨.hbm, 235, rfl⟩
abbrev main_v164 : Ref sig .tc := ⟨.hbm, 236, rfl⟩
abbrev main_v165 : Ref sig .tc := ⟨.hbm, 237, rfl⟩
abbrev main_cst_36 : Ref sig .tc := ⟨.hbm, 238, rfl⟩
abbrev main_v166 : Ref sig .tc := ⟨.hbm, 239, rfl⟩
abbrev main_v167 : Ref sig .tc := ⟨.hbm, 240, rfl⟩
abbrev main_v168 : Ref sig .tc := ⟨.hbm, 241, rfl⟩
abbrev main_v169 : Ref sig .tc := ⟨.hbm, 242, rfl⟩
abbrev main_v170 : Ref sig .tc := ⟨.hbm, 243, rfl⟩
abbrev main_v171 : Ref sig .tc := ⟨.hbm, 244, rfl⟩
abbrev main_v172 : Ref sig .tc := ⟨.hbm, 245, rfl⟩
abbrev main_v173 : Ref sig .tc := ⟨.hbm, 246, rfl⟩
abbrev main_call4_cst : Ref sig .tc := ⟨.hbm, 247, rfl⟩
abbrev main_call4_v0 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_cst_37 : Ref sig .tc := ⟨.hbm, 254, rfl⟩
abbrev main_v179 : Ref sig .tc := ⟨.hbm, 255, rfl⟩
abbrev main_cst_38 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_cst_39 : Ref sig .tc := ⟨.hbm, 260, rfl⟩
abbrev main_v183 : Ref sig .tc := ⟨.hbm, 261, rfl⟩
abbrev main_v184 : Ref sig .tc := ⟨.hbm, 262, rfl⟩
abbrev main_cst_40 : Ref sig .tc := ⟨.hbm, 263, rfl⟩
abbrev main_v185 : Ref sig .tc := ⟨.hbm, 264, rfl⟩
abbrev main_v186 : Ref sig .tc := ⟨.hbm, 265, rfl⟩
abbrev main_cst_41 : Ref sig .tc := ⟨.hbm, 266, rfl⟩
abbrev main_v187 : Ref sig .tc := ⟨.hbm, 267, rfl⟩
abbrev main_cst_42 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_c_43 : Ref sig .tc := ⟨.hbm, 273, rfl⟩
abbrev main_v192 : Ref sig .tc := ⟨.hbm, 274, rfl⟩
abbrev main_v193 : Ref sig .tc := ⟨.hbm, 275, rfl⟩
abbrev main_c_44 : Ref sig .tc := ⟨.hbm, 276, rfl⟩
abbrev main_v194 : Ref sig .tc := ⟨.hbm, 277, rfl⟩
abbrev main_v195 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_v201 : Ref sig .tc := ⟨.hbm, 284, rfl⟩
abbrev main_v202 : Ref sig .tc := ⟨.hbm, 285, rfl⟩
abbrev main_cst_45 : Ref sig .tc := ⟨.hbm, 286, rfl⟩
abbrev main_v203 : Ref sig .tc := ⟨.hbm, 287, rfl⟩
abbrev main_cst_46 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_cst_47 : Ref sig .tc := ⟨.hbm, 293, rfl⟩
abbrev main_v208 : Ref sig .tc := ⟨.hbm, 294, rfl⟩
abbrev main_v209 : Ref sig .tc := ⟨.hbm, 295, rfl⟩
abbrev main_v210 : Ref sig .tc := ⟨.hbm, 296, rfl⟩
abbrev main_c_48 : Ref sig .tc := ⟨.hbm, 297, rfl⟩
abbrev main_v211 : Ref sig .tc := ⟨.hbm, 298, rfl⟩
abbrev main_v212 : Ref sig .tc := ⟨.hbm, 299, rfl⟩
abbrev main_c_49 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_v220 : Ref sig .tc := ⟨.hbm, 308, rfl⟩
abbrev main_v221 : Ref sig .tc := ⟨.hbm, 309, rfl⟩
abbrev main_v222 : Ref sig .tc := ⟨.hbm, 310, rfl⟩
abbrev main_v223 : Ref sig .tc := ⟨.hbm, 311, rfl⟩
abbrev main_v224 : Ref sig .tc := ⟨.hbm, 312, rfl⟩
abbrev main_v225 : Ref sig .tc := ⟨.hbm, 313, rfl⟩
abbrev main_v226 : Ref sig .tc := ⟨.hbm, 314, rfl⟩
abbrev main_call5_cst : Ref sig .tc := ⟨.hbm, 315, rfl⟩
abbrev main_call5_v0 : Ref sig .tc := ⟨.hbm, 316, rfl⟩
abbrev main_v227 : Ref sig .tc := ⟨.hbm, 317, rfl⟩
abbrev main_c_50 : Ref sig .tc := ⟨.hbm, 318, rfl⟩
abbrev main_v228 : Ref sig .tc := ⟨.hbm, 319, rfl⟩
abbrev main_v229 : Ref sig .tc := ⟨.hbm, 320, rfl⟩
abbrev main_c_51 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_v234 : Ref sig .tc := ⟨.hbm, 326, rfl⟩
abbrev main_cst_52 : Ref sig .tc := ⟨.hbm, 327, rfl⟩
abbrev main_v235 : Ref sig .tc := ⟨.hbm, 328, rfl⟩
abbrev main_v236 : Ref sig .tc := ⟨.hbm, 329, rfl⟩
abbrev main_v237 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_call6_cst : Ref sig .tc := ⟨.hbm, 336, rfl⟩
abbrev main_call6_v0 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_cst_53 : Ref sig .tc := ⟨.hbm, 343, rfl⟩
abbrev main_v248 : Ref sig .tc := ⟨.hbm, 344, rfl⟩
abbrev main_cst_54 : Ref sig .tc := ⟨.hbm, 345, rfl⟩
abbrev main_v249 : Ref sig .tc := ⟨.hbm, 346, rfl⟩
abbrev main_v250 : Ref sig .tc := ⟨.hbm, 347, rfl⟩
abbrev main_v251 : Ref sig .tc := ⟨.hbm, 348, rfl⟩
abbrev main_cst_55 : Ref sig .tc := ⟨.hbm, 349, rfl⟩
abbrev main_v252 : Ref sig .tc := ⟨.hbm, 350, rfl⟩
abbrev main_v253 : Ref sig .tc := ⟨.hbm, 351, rfl⟩
abbrev main_cst_56 : Ref sig .tc := ⟨.hbm, 352, rfl⟩
abbrev main_v254 : Ref sig .tc := ⟨.hbm, 353, rfl⟩
abbrev main_v255 : Ref sig .tc := ⟨.hbm, 354, rfl⟩
abbrev main_cst_57 : Ref sig .tc := ⟨.hbm, 355, rfl⟩
abbrev main_v256 : Ref sig .tc := ⟨.hbm, 356, rfl⟩
abbrev main_cst_58 : Ref sig .tc := ⟨.hbm, 357, rfl⟩
abbrev main_v257 : Ref sig .tc := ⟨.hbm, 358, rfl⟩
abbrev main_v258 : Ref sig .tc := ⟨.hbm, 359, rfl⟩
abbrev main_v259 : Ref sig .tc := ⟨.hbm, 360, rfl⟩
abbrev main_v260 : Ref sig .tc := ⟨.hbm, 361, rfl⟩
abbrev main_c_59 : Ref sig .tc := ⟨.hbm, 362, rfl⟩
abbrev main_v261 : Ref sig .tc := ⟨.hbm, 363, rfl⟩
abbrev main_v262 : Ref sig .tc := ⟨.hbm, 364, rfl⟩
abbrev main_c_60 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_v267 : Ref sig .tc := ⟨.hbm, 370, rfl⟩
abbrev main_v268 : Ref sig .tc := ⟨.hbm, 371, rfl⟩
abbrev main_v269 : Ref sig .tc := ⟨.hbm, 372, rfl⟩
abbrev main_v270 : Ref sig .tc := ⟨.hbm, 373, rfl⟩
abbrev main_v271 : Ref sig .tc := ⟨.hbm, 374, rfl⟩
abbrev main_cst_61 : Ref sig .tc := ⟨.hbm, 375, rfl⟩
abbrev main_v272 : Ref sig .tc := ⟨.hbm, 376, rfl⟩
abbrev main_cst_62 : Ref sig .tc := ⟨.hbm, 377, rfl⟩
abbrev main_v273 : Ref sig .tc := ⟨.hbm, 378, rfl⟩
abbrev main_v274 : Ref sig .tc := ⟨.hbm, 379, rfl⟩
abbrev main_v275 : Ref sig .tc := ⟨.hbm, 380, rfl⟩
abbrev main_v276 : Ref sig .tc := ⟨.hbm, 381, rfl⟩
abbrev main_cst_63 : Ref sig .tc := ⟨.hbm, 382, rfl⟩
abbrev main_v277 : Ref sig .tc := ⟨.hbm, 383, rfl⟩
abbrev main_v278 : Ref sig .tc := ⟨.hbm, 384, rfl⟩
abbrev main_v279 : Ref sig .tc := ⟨.hbm, 385, rfl⟩
abbrev main_c_64 : Ref sig .tc := ⟨.hbm, 386, rfl⟩
abbrev main_v280 : Ref sig .tc := ⟨.hbm, 387, rfl⟩
abbrev main_v281 : Ref sig .tc := ⟨.hbm, 388, rfl⟩
abbrev main_c_65 : Ref sig .tc := ⟨.hbm, 389, rfl⟩
abbrev main_v282 : Ref sig .tc := ⟨.hbm, 390, rfl⟩
abbrev main_v283 : Ref sig .tc := ⟨.hbm, 391, rfl⟩
abbrev main_v284 : Ref sig .tc := ⟨.hbm, 392, rfl⟩
abbrev main_v285 : Ref sig .tc := ⟨.hbm, 393, rfl⟩
abbrev main_v286 : Ref sig .tc := ⟨.hbm, 394, rfl⟩
abbrev main_v287 : Ref sig .tc := ⟨.hbm, 395, rfl⟩
abbrev main_v288 : Ref sig .tc := ⟨.hbm, 396, rfl⟩
abbrev main_v289 : Ref sig .tc := ⟨.hbm, 397, rfl⟩
abbrev main_v290 : Ref sig .tc := ⟨.hbm, 398, rfl⟩
abbrev main_v291 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_call7_cst : Ref sig .tc := ⟨.hbm, 404, rfl⟩
abbrev main_call7_v0 : Ref sig .tc := ⟨.hbm, 405, rfl⟩
abbrev main_v296 : Ref sig .tc := ⟨.hbm, 406, rfl⟩
abbrev main_cst_66 : Ref sig .tc := ⟨.hbm, 407, rfl⟩
abbrev main_v297 : Ref sig .tc := ⟨.hbm, 408, rfl⟩
abbrev main_v298 : Ref sig .tc := ⟨.hbm, 409, rfl⟩
abbrev main_v299 : Ref sig .tc := ⟨.hbm, 410, rfl⟩
abbrev main_cst_67 : Ref sig .tc := ⟨.hbm, 411, rfl⟩
abbrev main_v300 : Ref sig .tc := ⟨.hbm, 412, rfl⟩
abbrev main_cst_68 : Ref sig .tc := ⟨.hbm, 413, rfl⟩
abbrev main_v301 : Ref sig .tc := ⟨.hbm, 414, rfl⟩
abbrev main_v302 : Ref sig .tc := ⟨.hbm, 415, rfl⟩
abbrev main_v303 : Ref sig .tc := ⟨.hbm, 416, rfl⟩
abbrev main_cst_69 : Ref sig .tc := ⟨.hbm, 417, rfl⟩
abbrev main_v304 : Ref sig .tc := ⟨.hbm, 418, rfl⟩
abbrev main_v305 : Ref sig .tc := ⟨.hbm, 419, rfl⟩
abbrev main_v306 : Ref sig .tc := ⟨.hbm, 420, rfl⟩
abbrev main_v307 : Ref sig .tc := ⟨.hbm, 421, rfl⟩
abbrev main_v308 : Ref sig .tc := ⟨.hbm, 422, rfl⟩
abbrev main_v309 : Ref sig .tc := ⟨.hbm, 423, rfl⟩
abbrev main_v310 : Ref sig .tc := ⟨.hbm, 424, rfl⟩
abbrev main_v311 : Ref sig .tc := ⟨.hbm, 425, rfl⟩
abbrev main_v312 : Ref sig .tc := ⟨.hbm, 426, rfl⟩
abbrev main_v313 : Ref sig .tc := ⟨.hbm, 427, rfl⟩
abbrev main_v314 : Ref sig .tc := ⟨.hbm, 428, rfl⟩
abbrev main_call8_cst : Ref sig .tc := ⟨.hbm, 429, rfl⟩
abbrev main_call8_v0 : Ref sig .tc := ⟨.hbm, 430, rfl⟩
abbrev main_v315 : Ref sig .tc := ⟨.hbm, 431, rfl⟩
abbrev main_v316 : Ref sig .tc := ⟨.hbm, 432, rfl⟩
abbrev main_v317 : Ref sig .tc := ⟨.hbm, 433, rfl⟩
abbrev main_v318 : Ref sig .tc := ⟨.hbm, 434, rfl⟩
abbrev main_v319 : Ref sig .tc := ⟨.hbm, 435, rfl⟩
abbrev main_call9_cst : Ref sig .tc := ⟨.hbm, 436, rfl⟩
abbrev main_call9_v0 : Ref sig .tc := ⟨.hbm, 437, rfl⟩
abbrev main_v320 : Ref sig .tc := ⟨.hbm, 438, rfl⟩
abbrev main_v321 : Ref sig .tc := ⟨.hbm, 439, rfl⟩
abbrev main_v322 : Ref sig .tc := ⟨.hbm, 440, rfl⟩
abbrev main_v323 : Ref sig .tc := ⟨.hbm, 441, rfl⟩
abbrev main_v324 : Ref sig .tc := ⟨.hbm, 442, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S_S250000x6 : S_.BroadcastsInDim S250000x6 (![] : Fin 0 → Fin S250000x6.rank)
  bcast_S64_S1x64_1 : S64.BroadcastsInDim S1x64 (![1] : Fin 1 → Fin S1x64.rank)
  bcast_S1x64_S250000x64_0_1 : S1x64.BroadcastsInDim S250000x64 (![0, 1] : Fin 2 → Fin S250000x64.rank)
  bcast_S_S250000x64 : S_.BroadcastsInDim S250000x64 (![] : Fin 0 → Fin S250000x64.rank)
  bcast_S_S250000 : S_.BroadcastsInDim S250000 (![] : Fin 0 → Fin S250000.rank)
  bcast_S_S1024 : S_.BroadcastsInDim S1024 (![] : Fin 0 → Fin S1024.rank)
  bcast_S250000_S250000x1_0 : S250000.BroadcastsInDim S250000x1 (![0] : Fin 1 → Fin S250000x1.rank)
  reducesTo_S250000x64_S250000_d1 : S250000x64.ReducesTo [1] S250000
  h_S_ : 0 < S_.numel
  bcast_S250000x1_S250000x64_0_1 : S250000x1.BroadcastsInDim S250000x64 (![0, 1] : Fin 2 → Fin S250000x64.rank)
  bcast_S_S1024x64 : S_.BroadcastsInDim S1024x64 (![] : Fin 0 → Fin S1024x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  concatenates_S1024x64_S1024x64_S1024x5_S1024x5_S1024x138_d1 : Shape.Concatenates [S1024x64, S1024x64, S1024x5, S1024x5] S1024x138 1
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1x64_S1024x64_0_1 : S1x64.BroadcastsInDim S1024x64 (![0, 1] : Fin 2 → Fin S1024x64.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S250000x6_S4000000x1_S4000000x6_1_0_n_n_0_1_16_wf : GatherDims.WF S250000x6 S4000000x1 S4000000x6 [1] [0] [] [0] [] 1 ![1, 6]
  scatter_S250000x6_S4000000x1_S4000000x6_1_0_0_1_wf : ScatterDims.WF S250000x6 S4000000x1 S4000000x6 [1] [0] [0] 1
  dot_S250000x6_S6x64_S250000x64_1_0_0_1_n_n_wf : DotDims.WF S250000x6 S6x64 S250000x64 [1] [0] [0] [1] [] []
  dot_S250000x64_S64x64_S250000x64_1_0_0_1_n_n_wf : DotDims.WF S250000x64 S64x64 S250000x64 [1] [0] [0] [1] [] []
  scatter_S1024_S250000x1_S250000_n_0_0_1_wf : ScatterDims.WF S1024 S250000x1 S250000 [] [0] [0] 1
  gather_S1024_S250000x1_S250000_n_0_n_n_0_1_1_wf : GatherDims.WF S1024 S250000x1 S250000 [] [0] [] [0] [] 1 ![1]
  gather_S250000x64_S4000000x1_S4000000x64_1_0_n_n_0_1_164_wf : GatherDims.WF S250000x64 S4000000x1 S4000000x64 [1] [0] [] [0] [] 1 ![1, 64]
  scatter_S250000x64_S4000000x1_S4000000x64_1_0_0_1_wf : ScatterDims.WF S250000x64 S4000000x1 S4000000x64 [1] [0] [0] 1
  scatter_S1024x64_S250000x1_S250000x64_1_0_0_1_wf : ScatterDims.WF S1024x64 S250000x1 S250000x64 [1] [0] [0] 1
  dot_S1024x138_S138x128_S1024x128_1_0_0_1_n_n_wf : DotDims.WF S1024x138 S138x128 S1024x128 [1] [0] [0] [1] [] []
  dot_S1024x128_S128x64_S1024x64_1_0_0_1_n_n_wf : DotDims.WF S1024x128 S128x64 S1024x64 [1] [0] [0] [1] [] []
  dot_S1024x64_S64x1_S1024x1_1_0_0_1_n_n_wf : DotDims.WF S1024x64 S64x1 S1024x1 [1] [0] [0] [1] [] []

variable [Facts₀]

def gather_S250000x6_S4000000x1_S4000000x6_1_0_n_n_0_1_16 : GatherDims S250000x6 S4000000x1 S4000000x6 where
  offsetDims := [1]
  collapsedSliceDims := [0]
  operandBatchingDims := []
  startIndicesBatchingDims := []
  startIndexMap := [0]
  indexVectorDim := 1
  sliceSizes := ![1, 6]
  wf := gather_S250000x6_S4000000x1_S4000000x6_1_0_n_n_0_1_16_wf
def scatter_S250000x6_S4000000x1_S4000000x6_1_0_0_1 : ScatterDims S250000x6 S4000000x1 S4000000x6 where
  updateWindowDims := [1]
  insertedWindowDims := [0]
  scatterDimsToOperandDims := [0]
  indexVectorDim := 1
  wf := scatter_S250000x6_S4000000x1_S4000000x6_1_0_0_1_wf
def dot_S250000x6_S6x64_S250000x64_1_0_0_1_n_n : DotDims S250000x6 S6x64 S250000x64 where
  lhsContracting := [1]
  rhsContracting := [0]
  lhsNonContracting := [0]
  rhsNonContracting := [1]
  lhsBatch := []
  rhsBatch := []
  wf := dot_S250000x6_S6x64_S250000x64_1_0_0_1_n_n_wf
def dot_S250000x64_S64x64_S250000x64_1_0_0_1_n_n : DotDims S250000x64 S64x64 S250000x64 where
  lhsContracting := [1]
  rhsContracting := [0]
  lhsNonContracting := [0]
  rhsNonContracting := [1]
  lhsBatch := []
  rhsBatch := []
  wf := dot_S250000x64_S64x64_S250000x64_1_0_0_1_n_n_wf
def scatter_S1024_S250000x1_S250000_n_0_0_1 : ScatterDims S1024 S250000x1 S250000 where
  updateWindowDims := []
  insertedWindowDims := [0]
  scatterDimsToOperandDims := [0]
  indexVectorDim := 1
  wf := scatter_S1024_S250000x1_S250000_n_0_0_1_wf
def gather_S1024_S250000x1_S250000_n_0_n_n_0_1_1 : GatherDims S1024 S250000x1 S250000 where
  offsetDims := []
  collapsedSliceDims := [0]
  operandBatchingDims := []
  startIndicesBatchingDims := []
  startIndexMap := [0]
  indexVectorDim := 1
  sliceSizes := ![1]
  wf := gather_S1024_S250000x1_S250000_n_0_n_n_0_1_1_wf
def gather_S250000x64_S4000000x1_S4000000x64_1_0_n_n_0_1_164 : GatherDims S250000x64 S4000000x1 S4000000x64 where
  offsetDims := [1]
  collapsedSliceDims := [0]
  operandBatchingDims := []
  startIndicesBatchingDims := []
  startIndexMap := [0]
  indexVectorDim := 1
  sliceSizes := ![1, 64]
  wf := gather_S250000x64_S4000000x1_S4000000x64_1_0_n_n_0_1_164_wf
def scatter_S250000x64_S4000000x1_S4000000x64_1_0_0_1 : ScatterDims S250000x64 S4000000x1 S4000000x64 where
  updateWindowDims := [1]
  insertedWindowDims := [0]
  scatterDimsToOperandDims := [0]
  indexVectorDim := 1
  wf := scatter_S250000x64_S4000000x1_S4000000x64_1_0_0_1_wf
def scatter_S1024x64_S250000x1_S250000x64_1_0_0_1 : ScatterDims S1024x64 S250000x1 S250000x64 where
  updateWindowDims := [1]
  insertedWindowDims := [0]
  scatterDimsToOperandDims := [0]
  indexVectorDim := 1
  wf := scatter_S1024x64_S250000x1_S250000x64_1_0_0_1_wf
def dot_S1024x138_S138x128_S1024x128_1_0_0_1_n_n : DotDims S1024x138 S138x128 S1024x128 where
  lhsContracting := [1]
  rhsContracting := [0]
  lhsNonContracting := [0]
  rhsNonContracting := [1]
  lhsBatch := []
  rhsBatch := []
  wf := dot_S1024x138_S138x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

class Facts : Prop extends Facts₀ where

variable [Facts]
-- ==== Proof.KB.Run.Region.lean ====
import proofs.«409413_j30142080483538_1_alg».proof.Proof.Gen.Kernel.Regions
import Idealize.ShloMosaic.Lib.Pipeline.FrameSuffix
import Idealize.ShloMosaic.Lib.Pipeline.RegionsLoop

set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg arrRef)
variable {F : FTy → Type} [FloatOps F]
local notation "𝕄" => MT nD τ sig Unit (Elt F) ℕ (UR sig nD τ) ℕ

abbrev 𝒱z : Variants := Variants.none
abbrev Lz : GSem nD τ sig → Finset Unit := fun _ => ∅
abbrev lvz : GSem nD τ sig → Unit → ℕ := fun _ _ => 0
abbrev Rz (c : Dev nD) : sProp 𝕄 := iprop((∃ r, prngReg c r) ∗ ∃ W, owes (c : Thread nD τ) (0 : CellTallies nD τ sig Unit) W)
abbrev Ez : Fin 11 → Dev nD → sProp 𝕄 := fun _ c => Rz (F := F) c

/-- `V` with each buffer of `R`, in turn, set to what `G` holds there. -/
abbrev setAt (G V : Valuation τ sig (Elt F)) (R : List (Ref sig .tc)) : Valuation τ sig (Elt F) :=
  R.foldl (fun V r => Function.update V (Proc.devRef .tc r) (G (Proc.devRef .tc r))) V

theorem setAt_spec (G : Valuation τ sig (Elt F)) (b : Ref sig .tc) : ∀ (R : List (Ref sig .tc)) (V : Valuation τ sig (Elt F)),
    (b ∈ R → setAt G V R (Proc.devRef .tc b) = G (Proc.devRef .tc b)) ∧ (b ∉ R → setAt G V R (Proc.devRef .tc b) = V (Proc.devRef .tc b))
  | [], _ => ⟨fun h => absurd h List.not_mem_nil, fun _ => rfl⟩
  | r :: R, V => by
    obtain ⟨h₁, h₂⟩ := setAt_spec G b R (Function.update V (Proc.devRef .tc r) (G (Proc.devRef .tc r)))
    refine ⟨fun h => ?_, fun h => (h₂ (List.not_mem_of_not_mem_cons h)).trans
      (Function.update_of_ne (StableHlo.devRef_ne_of_ne (List.ne_of_not_mem_cons h)) _ _)⟩
    by_cases hb : b ∈ R
    · exact h₁ hb
    · obtain rfl : b = r := (List.mem_cons.mp h).resolve_right hb
      exact (h₂ hb).trans (Function.update_self _ _ _)

section Exit
variable {p : Fin 10} {c : Dev nD} (d : Dat τ (Elt F) Unit ℕ (UR sig nD τ) ℕ (cfgs p) c) (Vi : Valuation τ sig (Elt F)) (R : List (Ref sig .tc))

/-- What a region leaves: the entry valuation `Vi` with each buffer of `R` at the contents its array ends the region with. -/
abbrev exitVal : Valuation τ sig (Elt F) :=
  setAt (Pipeline.withArrays (cfgs p).spec c Vi fun w => d.arrAt w (cfgs p).N) Vi R

/-- Every array ends at the exit valuation: one in `R` by definition, any other is an input's and ends as it began. -/
theorem exitVal_arr (hinj : Function.Injective (arrRef (cfgs p).spec)) (hA : ∀ w, d.A w = Vi (arrRef (cfgs p).spec w))
    (hio : ∀ w, arrRef (cfgs p).spec w ∉ R → ((cfgs p).win w).isOut = false) (w : Fin (cfgs p).W) :
    d.arrAt w (cfgs p).N = exitVal d Vi R (arrRef (cfgs p).spec w) := by
  by_cases h : arrRef (cfgs p).spec w ∈ R
  · exact (((setAt_spec (Pipeline.withArrays (cfgs p).spec c Vi fun w => d.arrAt w (cfgs p).N) _ R Vi).1 h).trans
      (Pipeline.withArrays_arr _ hinj c Vi _ w)).symm
  · exact ((Dat.arrAt_in d w (hio w h) _).trans (hA w)).trans ((setAt_spec _ _ R Vi).2 h).symm

/-- A buffer that is no array of the region is as at entry. -/
theorem exitVal_rest (b : Ref sig .tc) (hb : b ∉ Finset.univ.image (arrRef (cfgs p).spec)) : exitVal d Vi R b = Vi b := by
  by_cases h : b ∈ R
  · exact ((setAt_spec _ _ R Vi).1 h).trans
      (Pipeline.withArrays_of_ne _ c Vi _ b fun w e => hb (Finset.mem_image.mpr ⟨w, Finset.mem_univ _, e⟩))
  · exact (setAt_spec _ _ R Vi).2 h

end Exit

set_option maxHeartbeats 4000000 in
set_option backward.isDefEq.respectTransparency.types false in
/-- A region as a segment between the valuations `Vi` and `Vo`: its arrays leave the unscoped buffers at entry and return at exit. -/
def regOf {p : Fin 10} (pd : (p : Fin 10) → (c : Dev nD) → Dat τ (Elt F) Unit ℕ (UR sig nD τ) ℕ (cfgs p) c)
    (L : Pipeline.LaunchFacts (nD := nD) (τ := τ) cfgs p) (Vi Vo : Dev nD → Valuation τ sig (Elt F)) (R : List (Ref sig .tc))
    (hq : ∀ c w, (pd p c).q w = fullShare) (howed : ∀ c t, (pd p c).owed t = 0) (hrec : ∀ c t, (pd p c).recorded t = Set.univ)
    (hA : ∀ c w, (pd p c).A w = Vi c (arrRef (cfgs p).spec w)) (hVo : ∀ c, Vo c = exitVal (pd p c) (Vi c) R)
    (hio : ∀ w, arrRef (cfgs p).spec w ∉ R → ((cfgs p).win w).isOut = false)
    (hbody : ∀ c, BodyObligation (pd p c) (defs₀ (F := F)) Variants.none () Set.univ)
    (hin : ∀ c, Pipeline.ΦA (cfgs p).spec c ⊢ (pd p c).Φ 0)
    (hout : ∀ c, (pd p c).Φ (Fin.last (cfgs p).N) ⊢ Pipeline.ΦA (cfgs p).spec c) :
    RegionSeg (pcfgs (F := F)) adm pd () defs₀ 𝒱z Lz lvz p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (Vi c) ∗ Rz c)
  post c := iprop(StableHlo.held (c : Thread nD τ) (Pipeline.ucRefs τ sig) (Vo c) ∗ Rz c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm pd L.win L.arr_whole c
      ((pd p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl ((hrec c 0).symm ▸ Set.mem_univ x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine BIBase.Entails.trans (hout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c pd ((pd p c).share_full (hq c)) (fun b => Vi c b) (fun b => Vo c b) ((pd p c).arrAt · (cfgs p).N)
      (fun w => by rw [hVo c]; exact exitVal_arr _ _ R L.win.arr_inj (hA c) hio w)
      (fun b hb => by rw [hVo c]; exact exitVal_rest _ _ R b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.Kernel.Fr
-- ==== Proof.KB.Reg0.lean ====
import proofs.«409413_j30142080483538_1_alg».proof.Proof.Gen.Kernel.Launch
import proofs.«409413_j30142080483538_1_alg».proof.Proof.Gen.Kernel.Skeleton
import proofs.«409413_j30142080483538_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x6 := Rect.unit (s := S2000x6) ![0, 0] S2000x6.size inb_S2000x6_S2000x6_0_0
abbrev r0_1 : Rect S2000x6 := Rect.unit (s := S2000x6) ![0, 0] S2000x6.size inb_S2000x6_S2000x6_0_0
abbrev r0_2 : Rect S6x64 := Rect.unit (s := S6x64) ![0, 0] S6x64.size inb_S6x64_S6x64_0_0
abbrev r0_3 : Rect S1x64 := Rect.unit (s := S1x64) ![0, 0] S1x64.size inb_S1x64_S1x64_0_0
abbrev r0_4 : Rect S64x64 := Rect.unit (s := S64x64) ![0, 0] S64x64.size inb_S64x64_S64x64_0_0
abbrev r0_5 : Rect S1x64 := Rect.unit (s := S1x64) ![0, 0] S1x64.size inb_S1x64_S1x64_0_0
abbrev r0_6 : Rect S2000x64 := Rect.unit (s := S2000x64) ![0, 0] S2000x64.size inb_S2000x64_S2000x64_0_0
abbrev r0_7 : Rect S2000x1 := Rect.unit (s := S2000x1) ![0, 0] S2000x1.size inb_S2000x1_S2000x1_0_0
abbrev r0_8 : Rect S2000x1 := Rect.unit (s := S2000x1) ![0, 0] S2000x1.size inb_S2000x1_S2000x1_0_0

def out0_6 (x0 : Vec F S2000x6 .f32) (x1 : Vec F S2000x6 .f32) (x2 : Vec F S6x64 .f32) (x3 : Vec F S1x64 .f32) (x4 : Vec F S64x64 .f32) (x5 : Vec F S1x64 .f32) : Vec F S2000x64 .f32 :=
  View.canon [⟨r0_6, k0_pay1 (View.ld x0 r0_0) (View.ld x1 r0_1) (View.ld x2 r0_2) (View.ld x3 r0_3) (View.ld x4 r0_4) (View.ld x5 r0_5)⟩]

def out0_7 (x0 : Vec F S2000x6 .f32) (x1 : Vec F S2000x6 .f32) (x2 : Vec F S6x64 .f32) (x3 : Vec F S1x64 .f32) (x4 : Vec F S64x64 .f32) (x5 : Vec F S1x64 .f32) : Vec F S2000x1 .f32 :=
  View.canon [⟨r0_7, k0_pay2 (View.ld x0 r0_0) (View.ld x1 r0_1) (View.ld x2 r0_2) (View.ld x3 r0_3) (View.ld x4 r0_4) (View.ld x5 r0_5)⟩]

def out0_8 (x0 : Vec F S2000x6 .f32) (x1 : Vec F S2000x6 .f32) (x2 : Vec F S6x64 .f32) (x3 : Vec F S1x64 .f32) (x4 : Vec F S64x64 .f32) (x5 : Vec F S1x64 .f32) : Vec F S2000x1 .f32 :=
  View.canon [⟨r0_8, k0_pay3 (View.ld x0 r0_0) (View.ld x1 r0_1) (View.ld x2 r0_2) (View.ld x3 r0_3) (View.ld x4 r0_4) (View.ld x5 r0_5)⟩]

-- One store through a rectangle of the whole shape covers it, so each output reads that store's payload.
set_option maxHeartbeats 4000000 in
theorem sound_kernel0 (c : Dev nD) (E : Set ℕ) (i : grid0.Coords) (arg1 : Memref sig .tc .vmem S2000x6 .f32) (harg1 : arg1.IsWhole) (arg2 : Memref sig .tc .vmem S2000x6 .f32) (harg2 : arg2.IsWhole) (arg3 : Memref sig .tc .vmem S6x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x1 .f32) (harg8 : arg8.IsWhole) (arg9 : Memref sig .tc .vmem S2000x1 .f32) (harg9 : arg9.IsWhole)
    (x0 : Vec F S2000x6 .f32) (x1 : Vec F S2000x6 .f32) (x2 : Vec F S6x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)
            ∗ owns (c : Thread nD τ) arg8 fullShare (out0_7 x0 x1 x2 x3 x4 x5)
            ∗ owns (c : Thread nD τ) arg9 fullShare (out0_8 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro; exact View.read_writes_eq_canon _ _ _ (View.cover_of_tiled _ S2000x64.size (by rfl))
  isplitl [H7]
  · iexists _; isplitr; swap; · iexact H7
    ipureintro; exact View.read_writes_eq_canon _ _ _ (View.cover_of_tiled _ S2000x1.size (by rfl))
  iexists _; isplitr; swap; · iexact H8
  ipureintro; exact View.read_writes_eq_canon _ _ _ (View.cover_of_tiled _ S2000x1.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

theorem before0 (c : Dev nD) (t : Fin cfg0.N) :
    (∀ d, (dat0 V c).before 0 t d = iblk0 V c 0 t) ∧ (∀ d, (dat0 V c).before 1 t d = iblk0 V c 1 t) ∧
    (∀ d, (dat0 V c).before 2 t d = iblk0 V c 2 t) ∧ (∀ d, (dat0 V c).before 3 t d = iblk0 V c 3 t) ∧
    (∀ d, (dat0 V c).before 4 t d = iblk0 V c 4 t) ∧ (∀ d, (dat0 V c).before 5 t d = iblk0 V c 5 t) := by
  refine ⟨?_, ?_, ?_, ?_, ?_, ?_⟩ <;> intro d <;>
    refine Eq.trans (Dat.before_in_eq_fetched (dat0 V c) _ ?_ ?_ ?_ ?_ t d) ?_ <;> intros <;> rfl

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

theorem after0 (c : Dev nD) (t : Fin cfg0.N) :
    (dat0 V c).after 0 t = iblk0 V c 0 t ∧ (dat0 V c).after 1 t = iblk0 V c 1 t ∧ (dat0 V c).after 2 t = iblk0 V c 2 t ∧
    (dat0 V c).after 3 t = iblk0 V c 3 t ∧ (dat0 V c).after 4 t = iblk0 V c 4 t ∧ (dat0 V c).after 5 t = iblk0 V c 5 t := by
  dsimp only [dat0]; exact ⟨rfl, rfl, rfl, rfl, rfl, rfl⟩

-- At every point the obligation is the body's triple at that point's input blocks.
theorem body_obligation0 (c : Dev nD) : BodyObligation (dat0 (F := F) V c) (defs₀ (F := F)) Variants.none () Set.univ := fun t => by
  obtain ⟨b0, b1, b2, b3, b4, b5⟩ := before0 V c t
  obtain ⟨a0, a1, a2, a3, a4, a5⟩ := after0 V c t
  rw [bigSep_W0, bigSep_W0]
  simp only [b0, b1, b2, b3, b4, b5]
  rw [show (dat0 V c).Φ t.succ = (dat0 V c).Φ t.castSucc from rfl,
    show (dat0 V c).owesAt () t.succ = (dat0 V c).owesAt () t.castSucc from rfl,
    a0, a1, a2, a3, a4, a5, after0_6, after0_7, after0_8]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 (c := c) (E := Set.univ) (x0 := iblk0 V c 0 t) (x1 := iblk0 V c 1 t) (x2 := iblk0 V c 2 t) (x3 := iblk0 V c 3 t) (x4 := iblk0 V c 4 t) (x5 := iblk0 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
end Cert.Kernel.Fr
-- ==== Proof.KB.LnBody.lean ====
import proofs.«409413_j30142080483538_1_alg».proof.Proof.Gen.Kernel.Skeleton
import Idealize.ShloMosaic.Lib.Pipeline.FrameBody
import Idealize.ShloMosaic.Lib.Tactic
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

abbrev rLn0 : Rect S2000x64 := Rect.unit (s := S2000x64) ![0, 0] S2000x64.size inb_S2000x64_S2000x64_0_0
abbrev rLn1 : Rect S2000x1 := Rect.unit (s := S2000x1) ![0, 0] S2000x1.size inb_S2000x1_S2000x1_0_0
abbrev rLn2 : Rect S1x64 := Rect.unit (s := S1x64) ![0, 0] S1x64.size inb_S1x64_S1x64_0_0

def lnBody (pay : Vec F S2000x64 .f32 → Vec F S2000x1 .f32 → Vec F S2000x1 .f32 → Vec F S1x64 .f32 → Vec F S1x64 .f32 → FVec F S2000x64 .f32)
    (arg1 : Memref sig .tc .vmem S2000x64 .f32) (arg2 arg3 : Memref sig .tc .vmem S2000x1 .f32) (arg4 arg5 : Memref sig .tc .vmem S1x64 .f32) (arg6 : Memref sig .tc .vmem S2000x64 .f32) :
    Prog (TpuEff nD τ sig (Elt F) Λ₀ .tc) PUnit := do
  let v0 : Vec F S2000x64 .f32 ← Prog.lift (.load arg1 rLn0.toLoadRect (View.loadsAt_vmem h_S2000x64))
  let v2 : Vec F S2000x1 .f32 ← Prog.lift (.load arg3 rLn1.toLoadRect (View.loadsAt_vmem h_S2000x1))
  let v7 : Vec F S2000x1 .f32 ← Prog.lift (.load arg2 rLn1.toLoadRect (View.loadsAt_vmem h_S2000x1))
  let v13 : Vec F S1x64 .f32 ← Prog.lift (.load arg4 rLn2.toLoadRect (View.loadsAt_vmem h_S1x64))
  let v17 : Vec F S1x64 .f32 ← Prog.lift (.load arg5 rLn2.toLoadRect (View.loadsAt_vmem h_S1x64))
  let v23 : Vec F S2000x64 .f32 ← Prog.lift (.load arg6 rLn0.toLoadRect (View.loadsAt_vmem h_S2000x64))
  Prog.lift (.store arg6 rLn0 (pay v0 v2 v7 v13 v17) Finset.univ (View.stores_vmem_bits_univ h_S2000x64 rfl) (.inl rfl))
  pure ⟨⟩

set_option maxHeartbeats 1000000 in
-- Whatever the payload function, the body leaves the five inputs as they were and the output at the payload of the inputs.
theorem sound_ln (pay : Vec F S2000x64 .f32 → Vec F S2000x1 .f32 → Vec F S2000x1 .f32 → Vec F S1x64 .f32 → Vec F S1x64 .f32 → FVec F S2000x64 .f32)
    (c : Dev nD) (E : Set ℕ) (arg1 : Memref sig .tc .vmem S2000x64 .f32) (arg2 arg3 : Memref sig .tc .vmem S2000x1 .f32) (arg4 arg5 : Memref sig .tc .vmem S1x64 .f32) (arg6 : Memref sig .tc .vmem S2000x64 .f32)
    (x0 : Vec F S2000x64 .f32) (x1 x2 : Vec F S2000x1 .f32) (x3 x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (View.canon [⟨rLn0, pay (View.ld x0 rLn0) (View.ld x2 rLn1) (View.ld x1 rLn1) (View.ld x3 rLn2) (View.ld x4 rLn2)⟩])) -∗ K ⟨⟩))
      ⊢ wp frame (wpE (defs₀ (F := F)) Variants.none c none) E (lnBody pay arg1 arg2 arg3 arg4 arg5 arg6) K := by
  unfold lnBody owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled [⟨rLn0, _⟩] S2000x64.size (by rfl))

end Cert.Kernel.Fr
end
-- ==== Proof.KB.Reg1.lean ====
import proofs.«409413_j30142080483538_1_alg».proof.Proof.Gen.Kernel.Launch
import proofs.«409413_j30142080483538_1_alg».proof.Proof.Gen.Kernel.Points
import proofs.«409413_j30142080483538_1_alg».proof.Proof.KB.LnBody
import Idealize.ShloMosaic.Lib.Pipeline.RegionsLoop
import Idealize.ShloMosaic.Lib.Pipeline.FrameSuffix
import Idealize.ShloMosaic.Lib.Ring
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x64 := Rect.unit (s := S2000x64) ![0, 0] S2000x64.size inb_S2000x64_S2000x64_0_0
abbrev r1_1 : Rect S2000x1 := Rect.unit (s := S2000x1) ![0, 0] S2000x1.size inb_S2000x1_S2000x1_0_0
abbrev r1_2 : Rect S1x64 := Rect.unit (s := S1x64) ![0, 0] S1x64.size inb_S1x64_S1x64_0_0

def out1_5 (x0 : Vec F S2000x64 .f32) (x1 : Vec F S2000x1 .f32) (x2 : Vec F S2000x1 .f32) (x3 : Vec F S1x64 .f32) (x4 : Vec F S1x64 .f32) :
    Vec F S2000x64 .f32 :=
  View.canon [⟨r1_0, k1_pay1 (View.ld x0 r1_0) (View.ld x2 r1_1) (View.ld x1 r1_1) (View.ld x3 r1_2) (View.ld x4 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

-- What the body finds in an input window at any point is that window's block of the input array.
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ (∀ d, (dat1 V c).before 4 t d = iblk1 V c 4 t) := by
  refine ⟨?_, ?_, ?_, ?_, ?_⟩ <;> intro d <;>
    (rw [Dat.before_in_eq_fetched _ _ rfl (fun _ => rfl) (fun _ _ _ => rfl) (fun _ => by dsimp only [dat1]; rfl) t d]
     dsimp only [dat1, Dat.fetched, Dat.blockOf]; rfl)

theorem sound_body1 (c : Dev nD) (t : Fin cfg1.N) :
    iprop((dat1 V c).Φ t.castSucc ∗ (dat1 V c).owesAt () t.castSucc
      ∗ bigSep Finset.univ fun w : Fin cfg1.W => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.succ ∗ (dat1 V c).owesAt () t.succ
        ∗ bigSep Finset.univ fun w : Fin cfg1.W => owns (c : Thread nD τ) ((cfg1.win w).stage (cfg1.slots t w)) fullShare ((dat1 V c).after w t)) := by
  rw [bigSep_W1, bigSep_W1]
  obtain ⟨h0, h1, h2, h3, h4⟩ := before1 V c t
  simp only [h0, h1, h2, h3, h4]
  rw [show (dat1 V c).Φ t.succ = (dat1 V c).Φ t.castSucc from rfl,
    show (dat1 V c).owesAt () t.succ = (dat1 V c).owesAt () t.castSucc from rfl]
  dsimp only [dat1, out1_5]
  unfold bodyAt1
  rw [cc1__layernorm_relu_kernel_eq_skeleton]; unfold cc1__layernorm_relu_kernel_skel
  iintro ⟨HΦ, Ho, ⟨%d0, H0⟩, ⟨%d1, H1⟩, ⟨%d2, H2⟩, ⟨%d3, H3⟩, ⟨%d4, H4⟩, ⟨%d5, H5⟩⟩
  iapply (sound_ln k1_pay1 c Set.univ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ :=
  sound_body1 V c

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.Kernel.Fr
end
-- ==== Proof.KB.Reg2.lean ====
import proofs.«409413_j30142080483538_1_alg».proof.Proof.Gen.Kernel.Launch
import proofs.«409413_j30142080483538_1_alg».proof.Proof.Gen.Kernel.Skeleton
import proofs.«409413_j30142080483538_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x64 := Rect.unit (s := S2000x64) ![0, 0] S2000x64.size inb_S2000x64_S2000x64_0_0
abbrev r2_1 : Rect S2000x64 := Rect.unit (s := S2000x64) ![0, 0] S2000x64.size inb_S2000x64_S2000x64_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0
abbrev r2_4 : Rect S64x64 := Rect.unit (s := S64x64) ![0, 0] S64x64.size inb_S64x64_S64x64_0_0
abbrev r2_5 : Rect S1x64 := Rect.unit (s := S1x64) ![0, 0] S1x64.size inb_S1x64_S1x64_0_0
abbrev r2_6 : Rect S2000x64 := Rect.unit (s := S2000x64) ![0, 0] S2000x64.size inb_S2000x64_S2000x64_0_0
abbrev r2_7 : Rect S2000x1 := Rect.unit (s := S2000x1) ![0, 0] S2000x1.size inb_S2000x1_S2000x1_0_0
abbrev r2_8 : Rect S2000x1 := Rect.unit (s := S2000x1) ![0, 0] S2000x1.size inb_S2000x1_S2000x1_0_0

def out2_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨r2_6, k2_pay1 (View.ld x0 r2_0) (View.ld x1 r2_1) (View.ld x2 r2_2) (View.ld x3 r2_3) (View.ld x4 r2_4) (View.ld x5 r2_5)⟩]

def out2_7 (x0 : Vec F S2000x64 .f32) (x1 : Vec F S2000x64 .f32) (x2 : Vec F S64x64 .f32) (x3 : Vec F S1x64 .f32) (x4 : Vec F S64x64 .f32) (x5 : Vec F S1x64 .f32) : Vec F S2000x1 .f32 :=
  View.canon [⟨r2_7, k2_pay2 (View.ld x0 r2_0) (View.ld x1 r2_1) (View.ld x2 r2_2) (View.ld x3 r2_3) (View.ld x4 r2_4) (View.ld x5 r2_5)⟩]

def out2_8 (x0 : Vec F S2000x64 .f32) (x1 : Vec F S2000x64 .f32) (x2 : Vec F S64x64 .f32) (x3 : Vec F S1x64 .f32) (x4 : Vec F S64x64 .f32) (x5 : Vec F S1x64 .f32) : Vec F S2000x1 .f32 :=
  View.canon [⟨r2_8, k2_pay3 (View.ld x0 r2_0) (View.ld x1 r2_1) (View.ld x2 r2_2) (View.ld x3 r2_3) (View.ld x4 r2_4) (View.ld x5 r2_5)⟩]

-- One store through a rectangle of the whole shape covers it, so each output reads that store's payload.
set_option maxHeartbeats 4000000 in
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x1 .f32) (harg8 : arg8.IsWhole) (arg9 : Memref sig .tc .vmem S2000x1 .f32) (harg9 : arg9.IsWhole)
    (x0 : Vec F S2000x64 .f32) (x1 : Vec F S2000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (out2_7 x0 x1 x2 x3 x4 x5)
            ∗ owns (c : Thread nD τ) arg9 fullShare (out2_8 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro; exact View.read_writes_eq_canon _ _ _ (View.cover_of_tiled _ S2000x64.size (by rfl))
  isplitl [H7]
  · iexists _; isplitr; swap; · iexact H7
    ipureintro; exact View.read_writes_eq_canon _ _ _ (View.cover_of_tiled _ S2000x1.size (by rfl))
  iexists _; isplitr; swap; · iexact H8
  ipureintro; exact View.read_writes_eq_canon _ _ _ (View.cover_of_tiled _ S2000x1.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t) ∧ (∀ d, (dat2 V c).before 1 t d = iblk2 V c 1 t) ∧
    (∀ d, (dat2 V c).before 2 t d = iblk2 V c 2 t) ∧ (∀ d, (dat2 V c).before 3 t d = iblk2 V c 3 t) ∧
    (∀ d, (dat2 V c).before 4 t d = iblk2 V c 4 t) ∧ (∀ d, (dat2 V c).before 5 t d = iblk2 V c 5 t) := by
  refine ⟨?_, ?_, ?_, ?_, ?_, ?_⟩ <;> intro d <;>
    refine Eq.trans (Dat.before_in_eq_fetched (dat2 V c) _ ?_ ?_ ?_ ?_ t d) ?_ <;> intros <;> rfl

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

theorem after2 (c : Dev nD) (t : Fin cfg2.N) :
    (dat2 V c).after 0 t = iblk2 V c 0 t ∧ (dat2 V c).after 1 t = iblk2 V c 1 t ∧ (dat2 V c).after 2 t = iblk2 V c 2 t ∧
    (dat2 V c).after 3 t = iblk2 V c 3 t ∧ (dat2 V c).after 4 t = iblk2 V c 4 t ∧ (dat2 V c).after 5 t = iblk2 V c 5 t := by
  dsimp only [dat2]; exact ⟨rfl, rfl, rfl, rfl, rfl, rfl⟩

-- At every point the obligation is the body's triple at that point's input blocks.
theorem body_obligation2 (c : Dev nD) : BodyObligation (dat2 (F := F) V c) (defs₀ (F := F)) Variants.none () Set.univ := fun t => by
  obtain ⟨b0, b1, b2, b3, b4, b5⟩ := before2 V c t
  obtain ⟨a0, a1, a2, a3, a4, a5⟩ := after2 V c t
  rw [bigSep_W2, bigSep_W2]
  simp only [b0, b1, b2, b3, b4, b5]
  rw [show (dat2 V c).Φ t.succ = (dat2 V c).Φ t.castSucc from rfl,
    show (dat2 V c).owesAt () t.succ = (dat2 V c).owesAt () t.castSucc from rfl,
    a0, a1, a2, a3, a4, a5, after2_6, after2_7, after2_8]
  show _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 (c := c) (E := Set.univ) (x0 := iblk2 V c 0 t) (x1 := iblk2 V c 1 t) (x2 := iblk2 V c 2 t) (x3 := iblk2 V c 3 t) (x4 := iblk2 V c 4 t) (x5 := iblk2 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
end Cert.Kernel.Fr
-- ==== Proof.KB.Reg3.lean ====
import proofs.«409413_j30142080483538_1_alg».proof.Proof.Gen.Kernel.Launch
import proofs.«409413_j30142080483538_1_alg».proof.Proof.Gen.Kernel.Points
import proofs.«409413_j30142080483538_1_alg».proof.Proof.KB.LnBody
import Idealize.ShloMosaic.Lib.Pipeline.RegionsLoop
import Idealize.ShloMosaic.Lib.Pipeline.FrameSuffix
import Idealize.ShloMosaic.Lib.Ring
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit (s := S2000x64) ![0, 0] S2000x64.size inb_S2000x64_S2000x64_0_0
abbrev r3_1 : Rect S2000x1 := Rect.unit (s := S2000x1) ![0, 0] S2000x1.size inb_S2000x1_S2000x1_0_0
abbrev r3_2 : Rect S1x64 := Rect.unit (s := S1x64) ![0, 0] S1x64.size inb_S1x64_S1x64_0_0

def out3_5 (x0 : Vec F S2000x64 .f32) (x1 : Vec F S2000x1 .f32) (x2 : Vec F S2000x1 .f32) (x3 : Vec F S1x64 .f32) (x4 : Vec F S1x64 .f32) :
    Vec F S2000x64 .f32 :=
  View.canon [⟨r3_0, k3_pay1 (View.ld x0 r3_0) (View.ld x2 r3_1) (View.ld x1 r3_1) (View.ld x3 r3_2) (View.ld x4 r3_2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

-- What the body finds in an input window at any point is that window's block of the input array.
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ (∀ d, (dat3 V c).before 4 t d = iblk3 V c 4 t) := by
  refine ⟨?_, ?_, ?_, ?_, ?_⟩ <;> intro d <;>
    (rw [Dat.before_in_eq_fetched _ _ rfl (fun _ => rfl) (fun _ _ _ => rfl) (fun _ => by dsimp only [dat3]; rfl) t d]
     dsimp only [dat3, Dat.fetched, Dat.blockOf]; rfl)

theorem sound_body3 (c : Dev nD) (t : Fin cfg3.N) :
    iprop((dat3 V c).Φ t.castSucc ∗ (dat3 V c).owesAt () t.castSucc
      ∗ bigSep Finset.univ fun w : Fin cfg3.W => iprop(∃ d, owns (c : Thread nD τ) ((cfg3.win w).stage (cfg3.slots t w)) fullShare ((dat3 V c).before w t d)))
    ⊢ wp frame (wpE (defs₀ (F := F)) Variants.none c none) Set.univ (bodyAt3 t) fun _ =>
      iprop((dat3 V c).Φ t.succ ∗ (dat3 V c).owesAt () t.succ
        ∗ bigSep Finset.univ fun w : Fin cfg3.W => owns (c : Thread nD τ) ((cfg3.win w).stage (cfg3.slots t w)) fullShare ((dat3 V c).after w t)) := by
  rw [bigSep_W3, bigSep_W3]
  obtain ⟨h0, h1, h2, h3, h4⟩ := before3 V c t
  simp only [h0, h1, h2, h3, h4]
  rw [show (dat3 V c).Φ t.succ = (dat3 V c).Φ t.castSucc from rfl,
    show (dat3 V c).owesAt () t.succ = (dat3 V c).owesAt () t.castSucc from rfl]
  dsimp only [dat3, out3_5]
  unfold bodyAt3
  rw [cc3__layernorm_relu_kernel_eq_skeleton]; unfold cc3__layernorm_relu_kernel_skel
  iintro ⟨HΦ, Ho, ⟨%d0, H0⟩, ⟨%d1, H1⟩, ⟨%d2, H2⟩, ⟨%d3, H3⟩, ⟨%d4, H4⟩, ⟨%d5, H5⟩⟩
  iapply (sound_ln k3_pay1 c Set.univ _ _ _ _ _ _
    (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

theorem body_obligation3 (c : Dev nD) : BodyObligation (dat3 (F := F) V c) (defs₀ (F := F)) Variants.none () Set.univ :=
  sound_body3 V c

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.Kernel.Fr
end
-- ==== Proof.KB.Reg4.lean ====
import proofs.«409413_j30142080483538_1_alg».proof.Proof.Gen.Kernel.Launch
import proofs.«409413_j30142080483538_1_alg».proof.Proof.Gen.Kernel.Skeleton
import proofs.«409413_j30142080483538_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ms4_0 (t : Fin cfg4.N) : Memref sig .tc .vmem S2000x64 .f32 := win4_0.stage (cfg4.slots t 0)
abbrev ms4_1 (t : Fin cfg4.N) : Memref sig .tc .vmem S2000x1 .i32 := win4_1.stage (cfg4.slots t 1)
abbrev ms4_2 (t : Fin cfg4.N) : Memref sig .tc .vmem S1024x64 .f32 := win4_2.stage (cfg4.slots t 2)
abbrev scM4 : Memref sig .tc .vmem S1024x64 .f32 := Memref.whole cc4_scratch0

def acc4 (c : Dev nD) : (n : ℕ) → n < cfg4.N → Vec F S1024x64 .f32
  | 0, h => k4_pay2 (iblk4 V c 0 ⟨0, h⟩) (iblk4 V c 1 ⟨0, h⟩) k4_pay1
  | n + 1, h => k4_pay2 (iblk4 V c 0 ⟨n + 1, h⟩) (iblk4 V c 1 ⟨n + 1, h⟩) (acc4 c n (Nat.lt_of_succ_lt h))

theorem acc4_zero (c : Dev nD) (h : 0 < cfg4.N) :
    acc4 V c 0 h = k4_pay2 (iblk4 V c 0 ⟨0, h⟩) (iblk4 V c 1 ⟨0, h⟩) k4_pay1 := rfl

theorem acc4_succ (c : Dev nD) (n : ℕ) (h : n + 1 < cfg4.N) :
    acc4 V c (n + 1) h = k4_pay2 (iblk4 V c 0 ⟨n + 1, h⟩) (iblk4 V c 1 ⟨n + 1, h⟩) (acc4 V c n (Nat.lt_of_succ_lt h)) := rfl

abbrev Rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(((∃ d, owns (c : Thread nD τ) scM4 fullShare d) ∗ Rest4 (F := F) c) ∗ (∃ r, prngReg c r)) := by
  unfold Pipeline.ΦA; rw [scopedRest4_split]; simp only [scM4, owns_whole]; try rfl

def Phi4 (c : Dev nD) : (n : ℕ) → n ≤ cfg4.N → sProp 𝕄
  | 0, _ => Pipeline.ΦA spec4 c
  | n + 1, hn => iprop((owns (c : Thread nD τ) scM4 fullShare (acc4 V c n hn) ∗ Rest4 (F := F) c) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem after4_2 (c : Dev nD) (t : Fin cfg4.N) : (dat4 V c).after 2 t = acc4 V c t.val t.isLt := by dsimp only [dat4]

theorem hcond4_2 : ∀ t : Fin cfg4.N, k4_cond2 (grid4.coords t) = 1#1 ↔ t.val = 124 :=
  (by decide +kernel : ∀ t : Fin grid4.N, k4_cond2 (grid4.coords t) = 1#1 ↔ t.val = 124)

theorem idleAt4_2 : ∀ t : Fin cfg4.N, t.val ≠ 124 → cfg4.idle 2 (grid4.coords t) = true := by decide +kernel
theorem liveAt4_2 : ∀ t : Fin cfg4.N, t.val = 124 → cfg4.idle 2 (grid4.coords t) = false := by decide +kernel
theorem noFlush4_2 : ∀ t : Fin cfg4.N, t.val ≠ 124 → (cfg4.win 2).flush t = false := by decide +kernel

theorem before4_0 (c : Dev nD) (t : Fin cfg4.N) (d) : (dat4 V c).before 0 t d = iblk4 V c 0 t :=
  (dat4 V c).before_fetched 0 t (fetch4_0 t) d
theorem before4_1 (c : Dev nD) (t : Fin cfg4.N) (d) : (dat4 V c).before 1 t d = iblk4 V c 1 t :=
  (dat4 V c).before_fetched 1 t (fetch4_1 t) d

section Run
variable {κ : Kind} {sp : Space} {S : Shape} {e : EltTy}

theorem z4 : (![0, 0] : Fin 2 → ℕ) = fun _ => 0 := funext fun a => by fin_cases a <;> rfl

-- One store through the whole-shape rectangle, made last, covers every index: the buffer then reads its payload.
theorem rdw4 {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w :=
  (View.read_writes_eq_canon v f _ (fun y => ⟨_, List.mem_cons.mpr (.inl rfl), View.mem_set_unit_zero h inb y⟩)).trans
    (View.canon_cons_unit_zero h inb w L)

theorem ldw4 (v : View sig κ sp S e) (f : v.ty.Contents (Elt F)) {off : Fin S.rank → Nat} (h : off = fun _ => 0)
    (inb : ∀ a, off a + S.size a ≤ S.size a) :
    View.readAt (Elt F) v (Rect.unit off S.size inb).toLoadRect f = v.read (Elt F) f := View.ld_unit_zero h _ _

theorem rdc4 {Val : EltTy → Type} [∀ e, Nonempty (Val e)] (v : View sig κ sp S e) {off : Fin S.rank → Nat} (h : off = fun _ => 0)
    (inb : ∀ a, off a + S.size a ≤ S.size a) (w : S.Idx → Val e) (L : List (View.Piece Val S e)) :
    v.readCov (⟨Rect.unit off S.size inb, w⟩ :: L) (Rect.unit off S.size inb).toLoadRect = w := by
  rw [View.readCov_eq_canon_ld _ _ _ (fun y => ⟨_, List.mem_cons.mpr (.inl rfl), View.mem_set_unit_zero h inb y⟩),
    View.canon_cons_unit_zero h, View.ld_unit_zero h]

abbrev cond4_1 (i : grid4.Coords) : Prop :=
  (Scalar.cmpi .ne (Scalar.extui (Scalar.cmpi .eq (BitVec.ofNat 32 (i 0).val) 0#32)) 0#32) = 1#1

-- At every grid point the accumulator takes the point's payload over its old contents (over the zero payload at the first point); the last point also stores it to the output.
set_option maxHeartbeats 1000000 in
theorem run4 {p1 : FVec F S1024x64 .f32} {p2 : Vec F S2000x64 .f32 → Vec F S2000x1 .i32 → Vec F S1024x64 .f32 → FVec F S1024x64 .f32}
    {c2 : grid4.Coords → BitVec 1} (hp1 : p1 = k4_pay1) (hp2 : p2 = k4_pay2) (hk : c2 = k4_cond2) (c : Dev nD) (i : grid4.Coords)
    (arg1 : Memref sig .tc .vmem S2000x64 .f32) (harg1 : arg1.IsWhole) (arg2 : Memref sig .tc .vmem S2000x1 .i32) (harg2 : arg2.IsWhole)
    (arg3 : Memref sig .tc .vmem S1024x64 .f32) (harg3 : arg3.IsWhole) (argS : Memref sig .tc .vmem S1024x64 .f32) (hargS : argS.IsWhole)
    {prog : Prog (TpuEff nD τ sig (Elt F) Λ₀ .tc) PUnit} (hprog : prog = cc4__lambda_ i arg1 harg1 arg2 harg2 arg3 harg3 argS hargS)
    (x : Vec F S2000x64 .f32) (b : Vec F S2000x1 .i32) (o a : Vec F S1024x64 .f32) (E : Set ℕ) (K : PUnit → sProp 𝕄) :
    iprop(owns (c : Thread nD τ) arg1 fullShare x ∗ owns (c : Thread nD τ) arg2 fullShare b ∗ owns (c : Thread nD τ) arg3 fullShare o
        ∗ owns (c : Thread nD τ) argS fullShare a
        ∗ (iprop(owns (c : Thread nD τ) arg1 fullShare x ∗ owns (c : Thread nD τ) arg2 fullShare b
            ∗ owns (c : Thread nD τ) arg3 fullShare (if c2 i = 1#1 then p2 x b (if cond4_1 i then p1 else a) else o)
            ∗ owns (c : Thread nD τ) argS fullShare (p2 x b (if cond4_1 i then p1 else a))) -∗ K ⟨⟩))
      ⊢ wp frame (wpE (defs₀ (F := F)) Variants.none c none) E prog K := by
  subst hp1 hp2 hk hprog
  by_cases hc1 : cond4_1 i <;> by_cases hc2 : k4_cond2 i = 1#1 <;>
  · first | simp only [if_neg hc1] | simp only [if_pos hc1]
    first | simp only [if_neg hc2] | simp only [if_pos hc2]
    simp only [cc4__lambda__eq_skeleton]; unfold cc4__lambda__skel owns
    iintro ⟨⟨%f1, %hf1, H1⟩, ⟨%f2, %hf2, H2⟩, ⟨%f3, %hf3, H3⟩, ⟨%fS, %hfS, HS⟩, Hk⟩
    subst hf1 hf2 hf3 hfS
    sl_exec (disch := first | exact hc1 | exact hc2)
    sl_step
    iapply Hk
    isplitl [H1]
    · iexists f1; isplitr; · ipureintro; rfl
      iexact H1
    isplitl [H2]
    · iexists f2; isplitr; · ipureintro; rfl
      iexact H2
    isplitl [H3]
    all_goals
      iexists _; isplitr; swap; · iassumption
      ipureintro
      sl_unfold_run_names
      simp only [rdw4 (S := S1024x64) _ _ z4, rdc4 (S := S1024x64) _ z4,
        ldw4 (S := S2000x64) _ _ z4, ldw4 (S := S2000x1) _ _ z4, ldw4 (S := S1024x64) _ _ z4]

end Run

theorem hcond4_1 : ∀ t : Fin cfg4.N, cond4_1 (grid4.coords t) ↔ t.val = 0 :=
  (by decide +kernel : ∀ t : Fin grid4.N, cond4_1 (grid4.coords t) ↔ t.val = 0)

-- Before any point the scratch is held at some contents over which this point's payload is the accumulation so far.
theorem Phi4_open (c : Dev nD) (n : ℕ) (h : n ≤ cfg4.N) :
    Phi4 V c n h ⊢ iprop(∃ a, ⌜∀ h' : n < cfg4.N, acc4 V c n h'
        = k4_pay2 (iblk4 V c 0 ⟨n, h'⟩) (iblk4 V c 1 ⟨n, h'⟩) (if cond4_1 (grid4.coords ⟨n, h'⟩) then k4_pay1 else a)⌝
      ∗ (owns (c : Thread nD τ) scM4 fullShare a ∗ Rest4 (F := F) c) ∗ (∃ r, prngReg c r)) := by
  cases n with
  | zero =>
    simp only [Phi4, PhiA4_eq]
    iintro ⟨⟨⟨%a, HS⟩, HR⟩, Hg⟩
    iexists a; iframe; ipureintro; intro h'; rw [if_pos ((hcond4_1 ⟨0, h'⟩).mpr rfl)]; rfl
  | succ n =>
    simp only [Phi4]
    iintro ⟨⟨HS, HR⟩, Hg⟩
    iexists _; iframe; ipureintro; intro h'
    rw [if_neg fun h => absurd ((hcond4_1 ⟨n + 1, h'⟩).mp h) (Nat.succ_ne_zero n)]; rfl

theorem body_obligation4 (c : Dev nD) : BodyObligation (dat4 (F := F) V c) (defs₀ (F := F)) Variants.none () Set.univ := fun t => by
  rw [bigSep_W4, bigSep_W4]
  show iprop(Phi4 V c t.val (Nat.le_of_lt t.isLt) ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d)))
    ⊢ wp frame (wpE (defs₀ (F := F)) Variants.none c none) Set.univ (bodyAt4 t) fun _ =>
      iprop(((owns (c : Thread nD τ) scM4 fullShare (acc4 V c t.val t.isLt) ∗ Rest4 (F := F) c) ∗ (∃ r, prngReg c r))
        ∗ (dat4 V c).owesAt () t.castSucc
        ∗ owns (c : Thread nD τ) (ms4_0 t) fullShare (iblk4 V c 0 t)
        ∗ owns (c : Thread nD τ) (ms4_1 t) fullShare (iblk4 V c 1 t)
        ∗ (dat4 V c).leavesExact 2 t)
  simp only [before4_0, before4_1]
  iintro ⟨HP, Ho, ⟨%d0, H0⟩, ⟨%d1, H1⟩, ⟨%d2, H2⟩⟩
  icases (Phi4_open V c t.val _) $$ HP with ⟨%a, %ha, ⟨HS, HR⟩, Hg⟩
  replace ha := ha t.isLt
  iapply (run4 (p1 := k4_pay1) (p2 := k4_pay2) (c2 := k4_cond2) (prog := bodyAt4 t) rfl rfl rfl c (grid4.coords t) (ms4_0 t) (hstage4_0 ((cfg4.slots t 0).cast nbuf4_0))
    (ms4_1 t) (hstage4_1 ((cfg4.slots t 1).cast nbuf4_1)) (ms4_2 t) (hstage4_2 ((cfg4.slots t 2).cast nbuf4_2)) scM4 (Memref.isWhole_whole _) rfl
    (iblk4 V c 0 t) (iblk4 V c 1 t) _ a Set.univ _)
  iframe H0 H1 H2 HS
  iintro ⟨H0, H1, H2, HS⟩
  by_cases h1 : t.val = 124
  · rw [show (dat4 V c).leavesExact 2 t = owns (c : Thread nD τ) (ms4_2 t) fullShare ((dat4 V c).after 2 t) from by
      unfold Dat.leavesExact; rw [liveAt4_2 t h1], after4_2, ha, if_pos ((hcond4_2 t).mpr h1)]
    iframe
  · rw [Dat.leavesExact_idle (dat4 V c) 2 t (idleAt4_2 t h1) (noFlush4_2 t h1), ha, if_neg fun h => h1 ((hcond4_2 t).mp h)]
    iframe HS HR Hg Ho H0 H1
    iexists _; iexact H2

theorem hin4 (c : Dev nD) : Pipeline.ΦA spec4 c ⊢ (dat4 V c).Φ 0 := Idealize.SL.BI.Entails.refl _

theorem hout4 (c : Dev nD) : (dat4 V c).Φ (Fin.last cfg4.N) ⊢ Pipeline.ΦA spec4 c := by
  rw [PhiA4_eq]
  show Phi4 V c cfg4.N (Nat.le_refl _) ⊢ _
  iintro H
  icases (Phi4_open V c _ _) $$ H with ⟨%a, -, ⟨HS, HR⟩, Hg⟩
  iframe HR Hg
  iexists _; iexact HS

end Cert.Kernel.Fr
end
-- ==== Proof.KB.Reg5.lean ====
import proofs.«409413_j30142080483538_1_alg».proof.Proof.Gen.Kernel.Launch
import proofs.«409413_j30142080483538_1_alg».proof.Proof.Gen.Kernel.Skeleton
import proofs.«409413_j30142080483538_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x6 := Rect.unit (s := S2000x6) ![0, 0] S2000x6.size inb_S2000x6_S2000x6_0_0
abbrev r5_1 : Rect S2000x6 := Rect.unit (s := S2000x6) ![0, 0] S2000x6.size inb_S2000x6_S2000x6_0_0
abbrev r5_2 : Rect S6x64 := Rect.unit (s := S6x64) ![0, 0] S6x64.size inb_S6x64_S6x64_0_0
abbrev r5_3 : Rect S1x64 := Rect.unit (s := S1x64) ![0, 0] S1x64.size inb_S1x64_S1x64_0_0
abbrev r5_4 : Rect S64x64 := Rect.unit (s := S64x64) ![0, 0] S64x64.size inb_S64x64_S64x64_0_0
abbrev r5_5 : Rect S1x64 := Rect.unit (s := S1x64) ![0, 0] S1x64.size inb_S1x64_S1x64_0_0
abbrev r5_6 : Rect S2000x64 := Rect.unit (s := S2000x64) ![0, 0] S2000x64.size inb_S2000x64_S2000x64_0_0
abbrev r5_7 : Rect S2000x1 := Rect.unit (s := S2000x1) ![0, 0] S2000x1.size inb_S2000x1_S2000x1_0_0
abbrev r5_8 : Rect S2000x1 := Rect.unit (s := S2000x1) ![0, 0] S2000x1.size inb_S2000x1_S2000x1_0_0

def out5_6 (x0 : Vec F S2000x6 .f32) (x1 : Vec F S2000x6 .f32) (x2 : Vec F S6x64 .f32) (x3 : Vec F S1x64 .f32) (x4 : Vec F S64x64 .f32) (x5 : Vec F S1x64 .f32) : Vec F S2000x64 .f32 :=
  View.canon [⟨r5_6, k5_pay1 (View.ld x0 r5_0) (View.ld x1 r5_1) (View.ld x2 r5_2) (View.ld x3 r5_3) (View.ld x4 r5_4) (View.ld x5 r5_5)⟩]

def out5_7 (x0 : Vec F S2000x6 .f32) (x1 : Vec F S2000x6 .f32) (x2 : Vec F S6x64 .f32) (x3 : Vec F S1x64 .f32) (x4 : Vec F S64x64 .f32) (x5 : Vec F S1x64 .f32) : Vec F S2000x1 .f32 :=
  View.canon [⟨r5_7, k5_pay2 (View.ld x0 r5_0) (View.ld x1 r5_1) (View.ld x2 r5_2) (View.ld x3 r5_3) (View.ld x4 r5_4) (View.ld x5 r5_5)⟩]

def out5_8 (x0 : Vec F S2000x6 .f32) (x1 : Vec F S2000x6 .f32) (x2 : Vec F S6x64 .f32) (x3 : Vec F S1x64 .f32) (x4 : Vec F S64x64 .f32) (x5 : Vec F S1x64 .f32) : Vec F S2000x1 .f32 :=
  View.canon [⟨r5_8, k5_pay3 (View.ld x0 r5_0) (View.ld x1 r5_1) (View.ld x2 r5_2) (View.ld x3 r5_3) (View.ld x4 r5_4) (View.ld x5 r5_5)⟩]

-- One store through a rectangle of the whole shape covers it, so each output reads that store's payload.
set_option maxHeartbeats 4000000 in
theorem sound_kernel5 (c : Dev nD) (E : Set ℕ) (i : grid5.Coords) (arg1 : Memref sig .tc .vmem S2000x6 .f32) (harg1 : arg1.IsWhole) (arg2 : Memref sig .tc .vmem S2000x6 .f32) (harg2 : arg2.IsWhole) (arg3 : Memref sig .tc .vmem S6x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x1 .f32) (harg8 : arg8.IsWhole) (arg9 : Memref sig .tc .vmem S2000x1 .f32) (harg9 : arg9.IsWhole)
    (x0 : Vec F S2000x6 .f32) (x1 : Vec F S2000x6 .f32) (x2 : Vec F S6x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)
            ∗ owns (c : Thread nD τ) arg8 fullShare (out5_7 x0 x1 x2 x3 x4 x5)
            ∗ owns (c : Thread nD τ) arg9 fullShare (out5_8 x0 x1 x2 x3 x4 x5)) -∗ K ⟨⟩))
      ⊢ wp frame (wpE (defs₀ (F := F)) Variants.none c none) E (cc5__gin_mlp_kernel i arg1 harg1 arg2 harg2 arg3 harg3 arg4 harg4 arg5 harg5 arg6 harg6 arg7 harg7 arg8 harg8 arg9 harg9) K := by
  simp only [cc5__gin_mlp_kernel_eq_skeleton]; unfold cc5__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro; exact View.read_writes_eq_canon _ _ _ (View.cover_of_tiled _ S2000x64.size (by rfl))
  isplitl [H7]
  · iexists _; isplitr; swap; · iexact H7
    ipureintro; exact View.read_writes_eq_canon _ _ _ (View.cover_of_tiled _ S2000x1.size (by rfl))
  iexists _; isplitr; swap; · iexact H8
  ipureintro; exact View.read_writes_eq_canon _ _ _ (View.cover_of_tiled _ S2000x1.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
    | ⟨7, _⟩ => out5_7 (iblk5 V c 0 t) (iblk5 V c 1 t) (iblk5 V c 2 t) (iblk5 V c 3 t) (iblk5 V c 4 t) (iblk5 V c 5 t)
    | ⟨8, _⟩ => out5_8 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) := by dsimp only [dat5]

theorem before5 (c : Dev nD) (t : Fin cfg5.N) :
    (∀ d, (dat5 V c).before 0 t d = iblk5 V c 0 t) ∧ (∀ d, (dat5 V c).before 1 t d = iblk5 V c 1 t) ∧
    (∀ d, (dat5 V c).before 2 t d = iblk5 V c 2 t) ∧ (∀ d, (dat5 V c).before 3 t d = iblk5 V c 3 t) ∧
    (∀ d, (dat5 V c).before 4 t d = iblk5 V c 4 t) ∧ (∀ d, (dat5 V c).before 5 t d = iblk5 V c 5 t) := by
  refine ⟨?_, ?_, ?_, ?_, ?_, ?_⟩ <;> intro d <;>
    refine Eq.trans (Dat.before_in_eq_fetched (dat5 V c) _ ?_ ?_ ?_ ?_ t d) ?_ <;> intros <;> rfl

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

theorem after5 (c : Dev nD) (t : Fin cfg5.N) :
    (dat5 V c).after 0 t = iblk5 V c 0 t ∧ (dat5 V c).after 1 t = iblk5 V c 1 t ∧ (dat5 V c).after 2 t = iblk5 V c 2 t ∧
    (dat5 V c).after 3 t = iblk5 V c 3 t ∧ (dat5 V c).after 4 t = iblk5 V c 4 t ∧ (dat5 V c).after 5 t = iblk5 V c 5 t := by
  dsimp only [dat5]; exact ⟨rfl, rfl, rfl, rfl, rfl, rfl⟩

-- At every point the obligation is the body's triple at that point's input blocks.
theorem body_obligation5 (c : Dev nD) : BodyObligation (dat5 (F := F) V c) (defs₀ (F := F)) Variants.none () Set.univ := fun t => by
  obtain ⟨b0, b1, b2, b3, b4, b5⟩ := before5 V c t
  obtain ⟨a0, a1, a2, a3, a4, a5⟩ := after5 V c t
  rw [bigSep_W5, bigSep_W5]
  simp only [b0, b1, b2, b3, b4, b5]
  rw [show (dat5 V c).Φ t.succ = (dat5 V c).Φ t.castSucc from rfl,
    show (dat5 V c).owesAt () t.succ = (dat5 V c).owesAt () t.castSucc from rfl,
    a0, a1, a2, a3, a4, a5, after5_6, after5_7, after5_8]
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 (c := c) (E := Set.univ) (x0 := iblk5 V c 0 t) (x1 := iblk5 V c 1 t) (x2 := iblk5 V c 2 t) (x3 := iblk5 V c 3 t) (x4 := iblk5 V c 4 t) (x5 := iblk5 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
end Cert.Kernel.Fr
-- ==== Proof.KB.Reg6.lean ====
import proofs.«409413_j30142080483538_1_alg».proof.Proof.Gen.Kernel.Launch
import proofs.«409413_j30142080483538_1_alg».proof.Proof.Gen.Kernel.Points
import proofs.«409413_j30142080483538_1_alg».proof.Proof.KB.LnBody
import Idealize.ShloMosaic.Lib.Pipeline.RegionsLoop
import Idealize.ShloMosaic.Lib.Pipeline.FrameSuffix
import Idealize.ShloMosaic.Lib.Ring
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x64 := Rect.unit (s := S2000x64) ![0, 0] S2000x64.size inb_S2000x64_S2000x64_0_0
abbrev r6_1 : Rect S2000x1 := Rect.unit (s := S2000x1) ![0, 0] S2000x1.size inb_S2000x1_S2000x1_0_0
abbrev r6_2 : Rect S1x64 := Rect.unit (s := S1x64) ![0, 0] S1x64.size inb_S1x64_S1x64_0_0

def out6_5 (x0 : Vec F S2000x64 .f32) (x1 : Vec F S2000x1 .f32) (x2 : Vec F S2000x1 .f32) (x3 : Vec F S1x64 .f32) (x4 : Vec F S1x64 .f32) :
    Vec F S2000x64 .f32 :=
  View.canon [⟨r6_0, k6_pay1 (View.ld x0 r6_0) (View.ld x2 r6_1) (View.ld x1 r6_1) (View.ld x3 r6_2) (View.ld x4 r6_2)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

-- What the body finds in an input window at any point is that window's block of the input array.
theorem before6 (c : Dev nD) (t : Fin cfg6.N) :
    (∀ d, (dat6 V c).before 0 t d = iblk6 V c 0 t) ∧ (∀ d, (dat6 V c).before 1 t d = iblk6 V c 1 t)
      ∧ (∀ d, (dat6 V c).before 2 t d = iblk6 V c 2 t) ∧ (∀ d, (dat6 V c).before 3 t d = iblk6 V c 3 t)
      ∧ (∀ d, (dat6 V c).before 4 t d = iblk6 V c 4 t) := by
  refine ⟨?_, ?_, ?_, ?_, ?_⟩ <;> intro d <;>
    (rw [Dat.before_in_eq_fetched _ _ rfl (fun _ => rfl) (fun _ _ _ => rfl) (fun _ => by dsimp only [dat6]; rfl) t d]
     dsimp only [dat6, Dat.fetched, Dat.blockOf]; rfl)

theorem sound_body6 (c : Dev nD) (t : Fin cfg6.N) :
    iprop((dat6 V c).Φ t.castSucc ∗ (dat6 V c).owesAt () t.castSucc
      ∗ bigSep Finset.univ fun w : Fin cfg6.W => iprop(∃ d, owns (c : Thread nD τ) ((cfg6.win w).stage (cfg6.slots t w)) fullShare ((dat6 V c).before w t d)))
    ⊢ wp frame (wpE (defs₀ (F := F)) Variants.none c none) Set.univ (bodyAt6 t) fun _ =>
      iprop((dat6 V c).Φ t.succ ∗ (dat6 V c).owesAt () t.succ
        ∗ bigSep Finset.univ fun w : Fin cfg6.W => owns (c : Thread nD τ) ((cfg6.win w).stage (cfg6.slots t w)) fullShare ((dat6 V c).after w t)) := by
  rw [bigSep_W6, bigSep_W6]
  obtain ⟨h0, h1, h2, h3, h4⟩ := before6 V c t
  simp only [h0, h1, h2, h3, h4]
  rw [show (dat6 V c).Φ t.succ = (dat6 V c).Φ t.castSucc from rfl,
    show (dat6 V c).owesAt () t.succ = (dat6 V c).owesAt () t.castSucc from rfl]
  dsimp only [dat6, out6_5]
  unfold bodyAt6
  rw [cc6__layernorm_relu_kernel_eq_skeleton]; unfold cc6__layernorm_relu_kernel_skel
  iintro ⟨HΦ, Ho, ⟨%d0, H0⟩, ⟨%d1, H1⟩, ⟨%d2, H2⟩, ⟨%d3, H3⟩, ⟨%d4, H4⟩, ⟨%d5, H5⟩⟩
  iapply (sound_ln k6_pay1 c Set.univ _ _ _ _ _ _
    (iblk6 V c 0 t) (iblk6 V c 1 t) (iblk6 V c 2 t) (iblk6 V c 3 t) (iblk6 V c 4 t) _)
  iframe H0 H1 H2 H3 H4
  isplitl [H5]; · iexists _; iexact H5
  iintro ⟨H0, H1, H2, H3, H4, H5⟩
  iframe

theorem body_obligation6 (c : Dev nD) : BodyObligation (dat6 (F := F) V c) (defs₀ (F := F)) Variants.none () Set.univ :=
  sound_body6 V c

theorem hin6 (c : Dev nD) : Pipeline.ΦA spec6 c ⊢ (dat6 V c).Φ 0 := .rfl

theorem hout6 (c : Dev nD) : (dat6 V c).Φ (Fin.last cfg6.N) ⊢ Pipeline.ΦA spec6 c := .rfl

end Cert.Kernel.Fr
end
-- ==== Proof.KB.Reg7.lean ====
import proofs.«409413_j30142080483538_1_alg».proof.Proof.Gen.Kernel.Launch
import proofs.«409413_j30142080483538_1_alg».proof.Proof.Gen.Kernel.Skeleton
import proofs.«409413_j30142080483538_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S2000x64 := Rect.unit (s := S2000x64) ![0, 0] S2000x64.size inb_S2000x64_S2000x64_0_0
abbrev r7_1 : Rect S2000x64 := Rect.unit (s := S2000x64) ![0, 0] S2000x64.size inb_S2000x64_S2000x64_0_0
abbrev r7_2 : Rect S64x64 := Rect.unit (s := S64x64) ![0, 0] S64x64.size inb_S64x64_S64x64_0_0
abbrev r7_3 : Rect S1x64 := Rect.unit (s := S1x64) ![0, 0] S1x64.size inb_S1x64_S1x64_0_0
abbrev r7_4 : Rect S64x64 := Rect.unit (s := S64x64) ![0, 0] S64x64.size inb_S64x64_S64x64_0_0
abbrev r7_5 : Rect S1x64 := Rect.unit (s := S1x64) ![0, 0] S1x64.size inb_S1x64_S1x64_0_0
abbrev r7_6 : Rect S2000x64 := Rect.unit (s := S2000x64) ![0, 0] S2000x64.size inb_S2000x64_S2000x64_0_0
abbrev r7_7 : Rect S2000x1 := Rect.unit (s := S2000x1) ![0, 0] S2000x1.size inb_S2000x1_S2000x1_0_0
abbrev r7_8 : Rect S2000x1 := Rect.unit (s := S2000x1) ![0, 0] S2000x1.size inb_S2000x1_S2000x1_0_0

def out7_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨r7_6, k7_pay1 (View.ld x0 r7_0) (View.ld x1 r7_1) (View.ld x2 r7_2) (View.ld x3 r7_3) (View.ld x4 r7_4) (View.ld x5 r7_5)⟩]

def out7_7 (x0 : Vec F S2000x64 .f32) (x1 : Vec F S2000x64 .f32) (x2 : Vec F S64x64 .f32) (x3 : Vec F S1x64 .f32) (x4 : Vec F S64x64 .f32) (x5 : Vec F S1x64 .f32) : Vec F S2000x1 .f32 :=
  View.canon [⟨r7_7, k7_pay2 (View.ld x0 r7_0) (View.ld x1 r7_1) (View.ld x2 r7_2) (View.ld x3 r7_3) (View.ld x4 r7_4) (View.ld x5 r7_5)⟩]

def out7_8 (x0 : Vec F S2000x64 .f32) (x1 : Vec F S2000x64 .f32) (x2 : Vec F S64x64 .f32) (x3 : Vec F S1x64 .f32) (x4 : Vec F S64x64 .f32) (x5 : Vec F S1x64 .f32) : Vec F S2000x1 .f32 :=
  View.canon [⟨r7_8, k7_pay3 (View.ld x0 r7_0) (View.ld x1 r7_1) (View.ld x2 r7_2) (View.ld x3 r7_3) (View.ld x4 r7_4) (View.ld x5 r7_5)⟩]

-- One store through a rectangle of the whole shape covers it, so each output reads that store's payload.
set_option maxHeartbeats 4000000 in
theorem sound_kernel7 (c : Dev nD) (E : Set ℕ) (i : grid7.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x1 .f32) (harg8 : arg8.IsWhole) (arg9 : Memref sig .tc .vmem S2000x1 .f32) (harg9 : arg9.IsWhole)
    (x0 : Vec F S2000x64 .f32) (x1 : Vec F S2000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out7_6 x0 x1 x2 x3 x4 x5)
            ∗ owns (c : Thread nD τ) arg8 fullShare (out7_7 x0 x1 x2 x3 x4 x5)
            ∗ owns (c : Thread nD τ) arg9 fullShare (out7_8 x0 x1 x2 x3 x4 x5)) -∗ K ⟨⟩))
      ⊢ wp frame (wpE (defs₀ (F := F)) Variants.none c none) E (cc7__gin_mlp_kernel i arg1 harg1 arg2 harg2 arg3 harg3 arg4 harg4 arg5 harg5 arg6 harg6 arg7 harg7 arg8 harg8 arg9 harg9) K := by
  simp only [cc7__gin_mlp_kernel_eq_skeleton]; unfold cc7__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro; exact View.read_writes_eq_canon _ _ _ (View.cover_of_tiled _ S2000x64.size (by rfl))
  isplitl [H7]
  · iexists _; isplitr; swap; · iexact H7
    ipureintro; exact View.read_writes_eq_canon _ _ _ (View.cover_of_tiled _ S2000x1.size (by rfl))
  iexists _; isplitr; swap; · iexact H8
  ipureintro; exact View.read_writes_eq_canon _ _ _ (View.cover_of_tiled _ S2000x1.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
    | ⟨7, _⟩ => out7_7 (iblk7 V c 0 t) (iblk7 V c 1 t) (iblk7 V c 2 t) (iblk7 V c 3 t) (iblk7 V c 4 t) (iblk7 V c 5 t)
    | ⟨8, _⟩ => out7_8 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) := by dsimp only [dat7]

theorem before7 (c : Dev nD) (t : Fin cfg7.N) :
    (∀ d, (dat7 V c).before 0 t d = iblk7 V c 0 t) ∧ (∀ d, (dat7 V c).before 1 t d = iblk7 V c 1 t) ∧
    (∀ d, (dat7 V c).before 2 t d = iblk7 V c 2 t) ∧ (∀ d, (dat7 V c).before 3 t d = iblk7 V c 3 t) ∧
    (∀ d, (dat7 V c).before 4 t d = iblk7 V c 4 t) ∧ (∀ d, (dat7 V c).before 5 t d = iblk7 V c 5 t) := by
  refine ⟨?_, ?_, ?_, ?_, ?_, ?_⟩ <;> intro d <;>
    refine Eq.trans (Dat.before_in_eq_fetched (dat7 V c) _ ?_ ?_ ?_ ?_ t d) ?_ <;> intros <;> rfl

theorem hin7 (c : Dev nD) : Pipeline.ΦA spec7 c ⊢ (dat7 V c).Φ 0 := .rfl

theorem hout7 (c : Dev nD) : (dat7 V c).Φ (Fin.last cfg7.N) ⊢ Pipeline.ΦA spec7 c := .rfl

theorem after7 (c : Dev nD) (t : Fin cfg7.N) :
    (dat7 V c).after 0 t = iblk7 V c 0 t ∧ (dat7 V c).after 1 t = iblk7 V c 1 t ∧ (dat7 V c).after 2 t = iblk7 V c 2 t ∧
    (dat7 V c).after 3 t = iblk7 V c 3 t ∧ (dat7 V c).after 4 t = iblk7 V c 4 t ∧ (dat7 V c).after 5 t = iblk7 V c 5 t := by
  dsimp only [dat7]; exact ⟨rfl, rfl, rfl, rfl, rfl, rfl⟩

-- At every point the obligation is the body's triple at that point's input blocks.
theorem body_obligation7 (c : Dev nD) : BodyObligation (dat7 (F := F) V c) (defs₀ (F := F)) Variants.none () Set.univ := fun t => by
  obtain ⟨b0, b1, b2, b3, b4, b5⟩ := before7 V c t
  obtain ⟨a0, a1, a2, a3, a4, a5⟩ := after7 V c t
  rw [bigSep_W7, bigSep_W7]
  simp only [b0, b1, b2, b3, b4, b5]
  rw [show (dat7 V c).Φ t.succ = (dat7 V c).Φ t.castSucc from rfl,
    show (dat7 V c).owesAt () t.succ = (dat7 V c).owesAt () t.castSucc from rfl,
    a0, a1, a2, a3, a4, a5, after7_6, after7_7, after7_8]
  show _ ⊢ wp _ _ _ (bodyAt7 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 (c := c) (E := Set.univ) (x0 := iblk7 V c 0 t) (x1 := iblk7 V c 1 t) (x2 := iblk7 V c 2 t) (x3 := iblk7 V c 3 t) (x4 := iblk7 V c 4 t) (x5 := iblk7 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
end Cert.Kernel.Fr
-- ==== Proof.KB.Reg8.lean ====
import proofs.«409413_j30142080483538_1_alg».proof.Proof.Gen.Kernel.Launch
import proofs.«409413_j30142080483538_1_alg».proof.Proof.Gen.Kernel.Points
import proofs.«409413_j30142080483538_1_alg».proof.Proof.KB.LnBody
import Idealize.ShloMosaic.Lib.Pipeline.RegionsLoop
import Idealize.ShloMosaic.Lib.Pipeline.FrameSuffix
import Idealize.ShloMosaic.Lib.Ring
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S2000x64 := Rect.unit (s := S2000x64) ![0, 0] S2000x64.size inb_S2000x64_S2000x64_0_0
abbrev r8_1 : Rect S2000x1 := Rect.unit (s := S2000x1) ![0, 0] S2000x1.size inb_S2000x1_S2000x1_0_0
abbrev r8_2 : Rect S1x64 := Rect.unit (s := S1x64) ![0, 0] S1x64.size inb_S1x64_S1x64_0_0

def out8_5 (x0 : Vec F S2000x64 .f32) (x1 : Vec F S2000x1 .f32) (x2 : Vec F S2000x1 .f32) (x3 : Vec F S1x64 .f32) (x4 : Vec F S1x64 .f32) :
    Vec F S2000x64 .f32 :=
  View.canon [⟨r8_0, k8_pay1 (View.ld x0 r8_0) (View.ld x2 r8_1) (View.ld x1 r8_1) (View.ld x3 r8_2) (View.ld x4 r8_2)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

-- What the body finds in an input window at any point is that window's block of the input array.
theorem before8 (c : Dev nD) (t : Fin cfg8.N) :
    (∀ d, (dat8 V c).before 0 t d = iblk8 V c 0 t) ∧ (∀ d, (dat8 V c).before 1 t d = iblk8 V c 1 t)
      ∧ (∀ d, (dat8 V c).before 2 t d = iblk8 V c 2 t) ∧ (∀ d, (dat8 V c).before 3 t d = iblk8 V c 3 t)
      ∧ (∀ d, (dat8 V c).before 4 t d = iblk8 V c 4 t) := by
  refine ⟨?_, ?_, ?_, ?_, ?_⟩ <;> intro d <;>
    (rw [Dat.before_in_eq_fetched _ _ rfl (fun _ => rfl) (fun _ _ _ => rfl) (fun _ => by dsimp only [dat8]; rfl) t d]
     dsimp only [dat8, Dat.fetched, Dat.blockOf]; rfl)

theorem sound_body8 (c : Dev nD) (t : Fin cfg8.N) :
    iprop((dat8 V c).Φ t.castSucc ∗ (dat8 V c).owesAt () t.castSucc
      ∗ bigSep Finset.univ fun w : Fin cfg8.W => iprop(∃ d, owns (c : Thread nD τ) ((cfg8.win w).stage (cfg8.slots t w)) fullShare ((dat8 V c).before w t d)))
    ⊢ wp frame (wpE (defs₀ (F := F)) Variants.none c none) Set.univ (bodyAt8 t) fun _ =>
      iprop((dat8 V c).Φ t.succ ∗ (dat8 V c).owesAt () t.succ
        ∗ bigSep Finset.univ fun w : Fin cfg8.W => owns (c : Thread nD τ) ((cfg8.win w).stage (cfg8.slots t w)) fullShare ((dat8 V c).after w t)) := by
  rw [bigSep_W8, bigSep_W8]
  obtain ⟨h0, h1, h2, h3, h4⟩ := before8 V c t
  simp only [h0, h1, h2, h3, h4]
  rw [show (dat8 V c).Φ t.succ = (dat8 V c).Φ t.castSucc from rfl,
    show (dat8 V c).owesAt () t.succ = (dat8 V c).owesAt () t.castSucc from rfl]
  dsimp only [dat8, out8_5]
  unfold bodyAt8
  rw [cc8__layernorm_relu_kernel_eq_skeleton]; unfold cc8__layernorm_relu_kernel_skel
  iintro ⟨HΦ, Ho, ⟨%d0, H0⟩, ⟨%d1, H1⟩, ⟨%d2, H2⟩, ⟨%d3, H3⟩, ⟨%d4, H4⟩, ⟨%d5, H5⟩⟩
  iapply (sound_ln k8_pay1 c Set.univ _ _ _ _ _ _
    (iblk8 V c 0 t) (iblk8 V c 1 t) (iblk8 V c 2 t) (iblk8 V c 3 t) (iblk8 V c 4 t) _)
  iframe H0 H1 H2 H3 H4
  isplitl [H5]; · iexists _; iexact H5
  iintro ⟨H0, H1, H2, H3, H4, H5⟩
  iframe

theorem body_obligation8 (c : Dev nD) : BodyObligation (dat8 (F := F) V c) (defs₀ (F := F)) Variants.none () Set.univ :=
  sound_body8 V c

theorem hin8 (c : Dev nD) : Pipeline.ΦA spec8 c ⊢ (dat8 V c).Φ 0 := .rfl

theorem hout8 (c : Dev nD) : (dat8 V c).Φ (Fin.last cfg8.N) ⊢ Pipeline.ΦA spec8 c := .rfl

end Cert.Kernel.Fr
end
-- ==== Proof.KB.Reg9.lean ====
import proofs.«409413_j30142080483538_1_alg».proof.Proof.Gen.Kernel.Launch
import proofs.«409413_j30142080483538_1_alg».proof.Proof.KB.Reg4
import proofs.«409413_j30142080483538_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev ms9_0 (t : Fin cfg9.N) : Memref sig .tc .vmem S2000x64 .f32 := win9_0.stage (cfg9.slots t 0)
abbrev ms9_1 (t : Fin cfg9.N) : Memref sig .tc .vmem S2000x1 .i32 := win9_1.stage (cfg9.slots t 1)
abbrev ms9_2 (t : Fin cfg9.N) : Memref sig .tc .vmem S1024x64 .f32 := win9_2.stage (cfg9.slots t 2)
abbrev scM9 : Memref sig .tc .vmem S1024x64 .f32 := Memref.whole cc9_scratch0

def acc9 (c : Dev nD) : (n : ℕ) → n < cfg9.N → Vec F S1024x64 .f32
  | 0, h => k9_pay2 (iblk9 V c 0 ⟨0, h⟩) (iblk9 V c 1 ⟨0, h⟩) k9_pay1
  | n + 1, h => k9_pay2 (iblk9 V c 0 ⟨n + 1, h⟩) (iblk9 V c 1 ⟨n + 1, h⟩) (acc9 c n (Nat.lt_of_succ_lt h))

theorem acc9_zero (c : Dev nD) (h : 0 < cfg9.N) :
    acc9 V c 0 h = k9_pay2 (iblk9 V c 0 ⟨0, h⟩) (iblk9 V c 1 ⟨0, h⟩) k9_pay1 := rfl

theorem acc9_succ (c : Dev nD) (n : ℕ) (h : n + 1 < cfg9.N) :
    acc9 V c (n + 1) h = k9_pay2 (iblk9 V c 0 ⟨n + 1, h⟩) (iblk9 V c 1 ⟨n + 1, h⟩) (acc9 V c n (Nat.lt_of_succ_lt h)) := rfl

abbrev Rest9 (c : Dev nD) : sProp 𝕄 :=
  Pipeline.scopedRestBut (Ix := Unit) (Name := ℕ) (U := UR sig nD τ) (Lvl := ℕ) (Val := Elt F) spec9 c [cc9_scratch0]

theorem PhiA9_eq (c : Dev nD) :
    (Pipeline.ΦA spec9 c : sProp 𝕄)
      = iprop(((∃ d, owns (c : Thread nD τ) scM9 fullShare d) ∗ Rest9 (F := F) c) ∗ (∃ r, prngReg c r)) := by
  unfold Pipeline.ΦA; rw [scopedRest9_split]; simp only [scM9, owns_whole]; try rfl

def Phi9 (c : Dev nD) : (n : ℕ) → n ≤ cfg9.N → sProp 𝕄
  | 0, _ => Pipeline.ΦA spec9 c
  | n + 1, hn => iprop((owns (c : Thread nD τ) scM9 fullShare (acc9 V c n hn) ∗ Rest9 (F := F) c) ∗ (∃ r, prngReg c r))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => acc9 V c t.val t.isLt
  Φ t := Phi9 V c t.val (Nat.le_of_lt_succ t.isLt)
  q _ := fullShare
  owed _ := 0

theorem after9_2 (c : Dev nD) (t : Fin cfg9.N) : (dat9 V c).after 2 t = acc9 V c t.val t.isLt := by dsimp only [dat9]

theorem hcond9_2 : ∀ t : Fin cfg9.N, k9_cond2 (grid9.coords t) = 1#1 ↔ t.val = 124 :=
  (by decide +kernel : ∀ t : Fin grid9.N, k9_cond2 (grid9.coords t) = 1#1 ↔ t.val = 124)

theorem idleAt9_2 : ∀ t : Fin cfg9.N, t.val ≠ 124 → cfg9.idle 2 (grid9.coords t) = true := by decide +kernel
theorem liveAt9_2 : ∀ t : Fin cfg9.N, t.val = 124 → cfg9.idle 2 (grid9.coords t) = false := by decide +kernel
theorem noFlush9_2 : ∀ t : Fin cfg9.N, t.val ≠ 124 → (cfg9.win 2).flush t = false := by decide +kernel

theorem before9_0 (c : Dev nD) (t : Fin cfg9.N) (d) : (dat9 V c).before 0 t d = iblk9 V c 0 t :=
  (dat9 V c).before_fetched 0 t (fetch9_0 t) d
theorem before9_1 (c : Dev nD) (t : Fin cfg9.N) (d) : (dat9 V c).before 1 t d = iblk9 V c 1 t :=
  (dat9 V c).before_fetched 1 t (fetch9_1 t) d

theorem hcond9_1 : ∀ t : Fin cfg9.N, cond4_1 (grid9.coords t) ↔ t.val = 0 :=
  (by decide +kernel : ∀ t : Fin grid9.N, cond4_1 (grid9.coords t) ↔ t.val = 0)

-- Before any point the scratch is held at some contents over which this point's payload is the accumulation so far.
theorem Phi9_open (c : Dev nD) (n : ℕ) (h : n ≤ cfg9.N) :
    Phi9 V c n h ⊢ iprop(∃ a, ⌜∀ h' : n < cfg9.N, acc9 V c n h'
        = k9_pay2 (iblk9 V c 0 ⟨n, h'⟩) (iblk9 V c 1 ⟨n, h'⟩) (if cond4_1 (grid9.coords ⟨n, h'⟩) then k9_pay1 else a)⌝
      ∗ (owns (c : Thread nD τ) scM9 fullShare a ∗ Rest9 (F := F) c) ∗ (∃ r, prngReg c r)) := by
  cases n with
  | zero =>
    simp only [Phi9, PhiA9_eq]
    iintro ⟨⟨⟨%a, HS⟩, HR⟩, Hg⟩
    iexists a; iframe; ipureintro; intro h'; rw [if_pos ((hcond9_1 ⟨0, h'⟩).mpr rfl)]; rfl
  | succ n =>
    simp only [Phi9]
    iintro ⟨⟨HS, HR⟩, Hg⟩
    iexists _; iframe; ipureintro; intro h'
    rw [if_neg fun h => absurd ((hcond9_1 ⟨n + 1, h'⟩).mp h) (Nat.succ_ne_zero n)]; rfl

theorem body_obligation9 (c : Dev nD) : BodyObligation (dat9 (F := F) V c) (defs₀ (F := F)) Variants.none () Set.univ := fun t => by
  rw [bigSep_W9, bigSep_W9]
  show iprop(Phi9 V c t.val (Nat.le_of_lt t.isLt) ∗ (dat9 V c).owesAt () t.castSucc
      ∗ (∃ d, owns (c : Thread nD τ) (ms9_0 t) fullShare ((dat9 V c).before 0 t d))
      ∗ (∃ d, owns (c : Thread nD τ) (ms9_1 t) fullShare ((dat9 V c).before 1 t d))
      ∗ (∃ d, owns (c : Thread nD τ) (ms9_2 t) fullShare ((dat9 V c).before 2 t d)))
    ⊢ wp frame (wpE (defs₀ (F := F)) Variants.none c none) Set.univ (bodyAt9 t) fun _ =>
      iprop(((owns (c : Thread nD τ) scM9 fullShare (acc9 V c t.val t.isLt) ∗ Rest9 (F := F) c) ∗ (∃ r, prngReg c r))
        ∗ (dat9 V c).owesAt () t.castSucc
        ∗ owns (c : Thread nD τ) (ms9_0 t) fullShare (iblk9 V c 0 t)
        ∗ owns (c : Thread nD τ) (ms9_1 t) fullShare (iblk9 V c 1 t)
        ∗ (dat9 V c).leavesExact 2 t)
  simp only [before9_0, before9_1]
  iintro ⟨HP, Ho, ⟨%d0, H0⟩, ⟨%d1, H1⟩, ⟨%d2, H2⟩⟩
  icases (Phi9_open V c t.val _) $$ HP with ⟨%a, %ha, ⟨HS, HR⟩, Hg⟩
  replace ha := ha t.isLt
  iapply (run4 (p1 := k9_pay1) (p2 := k9_pay2) (c2 := k9_cond2) (prog := bodyAt9 t) rfl rfl rfl c (grid9.coords t) (ms9_0 t) (hstage9_0 ((cfg9.slots t 0).cast nbuf9_0))
    (ms9_1 t) (hstage9_1 ((cfg9.slots t 1).cast nbuf9_1)) (ms9_2 t) (hstage9_2 ((cfg9.slots t 2).cast nbuf9_2)) scM9 (Memref.isWhole_whole _) rfl
    (iblk9 V c 0 t) (iblk9 V c 1 t) _ a Set.univ _)
  iframe H0 H1 H2 HS
  iintro ⟨H0, H1, H2, HS⟩
  by_cases h1 : t.val = 124
  · rw [show (dat9 V c).leavesExact 2 t = owns (c : Thread nD τ) (ms9_2 t) fullShare ((dat9 V c).after 2 t) from by
      unfold Dat.leavesExact; rw [liveAt9_2 t h1], after9_2, ha, if_pos ((hcond9_2 t).mpr h1)]
    iframe
  · rw [Dat.leavesExact_idle (dat9 V c) 2 t (idleAt9_2 t h1) (noFlush9_2 t h1), ha, if_neg fun h => h1 ((hcond9_2 t).mp h)]
    iframe HS HR Hg Ho H0 H1
    iexists _; iexact H2

theorem hin9 (c : Dev nD) : Pipeline.ΦA spec9 c ⊢ (dat9 V c).Φ 0 := Idealize.SL.BI.Entails.refl _

theorem hout9 (c : Dev nD) : (dat9 V c).Φ (Fin.last cfg9.N) ⊢ Pipeline.ΦA spec9 c := by
  rw [PhiA9_eq]
  show Phi9 V c cfg9.N (Nat.le_refl _) ⊢ _
  iintro H
  icases (Phi9_open V c _ _) $$ H with ⟨%a, -, ⟨HS, HR⟩, Hg⟩
  iframe HR Hg
  iexists _; iexact HS

end Cert.Kernel.Fr
end
-- ==== Proof.KB.Run.Outs.lean ====
import proofs.«409413_j30142080483538_1_alg».proof.Proof.KB.Run.Region
import proofs.«409413_j30142080483538_1_alg».proof.Proof.KB.Reg0
import proofs.«409413_j30142080483538_1_alg».proof.Proof.KB.Reg1
import proofs.«409413_j30142080483538_1_alg».proof.Proof.KB.Reg2
import proofs.«409413_j30142080483538_1_alg».proof.Proof.KB.Reg3
import proofs.«409413_j30142080483538_1_alg».proof.Proof.KB.Reg4
import proofs.«409413_j30142080483538_1_alg».proof.Proof.KB.Reg5
import proofs.«409413_j30142080483538_1_alg».proof.Proof.KB.Reg6
import proofs.«409413_j30142080483538_1_alg».proof.Proof.KB.Reg7
import proofs.«409413_j30142080483538_1_alg».proof.Proof.KB.Reg8
import proofs.«409413_j30142080483538_1_alg».proof.Proof.KB.Reg9

set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg arrRef)
variable {F : FTy → Type} [FloatOps F]
local notation "𝕄" => MT nD τ sig Unit (Elt F) ℕ (UR sig nD τ) ℕ
variable (m : (ℓ : Loc nD τ sig) → Buf (Elt F) ℓ)

/-- What region K leaves (`O2`, `O4`, …) is defined stage by stage: it depends on the valuation the region is entered with. -/
def O2 (c : Dev nD) : Valuation τ sig (Elt F) :=
  Pipeline.withArrays spec0 c (V1 m c) fun w => (dat0 (fun c b => V1 m c b) c).arrAt w cfg0.N

def outs1 : Outs (F := F) := fun _ r c => O2 m c r

def O4 (c : Dev nD) : Valuation τ sig (Elt F) :=
  Pipeline.withArrays spec1 c (V3 m (outs1 m) c) fun w => (dat1 (fun c b => V3 m (outs1 m) c b) c).arrAt w cfg1.N

def outs2 : Outs (F := F)
  | 4 => fun r c => O4 m c r
  | J => outs1 m J

def O6 (c : Dev nD) : Valuation τ sig (Elt F) :=
  Pipeline.withArrays spec2 c (V5 m (outs2 m) c) fun w => (dat2 (fun c b => V5 m (outs2 m) c b) c).arrAt w cfg2.N

def outs3 : Outs (F := F)
  | 6 => fun r c => O6 m c r
  | J => outs2 m J

def O8 (c : Dev nD) : Valuation τ sig (Elt F) :=
  Pipeline.withArrays spec3 c (V7 m (outs3 m) c) fun w => (dat3 (fun c b => V7 m (outs3 m) c b) c).arrAt w cfg3.N

def outs4 : Outs (F := F)
  | 8 => fun r c => O8 m c r
  | J => outs3 m J

def O10 (c : Dev nD) : Valuation τ sig (Elt F) :=
  Pipeline.withArrays spec4 c (V9 m (outs4 m) c) fun w => (dat4 (fun c b => V9 m (outs4 m) c b) c).arrAt w cfg4.N

def outs5 : Outs (F := F)
  | 10 => fun r c => O10 m c r
  | J => outs4 m J

def O12 (c : Dev nD) : Valuation τ sig (Elt F) :=
  Pipeline.withArrays spec5 c (V11 m (outs5 m) c) fun w => (dat5 (fun c b => V11 m (outs5 m) c b) c).arrAt w cfg5.N

def outs6 : Outs (F := F)
  | 12 => fun r c => O12 m c r
  | J => outs5 m J

def O14 (c : Dev nD) : Valuation τ sig (Elt F) :=
  Pipeline.withArrays spec6 c (V13 m (outs6 m) c) fun w => (dat6 (fun c b => V13 m (outs6 m) c b) c).arrAt w cfg6.N

def outs7 : Outs (F := F)
  | 14 => fun r c => O14 m c r
  | J => outs6 m J

def O16 (c : Dev nD) : Valuation τ sig (Elt F) :=
  Pipeline.withArrays spec7 c (V15 m (outs7 m) c) fun w => (dat7 (fun c b => V15 m (outs7 m) c b) c).arrAt w cfg7.N

def outs8 : Outs (F := F)
  | 16 => fun r c => O16 m c r
  | J => outs7 m J

def O18 (c : Dev nD) : Valuation τ sig (Elt F) :=
  Pipeline.withArrays spec8 c (V17 m (outs8 m) c) fun w => (dat8 (fun c b => V17 m (outs8 m) c b) c).arrAt w cfg8.N

def outs9 : Outs (F := F)
  | 18 => fun r c => O18 m c r
  | J => outs8 m J

def O20 (c : Dev nD) : Valuation τ sig (Elt F) :=
  Pipeline.withArrays spec9 c (V19 m (outs9 m) c) fun w => (dat9 (fun c b => V19 m (outs9 m) c b) c).arrAt w cfg9.N

def outs10 : Outs (F := F)
  | 20 => fun r c => O20 m c r
  | J => outs9 m J

abbrev outs : Outs (F := F) := outs10 m

def pdats : (p : Fin 10) → (c : Dev nD) → Dat τ (Elt F) Unit ℕ (UR sig nD τ) ℕ (cfgs p) c
  | ⟨0, _⟩ => fun c => dat0 (fun c b => V1 m c b) c
  | ⟨1, _⟩ => fun c => dat1 (fun c b => V3 m (outs1 m) c b) c
  | ⟨2, _⟩ => fun c => dat2 (fun c b => V5 m (outs2 m) c b) c
  | ⟨3, _⟩ => fun c => dat3 (fun c b => V7 m (outs3 m) c b) c
  | ⟨4, _⟩ => fun c => dat4 (fun c b => V9 m (outs4 m) c b) c
  | ⟨5, _⟩ => fun c => dat5 (fun c b => V11 m (outs5 m) c b) c
  | ⟨6, _⟩ => fun c => dat6 (fun c b => V13 m (outs6 m) c b) c
  | ⟨7, _⟩ => fun c => dat7 (fun c b => V15 m (outs7 m) c b) c
  | ⟨8, _⟩ => fun c => dat8 (fun c b => V17 m (outs8 m) c b) c
  | ⟨9, _⟩ => fun c => dat9 (fun c b => V19 m (outs9 m) c b) c

/-- Each region as a segment between the valuations around it, writing the arrays `wrK`. -/
abbrev Vi0 : (c : Dev nD) → (b : Ref sig .tc) → Buf (Elt F) ((c : Thread nD τ).loc b) := fun c b => V1 m c b
abbrev wr0 : List (Ref sig .tc) := [main_v24_0, main_v24_1, main_v24_2]
theorem io0 : ∀ w : Fin cfg0.W, arrRef spec0 w ∉ wr0 → (cfg0.win w).isOut = false := by decide
theorem hF0 (c : Dev nD) (w : Fin cfg0.W) : (pdats m 0 c).arrAt w cfg0.N = V2 m (outs m) c (Pipeline.arrRef spec0 w) :=
  exitVal_arr (pdats m 0 c) (V1 m c) wr0 launch0.win.arr_inj (fun _ => rfl) io0 w
def reg0 : RegionSeg (pcfgs (F := F)) adm (pdats m) () defs₀ 𝒱z Lz lvz 0 :=
  regOf (pdats m) launch0 (V1 m) (V2 m (outs m)) wr0 (fun _ _ => rfl) (fun _ _ => rfl) (fun _ _ => rfl) (fun _ _ => rfl) (fun _ => rfl) io0
    (body_obligation0 (fun c b => V1 m c b)) (hin0 (fun c b => V1 m c b)) (hout0 (fun c b => V1 m c b))

abbrev Vi1 : (c : Dev nD) → (b : Ref sig .tc) → Buf (Elt F) ((c : Thread nD τ).loc b) := fun c b => V3 m (outs m) c b
abbrev wr1 : List (Ref sig .tc) := [main_v55]
theorem io1 : ∀ w : Fin cfg1.W, arrRef spec1 w ∉ wr1 → (cfg1.win w).isOut = false := by decide
theorem hF1 (c : Dev nD) (w : Fin cfg1.W) : (pdats m 1 c).arrAt w cfg1.N = V4 m (outs m) c (Pipeline.arrRef spec1 w) :=
  exitVal_arr (pdats m 1 c) (V3 m (outs m) c) wr1 launch1.win.arr_inj (fun _ => rfl) io1 w
def reg1 : RegionSeg (pcfgs (F := F)) adm (pdats m) () defs₀ 𝒱z Lz lvz 1 :=
  regOf (pdats m) launch1 (V3 m (outs m)) (V4 m (outs m)) wr1 (fun _ _ => rfl) (fun _ _ => rfl) (fun _ _ => rfl) (fun _ _ => rfl) (fun _ => rfl) io1
    (body_obligation1 (fun c b => V3 m (outs1 m) c b)) (hin1 (fun c b => V3 m (outs1 m) c b)) (hout1 (fun c b => V3 m (outs1 m) c b))

abbrev Vi2 : (c : Dev nD) → (b : Ref sig .tc) → Buf (Elt F) ((c : Thread nD τ).loc b) := fun c b => V5 m (outs m) c b
abbrev wr2 : List (Ref sig .tc) := [main_v68_0, main_v68_1, main_v68_2]
theorem io2 : ∀ w : Fin cfg2.W, arrRef spec2 w ∉ wr2 → (cfg2.win w).isOut = false := by decide
theorem hF2 (c : Dev nD) (w : Fin cfg2.W) : (pdats m 2 c).arrAt w cfg2.N = V6 m (outs m) c (Pipeline.arrRef spec2 w) :=
  exitVal_arr (pdats m 2 c) (V5 m (outs m) c) wr2 launch2.win.arr_inj (fun _ => rfl) io2 w
def reg2 : RegionSeg (pcfgs (F := F)) adm (pdats m) () defs₀ 𝒱z Lz lvz 2 :=
  regOf (pdats m) launch2 (V5 m (outs m)) (V6 m (outs m)) wr2 (fun _ _ => rfl) (fun _ _ => rfl) (fun _ _ => rfl) (fun _ _ => rfl) (fun _ => rfl) io2
    (body_obligation2 (fun c b => V5 m (outs2 m) c b)) (hin2 (fun c b => V5 m (outs2 m) c b)) (hout2 (fun c b => V5 m (outs2 m) c b))

abbrev Vi3 : (c : Dev nD) → (b : Ref sig .tc) → Buf (Elt F) ((c : Thread nD τ).loc b) := fun c b => V7 m (outs m) c b
abbrev wr3 : List (Ref sig .tc) := [main_v99]
theorem io3 : ∀ w : Fin cfg3.W, arrRef spec3 w ∉ wr3 → (cfg3.win w).isOut = false := by decide
theorem hF3 (c : Dev nD) (w : Fin cfg3.W) : (pdats m 3 c).arrAt w cfg3.N = V8 m (outs m) c (Pipeline.arrRef spec3 w) :=
  exitVal_arr (pdats m 3 c) (V7 m (outs m) c) wr3 launch3.win.arr_inj (fun _ => rfl) io3 w
def reg3 : RegionSeg (pcfgs (F := F)) adm (pdats m) () defs₀ 𝒱z Lz lvz 3 :=
  regOf (pdats m) launch3 (V7 m (outs m)) (V8 m (outs m)) wr3 (fun _ _ => rfl) (fun _ _ => rfl) (fun _ _ => rfl) (fun _ _ => rfl) (fun _ => rfl) io3
    (body_obligation3 (fun c b => V7 m (outs3 m) c b)) (hin3 (fun c b => V7 m (outs3 m) c b)) (hout3 (fun c b => V7 m (outs3 m) c b))

abbrev Vi4 : (c : Dev nD) → (b : Ref sig .tc) → Buf (Elt F) ((c : Thread nD τ).loc b) := fun c b => V9 m (outs m) c b
abbrev wr4 : List (Ref sig .tc) := [main_v101]
theorem io4 : ∀ w : Fin cfg4.W, arrRef spec4 w ∉ wr4 → (cfg4.win w).isOut = false := by decide
theorem hF4 (c : Dev nD) (w : Fin cfg4.W) : (pdats m 4 c).arrAt w cfg4.N = V10 m (outs m) c (Pipeline.arrRef spec4 w) :=
  exitVal_arr (pdats m 4 c) (V9 m (outs m) c) wr4 launch4.win.arr_inj (fun _ => rfl) io4 w
def reg4 : RegionSeg (pcfgs (F := F)) adm (pdats m) () defs₀ 𝒱z Lz lvz 4 :=
  regOf (pdats m) launch4 (V9 m (outs m)) (V10 m (outs m)) wr4 (fun _ _ => rfl) (fun _ _ => rfl) (fun _ _ => rfl) (fun _ _ => rfl) (fun _ => rfl) io4
    (body_obligation4 (fun c b => V9 m (outs4 m) c b)) (hin4 (fun c b => V9 m (outs4 m) c b)) (hout4 (fun c b => V9 m (outs4 m) c b))

abbrev Vi5 : (c : Dev nD) → (b : Ref sig .tc) → Buf (Elt F) ((c : Thread nD τ).loc b) := fun c b => V11 m (outs m) c b
abbrev wr5 : List (Ref sig .tc) := [main_v132_0, main_v132_1, main_v132_2]
theorem io5 : ∀ w : Fin cfg5.W, arrRef spec5 w ∉ wr5 → (cfg5.win w).isOut = false := by decide
theorem hF5 (c : Dev nD) (w : Fin cfg5.W) : (pdats m 5 c).arrAt w cfg5.N = V12 m (outs m) c (Pipeline.arrRef spec5 w) :=
  exitVal_arr (pdats m 5 c) (V11 m (outs m) c) wr5 launch5.win.arr_inj (fun _ => rfl) io5 w
def reg5 : RegionSeg (pcfgs (F := F)) adm (pdats m) () defs₀ 𝒱z Lz lvz 5 :=
  regOf (pdats m) launch5 (V11 m (outs m)) (V12 m (outs m)) wr5 (fun _ _ => rfl) (fun _ _ => rfl) (fun _ _ => rfl) (fun _ _ => rfl) (fun _ => rfl) io5
    (body_obligation5 (fun c b => V11 m (outs5 m) c b)) (hin5 (fun c b => V11 m (outs5 m) c b)) (hout5 (fun c b => V11 m (outs5 m) c b))

abbrev Vi6 : (c : Dev nD) → (b : Ref sig .tc) → Buf (Elt F) ((c : Thread nD τ).loc b) := fun c b => V13 m (outs m) c b
abbrev wr6 : List (Ref sig .tc) := [main_v163]
theorem io6 : ∀ w : Fin cfg6.W, arrRef spec6 w ∉ wr6 → (cfg6.win w).isOut = false := by decide
theorem hF6 (c : Dev nD) (w : Fin cfg6.W) : (pdats m 6 c).arrAt w cfg6.N = V14 m (outs m) c (Pipeline.arrRef spec6 w) :=
  exitVal_arr (pdats m 6 c) (V13 m (outs m) c) wr6 launch6.win.arr_inj (fun _ => rfl) io6 w
def reg6 : RegionSeg (pcfgs (F := F)) adm (pdats m) () defs₀ 𝒱z Lz lvz 6 :=
  regOf (pdats m) launch6 (V13 m (outs m)) (V14 m (outs m)) wr6 (fun _ _ => rfl) (fun _ _ => rfl) (fun _ _ => rfl) (fun _ _ => rfl) (fun _ => rfl) io6
    (body_obligation6 (fun c b => V13 m (outs6 m) c b)) (hin6 (fun c b => V13 m (outs6 m) c b)) (hout6 (fun c b => V13 m (outs6 m) c b))

abbrev Vi7 : (c : Dev nD) → (b : Ref sig .tc) → Buf (Elt F) ((c : Thread nD τ).loc b) := fun c b => V15 m (outs m) c b
abbrev wr7 : List (Ref sig .tc) := [main_v176_0, main_v176_1, main_v176_2]
theorem io7 : ∀ w : Fin cfg7.W, arrRef spec7 w ∉ wr7 → (cfg7.win w).isOut = false := by decide
theorem hF7 (c : Dev nD) (w : Fin cfg7.W) : (pdats m 7 c).arrAt w cfg7.N = V16 m (outs m) c (Pipeline.arrRef spec7 w) :=
  exitVal_arr (pdats m 7 c) (V15 m (outs m) c) wr7 launch7.win.arr_inj (fun _ => rfl) io7 w
def reg7 : RegionSeg (pcfgs (F := F)) adm (pdats m) () defs₀ 𝒱z Lz lvz 7 :=
  regOf (pdats m) launch7 (V15 m (outs m)) (V16 m (outs m)) wr7 (fun _ _ => rfl) (fun _ _ => rfl) (fun _ _ => rfl) (fun _ _ => rfl) (fun _ => rfl) io7
    (body_obligation7 (fun c b => V15 m (outs7 m) c b)) (hin7 (fun c b => V15 m (outs7 m) c b)) (hout7 (fun c b => V15 m (outs7 m) c b))

abbrev Vi8 : (c : Dev nD) → (b : Ref sig .tc) → Buf (Elt F) ((c : Thread nD τ).loc b) := fun c b => V17 m (outs m) c b
abbrev wr8 : List (Ref sig .tc) := [main_v207]
theorem io8 : ∀ w : Fin cfg8.W, arrRef spec8 w ∉ wr8 → (cfg8.win w).isOut = false := by decide
theorem hF8 (c : Dev nD) (w : Fin cfg8.W) : (pdats m 8 c).arrAt w cfg8.N = V18 m (outs m) c (Pipeline.arrRef spec8 w) :=
  exitVal_arr (pdats m 8 c) (V17 m (outs m) c) wr8 launch8.win.arr_inj (fun _ => rfl) io8 w
def reg8 : RegionSeg (pcfgs (F := F)) adm (pdats m) () defs₀ 𝒱z Lz lvz 8 :=
  regOf (pdats m) launch8 (V17 m (outs m)) (V18 m (outs m)) wr8 (fun _ _ => rfl) (fun _ _ => rfl) (fun _ _ => rfl) (fun _ _ => rfl) (fun _ => rfl) io8
    (body_obligation8 (fun c b => V17 m (outs8 m) c b)) (hin8 (fun c b => V17 m (outs8 m) c b)) (hout8 (fun c b => V17 m (outs8 m) c b))

abbrev Vi9 : (c : Dev nD) → (b : Ref sig .tc) → Buf (Elt F) ((c : Thread nD τ).loc b) := fun c b => V19 m (outs m) c b
abbrev wr9 : List (Ref sig .tc) := [main_v209]
theorem io9 : ∀ w : Fin cfg9.W, arrRef spec9 w ∉ wr9 → (cfg9.win w).isOut = false := by decide
theorem hF9 (c : Dev nD) (w : Fin cfg9.W) : (pdats m 9 c).arrAt w cfg9.N = V20 m (outs m) c (Pipeline.arrRef spec9 w) :=
  exitVal_arr (pdats m 9 c) (V19 m (outs m) c) wr9 launch9.win.arr_inj (fun _ => rfl) io9 w
def reg9 : RegionSeg (pcfgs (F := F)) adm (pdats m) () defs₀ 𝒱z Lz lvz 9 :=
  regOf (pdats m) launch9 (V19 m (outs m)) (V20 m (outs m)) wr9 (fun _ _ => rfl) (fun _ _ => rfl) (fun _ _ => rfl) (fun _ _ => rfl) (fun _ => rfl) io9
    (body_obligation9 (fun c b => V19 m (outs9 m) c b)) (hin9 (fun c b => V19 m (outs9 m) c b)) (hout9 (fun c b => V19 m (outs9 m) c b))

end Cert.Kernel.Fr
-- ==== Proof.KB.Run.lean ====
import proofs.«409413_j30142080483538_1_alg».proof.Proof.KB.Run.Outs

set_option maxRecDepth 16384
noncomputable section
namespace Cert.Kernel.Fr
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
variable (m : (ℓ : Loc nD τ sig) → Buf (Elt F) ℓ)

abbrev u0 : UR sig nD τ := initOf (Pipeline.cells cfgs cellOf_inj) (Pipeline.launchToks cfgs cellOf_inj)

theorem hu0 : (ownU u0 : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hEz (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄) ⊢ Ez (F := F) 0 c := by
  iintro ⟨-, HO, -, Hp, -⟩
  isplitl [Hp]; · iexists _; iexact Hp
  iexists ∅; iexact HO

theorem hE10 (c : Dev nD) : Ez (F := F) 10 c ⊢ (iprop(∃ W, owes (c : Thread nD τ) (0 : CellTallies nD τ sig Unit) W) : sProp 𝕄) := by
  iintro ⟨-, HO⟩; iexact HO

/-- Every weakly fair run of the program terminates without fault, each argument array ending as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_cond (F := F) m emb₁ () 𝒱z Lz lvz (fun _ _ => rfl) ρ (outs m) (pdats m)
    (0 : Dev nD → CellTallies nD τ sig Unit) (fun _ => (BI.emp : sProp 𝕄)) u0 hu0 Ez (Pipeline.initEach Lz lvz fun c => by iintro ⟨H, -⟩; imodintro; iapply hEz (F := F) ρ c; iexact H) hE10
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

end Cert.Kernel.Fr
-- ==== Proof.KI.Run.Region.lean ====
import proofs.«409413_j30142080483538_1_alg».proof.Proof.Gen.KernelIdeal.Regions
import Idealize.ShloMosaic.Lib.Pipeline.FrameSuffix
import Idealize.ShloMosaic.Lib.Pipeline.RegionsLoop

set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg arrRef)
variable {F : FTy → Type} [FloatOps F]
local notation "𝕄" => MT nD τ sig Unit (Elt F) ℕ (UR sig nD τ) ℕ

abbrev 𝒱z : Variants := Variants.none
abbrev Lz : GSem nD τ sig → Finset Unit := fun _ => ∅
abbrev lvz : GSem nD τ sig → Unit → ℕ := fun _ _ => 0
abbrev Rz (c : Dev nD) : sProp 𝕄 := iprop((∃ r, prngReg c r) ∗ ∃ W, owes (c : Thread nD τ) (0 : CellTallies nD τ sig Unit) W)
abbrev Ez : Fin 11 → Dev nD → sProp 𝕄 := fun _ c => Rz (F := F) c

/-- `V` with each buffer of `R`, in turn, set to what `G` holds there. -/
abbrev setAt (G V : Valuation τ sig (Elt F)) (R : List (Ref sig .tc)) : Valuation τ sig (Elt F) :=
  R.foldl (fun V r => Function.update V (Proc.devRef .tc r) (G (Proc.devRef .tc r))) V

theorem setAt_spec (G : Valuation τ sig (Elt F)) (b : Ref sig .tc) : ∀ (R : List (Ref sig .tc)) (V : Valuation τ sig (Elt F)),
    (b ∈ R → setAt G V R (Proc.devRef .tc b) = G (Proc.devRef .tc b)) ∧ (b ∉ R → setAt G V R (Proc.devRef .tc b) = V (Proc.devRef .tc b))
  | [], _ => ⟨fun h => absurd h List.not_mem_nil, fun _ => rfl⟩
  | r :: R, V => by
    obtain ⟨h₁, h₂⟩ := setAt_spec G b R (Function.update V (Proc.devRef .tc r) (G (Proc.devRef .tc r)))
    refine ⟨fun h => ?_, fun h => (h₂ (List.not_mem_of_not_mem_cons h)).trans
      (Function.update_of_ne (StableHlo.devRef_ne_of_ne (List.ne_of_not_mem_cons h)) _ _)⟩
    by_cases hb : b ∈ R
    · exact h₁ hb
    · obtain rfl : b = r := (List.mem_cons.mp h).resolve_right hb
      exact (h₂ hb).trans (Function.update_self _ _ _)

section Exit
variable {p : Fin 10} {c : Dev nD} (d : Dat τ (Elt F) Unit ℕ (UR sig nD τ) ℕ (cfgs p) c) (Vi : Valuation τ sig (Elt F)) (R : List (Ref sig .tc))

/-- What a region leaves: the entry valuation `Vi` with each buffer of `R` at the contents its array ends the region with. -/
abbrev exitVal : Valuation τ sig (Elt F) :=
  setAt (Pipeline.withArrays (cfgs p).spec c Vi fun w => d.arrAt w (cfgs p).N) Vi R

/-- Every array ends at the exit valuation: one in `R` by definition, any other is an input's and ends as it began. -/
theorem exitVal_arr (hinj : Function.Injective (arrRef (cfgs p).spec)) (hA : ∀ w, d.A w = Vi (arrRef (cfgs p).spec w))
    (hio : ∀ w, arrRef (cfgs p).spec w ∉ R → ((cfgs p).win w).isOut = false) (w : Fin (cfgs p).W) :
    d.arrAt w (cfgs p).N = exitVal d Vi R (arrRef (cfgs p).spec w) := by
  by_cases h : arrRef (cfgs p).spec w ∈ R
  · exact (((setAt_spec (Pipeline.withArrays (cfgs p).spec c Vi fun w => d.arrAt w (cfgs p).N) _ R Vi).1 h).trans
      (Pipeline.withArrays_arr _ hinj c Vi _ w)).symm
  · exact ((Dat.arrAt_in d w (hio w h) _).trans (hA w)).trans ((setAt_spec _ _ R Vi).2 h).symm

/-- A buffer that is no array of the region is as at entry. -/
theorem exitVal_rest (b : Ref sig .tc) (hb : b ∉ Finset.univ.image (arrRef (cfgs p).spec)) : exitVal d Vi R b = Vi b := by
  by_cases h : b ∈ R
  · exact ((setAt_spec _ _ R Vi).1 h).trans
      (Pipeline.withArrays_of_ne _ c Vi _ b fun w e => hb (Finset.mem_image.mpr ⟨w, Finset.mem_univ _, e⟩))
  · exact (setAt_spec _ _ R Vi).2 h

end Exit

set_option maxHeartbeats 4000000 in
set_option backward.isDefEq.respectTransparency.types false in
/-- A region as a segment between the valuations `Vi` and `Vo`: its arrays leave the unscoped buffers at entry and return at exit. -/
def regOf {p : Fin 10} (pd : (p : Fin 10) → (c : Dev nD) → Dat τ (Elt F) Unit ℕ (UR sig nD τ) ℕ (cfgs p) c)
    (L : Pipeline.LaunchFacts (nD := nD) (τ := τ) cfgs p) (Vi Vo : Dev nD → Valuation τ sig (Elt F)) (R : List (Ref sig .tc))
    (hq : ∀ c w, (pd p c).q w = fullShare) (howed : ∀ c t, (pd p c).owed t = 0) (hrec : ∀ c t, (pd p c).recorded t = Set.univ)
    (hA : ∀ c w, (pd p c).A w = Vi c (arrRef (cfgs p).spec w)) (hVo : ∀ c, Vo c = exitVal (pd p c) (Vi c) R)
    (hio : ∀ w, arrRef (cfgs p).spec w ∉ R → ((cfgs p).win w).isOut = false)
    (hbody : ∀ c, BodyObligation (pd p c) (defs₀ (F := F)) Variants.none () Set.univ)
    (hin : ∀ c, Pipeline.ΦA (cfgs p).spec c ⊢ (pd p c).Φ 0)
    (hout : ∀ c, (pd p c).Φ (Fin.last (cfgs p).N) ⊢ Pipeline.ΦA (cfgs p).spec c) :
    RegionSeg (pcfgs (F := F)) adm pd () defs₀ 𝒱z Lz lvz p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lz lvz p howed
  pre c := iprop(StableHlo.held (c : Thread nD τ) (Pipeline.ucRefs τ sig) (Vi c) ∗ Rz c)
  post c := iprop(StableHlo.held (c : Thread nD τ) (Pipeline.ucRefs τ sig) (Vo c) ∗ Rz c)
  X c := iprop(∃ r, prngReg c r)
  Y c := iprop(∃ r, prngReg c r)
  Z c := Pipeline.unscopedRest (Ix := Unit) (Name := ℕ) (U := UR sig nD τ) (Lvl := ℕ) (cfgs p).spec c fun b => Vi c b
  hentry c := by
    rw [Pipeline.ownSems0_none]
    have hsplit := Pipeline.arrays_of_unscopedBufs (p := p) (pcfgs (F := F)) adm pd L.win L.arr_whole c
      ((pd p c).share_full (hq c)) (fun b => Vi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c 0]
      icases HO with ⟨%W, HO⟩; iexists W; isplitr; · ipureintro; exact fun x _ => Or.inl ((hrec c 0).symm ▸ Set.mem_univ x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    refine BIBase.Entails.trans (hout c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c pd ((pd p c).share_full (hq c)) (fun b => Vi c b) (fun b => Vo c b) ((pd p c).arrAt · (cfgs p).N)
      (fun w => by rw [hVo c]; exact exitVal_arr _ _ R L.win.arr_inj (hA c) hio w)
      (fun b hb => by rw [hVo c]; exact exitVal_rest _ _ R b hb)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c (Fin.last _)]
    icases HO with ⟨%W, -, HO⟩; iexists W; iexact HO

end Cert.KernelIdeal.Fr
-- ==== Proof.KI.Reg0.lean ====
import proofs.«409413_j30142080483538_1_alg».proof.Proof.Gen.KernelIdeal.Launch
import proofs.«409413_j30142080483538_1_alg».proof.Proof.Gen.KernelIdeal.Skeleton
import proofs.«409413_j30142080483538_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x6 := Rect.unit (s := S2000x6) ![0, 0] S2000x6.size inb_S2000x6_S2000x6_0_0
abbrev r0_1 : Rect S2000x6 := Rect.unit (s := S2000x6) ![0, 0] S2000x6.size inb_S2000x6_S2000x6_0_0
abbrev r0_2 : Rect S6x64 := Rect.unit (s := S6x64) ![0, 0] S6x64.size inb_S6x64_S6x64_0_0
abbrev r0_3 : Rect S1x64 := Rect.unit (s := S1x64) ![0, 0] S1x64.size inb_S1x64_S1x64_0_0
abbrev r0_4 : Rect S64x64 := Rect.unit (s := S64x64) ![0, 0] S64x64.size inb_S64x64_S64x64_0_0
abbrev r0_5 : Rect S1x64 := Rect.unit (s := S1x64) ![0, 0] S1x64.size inb_S1x64_S1x64_0_0
abbrev r0_6 : Rect S2000x64 := Rect.unit (s := S2000x64) ![0, 0] S2000x64.size inb_S2000x64_S2000x64_0_0
abbrev r0_7 : Rect S2000x1 := Rect.unit (s := S2000x1) ![0, 0] S2000x1.size inb_S2000x1_S2000x1_0_0
abbrev r0_8 : Rect S2000x1 := Rect.unit (s := S2000x1) ![0, 0] S2000x1.size inb_S2000x1_S2000x1_0_0

def out0_6 (x0 : Vec F S2000x6 .f32) (x1 : Vec F S2000x6 .f32) (x2 : Vec F S6x64 .f32) (x3 : Vec F S1x64 .f32) (x4 : Vec F S64x64 .f32) (x5 : Vec F S1x64 .f32) : Vec F S2000x64 .f32 :=
  View.canon [⟨r0_6, k0_pay1 (View.ld x0 r0_0) (View.ld x1 r0_1) (View.ld x2 r0_2) (View.ld x3 r0_3) (View.ld x4 r0_4) (View.ld x5 r0_5)⟩]

def out0_7 (x0 : Vec F S2000x6 .f32) (x1 : Vec F S2000x6 .f32) (x2 : Vec F S6x64 .f32) (x3 : Vec F S1x64 .f32) (x4 : Vec F S64x64 .f32) (x5 : Vec F S1x64 .f32) : Vec F S2000x1 .f32 :=
  View.canon [⟨r0_7, k0_pay2 (View.ld x0 r0_0) (View.ld x1 r0_1) (View.ld x2 r0_2) (View.ld x3 r0_3) (View.ld x4 r0_4) (View.ld x5 r0_5)⟩]

def out0_8 (x0 : Vec F S2000x6 .f32) (x1 : Vec F S2000x6 .f32) (x2 : Vec F S6x64 .f32) (x3 : Vec F S1x64 .f32) (x4 : Vec F S64x64 .f32) (x5 : Vec F S1x64 .f32) : Vec F S2000x1 .f32 :=
  View.canon [⟨r0_8, k0_pay3 (View.ld x0 r0_0) (View.ld x1 r0_1) (View.ld x2 r0_2) (View.ld x3 r0_3) (View.ld x4 r0_4) (View.ld x5 r0_5)⟩]

-- One store through a rectangle of the whole shape covers it, so each output reads that store's payload.
set_option maxHeartbeats 4000000 in
theorem sound_kernel0 (c : Dev nD) (E : Set ℕ) (i : grid0.Coords) (arg1 : Memref sig .tc .vmem S2000x6 .f32) (harg1 : arg1.IsWhole) (arg2 : Memref sig .tc .vmem S2000x6 .f32) (harg2 : arg2.IsWhole) (arg3 : Memref sig .tc .vmem S6x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x1 .f32) (harg8 : arg8.IsWhole) (arg9 : Memref sig .tc .vmem S2000x1 .f32) (harg9 : arg9.IsWhole)
    (x0 : Vec F S2000x6 .f32) (x1 : Vec F S2000x6 .f32) (x2 : Vec F S6x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)
            ∗ owns (c : Thread nD τ) arg8 fullShare (out0_7 x0 x1 x2 x3 x4 x5)
            ∗ owns (c : Thread nD τ) arg9 fullShare (out0_8 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro; exact View.read_writes_eq_canon _ _ _ (View.cover_of_tiled _ S2000x64.size (by rfl))
  isplitl [H7]
  · iexists _; isplitr; swap; · iexact H7
    ipureintro; exact View.read_writes_eq_canon _ _ _ (View.cover_of_tiled _ S2000x1.size (by rfl))
  iexists _; isplitr; swap; · iexact H8
  ipureintro; exact View.read_writes_eq_canon _ _ _ (View.cover_of_tiled _ S2000x1.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) := by dsimp only [dat0]

theorem before0 (c : Dev nD) (t : Fin cfg0.N) :
    (∀ d, (dat0 V c).before 0 t d = iblk0 V c 0 t) ∧ (∀ d, (dat0 V c).before 1 t d = iblk0 V c 1 t) ∧
    (∀ d, (dat0 V c).before 2 t d = iblk0 V c 2 t) ∧ (∀ d, (dat0 V c).before 3 t d = iblk0 V c 3 t) ∧
    (∀ d, (dat0 V c).before 4 t d = iblk0 V c 4 t) ∧ (∀ d, (dat0 V c).before 5 t d = iblk0 V c 5 t) := by
  refine ⟨?_, ?_, ?_, ?_, ?_, ?_⟩ <;> intro d <;>
    refine Eq.trans (Dat.before_in_eq_fetched (dat0 V c) _ ?_ ?_ ?_ ?_ t d) ?_ <;> intros <;> rfl

theorem hin0 (c : Dev nD) : Pipeline.ΦA spec0 c ⊢ (dat0 V c).Φ 0 := .rfl

theorem hout0 (c : Dev nD) : (dat0 V c).Φ (Fin.last cfg0.N) ⊢ Pipeline.ΦA spec0 c := .rfl

theorem after0 (c : Dev nD) (t : Fin cfg0.N) :
    (dat0 V c).after 0 t = iblk0 V c 0 t ∧ (dat0 V c).after 1 t = iblk0 V c 1 t ∧ (dat0 V c).after 2 t = iblk0 V c 2 t ∧
    (dat0 V c).after 3 t = iblk0 V c 3 t ∧ (dat0 V c).after 4 t = iblk0 V c 4 t ∧ (dat0 V c).after 5 t = iblk0 V c 5 t := by
  dsimp only [dat0]; exact ⟨rfl, rfl, rfl, rfl, rfl, rfl⟩

-- At every point the obligation is the body's triple at that point's input blocks.
theorem body_obligation0 (c : Dev nD) : BodyObligation (dat0 (F := F) V c) (defs₀ (F := F)) Variants.none () Set.univ := fun t => by
  obtain ⟨b0, b1, b2, b3, b4, b5⟩ := before0 V c t
  obtain ⟨a0, a1, a2, a3, a4, a5⟩ := after0 V c t
  rw [bigSep_W0, bigSep_W0]
  simp only [b0, b1, b2, b3, b4, b5]
  rw [show (dat0 V c).Φ t.succ = (dat0 V c).Φ t.castSucc from rfl,
    show (dat0 V c).owesAt () t.succ = (dat0 V c).owesAt () t.castSucc from rfl,
    a0, a1, a2, a3, a4, a5, after0_6, after0_7, after0_8]
  show _ ⊢ wp _ _ _ (bodyAt0 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 (c := c) (E := Set.univ) (x0 := iblk0 V c 0 t) (x1 := iblk0 V c 1 t) (x2 := iblk0 V c 2 t) (x3 := iblk0 V c 3 t) (x4 := iblk0 V c 4 t) (x5 := iblk0 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
end Cert.KernelIdeal.Fr
-- ==== Proof.KI.LnBody.lean ====
import proofs.«409413_j30142080483538_1_alg».proof.Proof.Gen.KernelIdeal.Skeleton
import Idealize.ShloMosaic.Lib.Pipeline.FrameBody
import Idealize.ShloMosaic.Lib.Tactic
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

abbrev rLn0 : Rect S2000x64 := Rect.unit (s := S2000x64) ![0, 0] S2000x64.size inb_S2000x64_S2000x64_0_0
abbrev rLn1 : Rect S2000x1 := Rect.unit (s := S2000x1) ![0, 0] S2000x1.size inb_S2000x1_S2000x1_0_0
abbrev rLn2 : Rect S1x64 := Rect.unit (s := S1x64) ![0, 0] S1x64.size inb_S1x64_S1x64_0_0

def lnBody (pay : Vec F S2000x64 .f32 → Vec F S2000x1 .f32 → Vec F S2000x1 .f32 → Vec F S1x64 .f32 → Vec F S1x64 .f32 → FVec F S2000x64 .f32)
    (arg1 : Memref sig .tc .vmem S2000x64 .f32) (arg2 arg3 : Memref sig .tc .vmem S2000x1 .f32) (arg4 arg5 : Memref sig .tc .vmem S1x64 .f32) (arg6 : Memref sig .tc .vmem S2000x64 .f32) :
    Prog (TpuEff nD τ sig (Elt F) Λ₀ .tc) PUnit := do
  let v0 : Vec F S2000x64 .f32 ← Prog.lift (.load arg1 rLn0.toLoadRect (View.loadsAt_vmem h_S2000x64))
  let v2 : Vec F S2000x1 .f32 ← Prog.lift (.load arg3 rLn1.toLoadRect (View.loadsAt_vmem h_S2000x1))
  let v7 : Vec F S2000x1 .f32 ← Prog.lift (.load arg2 rLn1.toLoadRect (View.loadsAt_vmem h_S2000x1))
  let v13 : Vec F S1x64 .f32 ← Prog.lift (.load arg4 rLn2.toLoadRect (View.loadsAt_vmem h_S1x64))
  let v17 : Vec F S1x64 .f32 ← Prog.lift (.load arg5 rLn2.toLoadRect (View.loadsAt_vmem h_S1x64))
  let v23 : Vec F S2000x64 .f32 ← Prog.lift (.load arg6 rLn0.toLoadRect (View.loadsAt_vmem h_S2000x64))
  Prog.lift (.store arg6 rLn0 (pay v0 v2 v7 v13 v17) Finset.univ (View.stores_vmem_bits_univ h_S2000x64 rfl) (.inl rfl))
  pure ⟨⟩

set_option maxHeartbeats 1000000 in
-- Whatever the payload function, the body leaves the five inputs as they were and the output at the payload of the inputs.
theorem sound_ln (pay : Vec F S2000x64 .f32 → Vec F S2000x1 .f32 → Vec F S2000x1 .f32 → Vec F S1x64 .f32 → Vec F S1x64 .f32 → FVec F S2000x64 .f32)
    (c : Dev nD) (E : Set ℕ) (arg1 : Memref sig .tc .vmem S2000x64 .f32) (arg2 arg3 : Memref sig .tc .vmem S2000x1 .f32) (arg4 arg5 : Memref sig .tc .vmem S1x64 .f32) (arg6 : Memref sig .tc .vmem S2000x64 .f32)
    (x0 : Vec F S2000x64 .f32) (x1 x2 : Vec F S2000x1 .f32) (x3 x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (View.canon [⟨rLn0, pay (View.ld x0 rLn0) (View.ld x2 rLn1) (View.ld x1 rLn1) (View.ld x3 rLn2) (View.ld x4 rLn2)⟩])) -∗ K ⟨⟩))
      ⊢ wp frame (wpE (defs₀ (F := F)) Variants.none c none) E (lnBody pay arg1 arg2 arg3 arg4 arg5 arg6) K := by
  unfold lnBody owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled [⟨rLn0, _⟩] S2000x64.size (by rfl))

end Cert.KernelIdeal.Fr
end
-- ==== Proof.KI.Reg1.lean ====
import proofs.«409413_j30142080483538_1_alg».proof.Proof.Gen.KernelIdeal.Launch
import proofs.«409413_j30142080483538_1_alg».proof.Proof.Gen.KernelIdeal.Points
import proofs.«409413_j30142080483538_1_alg».proof.Proof.KI.LnBody
import Idealize.ShloMosaic.Lib.Pipeline.RegionsLoop
import Idealize.ShloMosaic.Lib.Pipeline.FrameSuffix
import Idealize.ShloMosaic.Lib.Ring
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x64 := Rect.unit (s := S2000x64) ![0, 0] S2000x64.size inb_S2000x64_S2000x64_0_0
abbrev r1_1 : Rect S2000x1 := Rect.unit (s := S2000x1) ![0, 0] S2000x1.size inb_S2000x1_S2000x1_0_0
abbrev r1_2 : Rect S1x64 := Rect.unit (s := S1x64) ![0, 0] S1x64.size inb_S1x64_S1x64_0_0

def out1_5 (x0 : Vec F S2000x64 .f32) (x1 : Vec F S2000x1 .f32) (x2 : Vec F S2000x1 .f32) (x3 : Vec F S1x64 .f32) (x4 : Vec F S1x64 .f32) :
    Vec F S2000x64 .f32 :=
  View.canon [⟨r1_0, k1_pay1 (View.ld x0 r1_0) (View.ld x2 r1_1) (View.ld x1 r1_1) (View.ld x3 r1_2) (View.ld x4 r1_2)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

-- What the body finds in an input window at any point is that window's block of the input array.
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ (∀ d, (dat1 V c).before 4 t d = iblk1 V c 4 t) := by
  refine ⟨?_, ?_, ?_, ?_, ?_⟩ <;> intro d <;>
    (rw [Dat.before_in_eq_fetched _ _ rfl (fun _ => rfl) (fun _ _ _ => rfl) (fun _ => by dsimp only [dat1]; rfl) t d]
     dsimp only [dat1, Dat.fetched, Dat.blockOf]; rfl)

theorem sound_body1 (c : Dev nD) (t : Fin cfg1.N) :
    iprop((dat1 V c).Φ t.castSucc ∗ (dat1 V c).owesAt () t.castSucc
      ∗ bigSep Finset.univ fun w : Fin cfg1.W => iprop(∃ d, owns (c : Thread nD τ) ((cfg1.win w).stage (cfg1.slots t w)) fullShare ((dat1 V c).before w t d)))
    ⊢ wp frame (wpE (defs₀ (F := F)) Variants.none c none) Set.univ (bodyAt1 t) fun _ =>
      iprop((dat1 V c).Φ t.succ ∗ (dat1 V c).owesAt () t.succ
        ∗ bigSep Finset.univ fun w : Fin cfg1.W => owns (c : Thread nD τ) ((cfg1.win w).stage (cfg1.slots t w)) fullShare ((dat1 V c).after w t)) := by
  rw [bigSep_W1, bigSep_W1]
  obtain ⟨h0, h1, h2, h3, h4⟩ := before1 V c t
  simp only [h0, h1, h2, h3, h4]
  rw [show (dat1 V c).Φ t.succ = (dat1 V c).Φ t.castSucc from rfl,
    show (dat1 V c).owesAt () t.succ = (dat1 V c).owesAt () t.castSucc from rfl]
  dsimp only [dat1, out1_5]
  unfold bodyAt1
  rw [cc1__layernorm_relu_kernel_eq_skeleton]; unfold cc1__layernorm_relu_kernel_skel
  iintro ⟨HΦ, Ho, ⟨%d0, H0⟩, ⟨%d1, H1⟩, ⟨%d2, H2⟩, ⟨%d3, H3⟩, ⟨%d4, H4⟩, ⟨%d5, H5⟩⟩
  iapply (sound_ln k1_pay1 c Set.univ _ _ _ _ _ _
    (iblk1 V c 0 t) (iblk1 V c 1 t) (iblk1 V c 2 t) (iblk1 V c 3 t) (iblk1 V c 4 t) _)
  iframe H0 H1 H2 H3 H4
  isplitl [H5]; · iexists _; iexact H5
  iintro ⟨H0, H1, H2, H3, H4, H5⟩
  iframe

theorem body_obligation1 (c : Dev nD) : BodyObligation (dat1 (F := F) V c) (defs₀ (F := F)) Variants.none () Set.univ :=
  sound_body1 V c

theorem hin1 (c : Dev nD) : Pipeline.ΦA spec1 c ⊢ (dat1 V c).Φ 0 := .rfl

theorem hout1 (c : Dev nD) : (dat1 V c).Φ (Fin.last cfg1.N) ⊢ Pipeline.ΦA spec1 c := .rfl

end Cert.KernelIdeal.Fr
end
-- ==== Proof.KI.Reg2.lean ====
import proofs.«409413_j30142080483538_1_alg».proof.Proof.Gen.KernelIdeal.Launch
import proofs.«409413_j30142080483538_1_alg».proof.Proof.Gen.KernelIdeal.Skeleton
import proofs.«409413_j30142080483538_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x64 := Rect.unit (s := S2000x64) ![0, 0] S2000x64.size inb_S2000x64_S2000x64_0_0
abbrev r2_1 : Rect S2000x64 := Rect.unit (s := S2000x64) ![0, 0] S2000x64.size inb_S2000x64_S2000x64_0_0
abbrev r2_2 : Rect S64x64 := Rect.unit (s := S64x64) ![0, 0] S64x64.size inb_S64x64_S64x64_0_0
abbrev r2_3 : Rect S1x64 := Rect.unit (s := S1x64) ![0, 0] S1x64.size inb_S1x64_S1x64_0_0
abbrev r2_4 : Rect S64x64 := Rect.unit (s := S64x64) ![0, 0] S64x64.size inb_S64x64_S64x64_0_0
abbrev r2_5 : Rect S1x64 := Rect.unit (s := S1x64) ![0, 0] S1x64.size inb_S1x64_S1x64_0_0
abbrev r2_6 : Rect S2000x64 := Rect.unit (s := S2000x64) ![0, 0] S2000x64.size inb_S2000x64_S2000x64_0_0
abbrev r2_7 : Rect S2000x1 := Rect.unit (s := S2000x1) ![0, 0] S2000x1.size inb_S2000x1_S2000x1_0_0
abbrev r2_8 : Rect S2000x1 := Rect.unit (s := S2000x1) ![0, 0] S2000x1.size inb_S2000x1_S2000x1_0_0

def out2_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨r2_6, k2_pay1 (View.ld x0 r2_0) (View.ld x1 r2_1) (View.ld x2 r2_2) (View.ld x3 r2_3) (View.ld x4 r2_4) (View.ld x5 r2_5)⟩]

def out2_7 (x0 : Vec F S2000x64 .f32) (x1 : Vec F S2000x64 .f32) (x2 : Vec F S64x64 .f32) (x3 : Vec F S1x64 .f32) (x4 : Vec F S64x64 .f32) (x5 : Vec F S1x64 .f32) : Vec F S2000x1 .f32 :=
  View.canon [⟨r2_7, k2_pay2 (View.ld x0 r2_0) (View.ld x1 r2_1) (View.ld x2 r2_2) (View.ld x3 r2_3) (View.ld x4 r2_4) (View.ld x5 r2_5)⟩]

def out2_8 (x0 : Vec F S2000x64 .f32) (x1 : Vec F S2000x64 .f32) (x2 : Vec F S64x64 .f32) (x3 : Vec F S1x64 .f32) (x4 : Vec F S64x64 .f32) (x5 : Vec F S1x64 .f32) : Vec F S2000x1 .f32 :=
  View.canon [⟨r2_8, k2_pay3 (View.ld x0 r2_0) (View.ld x1 r2_1) (View.ld x2 r2_2) (View.ld x3 r2_3) (View.ld x4 r2_4) (View.ld x5 r2_5)⟩]

-- One store through a rectangle of the whole shape covers it, so each output reads that store's payload.
set_option maxHeartbeats 4000000 in
theorem sound_kernel2 (c : Dev nD) (E : Set ℕ) (i : grid2.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x1 .f32) (harg8 : arg8.IsWhole) (arg9 : Memref sig .tc .vmem S2000x1 .f32) (harg9 : arg9.IsWhole)
    (x0 : Vec F S2000x64 .f32) (x1 : Vec F S2000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)
            ∗ owns (c : Thread nD τ) arg8 fullShare (out2_7 x0 x1 x2 x3 x4 x5)
            ∗ owns (c : Thread nD τ) arg9 fullShare (out2_8 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8 arg9 harg9) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro; exact View.read_writes_eq_canon _ _ _ (View.cover_of_tiled _ S2000x64.size (by rfl))
  isplitl [H7]
  · iexists _; isplitr; swap; · iexact H7
    ipureintro; exact View.read_writes_eq_canon _ _ _ (View.cover_of_tiled _ S2000x1.size (by rfl))
  iexists _; isplitr; swap; · iexact H8
  ipureintro; exact View.read_writes_eq_canon _ _ _ (View.cover_of_tiled _ S2000x1.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
    | ⟨7, _⟩ => out2_7 (iblk2 V c 0 t) (iblk2 V c 1 t) (iblk2 V c 2 t) (iblk2 V c 3 t) (iblk2 V c 4 t) (iblk2 V c 5 t)
    | ⟨8, _⟩ => out2_8 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 V c).after 8 t = out2_8 (iblk2 V c 0 t) (iblk2 V c 1 t) (iblk2 V c 2 t) (iblk2 V c 3 t) (iblk2 V c 4 t) (iblk2 V c 5 t) := by dsimp only [dat2]

theorem before2 (c : Dev nD) (t : Fin cfg2.N) :
    (∀ d, (dat2 V c).before 0 t d = iblk2 V c 0 t) ∧ (∀ d, (dat2 V c).before 1 t d = iblk2 V c 1 t) ∧
    (∀ d, (dat2 V c).before 2 t d = iblk2 V c 2 t) ∧ (∀ d, (dat2 V c).before 3 t d = iblk2 V c 3 t) ∧
    (∀ d, (dat2 V c).before 4 t d = iblk2 V c 4 t) ∧ (∀ d, (dat2 V c).before 5 t d = iblk2 V c 5 t) := by
  refine ⟨?_, ?_, ?_, ?_, ?_, ?_⟩ <;> intro d <;>
    refine Eq.trans (Dat.before_in_eq_fetched (dat2 V c) _ ?_ ?_ ?_ ?_ t d) ?_ <;> intros <;> rfl

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

theorem after2 (c : Dev nD) (t : Fin cfg2.N) :
    (dat2 V c).after 0 t = iblk2 V c 0 t ∧ (dat2 V c).after 1 t = iblk2 V c 1 t ∧ (dat2 V c).after 2 t = iblk2 V c 2 t ∧
    (dat2 V c).after 3 t = iblk2 V c 3 t ∧ (dat2 V c).after 4 t = iblk2 V c 4 t ∧ (dat2 V c).after 5 t = iblk2 V c 5 t := by
  dsimp only [dat2]; exact ⟨rfl, rfl, rfl, rfl, rfl, rfl⟩

-- At every point the obligation is the body's triple at that point's input blocks.
theorem body_obligation2 (c : Dev nD) : BodyObligation (dat2 (F := F) V c) (defs₀ (F := F)) Variants.none () Set.univ := fun t => by
  obtain ⟨b0, b1, b2, b3, b4, b5⟩ := before2 V c t
  obtain ⟨a0, a1, a2, a3, a4, a5⟩ := after2 V c t
  rw [bigSep_W2, bigSep_W2]
  simp only [b0, b1, b2, b3, b4, b5]
  rw [show (dat2 V c).Φ t.succ = (dat2 V c).Φ t.castSucc from rfl,
    show (dat2 V c).owesAt () t.succ = (dat2 V c).owesAt () t.castSucc from rfl,
    a0, a1, a2, a3, a4, a5, after2_6, after2_7, after2_8]
  show _ ⊢ wp _ _ _ (bodyAt2 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 (c := c) (E := Set.univ) (x0 := iblk2 V c 0 t) (x1 := iblk2 V c 1 t) (x2 := iblk2 V c 2 t) (x3 := iblk2 V c 3 t) (x4 := iblk2 V c 4 t) (x5 := iblk2 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
end Cert.KernelIdeal.Fr
-- ==== Proof.KI.Reg3.lean ====
import proofs.«409413_j30142080483538_1_alg».proof.Proof.Gen.KernelIdeal.Launch
import proofs.«409413_j30142080483538_1_alg».proof.Proof.Gen.KernelIdeal.Points
import proofs.«409413_j30142080483538_1_alg».proof.Proof.KI.LnBody
import Idealize.ShloMosaic.Lib.Pipeline.RegionsLoop
import Idealize.ShloMosaic.Lib.Pipeline.FrameSuffix
import Idealize.ShloMosaic.Lib.Ring
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2000x64 := Rect.unit (s := S2000x64) ![0, 0] S2000x64.size inb_S2000x64_S2000x64_0_0
abbrev r3_1 : Rect S2000x1 := Rect.unit (s := S2000x1) ![0, 0] S2000x1.size inb_S2000x1_S2000x1_0_0
abbrev r3_2 : Rect S1x64 := Rect.unit (s := S1x64) ![0, 0] S1x64.size inb_S1x64_S1x64_0_0

def out3_5 (x0 : Vec F S2000x64 .f32) (x1 : Vec F S2000x1 .f32) (x2 : Vec F S2000x1 .f32) (x3 : Vec F S1x64 .f32) (x4 : Vec F S1x64 .f32) :
    Vec F S2000x64 .f32 :=
  View.canon [⟨r3_0, k3_pay1 (View.ld x0 r3_0) (View.ld x2 r3_1) (View.ld x1 r3_1) (View.ld x3 r3_2) (View.ld x4 r3_2)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem after3_5 (c : Dev nD) (t : Fin cfg3.N) :
    (dat3 V c).after 5 t = out3_5 (iblk3 V c 0 t) (iblk3 V c 1 t) (iblk3 V c 2 t) (iblk3 V c 3 t) (iblk3 V c 4 t) := by dsimp only [dat3]

-- What the body finds in an input window at any point is that window's block of the input array.
theorem before3 (c : Dev nD) (t : Fin cfg3.N) :
    (∀ d, (dat3 V c).before 0 t d = iblk3 V c 0 t) ∧ (∀ d, (dat3 V c).before 1 t d = iblk3 V c 1 t)
      ∧ (∀ d, (dat3 V c).before 2 t d = iblk3 V c 2 t) ∧ (∀ d, (dat3 V c).before 3 t d = iblk3 V c 3 t)
      ∧ (∀ d, (dat3 V c).before 4 t d = iblk3 V c 4 t) := by
  refine ⟨?_, ?_, ?_, ?_, ?_⟩ <;> intro d <;>
    (rw [Dat.before_in_eq_fetched _ _ rfl (fun _ => rfl) (fun _ _ _ => rfl) (fun _ => by dsimp only [dat3]; rfl) t d]
     dsimp only [dat3, Dat.fetched, Dat.blockOf]; rfl)

theorem sound_body3 (c : Dev nD) (t : Fin cfg3.N) :
    iprop((dat3 V c).Φ t.castSucc ∗ (dat3 V c).owesAt () t.castSucc
      ∗ bigSep Finset.univ fun w : Fin cfg3.W => iprop(∃ d, owns (c : Thread nD τ) ((cfg3.win w).stage (cfg3.slots t w)) fullShare ((dat3 V c).before w t d)))
    ⊢ wp frame (wpE (defs₀ (F := F)) Variants.none c none) Set.univ (bodyAt3 t) fun _ =>
      iprop((dat3 V c).Φ t.succ ∗ (dat3 V c).owesAt () t.succ
        ∗ bigSep Finset.univ fun w : Fin cfg3.W => owns (c : Thread nD τ) ((cfg3.win w).stage (cfg3.slots t w)) fullShare ((dat3 V c).after w t)) := by
  rw [bigSep_W3, bigSep_W3]
  obtain ⟨h0, h1, h2, h3, h4⟩ := before3 V c t
  simp only [h0, h1, h2, h3, h4]
  rw [show (dat3 V c).Φ t.succ = (dat3 V c).Φ t.castSucc from rfl,
    show (dat3 V c).owesAt () t.succ = (dat3 V c).owesAt () t.castSucc from rfl]
  dsimp only [dat3, out3_5]
  unfold bodyAt3
  rw [cc3__layernorm_relu_kernel_eq_skeleton]; unfold cc3__layernorm_relu_kernel_skel
  iintro ⟨HΦ, Ho, ⟨%d0, H0⟩, ⟨%d1, H1⟩, ⟨%d2, H2⟩, ⟨%d3, H3⟩, ⟨%d4, H4⟩, ⟨%d5, H5⟩⟩
  iapply (sound_ln k3_pay1 c Set.univ _ _ _ _ _ _
    (iblk3 V c 0 t) (iblk3 V c 1 t) (iblk3 V c 2 t) (iblk3 V c 3 t) (iblk3 V c 4 t) _)
  iframe H0 H1 H2 H3 H4
  isplitl [H5]; · iexists _; iexact H5
  iintro ⟨H0, H1, H2, H3, H4, H5⟩
  iframe

theorem body_obligation3 (c : Dev nD) : BodyObligation (dat3 (F := F) V c) (defs₀ (F := F)) Variants.none () Set.univ :=
  sound_body3 V c

theorem hin3 (c : Dev nD) : Pipeline.ΦA spec3 c ⊢ (dat3 V c).Φ 0 := .rfl

theorem hout3 (c : Dev nD) : (dat3 V c).Φ (Fin.last cfg3.N) ⊢ Pipeline.ΦA spec3 c := .rfl

end Cert.KernelIdeal.Fr
end
-- ==== Proof.KI.Reg4.lean ====
import proofs.«409413_j30142080483538_1_alg».proof.Proof.Gen.KernelIdeal.Launch
import proofs.«409413_j30142080483538_1_alg».proof.Proof.Gen.KernelIdeal.Skeleton
import proofs.«409413_j30142080483538_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev ms4_0 (t : Fin cfg4.N) : Memref sig .tc .vmem S2000x64 .f32 := win4_0.stage (cfg4.slots t 0)
abbrev ms4_1 (t : Fin cfg4.N) : Memref sig .tc .vmem S2000x1 .i32 := win4_1.stage (cfg4.slots t 1)
abbrev ms4_2 (t : Fin cfg4.N) : Memref sig .tc .vmem S1024x64 .f32 := win4_2.stage (cfg4.slots t 2)
abbrev scM4 : Memref sig .tc .vmem S1024x64 .f32 := Memref.whole cc4_scratch0

def acc4 (c : Dev nD) : (n : ℕ) → n < cfg4.N → Vec F S1024x64 .f32
  | 0, h => k4_pay2 (iblk4 V c 0 ⟨0, h⟩) (iblk4 V c 1 ⟨0, h⟩) k4_pay1
  | n + 1, h => k4_pay2 (iblk4 V c 0 ⟨n + 1, h⟩) (iblk4 V c 1 ⟨n + 1, h⟩) (acc4 c n (Nat.lt_of_succ_lt h))

theorem acc4_zero (c : Dev nD) (h : 0 < cfg4.N) :
    acc4 V c 0 h = k4_pay2 (iblk4 V c 0 ⟨0, h⟩) (iblk4 V c 1 ⟨0, h⟩) k4_pay1 := rfl

theorem acc4_succ (c : Dev nD) (n : ℕ) (h : n + 1 < cfg4.N) :
    acc4 V c (n + 1) h = k4_pay2 (iblk4 V c 0 ⟨n + 1, h⟩) (iblk4 V c 1 ⟨n + 1, h⟩) (acc4 V c n (Nat.lt_of_succ_lt h)) := rfl

abbrev Rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(((∃ d, owns (c : Thread nD τ) scM4 fullShare d) ∗ Rest4 (F := F) c) ∗ (∃ r, prngReg c r)) := by
  unfold Pipeline.ΦA; rw [scopedRest4_split]; simp only [scM4, owns_whole]; try rfl

def Phi4 (c : Dev nD) : (n : ℕ) → n ≤ cfg4.N → sProp 𝕄
  | 0, _ => Pipeline.ΦA spec4 c
  | n + 1, hn => iprop((owns (c : Thread nD τ) scM4 fullShare (acc4 V c n hn) ∗ Rest4 (F := F) c) ∗ (∃ r, prngReg c r))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => acc4 V c t.val t.isLt
  Φ t := Phi4 V c t.val (Nat.le_of_lt_succ t.isLt)
  q _ := fullShare
  owed _ := 0

theorem after4_2 (c : Dev nD) (t : Fin cfg4.N) : (dat4 V c).after 2 t = acc4 V c t.val t.isLt := by dsimp only [dat4]

theorem hcond4_2 : ∀ t : Fin cfg4.N, k4_cond2 (grid4.coords t) = 1#1 ↔ t.val = 124 :=
  (by decide +kernel : ∀ t : Fin grid4.N, k4_cond2 (grid4.coords t) = 1#1 ↔ t.val = 124)

theorem idleAt4_2 : ∀ t : Fin cfg4.N, t.val ≠ 124 → cfg4.idle 2 (grid4.coords t) = true := by decide +kernel
theorem liveAt4_2 : ∀ t : Fin cfg4.N, t.val = 124 → cfg4.idle 2 (grid4.coords t) = false := by decide +kernel
theorem noFlush4_2 : ∀ t : Fin cfg4.N, t.val ≠ 124 → (cfg4.win 2).flush t = false := by decide +kernel

theorem before4_0 (c : Dev nD) (t : Fin cfg4.N) (d) : (dat4 V c).before 0 t d = iblk4 V c 0 t :=
  (dat4 V c).before_fetched 0 t (fetch4_0 t) d
theorem before4_1 (c : Dev nD) (t : Fin cfg4.N) (d) : (dat4 V c).before 1 t d = iblk4 V c 1 t :=
  (dat4 V c).before_fetched 1 t (fetch4_1 t) d

section Run
variable {κ : Kind} {sp : Space} {S : Shape} {e : EltTy}

theorem z4 : (![0, 0] : Fin 2 → ℕ) = fun _ => 0 := funext fun a => by fin_cases a <;> rfl

-- One store through the whole-shape rectangle, made last, covers every index: the buffer then reads its payload.
theorem rdw4 {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f (⟨Rect.unit off S.size inb, w⟩ :: L)) = w :=
  (View.read_writes_eq_canon v f _ (fun y => ⟨_, List.mem_cons.mpr (.inl rfl), View.mem_set_unit_zero h inb y⟩)).trans
    (View.canon_cons_unit_zero h inb w L)

theorem ldw4 (v : View sig κ sp S e) (f : v.ty.Contents (Elt F)) {off : Fin S.rank → Nat} (h : off = fun _ => 0)
    (inb : ∀ a, off a + S.size a ≤ S.size a) :
    View.readAt (Elt F) v (Rect.unit off S.size inb).toLoadRect f = v.read (Elt F) f := View.ld_unit_zero h _ _

theorem rdc4 {Val : EltTy → Type} [∀ e, Nonempty (Val e)] (v : View sig κ sp S e) {off : Fin S.rank → Nat} (h : off = fun _ => 0)
    (inb : ∀ a, off a + S.size a ≤ S.size a) (w : S.Idx → Val e) (L : List (View.Piece Val S e)) :
    v.readCov (⟨Rect.unit off S.size inb, w⟩ :: L) (Rect.unit off S.size inb).toLoadRect = w := by
  rw [View.readCov_eq_canon_ld _ _ _ (fun y => ⟨_, List.mem_cons.mpr (.inl rfl), View.mem_set_unit_zero h inb y⟩),
    View.canon_cons_unit_zero h, View.ld_unit_zero h]

abbrev cond4_1 (i : grid4.Coords) : Prop :=
  (Scalar.cmpi .ne (Scalar.extui (Scalar.cmpi .eq (BitVec.ofNat 32 (i 0).val) 0#32)) 0#32) = 1#1

-- At every grid point the accumulator takes the point's payload over its old contents (over the zero payload at the first point); the last point also stores it to the output.
set_option maxHeartbeats 1000000 in
theorem run4 {p1 : FVec F S1024x64 .f32} {p2 : Vec F S2000x64 .f32 → Vec F S2000x1 .i32 → Vec F S1024x64 .f32 → FVec F S1024x64 .f32}
    {c2 : grid4.Coords → BitVec 1} (hp1 : p1 = k4_pay1) (hp2 : p2 = k4_pay2) (hk : c2 = k4_cond2) (c : Dev nD) (i : grid4.Coords)
    (arg1 : Memref sig .tc .vmem S2000x64 .f32) (harg1 : arg1.IsWhole) (arg2 : Memref sig .tc .vmem S2000x1 .i32) (harg2 : arg2.IsWhole)
    (arg3 : Memref sig .tc .vmem S1024x64 .f32) (harg3 : arg3.IsWhole) (argS : Memref sig .tc .vmem S1024x64 .f32) (hargS : argS.IsWhole)
    {prog : Prog (TpuEff nD τ sig (Elt F) Λ₀ .tc) PUnit} (hprog : prog = cc4__lambda_ i arg1 harg1 arg2 harg2 arg3 harg3 argS hargS)
    (x : Vec F S2000x64 .f32) (b : Vec F S2000x1 .i32) (o a : Vec F S1024x64 .f32) (E : Set ℕ) (K : PUnit → sProp 𝕄) :
    iprop(owns (c : Thread nD τ) arg1 fullShare x ∗ owns (c : Thread nD τ) arg2 fullShare b ∗ owns (c : Thread nD τ) arg3 fullShare o
        ∗ owns (c : Thread nD τ) argS fullShare a
        ∗ (iprop(owns (c : Thread nD τ) arg1 fullShare x ∗ owns (c : Thread nD τ) arg2 fullShare b
            ∗ owns (c : Thread nD τ) arg3 fullShare (if c2 i = 1#1 then p2 x b (if cond4_1 i then p1 else a) else o)
            ∗ owns (c : Thread nD τ) argS fullShare (p2 x b (if cond4_1 i then p1 else a))) -∗ K ⟨⟩))
      ⊢ wp frame (wpE (defs₀ (F := F)) Variants.none c none) E prog K := by
  subst hp1 hp2 hk hprog
  by_cases hc1 : cond4_1 i <;> by_cases hc2 : k4_cond2 i = 1#1 <;>
  · first | simp only [if_neg hc1] | simp only [if_pos hc1]
    first | simp only [if_neg hc2] | simp only [if_pos hc2]
    simp only [cc4__lambda__eq_skeleton]; unfold cc4__lambda__skel owns
    iintro ⟨⟨%f1, %hf1, H1⟩, ⟨%f2, %hf2, H2⟩, ⟨%f3, %hf3, H3⟩, ⟨%fS, %hfS, HS⟩, Hk⟩
    subst hf1 hf2 hf3 hfS
    sl_exec (disch := first | exact hc1 | exact hc2)
    sl_step
    iapply Hk
    isplitl [H1]
    · iexists f1; isplitr; · ipureintro; rfl
      iexact H1
    isplitl [H2]
    · iexists f2; isplitr; · ipureintro; rfl
      iexact H2
    isplitl [H3]
    all_goals
      iexists _; isplitr; swap; · iassumption
      ipureintro
      sl_unfold_run_names
      simp only [rdw4 (S := S1024x64) _ _ z4, rdc4 (S := S1024x64) _ z4,
        ldw4 (S := S2000x64) _ _ z4, ldw4 (S := S2000x1) _ _ z4, ldw4 (S := S1024x64) _ _ z4]

end Run

theorem hcond4_1 : ∀ t : Fin cfg4.N, cond4_1 (grid4.coords t) ↔ t.val = 0 :=
  (by decide +kernel : ∀ t : Fin grid4.N, cond4_1 (grid4.coords t) ↔ t.val = 0)

-- Before any point the scratch is held at some contents over which this point's payload is the accumulation so far.
theorem Phi4_open (c : Dev nD) (n : ℕ) (h : n ≤ cfg4.N) :
    Phi4 V c n h ⊢ iprop(∃ a, ⌜∀ h' : n < cfg4.N, acc4 V c n h'
        = k4_pay2 (iblk4 V c 0 ⟨n, h'⟩) (iblk4 V c 1 ⟨n, h'⟩) (if cond4_1 (grid4.coords ⟨n, h'⟩) then k4_pay1 else a)⌝
      ∗ (owns (c : Thread nD τ) scM4 fullShare a ∗ Rest4 (F := F) c) ∗ (∃ r, prngReg c r)) := by
  cases n with
  | zero =>
    simp only [Phi4, PhiA4_eq]
    iintro ⟨⟨⟨%a, HS⟩, HR⟩, Hg⟩
    iexists a; iframe; ipureintro; intro h'; rw [if_pos ((hcond4_1 ⟨0, h'⟩).mpr rfl)]; rfl
  | succ n =>
    simp only [Phi4]
    iintro ⟨⟨HS, HR⟩, Hg⟩
    iexists _; iframe; ipureintro; intro h'
    rw [if_neg fun h => absurd ((hcond4_1 ⟨n + 1, h'⟩).mp h) (Nat.succ_ne_zero n)]; rfl

theorem body_obligation4 (c : Dev nD) : BodyObligation (dat4 (F := F) V c) (defs₀ (F := F)) Variants.none () Set.univ := fun t => by
  rw [bigSep_W4, bigSep_W4]
  show iprop(Phi4 V c t.val (Nat.le_of_lt t.isLt) ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d)))
    ⊢ wp frame (wpE (defs₀ (F := F)) Variants.none c none) Set.univ (bodyAt4 t) fun _ =>
      iprop(((owns (c : Thread nD τ) scM4 fullShare (acc4 V c t.val t.isLt) ∗ Rest4 (F := F) c) ∗ (∃ r, prngReg c r))
        ∗ (dat4 V c).owesAt () t.castSucc
        ∗ owns (c : Thread nD τ) (ms4_0 t) fullShare (iblk4 V c 0 t)
        ∗ owns (c : Thread nD τ) (ms4_1 t) fullShare (iblk4 V c 1 t)
        ∗ (dat4 V c).leavesExact 2 t)
  simp only [before4_0, before4_1]
  iintro ⟨HP, Ho, ⟨%d0, H0⟩, ⟨%d1, H1⟩, ⟨%d2, H2⟩⟩
  icases (Phi4_open V c t.val _) $$ HP with ⟨%a, %ha, ⟨HS, HR⟩, Hg⟩
  replace ha := ha t.isLt
  iapply (run4 (p1 := k4_pay1) (p2 := k4_pay2) (c2 := k4_cond2) (prog := bodyAt4 t) rfl rfl rfl c (grid4.coords t) (ms4_0 t) (hstage4_0 ((cfg4.slots t 0).cast nbuf4_0))
    (ms4_1 t) (hstage4_1 ((cfg4.slots t 1).cast nbuf4_1)) (ms4_2 t) (hstage4_2 ((cfg4.slots t 2).cast nbuf4_2)) scM4 (Memref.isWhole_whole _) rfl
    (iblk4 V c 0 t) (iblk4 V c 1 t) _ a Set.univ _)
  iframe H0 H1 H2 HS
  iintro ⟨H0, H1, H2, HS⟩
  by_cases h1 : t.val = 124
  · rw [show (dat4 V c).leavesExact 2 t = owns (c : Thread nD τ) (ms4_2 t) fullShare ((dat4 V c).after 2 t) from by
      unfold Dat.leavesExact; rw [liveAt4_2 t h1], after4_2, ha, if_pos ((hcond4_2 t).mpr h1)]
    iframe
  · rw [Dat.leavesExact_idle (dat4 V c) 2 t (idleAt4_2 t h1) (noFlush4_2 t h1), ha, if_neg fun h => h1 ((hcond4_2 t).mp h)]
    iframe HS HR Hg Ho H0 H1
    iexists _; iexact H2

theorem hin4 (c : Dev nD) : Pipeline.ΦA spec4 c ⊢ (dat4 V c).Φ 0 := Idealize.SL.BI.Entails.refl _

theorem hout4 (c : Dev nD) : (dat4 V c).Φ (Fin.last cfg4.N) ⊢ Pipeline.ΦA spec4 c := by
  rw [PhiA4_eq]
  show Phi4 V c cfg4.N (Nat.le_refl _) ⊢ _
  iintro H
  icases (Phi4_open V c _ _) $$ H with ⟨%a, -, ⟨HS, HR⟩, Hg⟩
  iframe HR Hg
  iexists _; iexact HS

end Cert.KernelIdeal.Fr
end
-- ==== Proof.KI.Reg5.lean ====
import proofs.«409413_j30142080483538_1_alg».proof.Proof.Gen.KernelIdeal.Launch
import proofs.«409413_j30142080483538_1_alg».proof.Proof.Gen.KernelIdeal.Skeleton
import proofs.«409413_j30142080483538_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S2000x6 := Rect.unit (s := S2000x6) ![0, 0] S2000x6.size inb_S2000x6_S2000x6_0_0
abbrev r5_1 : Rect S2000x6 := Rect.unit (s := S2000x6) ![0, 0] S2000x6.size inb_S2000x6_S2000x6_0_0
abbrev r5_2 : Rect S6x64 := Rect.unit (s := S6x64) ![0, 0] S6x64.size inb_S6x64_S6x64_0_0
abbrev r5_3 : Rect S1x64 := Rect.unit (s := S1x64) ![0, 0] S1x64.size inb_S1x64_S1x64_0_0
abbrev r5_4 : Rect S64x64 := Rect.unit (s := S64x64) ![0, 0] S64x64.size inb_S64x64_S64x64_0_0
abbrev r5_5 : Rect S1x64 := Rect.unit (s := S1x64) ![0, 0] S1x64.size inb_S1x64_S1x64_0_0
abbrev r5_6 : Rect S2000x64 := Rect.unit (s := S2000x64) ![0, 0] S2000x64.size inb_S2000x64_S2000x64_0_0
abbrev r5_7 : Rect S2000x1 := Rect.unit (s := S2000x1) ![0, 0] S2000x1.size inb_S2000x1_S2000x1_0_0
abbrev r5_8 : Rect S2000x1 := Rect.unit (s := S2000x1) ![0, 0] S2000x1.size inb_S2000x1_S2000x1_0_0

def out5_6 (x0 : Vec F S2000x6 .f32) (x1 : Vec F S2000x6 .f32) (x2 : Vec F S6x64 .f32) (x3 : Vec F S1x64 .f32) (x4 : Vec F S64x64 .f32) (x5 : Vec F S1x64 .f32) : Vec F S2000x64 .f32 :=
  View.canon [⟨r5_6, k5_pay1 (View.ld x0 r5_0) (View.ld x1 r5_1) (View.ld x2 r5_2) (View.ld x3 r5_3) (View.ld x4 r5_4) (View.ld x5 r5_5)⟩]

def out5_7 (x0 : Vec F S2000x6 .f32) (x1 : Vec F S2000x6 .f32) (x2 : Vec F S6x64 .f32) (x3 : Vec F S1x64 .f32) (x4 : Vec F S64x64 .f32) (x5 : Vec F S1x64 .f32) : Vec F S2000x1 .f32 :=
  View.canon [⟨r5_7, k5_pay2 (View.ld x0 r5_0) (View.ld x1 r5_1) (View.ld x2 r5_2) (View.ld x3 r5_3) (View.ld x4 r5_4) (View.ld x5 r5_5)⟩]

def out5_8 (x0 : Vec F S2000x6 .f32) (x1 : Vec F S2000x6 .f32) (x2 : Vec F S6x64 .f32) (x3 : Vec F S1x64 .f32) (x4 : Vec F S64x64 .f32) (x5 : Vec F S1x64 .f32) : Vec F S2000x1 .f32 :=
  View.canon [⟨r5_8, k5_pay3 (View.ld x0 r5_0) (View.ld x1 r5_1) (View.ld x2 r5_2) (View.ld x3 r5_3) (View.ld x4 r5_4) (View.ld x5 r5_5)⟩]

-- One store through a rectangle of the whole shape covers it, so each output reads that store's payload.
set_option maxHeartbeats 4000000 in
theorem sound_kernel5 (c : Dev nD) (E : Set ℕ) (i : grid5.Coords) (arg1 : Memref sig .tc .vmem S2000x6 .f32) (harg1 : arg1.IsWhole) (arg2 : Memref sig .tc .vmem S2000x6 .f32) (harg2 : arg2.IsWhole) (arg3 : Memref sig .tc .vmem S6x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x1 .f32) (harg8 : arg8.IsWhole) (arg9 : Memref sig .tc .vmem S2000x1 .f32) (harg9 : arg9.IsWhole)
    (x0 : Vec F S2000x6 .f32) (x1 : Vec F S2000x6 .f32) (x2 : Vec F S6x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out5_6 x0 x1 x2 x3 x4 x5)
            ∗ owns (c : Thread nD τ) arg8 fullShare (out5_7 x0 x1 x2 x3 x4 x5)
            ∗ owns (c : Thread nD τ) arg9 fullShare (out5_8 x0 x1 x2 x3 x4 x5)) -∗ K ⟨⟩))
      ⊢ wp frame (wpE (defs₀ (F := F)) Variants.none c none) E (cc5__gin_mlp_kernel i arg1 harg1 arg2 harg2 arg3 harg3 arg4 harg4 arg5 harg5 arg6 harg6 arg7 harg7 arg8 harg8 arg9 harg9) K := by
  simp only [cc5__gin_mlp_kernel_eq_skeleton]; unfold cc5__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro; exact View.read_writes_eq_canon _ _ _ (View.cover_of_tiled _ S2000x64.size (by rfl))
  isplitl [H7]
  · iexists _; isplitr; swap; · iexact H7
    ipureintro; exact View.read_writes_eq_canon _ _ _ (View.cover_of_tiled _ S2000x1.size (by rfl))
  iexists _; isplitr; swap; · iexact H8
  ipureintro; exact View.read_writes_eq_canon _ _ _ (View.cover_of_tiled _ S2000x1.size (by rfl))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
    | ⟨7, _⟩ => out5_7 (iblk5 V c 0 t) (iblk5 V c 1 t) (iblk5 V c 2 t) (iblk5 V c 3 t) (iblk5 V c 4 t) (iblk5 V c 5 t)
    | ⟨8, _⟩ => out5_8 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem after5_6 (c : Dev nD) (t : Fin cfg5.N) : (dat5 V c).after 6 t = out5_6 (iblk5 V c 0 t) (iblk5 V c 1 t) (iblk5 V c 2 t) (iblk5 V c 3 t) (iblk5 V c 4 t) (iblk5 V c 5 t) := by dsimp only [dat5]
theorem after5_7 (c : Dev nD) (t : Fin cfg5.N) : (dat5 V c).after 7 t = out5_7 (iblk5 V c 0 t) (iblk5 V c 1 t) (iblk5 V c 2 t) (iblk5 V c 3 t) (iblk5 V c 4 t) (iblk5 V c 5 t) := by dsimp only [dat5]
theorem after5_8 (c : Dev nD) (t : Fin cfg5.N) : (dat5 V c).after 8 t = out5_8 (iblk5 V c 0 t) (iblk5 V c 1 t) (iblk5 V c 2 t) (iblk5 V c 3 t) (iblk5 V c 4 t) (iblk5 V c 5 t) := by dsimp only [dat5]

theorem before5 (c : Dev nD) (t : Fin cfg5.N) :
    (∀ d, (dat5 V c).before 0 t d = iblk5 V c 0 t) ∧ (∀ d, (dat5 V c).before 1 t d = iblk5 V c 1 t) ∧
    (∀ d, (dat5 V c).before 2 t d = iblk5 V c 2 t) ∧ (∀ d, (dat5 V c).before 3 t d = iblk5 V c 3 t) ∧
    (∀ d, (dat5 V c).before 4 t d = iblk5 V c 4 t) ∧ (∀ d, (dat5 V c).before 5 t d = iblk5 V c 5 t) := by
  refine ⟨?_, ?_, ?_, ?_, ?_, ?_⟩ <;> intro d <;>
    refine Eq.trans (Dat.before_in_eq_fetched (dat5 V c) _ ?_ ?_ ?_ ?_ t d) ?_ <;> intros <;> rfl

theorem hin5 (c : Dev nD) : Pipeline.ΦA spec5 c ⊢ (dat5 V c).Φ 0 := .rfl

theorem hout5 (c : Dev nD) : (dat5 V c).Φ (Fin.last cfg5.N) ⊢ Pipeline.ΦA spec5 c := .rfl

theorem after5 (c : Dev nD) (t : Fin cfg5.N) :
    (dat5 V c).after 0 t = iblk5 V c 0 t ∧ (dat5 V c).after 1 t = iblk5 V c 1 t ∧ (dat5 V c).after 2 t = iblk5 V c 2 t ∧
    (dat5 V c).after 3 t = iblk5 V c 3 t ∧ (dat5 V c).after 4 t = iblk5 V c 4 t ∧ (dat5 V c).after 5 t = iblk5 V c 5 t := by
  dsimp only [dat5]; exact ⟨rfl, rfl, rfl, rfl, rfl, rfl⟩

-- At every point the obligation is the body's triple at that point's input blocks.
theorem body_obligation5 (c : Dev nD) : BodyObligation (dat5 (F := F) V c) (defs₀ (F := F)) Variants.none () Set.univ := fun t => by
  obtain ⟨b0, b1, b2, b3, b4, b5⟩ := before5 V c t
  obtain ⟨a0, a1, a2, a3, a4, a5⟩ := after5 V c t
  rw [bigSep_W5, bigSep_W5]
  simp only [b0, b1, b2, b3, b4, b5]
  rw [show (dat5 V c).Φ t.succ = (dat5 V c).Φ t.castSucc from rfl,
    show (dat5 V c).owesAt () t.succ = (dat5 V c).owesAt () t.castSucc from rfl,
    a0, a1, a2, a3, a4, a5, after5_6, after5_7, after5_8]
  show _ ⊢ wp _ _ _ (bodyAt5 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel5 (c := c) (E := Set.univ) (x0 := iblk5 V c 0 t) (x1 := iblk5 V c 1 t) (x2 := iblk5 V c 2 t) (x3 := iblk5 V c 3 t) (x4 := iblk5 V c 4 t) (x5 := iblk5 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
end Cert.KernelIdeal.Fr
-- ==== Proof.KI.Reg6.lean ====
import proofs.«409413_j30142080483538_1_alg».proof.Proof.Gen.KernelIdeal.Launch
import proofs.«409413_j30142080483538_1_alg».proof.Proof.Gen.KernelIdeal.Points
import proofs.«409413_j30142080483538_1_alg».proof.Proof.KI.LnBody
import Idealize.ShloMosaic.Lib.Pipeline.RegionsLoop
import Idealize.ShloMosaic.Lib.Pipeline.FrameSuffix
import Idealize.ShloMosaic.Lib.Ring
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x64 := Rect.unit (s := S2000x64) ![0, 0] S2000x64.size inb_S2000x64_S2000x64_0_0
abbrev r6_1 : Rect S2000x1 := Rect.unit (s := S2000x1) ![0, 0] S2000x1.size inb_S2000x1_S2000x1_0_0
abbrev r6_2 : Rect S1x64 := Rect.unit (s := S1x64) ![0, 0] S1x64.size inb_S1x64_S1x64_0_0

def out6_5 (x0 : Vec F S2000x64 .f32) (x1 : Vec F S2000x1 .f32) (x2 : Vec F S2000x1 .f32) (x3 : Vec F S1x64 .f32) (x4 : Vec F S1x64 .f32) :
    Vec F S2000x64 .f32 :=
  View.canon [⟨r6_0, k6_pay1 (View.ld x0 r6_0) (View.ld x2 r6_1) (View.ld x1 r6_1) (View.ld x3 r6_2) (View.ld x4 r6_2)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

-- What the body finds in an input window at any point is that window's block of the input array.
theorem before6 (c : Dev nD) (t : Fin cfg6.N) :
    (∀ d, (dat6 V c).before 0 t d = iblk6 V c 0 t) ∧ (∀ d, (dat6 V c).before 1 t d = iblk6 V c 1 t)
      ∧ (∀ d, (dat6 V c).before 2 t d = iblk6 V c 2 t) ∧ (∀ d, (dat6 V c).before 3 t d = iblk6 V c 3 t)
      ∧ (∀ d, (dat6 V c).before 4 t d = iblk6 V c 4 t) := by
  refine ⟨?_, ?_, ?_, ?_, ?_⟩ <;> intro d <;>
    (rw [Dat.before_in_eq_fetched _ _ rfl (fun _ => rfl) (fun _ _ _ => rfl) (fun _ => by dsimp only [dat6]; rfl) t d]
     dsimp only [dat6, Dat.fetched, Dat.blockOf]; rfl)

theorem sound_body6 (c : Dev nD) (t : Fin cfg6.N) :
    iprop((dat6 V c).Φ t.castSucc ∗ (dat6 V c).owesAt () t.castSucc
      ∗ bigSep Finset.univ fun w : Fin cfg6.W => iprop(∃ d, owns (c : Thread nD τ) ((cfg6.win w).stage (cfg6.slots t w)) fullShare ((dat6 V c).before w t d)))
    ⊢ wp frame (wpE (defs₀ (F := F)) Variants.none c none) Set.univ (bodyAt6 t) fun _ =>
      iprop((dat6 V c).Φ t.succ ∗ (dat6 V c).owesAt () t.succ
        ∗ bigSep Finset.univ fun w : Fin cfg6.W => owns (c : Thread nD τ) ((cfg6.win w).stage (cfg6.slots t w)) fullShare ((dat6 V c).after w t)) := by
  rw [bigSep_W6, bigSep_W6]
  obtain ⟨h0, h1, h2, h3, h4⟩ := before6 V c t
  simp only [h0, h1, h2, h3, h4]
  rw [show (dat6 V c).Φ t.succ = (dat6 V c).Φ t.castSucc from rfl,
    show (dat6 V c).owesAt () t.succ = (dat6 V c).owesAt () t.castSucc from rfl]
  dsimp only [dat6, out6_5]
  unfold bodyAt6
  rw [cc6__layernorm_relu_kernel_eq_skeleton]; unfold cc6__layernorm_relu_kernel_skel
  iintro ⟨HΦ, Ho, ⟨%d0, H0⟩, ⟨%d1, H1⟩, ⟨%d2, H2⟩, ⟨%d3, H3⟩, ⟨%d4, H4⟩, ⟨%d5, H5⟩⟩
  iapply (sound_ln k6_pay1 c Set.univ _ _ _ _ _ _
    (iblk6 V c 0 t) (iblk6 V c 1 t) (iblk6 V c 2 t) (iblk6 V c 3 t) (iblk6 V c 4 t) _)
  iframe H0 H1 H2 H3 H4
  isplitl [H5]; · iexists _; iexact H5
  iintro ⟨H0, H1, H2, H3, H4, H5⟩
  iframe

theorem body_obligation6 (c : Dev nD) : BodyObligation (dat6 (F := F) V c) (defs₀ (F := F)) Variants.none () Set.univ :=
  sound_body6 V c

theorem hin6 (c : Dev nD) : Pipeline.ΦA spec6 c ⊢ (dat6 V c).Φ 0 := .rfl

theorem hout6 (c : Dev nD) : (dat6 V c).Φ (Fin.last cfg6.N) ⊢ Pipeline.ΦA spec6 c := .rfl

end Cert.KernelIdeal.Fr
end
-- ==== Proof.KI.Reg7.lean ====
import proofs.«409413_j30142080483538_1_alg».proof.Proof.Gen.KernelIdeal.Launch
import proofs.«409413_j30142080483538_1_alg».proof.Proof.Gen.KernelIdeal.Skeleton
import proofs.«409413_j30142080483538_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S2000x64 := Rect.unit (s := S2000x64) ![0, 0] S2000x64.size inb_S2000x64_S2000x64_0_0
abbrev r7_1 : Rect S2000x64 := Rect.unit (s := S2000x64) ![0, 0] S2000x64.size inb_S2000x64_S2000x64_0_0
abbrev r7_2 : Rect S64x64 := Rect.unit (s := S64x64) ![0, 0] S64x64.size inb_S64x64_S64x64_0_0
abbrev r7_3 : Rect S1x64 := Rect.unit (s := S1x64) ![0, 0] S1x64.size inb_S1x64_S1x64_0_0
abbrev r7_4 : Rect S64x64 := Rect.unit (s := S64x64) ![0, 0] S64x64.size inb_S64x64_S64x64_0_0
abbrev r7_5 : Rect S1x64 := Rect.unit (s := S1x64) ![0, 0] S1x64.size inb_S1x64_S1x64_0_0
abbrev r7_6 : Rect S2000x64 := Rect.unit (s := S2000x64) ![0, 0] S2000x64.size inb_S2000x64_S2000x64_0_0
abbrev r7_7 : Rect S2000x1 := Rect.unit (s := S2000x1) ![0, 0] S2000x1.size inb_S2000x1_S2000x1_0_0
abbrev r7_8 : Rect S2000x1 := Rect.unit (s := S2000x1) ![0, 0] S2000x1.size inb_S2000x1_S2000x1_0_0

def out7_6 (x0 : Vec F S2000x64 .f32) (x1 : Vec F S2000x64 .f32) (x2 : Vec F S64x64 .f32) (x3 : Vec F S1x64 .f32) (x4 : Vec F S64x64 .f32) (x5 : Vec F S1x64 .f32) : Vec F S2000x64 .f32 :=
  View.canon [⟨r7_6, k7_pay1 (View.ld x0 r7_0) (View.ld x1 r7_1) (View.ld x2 r7_2) (View.ld x3 r7_3) (View.ld x4 r7_4) (View.ld x5 r7_5)⟩]

def out7_7 (x0 : Vec F S2000x64 .f32) (x1 : Vec F S2000x64 .f32) (x2 : Vec F S64x64 .f32) (x3 : Vec F S1x64 .f32) (x4 : Vec F S64x64 .f32) (x5 : Vec F S1x64 .f32) : Vec F S2000x1 .f32 :=
  View.canon [⟨r7_7, k7_pay2 (View.ld x0 r7_0) (View.ld x1 r7_1) (View.ld x2 r7_2) (View.ld x3 r7_3) (View.ld x4 r7_4) (View.ld x5 r7_5)⟩]

def out7_8 (x0 : Vec F S2000x64 .f32) (x1 : Vec F S2000x64 .f32) (x2 : Vec F S64x64 .f32) (x3 : Vec F S1x64 .f32) (x4 : Vec F S64x64 .f32) (x5 : Vec F S1x64 .f32) : Vec F S2000x1 .f32 :=
  View.canon [⟨r7_8, k7_pay3 (View.ld x0 r7_0) (View.ld x1 r7_1) (View.ld x2 r7_2) (View.ld x3 r7_3) (View.ld x4 r7_4) (View.ld x5 r7_5)⟩]

-- One store through a rectangle of the whole shape covers it, so each output reads that store's payload.
set_option maxHeartbeats 4000000 in
theorem sound_kernel7 (c : Dev nD) (E : Set ℕ) (i : grid7.Coords) (arg1 : Memref sig .tc .vmem S2000x64 .f32) (harg1 : arg1.IsWhole) (arg2 : Memref sig .tc .vmem S2000x64 .f32) (harg2 : arg2.IsWhole) (arg3 : Memref sig .tc .vmem S64x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S2000x64 .f32) (harg7 : arg7.IsWhole) (arg8 : Memref sig .tc .vmem S2000x1 .f32) (harg8 : arg8.IsWhole) (arg9 : Memref sig .tc .vmem S2000x1 .f32) (harg9 : arg9.IsWhole)
    (x0 : Vec F S2000x64 .f32) (x1 : Vec F S2000x64 .f32) (x2 : Vec F S64x64 .f32) (x3 : Vec F S1x64 .f32) (x4 : Vec F S64x64 .f32) (x5 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out7_6 x0 x1 x2 x3 x4 x5)
            ∗ owns (c : Thread nD τ) arg8 fullShare (out7_7 x0 x1 x2 x3 x4 x5)
            ∗ owns (c : Thread nD τ) arg9 fullShare (out7_8 x0 x1 x2 x3 x4 x5)) -∗ K ⟨⟩))
      ⊢ wp frame (wpE (defs₀ (F := F)) Variants.none c none) E (cc7__gin_mlp_kernel i arg1 harg1 arg2 harg2 arg3 harg3 arg4 harg4 arg5 harg5 arg6 harg6 arg7 harg7 arg8 harg8 arg9 harg9) K := by
  simp only [cc7__gin_mlp_kernel_eq_skeleton]; unfold cc7__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iexists _; isplitr; swap; · iexact H6
    ipureintro; exact View.read_writes_eq_canon _ _ _ (View.cover_of_tiled _ S2000x64.size (by rfl))
  isplitl [H7]
  · iexists _; isplitr; swap; · iexact H7
    ipureintro; exact View.read_writes_eq_canon _ _ _ (View.cover_of_tiled _ S2000x1.size (by rfl))
  iexists _; isplitr; swap; · iexact H8
  ipureintro; exact View.read_writes_eq_canon _ _ _ (View.cover_of_tiled _ S2000x1.size (by rfl))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
    | ⟨7, _⟩ => out7_7 (iblk7 V c 0 t) (iblk7 V c 1 t) (iblk7 V c 2 t) (iblk7 V c 3 t) (iblk7 V c 4 t) (iblk7 V c 5 t)
    | ⟨8, _⟩ => out7_8 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem after7_6 (c : Dev nD) (t : Fin cfg7.N) : (dat7 V c).after 6 t = out7_6 (iblk7 V c 0 t) (iblk7 V c 1 t) (iblk7 V c 2 t) (iblk7 V c 3 t) (iblk7 V c 4 t) (iblk7 V c 5 t) := by dsimp only [dat7]
theorem after7_7 (c : Dev nD) (t : Fin cfg7.N) : (dat7 V c).after 7 t = out7_7 (iblk7 V c 0 t) (iblk7 V c 1 t) (iblk7 V c 2 t) (iblk7 V c 3 t) (iblk7 V c 4 t) (iblk7 V c 5 t) := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) := by dsimp only [dat7]

theorem before7 (c : Dev nD) (t : Fin cfg7.N) :
    (∀ d, (dat7 V c).before 0 t d = iblk7 V c 0 t) ∧ (∀ d, (dat7 V c).before 1 t d = iblk7 V c 1 t) ∧
    (∀ d, (dat7 V c).before 2 t d = iblk7 V c 2 t) ∧ (∀ d, (dat7 V c).before 3 t d = iblk7 V c 3 t) ∧
    (∀ d, (dat7 V c).before 4 t d = iblk7 V c 4 t) ∧ (∀ d, (dat7 V c).before 5 t d = iblk7 V c 5 t) := by
  refine ⟨?_, ?_, ?_, ?_, ?_, ?_⟩ <;> intro d <;>
    refine Eq.trans (Dat.before_in_eq_fetched (dat7 V c) _ ?_ ?_ ?_ ?_ t d) ?_ <;> intros <;> rfl

theorem hin7 (c : Dev nD) : Pipeline.ΦA spec7 c ⊢ (dat7 V c).Φ 0 := .rfl

theorem hout7 (c : Dev nD) : (dat7 V c).Φ (Fin.last cfg7.N) ⊢ Pipeline.ΦA spec7 c := .rfl

theorem after7 (c : Dev nD) (t : Fin cfg7.N) :
    (dat7 V c).after 0 t = iblk7 V c 0 t ∧ (dat7 V c).after 1 t = iblk7 V c 1 t ∧ (dat7 V c).after 2 t = iblk7 V c 2 t ∧
    (dat7 V c).after 3 t = iblk7 V c 3 t ∧ (dat7 V c).after 4 t = iblk7 V c 4 t ∧ (dat7 V c).after 5 t = iblk7 V c 5 t := by
  dsimp only [dat7]; exact ⟨rfl, rfl, rfl, rfl, rfl, rfl⟩

-- At every point the obligation is the body's triple at that point's input blocks.
theorem body_obligation7 (c : Dev nD) : BodyObligation (dat7 (F := F) V c) (defs₀ (F := F)) Variants.none () Set.univ := fun t => by
  obtain ⟨b0, b1, b2, b3, b4, b5⟩ := before7 V c t
  obtain ⟨a0, a1, a2, a3, a4, a5⟩ := after7 V c t
  rw [bigSep_W7, bigSep_W7]
  simp only [b0, b1, b2, b3, b4, b5]
  rw [show (dat7 V c).Φ t.succ = (dat7 V c).Φ t.castSucc from rfl,
    show (dat7 V c).owesAt () t.succ = (dat7 V c).owesAt () t.castSucc from rfl,
    a0, a1, a2, a3, a4, a5, after7_6, after7_7, after7_8]
  show _ ⊢ wp _ _ _ (bodyAt7 t) _
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 (c := c) (E := Set.univ) (x0 := iblk7 V c 0 t) (x1 := iblk7 V c 1 t) (x2 := iblk7 V c 2 t) (x3 := iblk7 V c 3 t) (x4 := iblk7 V c 4 t) (x5 := iblk7 V c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8
end Cert.KernelIdeal.Fr
-- ==== Proof.KI.Reg8.lean ====
import proofs.«409413_j30142080483538_1_alg».proof.Proof.Gen.KernelIdeal.Launch
import proofs.«409413_j30142080483538_1_alg».proof.Proof.Gen.KernelIdeal.Points
import proofs.«409413_j30142080483538_1_alg».proof.Proof.KI.LnBody
import Idealize.ShloMosaic.Lib.Pipeline.RegionsLoop
import Idealize.ShloMosaic.Lib.Pipeline.FrameSuffix
import Idealize.ShloMosaic.Lib.Ring
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S2000x64 := Rect.unit (s := S2000x64) ![0, 0] S2000x64.size inb_S2000x64_S2000x64_0_0
abbrev r8_1 : Rect S2000x1 := Rect.unit (s := S2000x1) ![0, 0] S2000x1.size inb_S2000x1_S2000x1_0_0
abbrev r8_2 : Rect S1x64 := Rect.unit (s := S1x64) ![0, 0] S1x64.size inb_S1x64_S1x64_0_0

def out8_5 (x0 : Vec F S2000x64 .f32) (x1 : Vec F S2000x1 .f32) (x2 : Vec F S2000x1 .f32) (x3 : Vec F S1x64 .f32) (x4 : Vec F S1x64 .f32) :
    Vec F S2000x64 .f32 :=
  View.canon [⟨r8_0, k8_pay1 (View.ld x0 r8_0) (View.ld x2 r8_1) (View.ld x1 r8_1) (View.ld x3 r8_2) (View.ld x4 r8_2)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

-- What the body finds in an input window at any point is that window's block of the input array.
theorem before8 (c : Dev nD) (t : Fin cfg8.N) :
    (∀ d, (dat8 V c).before 0 t d = iblk8 V c 0 t) ∧ (∀ d, (dat8 V c).before 1 t d = iblk8 V c 1 t)
      ∧ (∀ d, (dat8 V c).before 2 t d = iblk8 V c 2 t) ∧ (∀ d, (dat8 V c).before 3 t d = iblk8 V c 3 t)
      ∧ (∀ d, (dat8 V c).before 4 t d = iblk8 V c 4 t) := by
  refine ⟨?_, ?_, ?_, ?_, ?_⟩ <;> intro d <;>
    (rw [Dat.before_in_eq_fetched _ _ rfl (fun _ => rfl) (fun _ _ _ => rfl) (fun _ => by dsimp only [dat8]; rfl) t d]
     dsimp only [dat8, Dat.fetched, Dat.blockOf]; rfl)

theorem sound_body8 (c : Dev nD) (t : Fin cfg8.N) :
    iprop((dat8 V c).Φ t.castSucc ∗ (dat8 V c).owesAt () t.castSucc
      ∗ bigSep Finset.univ fun w : Fin cfg8.W => iprop(∃ d, owns (c : Thread nD τ) ((cfg8.win w).stage (cfg8.slots t w)) fullShare ((dat8 V c).before w t d)))
    ⊢ wp frame (wpE (defs₀ (F := F)) Variants.none c none) Set.univ (bodyAt8 t) fun _ =>
      iprop((dat8 V c).Φ t.succ ∗ (dat8 V c).owesAt () t.succ
        ∗ bigSep Finset.univ fun w : Fin cfg8.W => owns (c : Thread nD τ) ((cfg8.win w).stage (cfg8.slots t w)) fullShare ((dat8 V c).after w t)) := by
  rw [bigSep_W8, bigSep_W8]
  obtain ⟨h0, h1, h2, h3, h4⟩ := before8 V c t
  simp only [h0, h1, h2, h3, h4]
  rw [show (dat8 V c).Φ t.succ = (dat8 V c).Φ t.castSucc from rfl,
    show (dat8 V c).owesAt () t.succ = (dat8 V c).owesAt () t.castSucc from rfl]
  dsimp only [dat8, out8_5]
  unfold bodyAt8
  rw [cc8__layernorm_relu_kernel_eq_skeleton]; unfold cc8__layernorm_relu_kernel_skel
  iintro ⟨HΦ, Ho, ⟨%d0, H0⟩, ⟨%d1, H1⟩, ⟨%d2, H2⟩, ⟨%d3, H3⟩, ⟨%d4, H4⟩, ⟨%d5, H5⟩⟩
  iapply (sound_ln k8_pay1 c Set.univ _ _ _ _ _ _
    (iblk8 V c 0 t) (iblk8 V c 1 t) (iblk8 V c 2 t) (iblk8 V c 3 t) (iblk8 V c 4 t) _)
  iframe H0 H1 H2 H3 H4
  isplitl [H5]; · iexists _; iexact H5
  iintro ⟨H0, H1, H2, H3, H4, H5⟩
  iframe

theorem body_obligation8 (c : Dev nD) : BodyObligation (dat8 (F := F) V c) (defs₀ (F := F)) Variants.none () Set.univ :=
  sound_body8 V c

theorem hin8 (c : Dev nD) : Pipeline.ΦA spec8 c ⊢ (dat8 V c).Φ 0 := .rfl

theorem hout8 (c : Dev nD) : (dat8 V c).Φ (Fin.last cfg8.N) ⊢ Pipeline.ΦA spec8 c := .rfl

end Cert.KernelIdeal.Fr
end
-- ==== Proof.KI.Reg9.lean ====
import proofs.«409413_j30142080483538_1_alg».proof.Proof.Gen.KernelIdeal.Launch
import proofs.«409413_j30142080483538_1_alg».proof.Proof.KI.Reg4
import proofs.«409413_j30142080483538_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev ms9_0 (t : Fin cfg9.N) : Memref sig .tc .vmem S2000x64 .f32 := win9_0.stage (cfg9.slots t 0)
abbrev ms9_1 (t : Fin cfg9.N) : Memref sig .tc .vmem S2000x1 .i32 := win9_1.stage (cfg9.slots t 1)
abbrev ms9_2 (t : Fin cfg9.N) : Memref sig .tc .vmem S1024x64 .f32 := win9_2.stage (cfg9.slots t 2)
abbrev scM9 : Memref sig .tc .vmem S1024x64 .f32 := Memref.whole cc9_scratch0

def acc9 (c : Dev nD) : (n : ℕ) → n < cfg9.N → Vec F S1024x64 .f32
  | 0, h => k9_pay2 (iblk9 V c 0 ⟨0, h⟩) (iblk9 V c 1 ⟨0, h⟩) k9_pay1
  | n + 1, h => k9_pay2 (iblk9 V c 0 ⟨n + 1, h⟩) (iblk9 V c 1 ⟨n + 1, h⟩) (acc9 c n (Nat.lt_of_succ_lt h))

theorem acc9_zero (c : Dev nD) (h : 0 < cfg9.N) :
    acc9 V c 0 h = k9_pay2 (iblk9 V c 0 ⟨0, h⟩) (iblk9 V c 1 ⟨0, h⟩) k9_pay1 := rfl

theorem acc9_succ (c : Dev nD) (n : ℕ) (h : n + 1 < cfg9.N) :
    acc9 V c (n + 1) h = k9_pay2 (iblk9 V c 0 ⟨n + 1, h⟩) (iblk9 V c 1 ⟨n + 1, h⟩) (acc9 V c n (Nat.lt_of_succ_lt h)) := rfl

abbrev Rest9 (c : Dev nD) : sProp 𝕄 :=
  Pipeline.scopedRestBut (Ix := Unit) (Name := ℕ) (U := UR sig nD τ) (Lvl := ℕ) (Val := Elt F) spec9 c [cc9_scratch0]

theorem PhiA9_eq (c : Dev nD) :
    (Pipeline.ΦA spec9 c : sProp 𝕄)
      = iprop(((∃ d, owns (c : Thread nD τ) scM9 fullShare d) ∗ Rest9 (F := F) c) ∗ (∃ r, prngReg c r)) := by
  unfold Pipeline.ΦA; rw [scopedRest9_split]; simp only [scM9, owns_whole]; try rfl

def Phi9 (c : Dev nD) : (n : ℕ) → n ≤ cfg9.N → sProp 𝕄
  | 0, _ => Pipeline.ΦA spec9 c
  | n + 1, hn => iprop((owns (c : Thread nD τ) scM9 fullShare (acc9 V c n hn) ∗ Rest9 (F := F) c) ∗ (∃ r, prngReg c r))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => acc9 V c t.val t.isLt
  Φ t := Phi9 V c t.val (Nat.le_of_lt_succ t.isLt)
  q _ := fullShare
  owed _ := 0

theorem after9_2 (c : Dev nD) (t : Fin cfg9.N) : (dat9 V c).after 2 t = acc9 V c t.val t.isLt := by dsimp only [dat9]

theorem hcond9_2 : ∀ t : Fin cfg9.N, k9_cond2 (grid9.coords t) = 1#1 ↔ t.val = 124 :=
  (by decide +kernel : ∀ t : Fin grid9.N, k9_cond2 (grid9.coords t) = 1#1 ↔ t.val = 124)

theorem idleAt9_2 : ∀ t : Fin cfg9.N, t.val ≠ 124 → cfg9.idle 2 (grid9.coords t) = true := by decide +kernel
theorem liveAt9_2 : ∀ t : Fin cfg9.N, t.val = 124 → cfg9.idle 2 (grid9.coords t) = false := by decide +kernel
theorem noFlush9_2 : ∀ t : Fin cfg9.N, t.val ≠ 124 → (cfg9.win 2).flush t = false := by decide +kernel

theorem before9_0 (c : Dev nD) (t : Fin cfg9.N) (d) : (dat9 V c).before 0 t d = iblk9 V c 0 t :=
  (dat9 V c).before_fetched 0 t (fetch9_0 t) d
theorem before9_1 (c : Dev nD) (t : Fin cfg9.N) (d) : (dat9 V c).before 1 t d = iblk9 V c 1 t :=
  (dat9 V c).before_fetched 1 t (fetch9_1 t) d

theorem hcond9_1 : ∀ t : Fin cfg9.N, cond4_1 (grid9.coords t) ↔ t.val = 0 :=
  (by decide +kernel : ∀ t : Fin grid9.N, cond4_1 (grid9.coords t) ↔ t.val = 0)

-- Before any point the scratch is held at some contents over which this point's payload is the accumulation so far.
theorem Phi9_open (c : Dev nD) (n : ℕ) (h : n ≤ cfg9.N) :
    Phi9 V c n h ⊢ iprop(∃ a, ⌜∀ h' : n < cfg9.N, acc9 V c n h'
        = k9_pay2 (iblk9 V c 0 ⟨n, h'⟩) (iblk9 V c 1 ⟨n, h'⟩) (if cond4_1 (grid9.coords ⟨n, h'⟩) then k9_pay1 else a)⌝
      ∗ (owns (c : Thread nD τ) scM9 fullShare a ∗ Rest9 (F := F) c) ∗ (∃ r, prngReg c r)) := by
  cases n with
  | zero =>
    simp only [Phi9, PhiA9_eq]
    iintro ⟨⟨⟨%a, HS⟩, HR⟩, Hg⟩
    iexists a; iframe; ipureintro; intro h'; rw [if_pos ((hcond9_1 ⟨0, h'⟩).mpr rfl)]; rfl
  | succ n =>
    simp only [Phi9]
    iintro ⟨⟨HS, HR⟩, Hg⟩
    iexists _; iframe; ipureintro; intro h'
    rw [if_neg fun h => absurd ((hcond9_1 ⟨n + 1, h'⟩).mp h) (Nat.succ_ne_zero n)]; rfl

theorem body_obligation9 (c : Dev nD) : BodyObligation (dat9 (F := F) V c) (defs₀ (F := F)) Variants.none () Set.univ := fun t => by
  rw [bigSep_W9, bigSep_W9]
  show iprop(Phi9 V c t.val (Nat.le_of_lt t.isLt) ∗ (dat9 V c).owesAt () t.castSucc
      ∗ (∃ d, owns (c : Thread nD τ) (ms9_0 t) fullShare ((dat9 V c).before 0 t d))
      ∗ (∃ d, owns (c : Thread nD τ) (ms9_1 t) fullShare ((dat9 V c).before 1 t d))
      ∗ (∃ d, owns (c : Thread nD τ) (ms9_2 t) fullShare ((dat9 V c).before 2 t d)))
    ⊢ wp frame (wpE (defs₀ (F := F)) Variants.none c none) Set.univ (bodyAt9 t) fun _ =>
      iprop(((owns (c : Thread nD τ) scM9 fullShare (acc9 V c t.val t.isLt) ∗ Rest9 (F := F) c) ∗ (∃ r, prngReg c r))
        ∗ (dat9 V c).owesAt () t.castSucc
        ∗ owns (c : Thread nD τ) (ms9_0 t) fullShare (iblk9 V c 0 t)
        ∗ owns (c : Thread nD τ) (ms9_1 t) fullShare (iblk9 V c 1 t)
        ∗ (dat9 V c).leavesExact 2 t)
  simp only [before9_0, before9_1]
  iintro ⟨HP, Ho, ⟨%d0, H0⟩, ⟨%d1, H1⟩, ⟨%d2, H2⟩⟩
  icases (Phi9_open V c t.val _) $$ HP with ⟨%a, %ha, ⟨HS, HR⟩, Hg⟩
  replace ha := ha t.isLt
  iapply (run4 (p1 := k9_pay1) (p2 := k9_pay2) (c2 := k9_cond2) (prog := bodyAt9 t) rfl rfl rfl c (grid9.coords t) (ms9_0 t) (hstage9_0 ((cfg9.slots t 0).cast nbuf9_0))
    (ms9_1 t) (hstage9_1 ((cfg9.slots t 1).cast nbuf9_1)) (ms9_2 t) (hstage9_2 ((cfg9.slots t 2).cast nbuf9_2)) scM9 (Memref.isWhole_whole _) rfl
    (iblk9 V c 0 t) (iblk9 V c 1 t) _ a Set.univ _)
  iframe H0 H1 H2 HS
  iintro ⟨H0, H1, H2, HS⟩
  by_cases h1 : t.val = 124
  · rw [show (dat9 V c).leavesExact 2 t = owns (c : Thread nD τ) (ms9_2 t) fullShare ((dat9 V c).after 2 t) from by
      unfold Dat.leavesExact; rw [liveAt9_2 t h1], after9_2, ha, if_pos ((hcond9_2 t).mpr h1)]
    iframe
  · rw [Dat.leavesExact_idle (dat9 V c) 2 t (idleAt9_2 t h1) (noFlush9_2 t h1), ha, if_neg fun h => h1 ((hcond9_2 t).mp h)]
    iframe HS HR Hg Ho H0 H1
    iexists _; iexact H2

theorem hin9 (c : Dev nD) : Pipeline.ΦA spec9 c ⊢ (dat9 V c).Φ 0 := Idealize.SL.BI.Entails.refl _

theorem hout9 (c : Dev nD) : (dat9 V c).Φ (Fin.last cfg9.N) ⊢ Pipeline.ΦA spec9 c := by
  rw [PhiA9_eq]
  show Phi9 V c cfg9.N (Nat.le_refl _) ⊢ _
  iintro H
  icases (Phi9_open V c _ _) $$ H with ⟨%a, -, ⟨HS, HR⟩, Hg⟩
  iframe HR Hg
  iexists _; iexact HS

end Cert.KernelIdeal.Fr
end
-- ==== Proof.KI.Run.Outs.lean ====
import proofs.«409413_j30142080483538_1_alg».proof.Proof.KI.Run.Region
import proofs.«409413_j30142080483538_1_alg».proof.Proof.KI.Reg0
import proofs.«409413_j30142080483538_1_alg».proof.Proof.KI.Reg1
import proofs.«409413_j30142080483538_1_alg».proof.Proof.KI.Reg2
import proofs.«409413_j30142080483538_1_alg».proof.Proof.KI.Reg3
import proofs.«409413_j30142080483538_1_alg».proof.Proof.KI.Reg4
import proofs.«409413_j30142080483538_1_alg».proof.Proof.KI.Reg5
import proofs.«409413_j30142080483538_1_alg».proof.Proof.KI.Reg6
import proofs.«409413_j30142080483538_1_alg».proof.Proof.KI.Reg7
import proofs.«409413_j30142080483538_1_alg».proof.Proof.KI.Reg8
import proofs.«409413_j30142080483538_1_alg».proof.Proof.KI.Reg9

set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg arrRef)
variable {F : FTy → Type} [FloatOps F]
local notation "𝕄" => MT nD τ sig Unit (Elt F) ℕ (UR sig nD τ) ℕ
variable (m : (ℓ : Loc nD τ sig) → Buf (Elt F) ℓ)

/-- What region K leaves (`O2`, `O4`, …) is defined stage by stage: it depends on the valuation the region is entered with. -/
def O2 (c : Dev nD) : Valuation τ sig (Elt F) :=
  Pipeline.withArrays spec0 c (V1 m c) fun w => (dat0 (fun c b => V1 m c b) c).arrAt w cfg0.N

def outs1 : Outs (F := F) := fun _ r c => O2 m c r

def O4 (c : Dev nD) : Valuation τ sig (Elt F) :=
  Pipeline.withArrays spec1 c (V3 m (outs1 m) c) fun w => (dat1 (fun c b => V3 m (outs1 m) c b) c).arrAt w cfg1.N

def outs2 : Outs (F := F)
  | 4 => fun r c => O4 m c r
  | J => outs1 m J

def O6 (c : Dev nD) : Valuation τ sig (Elt F) :=
  Pipeline.withArrays spec2 c (V5 m (outs2 m) c) fun w => (dat2 (fun c b => V5 m (outs2 m) c b) c).arrAt w cfg2.N

def outs3 : Outs (F := F)
  | 6 => fun r c => O6 m c r
  | J => outs2 m J

def O8 (c : Dev nD) : Valuation τ sig (Elt F) :=
  Pipeline.withArrays spec3 c (V7 m (outs3 m) c) fun w => (dat3 (fun c b => V7 m (outs3 m) c b) c).arrAt w cfg3.N

def outs4 : Outs (F := F)
  | 8 => fun r c => O8 m c r
  | J => outs3 m J

def O10 (c : Dev nD) : Valuation τ sig (Elt F) :=
  Pipeline.withArrays spec4 c (V9 m (outs4 m) c) fun w => (dat4 (fun c b => V9 m (outs4 m) c b) c).arrAt w cfg4.N

def outs5 : Outs (F := F)
  | 10 => fun r c => O10 m c r
  | J => outs4 m J

def O12 (c : Dev nD) : Valuation τ sig (Elt F) :=
  Pipeline.withArrays spec5 c (V11 m (outs5 m) c) fun w => (dat5 (fun c b => V11 m (outs5 m) c b) c).arrAt w cfg5.N

def outs6 : Outs (F := F)
  | 12 => fun r c => O12 m c r
  | J => outs5 m J

def O14 (c : Dev nD) : Valuation τ sig (Elt F) :=
  Pipeline.withArrays spec6 c (V13 m (outs6 m) c) fun w => (dat6 (fun c b => V13 m (outs6 m) c b) c).arrAt w cfg6.N

def outs7 : Outs (F := F)
  | 14 => fun r c => O14 m c r
  | J => outs6 m J

def O16 (c : Dev nD) : Valuation τ sig (Elt F) :=
  Pipeline.withArrays spec7 c (V15 m (outs7 m) c) fun w => (dat7 (fun c b => V15 m (outs7 m) c b) c).arrAt w cfg7.N

def outs8 : Outs (F := F)
  | 16 => fun r c => O16 m c r
  | J => outs7 m J

def O18 (c : Dev nD) : Valuation τ sig (Elt F) :=
  Pipeline.withArrays spec8 c (V17 m (outs8 m) c) fun w => (dat8 (fun c b => V17 m (outs8 m) c b) c).arrAt w cfg8.N

def outs9 : Outs (F := F)
  | 18 => fun r c => O18 m c r
  | J => outs8 m J

def O20 (c : Dev nD) : Valuation τ sig (Elt F) :=
  Pipeline.withArrays spec9 c (V19 m (outs9 m) c) fun w => (dat9 (fun c b => V19 m (outs9 m) c b) c).arrAt w cfg9.N

def outs10 : Outs (F := F)
  | 20 => fun r c => O20 m c r
  | J => outs9 m J

abbrev outs : Outs (F := F) := outs10 m

def pdats : (p : Fin 10) → (c : Dev nD) → Dat τ (Elt F) Unit ℕ (UR sig nD τ) ℕ (cfgs p) c
  | ⟨0, _⟩ => fun c => dat0 (fun c b => V1 m c b) c
  | ⟨1, _⟩ => fun c => dat1 (fun c b => V3 m (outs1 m) c b) c
  | ⟨2, _⟩ => fun c => dat2 (fun c b => V5 m (outs2 m) c b) c
  | ⟨3, _⟩ => fun c => dat3 (fun c b => V7 m (outs3 m) c b) c
  | ⟨4, _⟩ => fun c => dat4 (fun c b => V9 m (outs4 m) c b) c
  | ⟨5, _⟩ => fun c => dat5 (fun c b => V11 m (outs5 m) c b) c
  | ⟨6, _⟩ => fun c => dat6 (fun c b => V13 m (outs6 m) c b) c
  | ⟨7, _⟩ => fun c => dat7 (fun c b => V15 m (outs7 m) c b) c
  | ⟨8, _⟩ => fun c => dat8 (fun c b => V17 m (outs8 m) c b) c
  | ⟨9, _⟩ => fun c => dat9 (fun c b => V19 m (outs9 m) c b) c

/-- Each region as a segment between the valuations around it, writing the arrays `wrK`. -/
abbrev Vi0 : (c : Dev nD) → (b : Ref sig .tc) → Buf (Elt F) ((c : Thread nD τ).loc b) := fun c b => V1 m c b
abbrev wr0 : List (Ref sig .tc) := [main_v24_0, main_v24_1, main_v24_2]
theorem io0 : ∀ w : Fin cfg0.W, arrRef spec0 w ∉ wr0 → (cfg0.win w).isOut = false := by decide
theorem hF0 (c : Dev nD) (w : Fin cfg0.W) : (pdats m 0 c).arrAt w cfg0.N = V2 m (outs m) c (Pipeline.arrRef spec0 w) :=
  exitVal_arr (pdats m 0 c) (V1 m c) wr0 launch0.win.arr_inj (fun _ => rfl) io0 w
def reg0 : RegionSeg (pcfgs (F := F)) adm (pdats m) () defs₀ 𝒱z Lz lvz 0 :=
  regOf (pdats m) launch0 (V1 m) (V2 m (outs m)) wr0 (fun _ _ => rfl) (fun _ _ => rfl) (fun _ _ => rfl) (fun _ _ => rfl) (fun _ => rfl) io0
    (body_obligation0 (fun c b => V1 m c b)) (hin0 (fun c b => V1 m c b)) (hout0 (fun c b => V1 m c b))

abbrev Vi1 : (c : Dev nD) → (b : Ref sig .tc) → Buf (Elt F) ((c : Thread nD τ).loc b) := fun c b => V3 m (outs m) c b
abbrev wr1 : List (Ref sig .tc) := [main_v55]
theorem io1 : ∀ w : Fin cfg1.W, arrRef spec1 w ∉ wr1 → (cfg1.win w).isOut = false := by decide
theorem hF1 (c : Dev nD) (w : Fin cfg1.W) : (pdats m 1 c).arrAt w cfg1.N = V4 m (outs m) c (Pipeline.arrRef spec1 w) :=
  exitVal_arr (pdats m 1 c) (V3 m (outs m) c) wr1 launch1.win.arr_inj (fun _ => rfl) io1 w
def reg1 : RegionSeg (pcfgs (F := F)) adm (pdats m) () defs₀ 𝒱z Lz lvz 1 :=
  regOf (pdats m) launch1 (V3 m (outs m)) (V4 m (outs m)) wr1 (fun _ _ => rfl) (fun _ _ => rfl) (fun _ _ => rfl) (fun _ _ => rfl) (fun _ => rfl) io1
    (body_obligation1 (fun c b => V3 m (outs1 m) c b)) (hin1 (fun c b => V3 m (outs1 m) c b)) (hout1 (fun c b => V3 m (outs1 m) c b))

abbrev Vi2 : (c : Dev nD) → (b : Ref sig .tc) → Buf (Elt F) ((c : Thread nD τ).loc b) := fun c b => V5 m (outs m) c b
abbrev wr2 : List (Ref sig .tc) := [main_v68_0, main_v68_1, main_v68_2]
theorem io2 : ∀ w : Fin cfg2.W, arrRef spec2 w ∉ wr2 → (cfg2.win w).isOut = false := by decide
theorem hF2 (c : Dev nD) (w : Fin cfg2.W) : (pdats m 2 c).arrAt w cfg2.N = V6 m (outs m) c (Pipeline.arrRef spec2 w) :=
  exitVal_arr (pdats m 2 c) (V5 m (outs m) c) wr2 launch2.win.arr_inj (fun _ => rfl) io2 w
def reg2 : RegionSeg (pcfgs (F := F)) adm (pdats m) () defs₀ 𝒱z Lz lvz 2 :=
  regOf (pdats m) launch2 (V5 m (outs m)) (V6 m (outs m)) wr2 (fun _ _ => rfl) (fun _ _ => rfl) (fun _ _ => rfl) (fun _ _ => rfl) (fun _ => rfl) io2
    (body_obligation2 (fun c b => V5 m (outs2 m) c b)) (hin2 (fun c b => V5 m (outs2 m) c b)) (hout2 (fun c b => V5 m (outs2 m) c b))

abbrev Vi3 : (c : Dev nD) → (b : Ref sig .tc) → Buf (Elt F) ((c : Thread nD τ).loc b) := fun c b => V7 m (outs m) c b
abbrev wr3 : List (Ref sig .tc) := [main_v99]
theorem io3 : ∀ w : Fin cfg3.W, arrRef spec3 w ∉ wr3 → (cfg3.win w).isOut = false := by decide
theorem hF3 (c : Dev nD) (w : Fin cfg3.W) : (pdats m 3 c).arrAt w cfg3.N = V8 m (outs m) c (Pipeline.arrRef spec3 w) :=
  exitVal_arr (pdats m 3 c) (V7 m (outs m) c) wr3 launch3.win.arr_inj (fun _ => rfl) io3 w
def reg3 : RegionSeg (pcfgs (F := F)) adm (pdats m) () defs₀ 𝒱z Lz lvz 3 :=
  regOf (pdats m) launch3 (V7 m (outs m)) (V8 m (outs m)) wr3 (fun _ _ => rfl) (fun _ _ => rfl) (fun _ _ => rfl) (fun _ _ => rfl) (fun _ => rfl) io3
    (body_obligation3 (fun c b => V7 m (outs3 m) c b)) (hin3 (fun c b => V7 m (outs3 m) c b)) (hout3 (fun c b => V7 m (outs3 m) c b))

abbrev Vi4 : (c : Dev nD) → (b : Ref sig .tc) → Buf (Elt F) ((c : Thread nD τ).loc b) := fun c b => V9 m (outs m) c b
abbrev wr4 : List (Ref sig .tc) := [main_v101]
theorem io4 : ∀ w : Fin cfg4.W, arrRef spec4 w ∉ wr4 → (cfg4.win w).isOut = false := by decide
theorem hF4 (c : Dev nD) (w : Fin cfg4.W) : (pdats m 4 c).arrAt w cfg4.N = V10 m (outs m) c (Pipeline.arrRef spec4 w) :=
  exitVal_arr (pdats m 4 c) (V9 m (outs m) c) wr4 launch4.win.arr_inj (fun _ => rfl) io4 w
def reg4 : RegionSeg (pcfgs (F := F)) adm (pdats m) () defs₀ 𝒱z Lz lvz 4 :=
  regOf (pdats m) launch4 (V9 m (outs m)) (V10 m (outs m)) wr4 (fun _ _ => rfl) (fun _ _ => rfl) (fun _ _ => rfl) (fun _ _ => rfl) (fun _ => rfl) io4
    (body_obligation4 (fun c b => V9 m (outs4 m) c b)) (hin4 (fun c b => V9 m (outs4 m) c b)) (hout4 (fun c b => V9 m (outs4 m) c b))

abbrev Vi5 : (c : Dev nD) → (b : Ref sig .tc) → Buf (Elt F) ((c : Thread nD τ).loc b) := fun c b => V11 m (outs m) c b
abbrev wr5 : List (Ref sig .tc) := [main_v132_0, main_v132_1, main_v132_2]
theorem io5 : ∀ w : Fin cfg5.W, arrRef spec5 w ∉ wr5 → (cfg5.win w).isOut = false := by decide
theorem hF5 (c : Dev nD) (w : Fin cfg5.W) : (pdats m 5 c).arrAt w cfg5.N = V12 m (outs m) c (Pipeline.arrRef spec5 w) :=
  exitVal_arr (pdats m 5 c) (V11 m (outs m) c) wr5 launch5.win.arr_inj (fun _ => rfl) io5 w
def reg5 : RegionSeg (pcfgs (F := F)) adm (pdats m) () defs₀ 𝒱z Lz lvz 5 :=
  regOf (pdats m) launch5 (V11 m (outs m)) (V12 m (outs m)) wr5 (fun _ _ => rfl) (fun _ _ => rfl) (fun _ _ => rfl) (fun _ _ => rfl) (fun _ => rfl) io5
    (body_obligation5 (fun c b => V11 m (outs5 m) c b)) (hin5 (fun c b => V11 m (outs5 m) c b)) (hout5 (fun c b => V11 m (outs5 m) c b))

abbrev Vi6 : (c : Dev nD) → (b : Ref sig .tc) → Buf (Elt F) ((c : Thread nD τ).loc b) := fun c b => V13 m (outs m) c b
abbrev wr6 : List (Ref sig .tc) := [main_v163]
theorem io6 : ∀ w : Fin cfg6.W, arrRef spec6 w ∉ wr6 → (cfg6.win w).isOut = false := by decide
theorem hF6 (c : Dev nD) (w : Fin cfg6.W) : (pdats m 6 c).arrAt w cfg6.N = V14 m (outs m) c (Pipeline.arrRef spec6 w) :=
  exitVal_arr (pdats m 6 c) (V13 m (outs m) c) wr6 launch6.win.arr_inj (fun _ => rfl) io6 w
def reg6 : RegionSeg (pcfgs (F := F)) adm (pdats m) () defs₀ 𝒱z Lz lvz 6 :=
  regOf (pdats m) launch6 (V13 m (outs m)) (V14 m (outs m)) wr6 (fun _ _ => rfl) (fun _ _ => rfl) (fun _ _ => rfl) (fun _ _ => rfl) (fun _ => rfl) io6
    (body_obligation6 (fun c b => V13 m (outs6 m) c b)) (hin6 (fun c b => V13 m (outs6 m) c b)) (hout6 (fun c b => V13 m (outs6 m) c b))

abbrev Vi7 : (c : Dev nD) → (b : Ref sig .tc) → Buf (Elt F) ((c : Thread nD τ).loc b) := fun c b => V15 m (outs m) c b
abbrev wr7 : List (Ref sig .tc) := [main_v176_0, main_v176_1, main_v176_2]
theorem io7 : ∀ w : Fin cfg7.W, arrRef spec7 w ∉ wr7 → (cfg7.win w).isOut = false := by decide
theorem hF7 (c : Dev nD) (w : Fin cfg7.W) : (pdats m 7 c).arrAt w cfg7.N = V16 m (outs m) c (Pipeline.arrRef spec7 w) :=
  exitVal_arr (pdats m 7 c) (V15 m (outs m) c) wr7 launch7.win.arr_inj (fun _ => rfl) io7 w
def reg7 : RegionSeg (pcfgs (F := F)) adm (pdats m) () defs₀ 𝒱z Lz lvz 7 :=
  regOf (pdats m) launch7 (V15 m (outs m)) (V16 m (outs m)) wr7 (fun _ _ => rfl) (fun _ _ => rfl) (fun _ _ => rfl) (fun _ _ => rfl) (fun _ => rfl) io7
    (body_obligation7 (fun c b => V15 m (outs7 m) c b)) (hin7 (fun c b => V15 m (outs7 m) c b)) (hout7 (fun c b => V15 m (outs7 m) c b))

abbrev Vi8 : (c : Dev nD) → (b : Ref sig .tc) → Buf (Elt F) ((c : Thread nD τ).loc b) := fun c b => V17 m (outs m) c b
abbrev wr8 : List (Ref sig .tc) := [main_v207]
theorem io8 : ∀ w : Fin cfg8.W, arrRef spec8 w ∉ wr8 → (cfg8.win w).isOut = false := by decide
theorem hF8 (c : Dev nD) (w : Fin cfg8.W) : (pdats m 8 c).arrAt w cfg8.N = V18 m (outs m) c (Pipeline.arrRef spec8 w) :=
  exitVal_arr (pdats m 8 c) (V17 m (outs m) c) wr8 launch8.win.arr_inj (fun _ => rfl) io8 w
def reg8 : RegionSeg (pcfgs (F := F)) adm (pdats m) () defs₀ 𝒱z Lz lvz 8 :=
  regOf (pdats m) launch8 (V17 m (outs m)) (V18 m (outs m)) wr8 (fun _ _ => rfl) (fun _ _ => rfl) (fun _ _ => rfl) (fun _ _ => rfl) (fun _ => rfl) io8
    (body_obligation8 (fun c b => V17 m (outs8 m) c b)) (hin8 (fun c b => V17 m (outs8 m) c b)) (hout8 (fun c b => V17 m (outs8 m) c b))

abbrev Vi9 : (c : Dev nD) → (b : Ref sig .tc) → Buf (Elt F) ((c : Thread nD τ).loc b) := fun c b => V19 m (outs m) c b
abbrev wr9 : List (Ref sig .tc) := [main_v209]
theorem io9 : ∀ w : Fin cfg9.W, arrRef spec9 w ∉ wr9 → (cfg9.win w).isOut = false := by decide
theorem hF9 (c : Dev nD) (w : Fin cfg9.W) : (pdats m 9 c).arrAt w cfg9.N = V20 m (outs m) c (Pipeline.arrRef spec9 w) :=
  exitVal_arr (pdats m 9 c) (V19 m (outs m) c) wr9 launch9.win.arr_inj (fun _ => rfl) io9 w
def reg9 : RegionSeg (pcfgs (F := F)) adm (pdats m) () defs₀ 𝒱z Lz lvz 9 :=
  regOf (pdats m) launch9 (V19 m (outs m)) (V20 m (outs m)) wr9 (fun _ _ => rfl) (fun _ _ => rfl) (fun _ _ => rfl) (fun _ _ => rfl) (fun _ => rfl) io9
    (body_obligation9 (fun c b => V19 m (outs9 m) c b)) (hin9 (fun c b => V19 m (outs9 m) c b)) (hout9 (fun c b => V19 m (outs9 m) c b))

end Cert.KernelIdeal.Fr
-- ==== Proof.KI.Run.lean ====
import proofs.«409413_j30142080483538_1_alg».proof.Proof.KI.Run.Outs

set_option maxRecDepth 16384
noncomputable section
namespace Cert.KernelIdeal.Fr
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
variable {F : FTy → Type} [FloatOps F]
local notation "𝕄" => MT nD τ sig Unit (Elt F) ℕ (UR sig nD τ) ℕ
variable (m : (ℓ : Loc nD τ sig) → Buf (Elt F) ℓ)

abbrev u0 : UR sig nD τ := initOf (Pipeline.cells cfgs cellOf_inj) (Pipeline.launchToks cfgs cellOf_inj)

theorem hu0 : (ownU u0 : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hEz (ρ : Dev nD → PrngReg) (c : Dev nD) :
    (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄) ⊢ Ez (F := F) 0 c := by
  iintro ⟨-, HO, -, Hp, -⟩
  isplitl [Hp]; · iexists _; iexact Hp
  iexists ∅; iexact HO

theorem hE10 (c : Dev nD) : Ez (F := F) 10 c ⊢ (iprop(∃ W, owes (c : Thread nD τ) (0 : CellTallies nD τ sig Unit) W) : sProp 𝕄) := by
  iintro ⟨-, HO⟩; iexact HO

/-- Every weakly fair run of the program terminates without fault, each argument array ending as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  frame_cond (F := F) m emb₁ () 𝒱z Lz lvz (fun _ _ => rfl) ρ (outs m) (pdats m)
    (0 : Dev nD → CellTallies nD τ sig Unit) (fun _ => (BI.emp : sProp 𝕄)) u0 hu0 Ez (Pipeline.initEach Lz lvz fun c => by iintro ⟨H, -⟩; imodintro; iapply hEz (F := F) ρ c; iexact H) hE10
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)
    (reg5 m) (fun _ => .rfl) (fun _ => .rfl)
    (reg6 m) (fun _ => .rfl) (fun _ => .rfl)
    (reg7 m) (fun _ => .rfl) (fun _ => .rfl)
    (reg8 m) (fun _ => .rfl) (fun _ => .rfl)
    (reg9 m) (fun _ => .rfl) (fun _ => .rfl)

set_option backward.isDefEq.respectTransparency.types false in
/-- The same run ends with every unscoped buffer at the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = V25 m (outs m) c b) := by
  refine Pipeline.θ_run_regions_kit_dev (pcfgs (F := F)) adm (pdats m) () cellOf_inj emb₁ defs₀ 𝒱z Lz lvz m ρ main
    (segs m (outs m) 𝒱z Lz lvz Ez () (pdats m) (reg0 m) (reg1 m) (reg2 m) (reg3 m) (reg4 m) (reg5 m) (reg6 m) (reg7 m) (reg8 m) (reg9 m))
    (fun c Q => by
      rewrite [main_chain c, Seg.run_eq_chain,
        show (segs m (outs m) 𝒱z Lz lvz Ez () (pdats m) (reg0 m) (reg1 m) (reg2 m) (reg3 m) (reg4 m) (reg5 m) (reg6 m) (reg7 m) (reg8 m) (reg9 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()),
          StableHlo.seq hostOps10,
          StableHlo.seq hostOps10_1,
          StableHlo.seq hostOps10_2,
          StableHlo.seq hostOps10_3,
          StableHlo.seq hostOps10_4 ] from rfl]
      exact .rfl)
    (fun c => by simp only [segs, Seg.pipes_host, Seg.pipes_region, Seg.pipes_nil]; decide) (0 : Dev nD → CellTallies nD τ sig Unit) (fun _ _ => rfl) (fun _ => (BI.emp : sProp 𝕄)) u0 hu0
    (T₀ := fun c => iprop(StableHlo.held (c : Thread nD τ) (Pipeline.ucRefs τ sig) (V0 m c) ∗ Ez 0 c))
    (Tₙ := fun c => StableHlo.held (c : Thread nD τ) (Pipeline.ucRefs τ sig) (V25 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, sep_mono .rfl (hE10 c)⟩)
    (hinit := ?_) (QY := fun c s => ∀ b ∈ Pipeline.ucRefs τ sig, s.mem (((c : Thread nD τ)).1, b) = V25 m (outs m) c b)
    (hfin := fun c s' => ?_) (hQ := fun _ h => h)
  · refine Pipeline.initEach Lz lvz fun c => ?_
    rw [Pipeline.unscopedBufs_held (Ix := Unit) (Name := ℕ) (U := UR sig nD τ) (Lvl := ℕ) c (V0 m c)]
    iintro ⟨⟨Hh, Hr⟩, -⟩
    imodintro
    isplitl [Hh]; · iexact Hh
    iapply hEz (F := F) ρ c; iexact Hr
  · unfold StableHlo.held
    iintro ⟨Hh, HSI⟩
    ihave Hr := (pointsTo_read_all (Pipeline.ucRefs τ sig) (fun b => ((c : Thread nD τ).1, b)) (V25 m (outs m) c) s') $$ [Hh HSI]
    · isplitl [Hh] <;> iassumption
    icases Hr with ⟨%h, HSI⟩
    imodintro
    isplitr
    · ipureintro; exact h
    · iexact HSI

end Cert.KernelIdeal.Fr
-- ==== Proof.Ref.Line.lean ====
import Idealize.ShloMosaic.Lib.StableHlo.Run

namespace Cert.ReferenceIdeal.RefValue

open Idealize.ShloMosaic Idealize.SL.Sem Idealize.ShloMosaic.StableHlo

variable {τ : Topo} {sig : RefSig} {Val : EltTy → Type}

/-- `op` is one of the builders' operations with result buffer `y`. -/
inductive Out : Ref sig .tc → HloOp τ sig Val → Prop
  | nullary (y v hy) : Out y (nullary y v hy)
  | unary (x y f hx hy) : Out y (unary x y f hx hy)
  | binary (a b y f ha hb hy) : Out y (binary a b y f ha hb hy)
  | ternary (c a b y f hc ha hb hy) : Out y (ternary c a b y f hc ha hb hy)
  | reshape (x y he hn hx hy) : Out y (reshape x y he hn hx hy)
  | nary {n : Nat} (xs : Fin n → Ref sig .tc) (y f hxs hy) : Out y (nary xs y f hxs hy)

/-- A line of operations beside the list of their result buffers. -/
abbrev Line (W : List (Ref sig .tc)) (ops : List (HloOp τ sig Val)) : Prop := List.Forall₂ Out W ops

variable {W W' : List (Ref sig .tc)} {ops ops' : List (HloOp τ sig Val)}

theorem Line.append (h : Line W ops) (h' : Line W' ops') : Line (W ++ W') (ops ++ ops') := List.rel_append h h'

theorem Line.sub (h : Line W ops) : ops.Forall fun op => op.bufs ⊆ tcRefs τ sig := by
  induction h with
  | nil => trivial
  | cons h _ ih => exact (List.forall_cons _ _ _).mpr ⟨by cases h <;> simp, ih⟩

theorem Line.fresh (h : Line W ops) : ∀ op ∈ ops, op.fresh = ∅ := by
  induction h with
  | nil => exact fun _ h => nomatch h
  | cons h _ ih => exact List.forall_mem_cons.mpr ⟨by cases h <;> rfl, ih⟩

/-- A buffer that is not in the list keeps its contents along the line. -/
theorem Line.keep (h : Line W ops) {r : Ref sig .tc} (hr : r ∉ W) (V : Valuation τ sig Val) :
    after ops V (Proc.devRef .tc r) = V (Proc.devRef .tc r) := by
  induction h generalizing V with
  | nil => rfl
  | @cons y op _ _ hy _ ih =>
    rw [after_cons, ih (fun h => hr (List.mem_cons_of_mem _ h)), op.result_of_not_mem]
    have : op.writes = {Proc.devRef .tc y} := by cases hy <;> rfl
    exact fun hm => hr (Proc.devRef_injective _ (Finset.mem_singleton.mp (this ▸ hm)) ▸ List.mem_cons_self)

end Cert.ReferenceIdeal.RefValue
-- ==== Proof.Ref.OpsA1.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsA1 : List (HloOp τ sig (Elt F)) :=
  [ unary main_arg1 main_v0 (extractStridedSlice S1x4000000 ![0, 0] · slices_S2x4000000_S1x4000000_0_0),
    reshape main_v0 main_v1 rfl shapeCasts_S1x4000000_S4000000,
    unary main_arg1 main_v2 (extractStridedSlice S1x4000000 ![1, 0] · slices_S2x4000000_S1x4000000_1_0),
    reshape main_v2 main_v3 rfl shapeCasts_S1x4000000_S4000000,
    nullary main_c (constantI S_ 32 0#32),
    unary main_c main_v4 (broadcastInDim S4000000 ![] bcast_S_S4000000),
    binary main_v1 main_v4 main_v5 (cmpi .slt),
    nullary main_c_0 (constantI S_ 32 250000#32),
    unary main_c_0 main_v6 (broadcastInDim S4000000 ![] bcast_S_S4000000),
    binary main_v1 main_v6 main_v7 addi,
    ternary main_v5 main_v7 main_v1 main_v8 select,
    unary main_v8 main_v9 (broadcastInDim S4000000x1 ![0] bcast_S4000000_S4000000x1_0),
    binary main_arg0 main_v9 main_v10 (fun x i => Host.gather gather_S250000x6_S4000000x1_S4000000x6_1_0_n_n_0_1_16 x i),
    nullary main_cst (constant S_ .f32 0x00000000#32),
    unary main_cst main_v11 (broadcastInDim S250000x6 ![] bcast_S_S250000x6),
    unary main_v3 main_v12 (broadcastInDim S4000000x1 ![0] bcast_S4000000_S4000000x1_0),
    ternary main_v11 main_v12 main_v10 main_v13 (fun x i u => Host.scatterAdd scatter_S250000x6_S4000000x1_S4000000x6_1_0_0_1 x i u),
    binary main_arg0 main_v13 main_v14 addf,
    binary main_v14 main_arg8 main_v15 (fun l r => Host.dotGeneral dot_S250000x6_S6x64_S250000x64_1_0_0_1_n_n none l r),
    unary main_arg9 main_v16 (broadcastInDim S1x64 ![1] bcast_S64_S1x64_1),
    unary main_v16 main_v17 (broadcastInDim S250000x64 ![0, 1] bcast_S1x64_S250000x64_0_1),
    binary main_v15 main_v17 main_v18 addf,
    TRef.nullary (TRef.of (T := ⟨S_, .f32⟩) main_call0_cst) (constant S_ .f32 0x00000000#32),
    TRef.unary (TRef.of (T := ⟨S_, .f32⟩) main_call0_cst) (TRef.of (T := ⟨S250000x64, .f32⟩) main_call0_v0) (broadcastInDim S250000x64 ![] bcast_S_S250000x64),
    TRef.binary (TRef.of (T := ⟨S250000x64, .f32⟩) main_v18) (TRef.of (T := ⟨S250000x64, .f32⟩) main_call0_v0) (TRef.of (T := ⟨S250000x64, .f32⟩) main_v19) maximumf,
    binary main_v19 main_arg10 main_v20 (fun l r => Host.dotGeneral dot_S250000x64_S64x64_S250000x64_1_0_0_1_n_n none l r),
    unary main_arg11 main_v21 (broadcastInDim S1x64 ![1] bcast_S64_S1x64_1),
    unary main_v21 main_v22 (broadcastInDim S250000x64 ![0, 1] bcast_S1x64_S250000x64_0_1),
    binary main_v20 main_v22 main_v23 addf ]

abbrev writesA1 : List (Ref sig .tc) :=
  [main_v0, main_v1, main_v2, main_v3, main_c, main_v4, main_v5, main_c_0, main_v6, main_v7, main_v8, main_v9, main_v10, main_cst, main_v11, main_v12, main_v13, main_v14, main_v15, main_v16, main_v17, main_v18, main_call0_cst, main_call0_v0, main_v19, main_v20, main_v21, main_v22, main_v23]

theorem lineA1 : Line writesA1 (opsA1 : List (HloOp τ sig (Elt F))) := by repeat' with_reducible constructor

end Cert.ReferenceIdeal.RefValue

end
-- ==== Proof.Ref.Stages.lean ====
import proofs.«409413_j30142080483538_1_alg».proof.Proof.Gen.ReferenceIdeal
import Idealize.ShloMosaic.PureOps.Ideal

noncomputable section

namespace Cert.ReferenceIdeal.RefValue

open Cert.ReferenceIdeal Cert.ReferenceIdeal.Gen
open Idealize.ShloMosaic Idealize.ShloMosaic.TcCoe Idealize.SL.Sem Idealize.ShloMosaic.StableHlo

variable {F : FTy → Type} [FloatOps F]

-- the sources of the edges (row 0 of the edge list) as gather indices, a negative index counting from the end
def srcIdx (ei : (⟨S2x4000000, .i32⟩ : BufTy).Contents (Elt F)) : (⟨S4000000x1, .i32⟩ : BufTy).Contents (Elt F) :=
  broadcastInDim S4000000x1 ![0] bcast_S4000000_S4000000x1_0
    (select (cmpi .slt (shapeCast _ (extractStridedSlice S1x4000000 ![0, 0] ei slices_S2x4000000_S1x4000000_0_0) shapeCasts_S1x4000000_S4000000)
        (broadcastInDim S4000000 ![] bcast_S_S4000000 (constantI S_ 32 0#32)))
      (addi (shapeCast _ (extractStridedSlice S1x4000000 ![0, 0] ei slices_S2x4000000_S1x4000000_0_0) shapeCasts_S1x4000000_S4000000)
        (broadcastInDim S4000000 ![] bcast_S_S4000000 (constantI S_ 32 250000#32)))
      (shapeCast _ (extractStridedSlice S1x4000000 ![0, 0] ei slices_S2x4000000_S1x4000000_0_0) shapeCasts_S1x4000000_S4000000))

-- the destinations of the edges (row 1 of the edge list) as scatter indices
def dstIdx (ei : (⟨S2x4000000, .i32⟩ : BufTy).Contents (Elt F)) : (⟨S4000000x1, .i32⟩ : BufTy).Contents (Elt F) :=
  broadcastInDim S4000000x1 ![0] bcast_S4000000_S4000000x1_0
    (shapeCast _ (extractStridedSlice S1x4000000 ![1, 0] ei slices_S2x4000000_S1x4000000_1_0) shapeCasts_S1x4000000_S4000000)

-- row d is the sum of the rows x[src e] over the edges e with dst e = d
def agg6 (x : (⟨S250000x6, .f32⟩ : BufTy).Contents (Elt F)) (ei : (⟨S2x4000000, .i32⟩ : BufTy).Contents (Elt F)) : (⟨S250000x6, .f32⟩ : BufTy).Contents (Elt F) :=
  Host.scatterAdd scatter_S250000x6_S4000000x1_S4000000x6_1_0_0_1
    (broadcastInDim S250000x6 ![] bcast_S_S250000x6 (constant S_ .f32 0x00000000#32)) (dstIdx ei)
    (Host.gather gather_S250000x6_S4000000x1_S4000000x6_1_0_n_n_0_1_16 x (srcIdx ei))

def agg64 (x : (⟨S250000x64, .f32⟩ : BufTy).Contents (Elt F)) (ei : (⟨S2x4000000, .i32⟩ : BufTy).Contents (Elt F)) : (⟨S250000x64, .f32⟩ : BufTy).Contents (Elt F) :=
  Host.scatterAdd scatter_S250000x64_S4000000x1_S4000000x64_1_0_0_1
    (broadcastInDim S250000x64 ![] bcast_S_S250000x64 (constant S_ .f32 0x00000000#32)) (dstIdx ei)
    (Host.gather gather_S250000x64_S4000000x1_S4000000x64_1_0_n_n_0_1_164 x (srcIdx ei))

-- a 64-vector repeated on every node row
def biasRows (b : (⟨S64, .f32⟩ : BufTy).Contents (Elt F)) : (⟨S250000x64, .f32⟩ : BufTy).Contents (Elt F) :=
  broadcastInDim S250000x64 ![0, 1] bcast_S1x64_S250000x64_0_1 (broadcastInDim S1x64 ![1] bcast_S64_S1x64_1 b)

def zeroRows : (⟨S250000x64, .f32⟩ : BufTy).Contents (Elt F) := broadcastInDim S250000x64 ![] bcast_S_S250000x64 (constant S_ .f32 0x00000000#32)

-- relu((x + agg) · Wa + ba) · Wb + bb
def gin6 (x agg : (⟨S250000x6, .f32⟩ : BufTy).Contents (Elt F)) (Wa : (⟨S6x64, .f32⟩ : BufTy).Contents (Elt F)) (ba : (⟨S64, .f32⟩ : BufTy).Contents (Elt F)) (Wb : (⟨S64x64, .f32⟩ : BufTy).Contents (Elt F)) (bb : (⟨S64, .f32⟩ : BufTy).Contents (Elt F)) :
    (⟨S250000x64, .f32⟩ : BufTy).Contents (Elt F) :=
  addf (Host.dotGeneral dot_S250000x64_S64x64_S250000x64_1_0_0_1_n_n none
      (maximumf (addf (Host.dotGeneral dot_S250000x6_S6x64_S250000x64_1_0_0_1_n_n none (addf x agg) Wa) (biasRows ba)) zeroRows) Wb)
    (biasRows bb)

def gin64 (x agg : (⟨S250000x64, .f32⟩ : BufTy).Contents (Elt F)) (Wa : (⟨S64x64, .f32⟩ : BufTy).Contents (Elt F)) (ba : (⟨S64, .f32⟩ : BufTy).Contents (Elt F)) (Wb : (⟨S64x64, .f32⟩ : BufTy).Contents (Elt F)) (bb : (⟨S64, .f32⟩ : BufTy).Contents (Elt F)) :
    (⟨S250000x64, .f32⟩ : BufTy).Contents (Elt F) :=
  addf (Host.dotGeneral dot_S250000x64_S64x64_S250000x64_1_0_0_1_n_n none
      (maximumf (addf (Host.dotGeneral dot_S250000x64_S64x64_S250000x64_1_0_0_1_n_n none (addf x agg) Wa) (biasRows ba)) zeroRows) Wb)
    (biasRows bb)

def segIdx (b : (⟨S250000, .i32⟩ : BufTy).Contents (Elt F)) : (⟨S250000x1, .i32⟩ : BufTy).Contents (Elt F) := broadcastInDim S250000x1 ![0] bcast_S250000_S250000x1_0 b

-- the sum of a per-node value over the nodes of each graph
def segsum (u : (⟨S250000, .f32⟩ : BufTy).Contents (Elt F)) (b : (⟨S250000, .i32⟩ : BufTy).Contents (Elt F)) : (⟨S1024, .f32⟩ : BufTy).Contents (Elt F) :=
  Host.scatterAdd scatter_S1024_S250000x1_S250000_n_0_0_1
    (broadcastInDim S1024 ![] bcast_S_S1024 (constant S_ .f32 0x00000000#32)) (segIdx b) u

-- the number of nodes of each graph
def cnt (b : (⟨S250000, .i32⟩ : BufTy).Contents (Elt F)) : (⟨S1024, .f32⟩ : BufTy).Contents (Elt F) :=
  segsum (broadcastInDim S250000 ![] bcast_S_S250000 (constant S_ .f32 0x3F800000#32)) b

-- the node count, at least one
def cnt1 (b : (⟨S250000, .i32⟩ : BufTy).Contents (Elt F)) : (⟨S1024, .f32⟩ : BufTy).Contents (Elt F) :=
  maximumf (cnt b) (broadcastInDim S1024 ![] bcast_S_S1024 (constant S_ .f32 0x3F800000#32))

-- the number of entries of each graph: 64 channels times its node count
def norm (b : (⟨S250000, .i32⟩ : BufTy).Contents (Elt F)) : (⟨S1024, .f32⟩ : BufTy).Contents (Elt F) :=
  mulf (cnt1 b) (broadcastInDim S1024 ![] bcast_S_S1024 (constant S_ .f32 0x42800000#32))

-- the sum of the 64 channels of each node
def rowsum (h : (⟨S250000x64, .f32⟩ : BufTy).Contents (Elt F)) : (⟨S250000, .f32⟩ : BufTy).Contents (Elt F) :=
  Host.reduceAdd h (constant S_ .f32 0x00000000#32) reducesTo_S250000x64_S250000_d1 h_S_

-- the graph of every node as a gather index, a negative index counting from the end
def nodeIdx (b : (⟨S250000, .i32⟩ : BufTy).Contents (Elt F)) : (⟨S250000x1, .i32⟩ : BufTy).Contents (Elt F) :=
  broadcastInDim S250000x1 ![0] bcast_S250000_S250000x1_0
    (select (cmpi .slt b (broadcastInDim S250000 ![] bcast_S_S250000 (constantI S_ 32 0#32)))
      (addi b (broadcastInDim S250000 ![] bcast_S_S250000 (constantI S_ 32 1024#32))) b)

-- a per-graph value read at every node's graph
def perNode (g : (⟨S1024, .f32⟩ : BufTy).Contents (Elt F)) (b : (⟨S250000, .i32⟩ : BufTy).Contents (Elt F)) : (⟨S250000, .f32⟩ : BufTy).Contents (Elt F) :=
  Host.gather gather_S1024_S250000x1_S250000_n_0_n_n_0_1_1 g (nodeIdx b)

-- a per-node value repeated on the node's 64 channels
def overChannels (u : (⟨S250000, .f32⟩ : BufTy).Contents (Elt F)) : (⟨S250000x64, .f32⟩ : BufTy).Contents (Elt F) :=
  broadcastInDim S250000x64 ![0, 1] bcast_S250000x1_S250000x64_0_1 (broadcastInDim S250000x1 ![0] bcast_S250000_S250000x1_0 u)

-- the mean of the entries of each graph
def mean (h : (⟨S250000x64, .f32⟩ : BufTy).Contents (Elt F)) (b : (⟨S250000, .i32⟩ : BufTy).Contents (Elt F)) : (⟨S1024, .f32⟩ : BufTy).Contents (Elt F) :=
  Host.divf (segsum (rowsum h) b) (norm b)

-- every entry less the mean of its graph
def centred (h : (⟨S250000x64, .f32⟩ : BufTy).Contents (Elt F)) (b : (⟨S250000, .i32⟩ : BufTy).Contents (Elt F)) : (⟨S250000x64, .f32⟩ : BufTy).Contents (Elt F) :=
  subf h (overChannels (perNode (mean h b) b))

-- the mean of the squared centred entries of each graph
def var (h : (⟨S250000x64, .f32⟩ : BufTy).Contents (Elt F)) (b : (⟨S250000, .i32⟩ : BufTy).Contents (Elt F)) : (⟨S1024, .f32⟩ : BufTy).Contents (Elt F) :=
  Host.divf (segsum (rowsum (mulf (centred h b) (centred h b))) b) (norm b)

-- 1 / sqrt (var + eps) per graph
def invStd (h : (⟨S250000x64, .f32⟩ : BufTy).Contents (Elt F)) (b : (⟨S250000, .i32⟩ : BufTy).Contents (Elt F)) : (⟨S1024, .f32⟩ : BufTy).Contents (Elt F) :=
  Host.rsqrt (addf (var h b) (broadcastInDim S1024 ![] bcast_S_S1024 (constant S_ .f32 0x3727C5AC#32)))

-- relu(centred · invStd · w + bias): the layer-normalisation over each graph, then relu
def lnRelu (h : (⟨S250000x64, .f32⟩ : BufTy).Contents (Elt F)) (b : (⟨S250000, .i32⟩ : BufTy).Contents (Elt F)) (w bias : (⟨S64, .f32⟩ : BufTy).Contents (Elt F)) : (⟨S250000x64, .f32⟩ : BufTy).Contents (Elt F) :=
  maximumf (addf (mulf (mulf (centred h b) (overChannels (perNode (invStd h b) b))) (biasRows w)) (biasRows bias)) zeroRows

-- the sum of the node rows of each graph
def pool (x : (⟨S250000x64, .f32⟩ : BufTy).Contents (Elt F)) (b : (⟨S250000, .i32⟩ : BufTy).Contents (Elt F)) : (⟨S1024x64, .f32⟩ : BufTy).Contents (Elt F) :=
  Host.scatterAdd scatter_S1024x64_S250000x1_S250000x64_1_0_0_1
    (broadcastInDim S1024x64 ![] bcast_S_S1024x64 (constant S_ .f32 0x00000000#32)) (segIdx b) x

-- the pooled sum plus the pooled mean
def emb (p : (⟨S1024x64, .f32⟩ : BufTy).Contents (Elt F)) (b : (⟨S250000, .i32⟩ : BufTy).Contents (Elt F)) : (⟨S1024x64, .f32⟩ : BufTy).Contents (Elt F) :=
  addf p (Host.divf p (broadcastInDim S1024x64 ![0, 1] bcast_S1024x1_S1024x64_0_1 (broadcastInDim S1024x1 ![0] bcast_S1024_S1024x1_0 (cnt1 b))))

-- two rounds of aggregation, perceptron and layer-normalisation, pooled per graph
def tower (x : (⟨S250000x6, .f32⟩ : BufTy).Contents (Elt F)) (ei : (⟨S2x4000000, .i32⟩ : BufTy).Contents (Elt F)) (b : (⟨S250000, .i32⟩ : BufTy).Contents (Elt F))
    (W1 : (⟨S6x64, .f32⟩ : BufTy).Contents (Elt F)) (b1 : (⟨S64, .f32⟩ : BufTy).Contents (Elt F)) (W2 : (⟨S64x64, .f32⟩ : BufTy).Contents (Elt F)) (b2 l1w l1b : (⟨S64, .f32⟩ : BufTy).Contents (Elt F))
    (W3 : (⟨S64x64, .f32⟩ : BufTy).Contents (Elt F)) (b3 : (⟨S64, .f32⟩ : BufTy).Contents (Elt F)) (W4 : (⟨S64x64, .f32⟩ : BufTy).Contents (Elt F)) (b4 l2w l2b : (⟨S64, .f32⟩ : BufTy).Contents (Elt F)) : (⟨S1024x64, .f32⟩ : BufTy).Contents (Elt F) :=
  emb (pool (lnRelu (gin64 (lnRelu (gin6 x (agg6 x ei) W1 b1 W2 b2) b l1w l1b)
      (agg64 (lnRelu (gin6 x (agg6 x ei) W1 b1 W2 b2) b l1w l1b) ei) W3 b3 W4 b4) b l2w l2b) b) b

-- a three-layer perceptron on the two embeddings and the two descriptor arrays, concatenated
def head (e1 e2 : (⟨S1024x64, .f32⟩ : BufTy).Contents (Elt F)) (d1 d2 : (⟨S1024x5, .f32⟩ : BufTy).Contents (Elt F)) (Wf1 : (⟨S138x128, .f32⟩ : BufTy).Contents (Elt F)) (bf1 : (⟨S128, .f32⟩ : BufTy).Contents (Elt F))
    (Wf2 : (⟨S128x64, .f32⟩ : BufTy).Contents (Elt F)) (bf2 : (⟨S64, .f32⟩ : BufTy).Contents (Elt F)) (Wo : (⟨S64x1, .f32⟩ : BufTy).Contents (Elt F)) (bo : (⟨S1, .f32⟩ : BufTy).Contents (Elt F)) : (⟨S1024x1, .f32⟩ : BufTy).Contents (Elt F) :=
  addf (Host.dotGeneral dot_S1024x64_S64x1_S1024x1_1_0_0_1_n_n none
      (maximumf (addf (Host.dotGeneral dot_S1024x128_S128x64_S1024x64_1_0_0_1_n_n none
          (maximumf (addf (Host.dotGeneral dot_S1024x138_S138x128_S1024x128_1_0_0_1_n_n none
              (concatenate S1024x138 1 [⟨S1024x64, e1⟩, ⟨S1024x64, e2⟩, ⟨S1024x5, d1⟩, ⟨S1024x5, d2⟩] concatenates_S1024x64_S1024x64_S1024x5_S1024x5_S1024x138_d1) Wf1)
              (broadcastInDim S1024x128 ![0, 1] bcast_S1x128_S1024x128_0_1 (broadcastInDim S1x128 ![1] bcast_S128_S1x128_1 bf1)))
            (broadcastInDim S1024x128 ![] bcast_S_S1024x128 (constant S_ .f32 0x00000000#32))) Wf2)
          (broadcastInDim S1024x64 ![0, 1] bcast_S1x64_S1024x64_0_1 (broadcastInDim S1x64 ![1] bcast_S64_S1x64_1 bf2)))
        (broadcastInDim S1024x64 ![] bcast_S_S1024x64 (constant S_ .f32 0x00000000#32))) Wo)
    (broadcastInDim S1024x1 ![0, 1] bcast_S1x1_S1024x1_0_1 (broadcastInDim S1x1 ![1] bcast_S1_S1x1_1 bo))

theorem casts_64_1x64 : S64.ShapeCasts S1x64 := by decide
theorem casts_N_Nx1 : S250000.ShapeCasts S250000x1 := by decide
theorem casts_Nx1_N : S250000x1.ShapeCasts S250000 := by decide

def row (b : (⟨S64, .f32⟩ : BufTy).Contents (Elt F)) : (⟨S1x64, .f32⟩ : BufTy).Contents (Elt F) := shapeCast S1x64 b casts_64_1x64

def col (u : (⟨S250000, .f32⟩ : BufTy).Contents (Elt F)) : (⟨S250000x1, .f32⟩ : BufTy).Contents (Elt F) := shapeCast S250000x1 u casts_N_Nx1

def colI (b : (⟨S250000, .i32⟩ : BufTy).Contents (Elt F)) : (⟨S250000x1, .i32⟩ : BufTy).Contents (Elt F) := shapeCast S250000x1 b casts_N_Nx1

def flat (u : (⟨S250000x1, .f32⟩ : BufTy).Contents (Elt F)) : (⟨S250000, .f32⟩ : BufTy).Contents (Elt F) := shapeCast S250000 u casts_Nx1_N

-- the layer-normalisation from the mean and the variance already read at every node
def lnPerNode (h : (⟨S250000x64, .f32⟩ : BufTy).Contents (Elt F)) (mu va : (⟨S250000, .f32⟩ : BufTy).Contents (Elt F))
    (w bias : (⟨S64, .f32⟩ : BufTy).Contents (Elt F)) : (⟨S250000x64, .f32⟩ : BufTy).Contents (Elt F) :=
  maximumf (addf (mulf (mulf (subf h (overChannels mu))
      (overChannels (Host.rsqrt (addf va (broadcastInDim S250000 ![] bcast_S_S250000 (constant S_ .f32 0x3727C5AC#32))))))
      (biasRows w)) (biasRows bias)) zeroRows

-- the mean of the squares less the squared mean
def varK (h : (⟨S250000x64, .f32⟩ : BufTy).Contents (Elt F)) (b : (⟨S250000, .i32⟩ : BufTy).Contents (Elt F)) :
    (⟨S1024, .f32⟩ : BufTy).Contents (Elt F) :=
  subf (Host.divf (segsum (rowsum (mulf h h)) b) (norm b)) (mulf (mean h b) (mean h b))

end Cert.ReferenceIdeal.RefValue

end
-- ==== Proof.Ref.RunIdx.lean ====
import proofs.«409413_j30142080483538_1_alg».proof.Proof.Ref.Stages
import proofs.«409413_j30142080483538_1_alg».proof.Proof.Gen.ReferenceIdeal

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Row 0 of an edge list, flat. -/
def srcRaw (ei : (⟨S2x4000000, .i32⟩ : BufTy).Contents (Elt F)) : (⟨S4000000, .i32⟩ : BufTy).Contents (Elt F) :=
  shapeCast _ (extractStridedSlice S1x4000000 ![0, 0] ei slices_S2x4000000_S1x4000000_0_0) shapeCasts_S1x4000000_S4000000

/-- Row 1 of an edge list, flat. -/
def dstRaw (ei : (⟨S2x4000000, .i32⟩ : BufTy).Contents (Elt F)) : (⟨S4000000, .i32⟩ : BufTy).Contents (Elt F) :=
  shapeCast _ (extractStridedSlice S1x4000000 ![1, 0] ei slices_S2x4000000_S1x4000000_1_0) shapeCasts_S1x4000000_S4000000

/-- The rows of `x` at the indices `s` (a negative one counted from the end) summed into the rows `d`. -/
def agg64r (x : (⟨S250000x64, .f32⟩ : BufTy).Contents (Elt F)) (s d : (⟨S4000000, .i32⟩ : BufTy).Contents (Elt F)) : (⟨S250000x64, .f32⟩ : BufTy).Contents (Elt F) :=
  Host.scatterAdd scatter_S250000x64_S4000000x1_S4000000x64_1_0_0_1
    (broadcastInDim S250000x64 ![] bcast_S_S250000x64 (constant S_ .f32 0x00000000#32))
    (broadcastInDim S4000000x1 ![0] bcast_S4000000_S4000000x1_0 d)
    (Host.gather gather_S250000x64_S4000000x1_S4000000x64_1_0_n_n_0_1_164 x
      (broadcastInDim S4000000x1 ![0] bcast_S4000000_S4000000x1_0
        (select (cmpi .slt s (broadcastInDim S4000000 ![] bcast_S_S4000000 (constantI S_ 32 0#32)))
          (addi s (broadcastInDim S4000000 ![] bcast_S_S4000000 (constantI S_ 32 250000#32))) s)))

theorem agg64r_raw (x : (⟨S250000x64, .f32⟩ : BufTy).Contents (Elt F)) (ei : (⟨S2x4000000, .i32⟩ : BufTy).Contents (Elt F)) :
    agg64r x (srcRaw ei) (dstRaw ei) = agg64 x ei := rfl

end Cert.ReferenceIdeal.RefValue

end
-- ==== Proof.Ref.RunA1.lean ====
import proofs.«409413_j30142080483538_1_alg».proof.Proof.Ref.OpsA1
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepA1 (W : Valuation τ sig (Elt F)) : Valuation τ sig (Elt F) := after opsA1 W

theorem stepA1_keep (W : Valuation τ sig (Elt F)) {r : Ref sig .tc} (hr : r ∉ writesA1) : stepA1 W (no_index ↟r) = W ↟r :=
  lineA1.keep hr W

set_option maxRecDepth 8192 in
set_option maxHeartbeats 1000000 in
theorem stepA1_v1 (W : Valuation τ sig (Elt F)) : stepA1 W (no_index ↟main_v1) = srcRaw (W ↟main_arg1) := by
  unfold stepA1
  after_results_simp
  rfl

set_option maxRecDepth 8192 in
set_option maxHeartbeats 1000000 in
theorem stepA1_v3 (W : Valuation τ sig (Elt F)) : stepA1 W (no_index ↟main_v3) = dstRaw (W ↟main_arg1) := by
  unfold stepA1
  after_results_simp
  rfl

set_option maxRecDepth 8192 in
set_option maxHeartbeats 2000000 in
theorem stepA1_v23 (W : Valuation τ sig (Elt F)) :
    stepA1 W (no_index ↟main_v23)
      = gin6 (W ↟main_arg0) (agg6 (W ↟main_arg0) (W ↟main_arg1)) (W ↟main_arg8) (W ↟main_arg9) (W ↟main_arg10) (W ↟main_arg11) := by
  unfold stepA1
  after_results_simp
  rfl

end Cert.ReferenceIdeal.RefValue

end
-- ==== Proof.Ref.OpsB1.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsB1 : List (HloOp τ sig (Elt F)) :=
  [ nullary main_cst_1 (constant S_ .f32 0x3F800000#32),
    unary main_cst_1 main_v24 (broadcastInDim S250000 ![] bcast_S_S250000),
    nullary main_cst_2 (constant S_ .f32 0x00000000#32),
    unary main_cst_2 main_v25 (broadcastInDim S1024 ![] bcast_S_S1024),
    unary main_arg2 main_v26 (broadcastInDim S250000x1 ![0] bcast_S250000_S250000x1_0),
    ternary main_v25 main_v26 main_v24 main_v27 (fun x i u => Host.scatterAdd scatter_S1024_S250000x1_S250000_n_0_0_1 x i u),
    nullary main_cst_3 (constant S_ .f32 0x3F800000#32),
    unary main_cst_3 main_v28 (broadcastInDim S1024 ![] bcast_S_S1024),
    binary main_v27 main_v28 main_v29 maximumf,
    nullary main_cst_4 (constant S_ .f32 0x42800000#32),
    unary main_cst_4 main_v30 (broadcastInDim S1024 ![] bcast_S_S1024),
    binary main_v29 main_v30 main_v31 mulf,
    nullary main_cst_5 (constant S_ .f32 0x00000000#32),
    binary main_v23 main_cst_5 main_v32 (fun x v => Host.reduceAdd x v reducesTo_S250000x64_S250000_d1 h_S_),
    nullary main_cst_6 (constant S_ .f32 0x00000000#32),
    unary main_cst_6 main_v33 (broadcastInDim S1024 ![] bcast_S_S1024),
    unary main_arg2 main_v34 (broadcastInDim S250000x1 ![0] bcast_S250000_S250000x1_0),
    ternary main_v33 main_v34 main_v32 main_v35 (fun x i u => Host.scatterAdd scatter_S1024_S250000x1_S250000_n_0_0_1 x i u),
    binary main_v35 main_v31 main_v36 Host.divf,
    nullary main_c_7 (constantI S_ 32 0#32),
    unary main_c_7 main_v37 (broadcastInDim S250000 ![] bcast_S_S250000),
    binary main_arg2 main_v37 main_v38 (cmpi .slt),
    nullary main_c_8 (constantI S_ 32 1024#32),
    unary main_c_8 main_v39 (broadcastInDim S250000 ![] bcast_S_S250000),
    binary main_arg2 main_v39 main_v40 addi,
    ternary main_v38 main_v40 main_arg2 main_v41 select,
    unary main_v41 main_v42 (broadcastInDim S250000x1 ![0] bcast_S250000_S250000x1_0),
    binary main_v36 main_v42 main_v43 (fun x i => Host.gather gather_S1024_S250000x1_S250000_n_0_n_n_0_1_1 x i),
    unary main_v43 main_v44 (broadcastInDim S250000x1 ![0] bcast_S250000_S250000x1_0),
    unary main_v44 main_v45 (broadcastInDim S250000x64 ![0, 1] bcast_S250000x1_S250000x64_0_1),
    binary main_v23 main_v45 main_v46 subf,
    binary main_v46 main_v46 main_v47 mulf,
    nullary main_cst_9 (constant S_ .f32 0x00000000#32),
    binary main_v47 main_cst_9 main_v48 (fun x v => Host.reduceAdd x v reducesTo_S250000x64_S250000_d1 h_S_),
    nullary main_cst_10 (constant S_ .f32 0x00000000#32),
    unary main_cst_10 main_v49 (broadcastInDim S1024 ![] bcast_S_S1024),
    unary main_arg2 main_v50 (broadcastInDim S250000x1 ![0] bcast_S250000_S250000x1_0),
    ternary main_v49 main_v50 main_v48 main_v51 (fun x i u => Host.scatterAdd scatter_S1024_S250000x1_S250000_n_0_0_1 x i u),
    binary main_v51 main_v31 main_v52 Host.divf,
    nullary main_cst_11 (constant S_ .f32 0x3727C5AC#32),
    unary main_cst_11 main_v53 (broadcastInDim S1024 ![] bcast_S_S1024),
    binary main_v52 main_v53 main_v54 addf,
    unary main_v54 main_v55 Host.rsqrt,
    nullary main_c_12 (constantI S_ 32 0#32),
    unary main_c_12 main_v56 (broadcastInDim S250000 ![] bcast_S_S250000),
    binary main_arg2 main_v56 main_v57 (cmpi .slt),
    nullary main_c_13 (constantI S_ 32 1024#32),
    unary main_c_13 main_v58 (broadcastInDim S250000 ![] bcast_S_S250000),
    binary main_arg2 main_v58 main_v59 addi,
    ternary main_v57 main_v59 main_arg2 main_v60 select,
    unary main_v60 main_v61 (broadcastInDim S250000x1 ![0] bcast_S250000_S250000x1_0),
    binary main_v55 main_v61 main_v62 (fun x i => Host.gather gather_S1024_S250000x1_S250000_n_0_n_n_0_1_1 x i),
    unary main_v62 main_v63 (broadcastInDim S250000x1 ![0] bcast_S250000_S250000x1_0),
    unary main_v63 main_v64 (broadcastInDim S250000x64 ![0, 1] bcast_S250000x1_S250000x64_0_1),
    binary main_v46 main_v64 main_v65 mulf,
    unary main_arg12 main_v66 (broadcastInDim S1x64 ![1] bcast_S64_S1x64_1),
    unary main_v66 main_v67 (broadcastInDim S250000x64 ![0, 1] bcast_S1x64_S250000x64_0_1),
    binary main_v65 main_v67 main_v68 mulf,
    unary main_arg13 main_v69 (broadcastInDim S1x64 ![1] bcast_S64_S1x64_1),
    unary main_v69 main_v70 (broadcastInDim S250000x64 ![0, 1] bcast_S1x64_S250000x64_0_1),
    binary main_v68 main_v70 main_v71 addf,
    TRef.nullary (TRef.of (T := ⟨S_, .f32⟩) main_call1_cst) (constant S_ .f32 0x00000000#32),
    TRef.unary (TRef.of (T := ⟨S_, .f32⟩) main_call1_cst) (TRef.of (T := ⟨S250000x64, .f32⟩) main_call1_v0) (broadcastInDim S250000x64 ![] bcast_S_S250000x64),
    TRef.binary (TRef.of (T := ⟨S250000x64, .f32⟩) main_v71) (TRef.of (T := ⟨S250000x64, .f32⟩) main_call1_v0) (TRef.of (T := ⟨S250000x64, .f32⟩) main_v72) maximumf ]

abbrev writesB1 : List (Ref sig .tc) :=
  [main_cst_1, main_v24, main_cst_2, main_v25, main_v26, main_v27, main_cst_3, main_v28, main_v29, main_cst_4, main_v30, main_v31, main_cst_5, main_v32, main_cst_6, main_v33, main_v34, main_v35, main_v36, main_c_7, main_v37, main_v38, main_c_8, main_v39, main_v40, main_v41, main_v42, main_v43, main_v44, main_v45, main_v46, main_v47, main_cst_9, main_v48, main_cst_10, main_v49, main_v50, main_v51, main_v52, main_cst_11, main_v53, main_v54, main_v55, main_c_12, main_v56, main_v57, main_c_13, main_v58, main_v59, main_v60, main_v61, main_v62, main_v63, main_v64, main_v65, main_v66, main_v67, main_v68, main_v69, main_v70, main_v71, main_call1_cst, main_call1_v0, main_v72]

theorem lineB1 : Line writesB1 (opsB1 : List (HloOp τ sig (Elt F))) := by repeat' with_reducible constructor

end Cert.ReferenceIdeal.RefValue

end
-- ==== Proof.Ref.RunB1.lean ====
import proofs.«409413_j30142080483538_1_alg».proof.Proof.Ref.OpsB1
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepB1 (W : Valuation τ sig (Elt F)) : Valuation τ sig (Elt F) := after opsB1 W

theorem stepB1_keep (W : Valuation τ sig (Elt F)) {r : Ref sig .tc} (hr : r ∉ writesB1) : stepB1 W (no_index ↟r) = W ↟r :=
  lineB1.keep hr W

set_option maxRecDepth 8192 in
set_option maxHeartbeats 4000000 in
theorem stepB1_v72 (W : Valuation τ sig (Elt F)) :
    stepB1 W (no_index ↟main_v72) = lnRelu (W ↟main_v23) (W ↟main_arg2) (W ↟main_arg12) (W ↟main_arg13) := by
  unfold stepB1
  after_results_simp
  rfl

end Cert.ReferenceIdeal.RefValue

end
-- ==== Proof.Ref.OpsC1.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsC1 : List (HloOp τ sig (Elt F)) :=
  [ nullary main_c_14 (constantI S_ 32 0#32),
    unary main_c_14 main_v73 (broadcastInDim S4000000 ![] bcast_S_S4000000),
    binary main_v1 main_v73 main_v74 (cmpi .slt),
    nullary main_c_15 (constantI S_ 32 250000#32),
    unary main_c_15 main_v75 (broadcastInDim S4000000 ![] bcast_S_S4000000),
    binary main_v1 main_v75 main_v76 addi,
    ternary main_v74 main_v76 main_v1 main_v77 select,
    unary main_v77 main_v78 (broadcastInDim S4000000x1 ![0] bcast_S4000000_S4000000x1_0),
    binary main_v72 main_v78 main_v79 (fun x i => Host.gather gather_S250000x64_S4000000x1_S4000000x64_1_0_n_n_0_1_164 x i),
    nullary main_cst_16 (constant S_ .f32 0x00000000#32),
    unary main_cst_16 main_v80 (broadcastInDim S250000x64 ![] bcast_S_S250000x64),
    unary main_v3 main_v81 (broadcastInDim S4000000x1 ![0] bcast_S4000000_S4000000x1_0),
    ternary main_v80 main_v81 main_v79 main_v82 (fun x i u => Host.scatterAdd scatter_S250000x64_S4000000x1_S4000000x64_1_0_0_1 x i u),
    binary main_v72 main_v82 main_v83 addf,
    binary main_v83 main_arg14 main_v84 (fun l r => Host.dotGeneral dot_S250000x64_S64x64_S250000x64_1_0_0_1_n_n none l r),
    unary main_arg15 main_v85 (broadcastInDim S1x64 ![1] bcast_S64_S1x64_1),
    unary main_v85 main_v86 (broadcastInDim S250000x64 ![0, 1] bcast_S1x64_S250000x64_0_1),
    binary main_v84 main_v86 main_v87 addf,
    TRef.nullary (TRef.of (T := ⟨S_, .f32⟩) main_call2_cst) (constant S_ .f32 0x00000000#32),
    TRef.unary (TRef.of (T := ⟨S_, .f32⟩) main_call2_cst) (TRef.of (T := ⟨S250000x64, .f32⟩) main_call2_v0) (broadcastInDim S250000x64 ![] bcast_S_S250000x64),
    TRef.binary (TRef.of (T := ⟨S250000x64, .f32⟩) main_v87) (TRef.of (T := ⟨S250000x64, .f32⟩) main_call2_v0) (TRef.of (T := ⟨S250000x64, .f32⟩) main_v88) maximumf,
    binary main_v88 main_arg16 main_v89 (fun l r => Host.dotGeneral dot_S250000x64_S64x64_S250000x64_1_0_0_1_n_n none l r),
    unary main_arg17 main_v90 (broadcastInDim S1x64 ![1] bcast_S64_S1x64_1),
    unary main_v90 main_v91 (broadcastInDim S250000x64 ![0, 1] bcast_S1x64_S250000x64_0_1),
    binary main_v89 main_v91 main_v92 addf ]

abbrev writesC1 : List (Ref sig .tc) :=
  [main_c_14, main_v73, main_v74, main_c_15, main_v75, main_v76, main_v77, main_v78, main_v79, main_cst_16, main_v80, main_v81, main_v82, main_v83, main_v84, main_v85, main_v86, main_v87, main_call2_cst, main_call2_v0, main_v88, main_v89, main_v90, main_v91, main_v92]

theorem lineC1 : Line writesC1 (opsC1 : List (HloOp τ sig (Elt F))) := by repeat' with_reducible constructor

end Cert.ReferenceIdeal.RefValue

end
-- ==== Proof.Ref.RunC1.lean ====
import proofs.«409413_j30142080483538_1_alg».proof.Proof.Ref.OpsC1
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepC1 (W : Valuation τ sig (Elt F)) : Valuation τ sig (Elt F) := after opsC1 W

theorem stepC1_keep (W : Valuation τ sig (Elt F)) {r : Ref sig .tc} (hr : r ∉ writesC1) : stepC1 W (no_index ↟r) = W ↟r :=
  lineC1.keep hr W

set_option maxRecDepth 8192 in
set_option maxHeartbeats 2000000 in
theorem stepC1_v92 (W : Valuation τ sig (Elt F)) :
    stepC1 W (no_index ↟main_v92)
      = gin64 (W ↟main_v72) (agg64r (W ↟main_v72) (W ↟main_v1) (W ↟main_v3)) (W ↟main_arg14) (W ↟main_arg15) (W ↟main_arg16) (W ↟main_arg17) := by
  unfold stepC1
  after_results_simp
  rfl

end Cert.ReferenceIdeal.RefValue

end
-- ==== Proof.Ref.OpsD1.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsD1 : List (HloOp τ sig (Elt F)) :=
  [ nullary main_cst_17 (constant S_ .f32 0x3F800000#32),
    unary main_cst_17 main_v93 (broadcastInDim S250000 ![] bcast_S_S250000),
    nullary main_cst_18 (constant S_ .f32 0x00000000#32),
    unary main_cst_18 main_v94 (broadcastInDim S1024 ![] bcast_S_S1024),
    unary main_arg2 main_v95 (broadcastInDim S250000x1 ![0] bcast_S250000_S250000x1_0),
    ternary main_v94 main_v95 main_v93 main_v96 (fun x i u => Host.scatterAdd scatter_S1024_S250000x1_S250000_n_0_0_1 x i u),
    nullary main_cst_19 (constant S_ .f32 0x3F800000#32),
    unary main_cst_19 main_v97 (broadcastInDim S1024 ![] bcast_S_S1024),
    binary main_v96 main_v97 main_v98 maximumf,
    nullary main_cst_20 (constant S_ .f32 0x42800000#32),
    unary main_cst_20 main_v99 (broadcastInDim S1024 ![] bcast_S_S1024),
    binary main_v98 main_v99 main_v100 mulf,
    nullary main_cst_21 (constant S_ .f32 0x00000000#32),
    binary main_v92 main_cst_21 main_v101 (fun x v => Host.reduceAdd x v reducesTo_S250000x64_S250000_d1 h_S_),
    nullary main_cst_22 (constant S_ .f32 0x00000000#32),
    unary main_cst_22 main_v102 (broadcastInDim S1024 ![] bcast_S_S1024),
    unary main_arg2 main_v103 (broadcastInDim S250000x1 ![0] bcast_S250000_S250000x1_0),
    ternary main_v102 main_v103 main_v101 main_v104 (fun x i u => Host.scatterAdd scatter_S1024_S250000x1_S250000_n_0_0_1 x i u),
    binary main_v104 main_v100 main_v105 Host.divf,
    nullary main_c_23 (constantI S_ 32 0#32),
    unary main_c_23 main_v106 (broadcastInDim S250000 ![] bcast_S_S250000),
    binary main_arg2 main_v106 main_v107 (cmpi .slt),
    nullary main_c_24 (constantI S_ 32 1024#32),
    unary main_c_24 main_v108 (broadcastInDim S250000 ![] bcast_S_S250000),
    binary main_arg2 main_v108 main_v109 addi,
    ternary main_v107 main_v109 main_arg2 main_v110 select,
    unary main_v110 main_v111 (broadcastInDim S250000x1 ![0] bcast_S250000_S250000x1_0),
    binary main_v105 main_v111 main_v112 (fun x i => Host.gather gather_S1024_S250000x1_S250000_n_0_n_n_0_1_1 x i),
    unary main_v112 main_v113 (broadcastInDim S250000x1 ![0] bcast_S250000_S250000x1_0),
    unary main_v113 main_v114 (broadcastInDim S250000x64 ![0, 1] bcast_S250000x1_S250000x64_0_1),
    binary main_v92 main_v114 main_v115 subf,
    binary main_v115 main_v115 main_v116 mulf,
    nullary main_cst_25 (constant S_ .f32 0x00000000#32),
    binary main_v116 main_cst_25 main_v117 (fun x v => Host.reduceAdd x v reducesTo_S250000x64_S250000_d1 h_S_),
    nullary main_cst_26 (constant S_ .f32 0x00000000#32),
    unary main_cst_26 main_v118 (broadcastInDim S1024 ![] bcast_S_S1024),
    unary main_arg2 main_v119 (broadcastInDim S250000x1 ![0] bcast_S250000_S250000x1_0),
    ternary main_v118 main_v119 main_v117 main_v120 (fun x i u => Host.scatterAdd scatter_S1024_S250000x1_S250000_n_0_0_1 x i u),
    binary main_v120 main_v100 main_v121 Host.divf,
    nullary main_cst_27 (constant S_ .f32 0x3727C5AC#32),
    unary main_cst_27 main_v122 (broadcastInDim S1024 ![] bcast_S_S1024),
    binary main_v121 main_v122 main_v123 addf,
    unary main_v123 main_v124 Host.rsqrt,
    nullary main_c_28 (constantI S_ 32 0#32),
    unary main_c_28 main_v125 (broadcastInDim S250000 ![] bcast_S_S250000),
    binary main_arg2 main_v125 main_v126 (cmpi .slt),
    nullary main_c_29 (constantI S_ 32 1024#32),
    unary main_c_29 main_v127 (broadcastInDim S250000 ![] bcast_S_S250000),
    binary main_arg2 main_v127 main_v128 addi,
    ternary main_v126 main_v128 main_arg2 main_v129 select,
    unary main_v129 main_v130 (broadcastInDim S250000x1 ![0] bcast_S250000_S250000x1_0),
    binary main_v124 main_v130 main_v131 (fun x i => Host.gather gather_S1024_S250000x1_S250000_n_0_n_n_0_1_1 x i),
    unary main_v131 main_v132 (broadcastInDim S250000x1 ![0] bcast_S250000_S250000x1_0),
    unary main_v132 main_v133 (broadcastInDim S250000x64 ![0, 1] bcast_S250000x1_S250000x64_0_1),
    binary main_v115 main_v133 main_v134 mulf,
    unary main_arg18 main_v135 (broadcastInDim S1x64 ![1] bcast_S64_S1x64_1),
    unary main_v135 main_v136 (broadcastInDim S250000x64 ![0, 1] bcast_S1x64_S250000x64_0_1),
    binary main_v134 main_v136 main_v137 mulf,
    unary main_arg19 main_v138 (broadcastInDim S1x64 ![1] bcast_S64_S1x64_1),
    unary main_v138 main_v139 (broadcastInDim S250000x64 ![0, 1] bcast_S1x64_S250000x64_0_1),
    binary main_v137 main_v139 main_v140 addf,
    TRef.nullary (TRef.of (T := ⟨S_, .f32⟩) main_call3_cst) (constant S_ .f32 0x00000000#32),
    TRef.unary (TRef.of (T := ⟨S_, .f32⟩) main_call3_cst) (TRef.of (T := ⟨S250000x64, .f32⟩) main_call3_v0) (broadcastInDim S250000x64 ![] bcast_S_S250000x64),
    TRef.binary (TRef.of (T := ⟨S250000x64, .f32⟩) main_v140) (TRef.of (T := ⟨S250000x64, .f32⟩) main_call3_v0) (TRef.of (T := ⟨S250000x64, .f32⟩) main_v141) maximumf ]

abbrev writesD1 : List (Ref sig .tc) :=
  [main_cst_17, main_v93, main_cst_18, main_v94, main_v95, main_v96, main_cst_19, main_v97, main_v98, main_cst_20, main_v99, main_v100, main_cst_21, main_v101, main_cst_22, main_v102, main_v103, main_v104, main_v105, main_c_23, main_v106, main_v107, main_c_24, main_v108, main_v109, main_v110, main_v111, main_v112, main_v113, main_v114, main_v115, main_v116, main_cst_25, main_v117, main_cst_26, main_v118, main_v119, main_v120, main_v121, main_cst_27, main_v122, main_v123, main_v124, main_c_28, main_v125, main_v126, main_c_29, main_v127, main_v128, main_v129, main_v130, main_v131, main_v132, main_v133, main_v134, main_v135, main_v136, main_v137, main_v138, main_v139, main_v140, main_call3_cst, main_call3_v0, main_v141]

theorem lineD1 : Line writesD1 (opsD1 : List (HloOp τ sig (Elt F))) := by repeat' with_reducible constructor

end Cert.ReferenceIdeal.RefValue

end
-- ==== Proof.Ref.RunD1.lean ====
import proofs.«409413_j30142080483538_1_alg».proof.Proof.Ref.OpsD1
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepD1 (W : Valuation τ sig (Elt F)) : Valuation τ sig (Elt F) := after opsD1 W

theorem stepD1_keep (W : Valuation τ sig (Elt F)) {r : Ref sig .tc} (hr : r ∉ writesD1) : stepD1 W (no_index ↟r) = W ↟r :=
  lineD1.keep hr W

set_option maxRecDepth 8192 in
set_option maxHeartbeats 4000000 in
theorem stepD1_v141 (W : Valuation τ sig (Elt F)) :
    stepD1 W (no_index ↟main_v141) = lnRelu (W ↟main_v92) (W ↟main_arg2) (W ↟main_arg18) (W ↟main_arg19) := by
  unfold stepD1
  after_results_simp
  rfl

end Cert.ReferenceIdeal.RefValue

end
-- ==== Proof.Ref.OpsE1.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsE1 : List (HloOp τ sig (Elt F)) :=
  [ nullary main_cst_30 (constant S_ .f32 0x00000000#32),
    unary main_cst_30 main_v142 (broadcastInDim S1024x64 ![] bcast_S_S1024x64),
    unary main_arg2 main_v143 (broadcastInDim S250000x1 ![0] bcast_S250000_S250000x1_0),
    ternary main_v142 main_v143 main_v141 main_v144 (fun x i u => Host.scatterAdd scatter_S1024x64_S250000x1_S250000x64_1_0_0_1 x i u),
    nullary main_cst_31 (constant S_ .f32 0x3F800000#32),
    unary main_cst_31 main_v145 (broadcastInDim S250000 ![] bcast_S_S250000),
    nullary main_cst_32 (constant S_ .f32 0x00000000#32),
    unary main_cst_32 main_v146 (broadcastInDim S1024 ![] bcast_S_S1024),
    unary main_arg2 main_v147 (broadcastInDim S250000x1 ![0] bcast_S250000_S250000x1_0),
    ternary main_v146 main_v147 main_v145 main_v148 (fun x i u => Host.scatterAdd scatter_S1024_S250000x1_S250000_n_0_0_1 x i u),
    nullary main_cst_33 (constant S_ .f32 0x3F800000#32),
    unary main_cst_33 main_v149 (broadcastInDim S1024 ![] bcast_S_S1024),
    binary main_v148 main_v149 main_v150 maximumf,
    unary main_v150 main_v151 (broadcastInDim S1024x1 ![0] bcast_S1024_S1024x1_0),
    unary main_v151 main_v152 (broadcastInDim S1024x64 ![0, 1] bcast_S1024x1_S1024x64_0_1),
    binary main_v144 main_v152 main_v153 Host.divf,
    binary main_v144 main_v153 main_v154 addf ]

abbrev writesE1 : List (Ref sig .tc) :=
  [main_cst_30, main_v142, main_v143, main_v144, main_cst_31, main_v145, main_cst_32, main_v146, main_v147, main_v148, main_cst_33, main_v149, main_v150, main_v151, main_v152, main_v153, main_v154]

theorem lineE1 : Line writesE1 (opsE1 : List (HloOp τ sig (Elt F))) := by repeat' with_reducible constructor

end Cert.ReferenceIdeal.RefValue

end
-- ==== Proof.Ref.RunE1.lean ====
import proofs.«409413_j30142080483538_1_alg».proof.Proof.Ref.OpsE1
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepE1 (W : Valuation τ sig (Elt F)) : Valuation τ sig (Elt F) := after opsE1 W

theorem stepE1_keep (W : Valuation τ sig (Elt F)) {r : Ref sig .tc} (hr : r ∉ writesE1) : stepE1 W (no_index ↟r) = W ↟r :=
  lineE1.keep hr W

set_option maxRecDepth 8192 in
set_option maxHeartbeats 1000000 in
theorem stepE1_v154 (W : Valuation τ sig (Elt F)) :
    stepE1 W (no_index ↟main_v154) = emb (pool (W ↟main_v141) (W ↟main_arg2)) (W ↟main_arg2) := by
  unfold stepE1
  after_results_simp
  rfl

end Cert.ReferenceIdeal.RefValue

end
-- ==== Proof.Ref.OpsA2.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsA2 : List (HloOp τ sig (Elt F)) :=
  [ unary main_arg4 main_v155 (extractStridedSlice S1x4000000 ![0, 0] · slices_S2x4000000_S1x4000000_0_0),
    reshape main_v155 main_v156 rfl shapeCasts_S1x4000000_S4000000,
    unary main_arg4 main_v157 (extractStridedSlice S1x4000000 ![1, 0] · slices_S2x4000000_S1x4000000_1_0),
    reshape main_v157 main_v158 rfl shapeCasts_S1x4000000_S4000000,
    nullary main_c_34 (constantI S_ 32 0#32),
    unary main_c_34 main_v159 (broadcastInDim S4000000 ![] bcast_S_S4000000),
    binary main_v156 main_v159 main_v160 (cmpi .slt),
    nullary main_c_35 (constantI S_ 32 250000#32),
    unary main_c_35 main_v161 (broadcastInDim S4000000 ![] bcast_S_S4000000),
    binary main_v156 main_v161 main_v162 addi,
    ternary main_v160 main_v162 main_v156 main_v163 select,
    unary main_v163 main_v164 (broadcastInDim S4000000x1 ![0] bcast_S4000000_S4000000x1_0),
    binary main_arg3 main_v164 main_v165 (fun x i => Host.gather gather_S250000x6_S4000000x1_S4000000x6_1_0_n_n_0_1_16 x i),
    nullary main_cst_36 (constant S_ .f32 0x00000000#32),
    unary main_cst_36 main_v166 (broadcastInDim S250000x6 ![] bcast_S_S250000x6),
    unary main_v158 main_v167 (broadcastInDim S4000000x1 ![0] bcast_S4000000_S4000000x1_0),
    ternary main_v166 main_v167 main_v165 main_v168 (fun x i u => Host.scatterAdd scatter_S250000x6_S4000000x1_S4000000x6_1_0_0_1 x i u),
    binary main_arg3 main_v168 main_v169 addf,
    binary main_v169 main_arg8 main_v170 (fun l r => Host.dotGeneral dot_S250000x6_S6x64_S250000x64_1_0_0_1_n_n none l r),
    unary main_arg9 main_v171 (broadcastInDim S1x64 ![1] bcast_S64_S1x64_1),
    unary main_v171 main_v172 (broadcastInDim S250000x64 ![0, 1] bcast_S1x64_S250000x64_0_1),
    binary main_v170 main_v172 main_v173 addf,
    TRef.nullary (TRef.of (T := ⟨S_, .f32⟩) main_call4_cst) (constant S_ .f32 0x00000000#32),
    TRef.unary (TRef.of (T := ⟨S_, .f32⟩) main_call4_cst) (TRef.of (T := ⟨S250000x64, .f32⟩) main_call4_v0) (broadcastInDim S250000x64 ![] bcast_S_S250000x64),
    TRef.binary (TRef.of (T := ⟨S250000x64, .f32⟩) main_v173) (TRef.of (T := ⟨S250000x64, .f32⟩) main_call4_v0) (TRef.of (T := ⟨S250000x64, .f32⟩) main_v174) maximumf,
    binary main_v174 main_arg10 main_v175 (fun l r => Host.dotGeneral dot_S250000x64_S64x64_S250000x64_1_0_0_1_n_n none l r),
    unary main_arg11 main_v176 (broadcastInDim S1x64 ![1] bcast_S64_S1x64_1),
    unary main_v176 main_v177 (broadcastInDim S250000x64 ![0, 1] bcast_S1x64_S250000x64_0_1),
    binary main_v175 main_v177 main_v178 addf ]

abbrev writesA2 : List (Ref sig .tc) :=
  [main_v155, main_v156, main_v157, main_v158, main_c_34, main_v159, main_v160, main_c_35, main_v161, main_v162, main_v163, main_v164, main_v165, main_cst_36, main_v166, main_v167, main_v168, main_v169, main_v170, main_v171, main_v172, main_v173, main_call4_cst, main_call4_v0, main_v174, main_v175, main_v176, main_v177, main_v178]

theorem lineA2 : Line writesA2 (opsA2 : List (HloOp τ sig (Elt F))) := by repeat' with_reducible constructor

end Cert.ReferenceIdeal.RefValue

end
-- ==== Proof.Ref.RunA2.lean ====
import proofs.«409413_j30142080483538_1_alg».proof.Proof.Ref.OpsA2
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepA2 (W : Valuation τ sig (Elt F)) : Valuation τ sig (Elt F) := after opsA2 W

theorem stepA2_keep (W : Valuation τ sig (Elt F)) {r : Ref sig .tc} (hr : r ∉ writesA2) : stepA2 W (no_index ↟r) = W ↟r :=
  lineA2.keep hr W

set_option maxRecDepth 8192 in
set_option maxHeartbeats 1000000 in
theorem stepA2_v156 (W : Valuation τ sig (Elt F)) : stepA2 W (no_index ↟main_v156) = srcRaw (W ↟main_arg4) := by
  unfold stepA2
  after_results_simp
  rfl

set_option maxRecDepth 8192 in
set_option maxHeartbeats 1000000 in
theorem stepA2_v158 (W : Valuation τ sig (Elt F)) : stepA2 W (no_index ↟main_v158) = dstRaw (W ↟main_arg4) := by
  unfold stepA2
  after_results_simp
  rfl

set_option maxRecDepth 8192 in
set_option maxHeartbeats 2000000 in
theorem stepA2_v178 (W : Valuation τ sig (Elt F)) :
    stepA2 W (no_index ↟main_v178)
      = gin6 (W ↟main_arg3) (agg6 (W ↟main_arg3) (W ↟main_arg4)) (W ↟main_arg8) (W ↟main_arg9) (W ↟main_arg10) (W ↟main_arg11) := by
  unfold stepA2
  after_results_simp
  rfl

end Cert.ReferenceIdeal.RefValue

end
-- ==== Proof.Ref.OpsB2.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsB2 : List (HloOp τ sig (Elt F)) :=
  [ nullary main_cst_37 (constant S_ .f32 0x3F800000#32),
    unary main_cst_37 main_v179 (broadcastInDim S250000 ![] bcast_S_S250000),
    nullary main_cst_38 (constant S_ .f32 0x00000000#32),
    unary main_cst_38 main_v180 (broadcastInDim S1024 ![] bcast_S_S1024),
    unary main_arg5 main_v181 (broadcastInDim S250000x1 ![0] bcast_S250000_S250000x1_0),
    ternary main_v180 main_v181 main_v179 main_v182 (fun x i u => Host.scatterAdd scatter_S1024_S250000x1_S250000_n_0_0_1 x i u),
    nullary main_cst_39 (constant S_ .f32 0x3F800000#32),
    unary main_cst_39 main_v183 (broadcastInDim S1024 ![] bcast_S_S1024),
    binary main_v182 main_v183 main_v184 maximumf,
    nullary main_cst_40 (constant S_ .f32 0x42800000#32),
    unary main_cst_40 main_v185 (broadcastInDim S1024 ![] bcast_S_S1024),
    binary main_v184 main_v185 main_v186 mulf,
    nullary main_cst_41 (constant S_ .f32 0x00000000#32),
    binary main_v178 main_cst_41 main_v187 (fun x v => Host.reduceAdd x v reducesTo_S250000x64_S250000_d1 h_S_),
    nullary main_cst_42 (constant S_ .f32 0x00000000#32),
    unary main_cst_42 main_v188 (broadcastInDim S1024 ![] bcast_S_S1024),
    unary main_arg5 main_v189 (broadcastInDim S250000x1 ![0] bcast_S250000_S250000x1_0),
    ternary main_v188 main_v189 main_v187 main_v190 (fun x i u => Host.scatterAdd scatter_S1024_S250000x1_S250000_n_0_0_1 x i u),
    binary main_v190 main_v186 main_v191 Host.divf,
    nullary main_c_43 (constantI S_ 32 0#32),
    unary main_c_43 main_v192 (broadcastInDim S250000 ![] bcast_S_S250000),
    binary main_arg5 main_v192 main_v193 (cmpi .slt),
    nullary main_c_44 (constantI S_ 32 1024#32),
    unary main_c_44 main_v194 (broadcastInDim S250000 ![] bcast_S_S250000),
    binary main_arg5 main_v194 main_v195 addi,
    ternary main_v193 main_v195 main_arg5 main_v196 select,
    unary main_v196 main_v197 (broadcastInDim S250000x1 ![0] bcast_S250000_S250000x1_0),
    binary main_v191 main_v197 main_v198 (fun x i => Host.gather gather_S1024_S250000x1_S250000_n_0_n_n_0_1_1 x i),
    unary main_v198 main_v199 (broadcastInDim S250000x1 ![0] bcast_S250000_S250000x1_0),
    unary main_v199 main_v200 (broadcastInDim S250000x64 ![0, 1] bcast_S250000x1_S250000x64_0_1),
    binary main_v178 main_v200 main_v201 subf,
    binary main_v201 main_v201 main_v202 mulf,
    nullary main_cst_45 (constant S_ .f32 0x00000000#32),
    binary main_v202 main_cst_45 main_v203 (fun x v => Host.reduceAdd x v reducesTo_S250000x64_S250000_d1 h_S_),
    nullary main_cst_46 (constant S_ .f32 0x00000000#32),
    unary main_cst_46 main_v204 (broadcastInDim S1024 ![] bcast_S_S1024),
    unary main_arg5 main_v205 (broadcastInDim S250000x1 ![0] bcast_S250000_S250000x1_0),
    ternary main_v204 main_v205 main_v203 main_v206 (fun x i u => Host.scatterAdd scatter_S1024_S250000x1_S250000_n_0_0_1 x i u),
    binary main_v206 main_v186 main_v207 Host.divf,
    nullary main_cst_47 (constant S_ .f32 0x3727C5AC#32),
    unary main_cst_47 main_v208 (broadcastInDim S1024 ![] bcast_S_S1024),
    binary main_v207 main_v208 main_v209 addf,
    unary main_v209 main_v210 Host.rsqrt,
    nullary main_c_48 (constantI S_ 32 0#32),
    unary main_c_48 main_v211 (broadcastInDim S250000 ![] bcast_S_S250000),
    binary main_arg5 main_v211 main_v212 (cmpi .slt),
    nullary main_c_49 (constantI S_ 32 1024#32),
    unary main_c_49 main_v213 (broadcastInDim S250000 ![] bcast_S_S250000),
    binary main_arg5 main_v213 main_v214 addi,
    ternary main_v212 main_v214 main_arg5 main_v215 select,
    unary main_v215 main_v216 (broadcastInDim S250000x1 ![0] bcast_S250000_S250000x1_0),
    binary main_v210 main_v216 main_v217 (fun x i => Host.gather gather_S1024_S250000x1_S250000_n_0_n_n_0_1_1 x i),
    unary main_v217 main_v218 (broadcastInDim S250000x1 ![0] bcast_S250000_S250000x1_0),
    unary main_v218 main_v219 (broadcastInDim S250000x64 ![0, 1] bcast_S250000x1_S250000x64_0_1),
    binary main_v201 main_v219 main_v220 mulf,
    unary main_arg12 main_v221 (broadcastInDim S1x64 ![1] bcast_S64_S1x64_1),
    unary main_v221 main_v222 (broadcastInDim S250000x64 ![0, 1] bcast_S1x64_S250000x64_0_1),
    binary main_v220 main_v222 main_v223 mulf,
    unary main_arg13 main_v224 (broadcastInDim S1x64 ![1] bcast_S64_S1x64_1),
    unary main_v224 main_v225 (broadcastInDim S250000x64 ![0, 1] bcast_S1x64_S250000x64_0_1),
    binary main_v223 main_v225 main_v226 addf,
    TRef.nullary (TRef.of (T := ⟨S_, .f32⟩) main_call5_cst) (constant S_ .f32 0x00000000#32),
    TRef.unary (TRef.of (T := ⟨S_, .f32⟩) main_call5_cst) (TRef.of (T := ⟨S250000x64, .f32⟩) main_call5_v0) (broadcastInDim S250000x64 ![] bcast_S_S250000x64),
    TRef.binary (TRef.of (T := ⟨S250000x64, .f32⟩) main_v226) (TRef.of (T := ⟨S250000x64, .f32⟩) main_call5_v0) (TRef.of (T := ⟨S250000x64, .f32⟩) main_v227) maximumf ]

abbrev writesB2 : List (Ref sig .tc) :=
  [main_cst_37, main_v179, main_cst_38, main_v180, main_v181, main_v182, main_cst_39, main_v183, main_v184, main_cst_40, main_v185, main_v186, main_cst_41, main_v187, main_cst_42, main_v188, main_v189, main_v190, main_v191, main_c_43, main_v192, main_v193, main_c_44, main_v194, main_v195, main_v196, main_v197, main_v198, main_v199, main_v200, main_v201, main_v202, main_cst_45, main_v203, main_cst_46, main_v204, main_v205, main_v206, main_v207, main_cst_47, main_v208, main_v209, main_v210, main_c_48, main_v211, main_v212, main_c_49, main_v213, main_v214, main_v215, main_v216, main_v217, main_v218, main_v219, main_v220, main_v221, main_v222, main_v223, main_v224, main_v225, main_v226, main_call5_cst, main_call5_v0, main_v227]

theorem lineB2 : Line writesB2 (opsB2 : List (HloOp τ sig (Elt F))) := by repeat' with_reducible constructor

end Cert.ReferenceIdeal.RefValue

end
-- ==== Proof.Ref.RunB2.lean ====
import proofs.«409413_j30142080483538_1_alg».proof.Proof.Ref.OpsB2
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepB2 (W : Valuation τ sig (Elt F)) : Valuation τ sig (Elt F) := after opsB2 W

theorem stepB2_keep (W : Valuation τ sig (Elt F)) {r : Ref sig .tc} (hr : r ∉ writesB2) : stepB2 W (no_index ↟r) = W ↟r :=
  lineB2.keep hr W

set_option maxRecDepth 8192 in
set_option maxHeartbeats 4000000 in
theorem stepB2_v227 (W : Valuation τ sig (Elt F)) :
    stepB2 W (no_index ↟main_v227) = lnRelu (W ↟main_v178) (W ↟main_arg5) (W ↟main_arg12) (W ↟main_arg13) := by
  unfold stepB2
  after_results_simp
  rfl

end Cert.ReferenceIdeal.RefValue

end
-- ==== Proof.Ref.OpsC2.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsC2 : List (HloOp τ sig (Elt F)) :=
  [ nullary main_c_50 (constantI S_ 32 0#32),
    unary main_c_50 main_v228 (broadcastInDim S4000000 ![] bcast_S_S4000000),
    binary main_v156 main_v228 main_v229 (cmpi .slt),
    nullary main_c_51 (constantI S_ 32 250000#32),
    unary main_c_51 main_v230 (broadcastInDim S4000000 ![] bcast_S_S4000000),
    binary main_v156 main_v230 main_v231 addi,
    ternary main_v229 main_v231 main_v156 main_v232 select,
    unary main_v232 main_v233 (broadcastInDim S4000000x1 ![0] bcast_S4000000_S4000000x1_0),
    binary main_v227 main_v233 main_v234 (fun x i => Host.gather gather_S250000x64_S4000000x1_S4000000x64_1_0_n_n_0_1_164 x i),
    nullary main_cst_52 (constant S_ .f32 0x00000000#32),
    unary main_cst_52 main_v235 (broadcastInDim S250000x64 ![] bcast_S_S250000x64),
    unary main_v158 main_v236 (broadcastInDim S4000000x1 ![0] bcast_S4000000_S4000000x1_0),
    ternary main_v235 main_v236 main_v234 main_v237 (fun x i u => Host.scatterAdd scatter_S250000x64_S4000000x1_S4000000x64_1_0_0_1 x i u),
    binary main_v227 main_v237 main_v238 addf,
    binary main_v238 main_arg14 main_v239 (fun l r => Host.dotGeneral dot_S250000x64_S64x64_S250000x64_1_0_0_1_n_n none l r),
    unary main_arg15 main_v240 (broadcastInDim S1x64 ![1] bcast_S64_S1x64_1),
    unary main_v240 main_v241 (broadcastInDim S250000x64 ![0, 1] bcast_S1x64_S250000x64_0_1),
    binary main_v239 main_v241 main_v242 addf,
    TRef.nullary (TRef.of (T := ⟨S_, .f32⟩) main_call6_cst) (constant S_ .f32 0x00000000#32),
    TRef.unary (TRef.of (T := ⟨S_, .f32⟩) main_call6_cst) (TRef.of (T := ⟨S250000x64, .f32⟩) main_call6_v0) (broadcastInDim S250000x64 ![] bcast_S_S250000x64),
    TRef.binary (TRef.of (T := ⟨S250000x64, .f32⟩) main_v242) (TRef.of (T := ⟨S250000x64, .f32⟩) main_call6_v0) (TRef.of (T := ⟨S250000x64, .f32⟩) main_v243) maximumf,
    binary main_v243 main_arg16 main_v244 (fun l r => Host.dotGeneral dot_S250000x64_S64x64_S250000x64_1_0_0_1_n_n none l r),
    unary main_arg17 main_v245 (broadcastInDim S1x64 ![1] bcast_S64_S1x64_1),
    unary main_v245 main_v246 (broadcastInDim S250000x64 ![0, 1] bcast_S1x64_S250000x64_0_1),
    binary main_v244 main_v246 main_v247 addf ]

abbrev writesC2 : List (Ref sig .tc) :=
  [main_c_50, main_v228, main_v229, main_c_51, main_v230, main_v231, main_v232, main_v233, main_v234, main_cst_52, main_v235, main_v236, main_v237, main_v238, main_v239, main_v240, main_v241, main_v242, main_call6_cst, main_call6_v0, main_v243, main_v244, main_v245, main_v246, main_v247]

theorem lineC2 : Line writesC2 (opsC2 : List (HloOp τ sig (Elt F))) := by repeat' with_reducible constructor

end Cert.ReferenceIdeal.RefValue

end
-- ==== Proof.Ref.RunC2.lean ====
import proofs.«409413_j30142080483538_1_alg».proof.Proof.Ref.OpsC2
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepC2 (W : Valuation τ sig (Elt F)) : Valuation τ sig (Elt F) := after opsC2 W

theorem stepC2_keep (W : Valuation τ sig (Elt F)) {r : Ref sig .tc} (hr : r ∉ writesC2) : stepC2 W (no_index ↟r) = W ↟r :=
  lineC2.keep hr W

set_option maxRecDepth 8192 in
set_option maxHeartbeats 2000000 in
theorem stepC2_v247 (W : Valuation τ sig (Elt F)) :
    stepC2 W (no_index ↟main_v247)
      = gin64 (W ↟main_v227) (agg64r (W ↟main_v227) (W ↟main_v156) (W ↟main_v158)) (W ↟main_arg14) (W ↟main_arg15) (W ↟main_arg16) (W ↟main_arg17) := by
  unfold stepC2
  after_results_simp
  rfl

end Cert.ReferenceIdeal.RefValue

end
-- ==== Proof.Ref.OpsD2.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsD2 : List (HloOp τ sig (Elt F)) :=
  [ nullary main_cst_53 (constant S_ .f32 0x3F800000#32),
    unary main_cst_53 main_v248 (broadcastInDim S250000 ![] bcast_S_S250000),
    nullary main_cst_54 (constant S_ .f32 0x00000000#32),
    unary main_cst_54 main_v249 (broadcastInDim S1024 ![] bcast_S_S1024),
    unary main_arg5 main_v250 (broadcastInDim S250000x1 ![0] bcast_S250000_S250000x1_0),
    ternary main_v249 main_v250 main_v248 main_v251 (fun x i u => Host.scatterAdd scatter_S1024_S250000x1_S250000_n_0_0_1 x i u),
    nullary main_cst_55 (constant S_ .f32 0x3F800000#32),
    unary main_cst_55 main_v252 (broadcastInDim S1024 ![] bcast_S_S1024),
    binary main_v251 main_v252 main_v253 maximumf,
    nullary main_cst_56 (constant S_ .f32 0x42800000#32),
    unary main_cst_56 main_v254 (broadcastInDim S1024 ![] bcast_S_S1024),
    binary main_v253 main_v254 main_v255 mulf,
    nullary main_cst_57 (constant S_ .f32 0x00000000#32),
    binary main_v247 main_cst_57 main_v256 (fun x v => Host.reduceAdd x v reducesTo_S250000x64_S250000_d1 h_S_),
    nullary main_cst_58 (constant S_ .f32 0x00000000#32),
    unary main_cst_58 main_v257 (broadcastInDim S1024 ![] bcast_S_S1024),
    unary main_arg5 main_v258 (broadcastInDim S250000x1 ![0] bcast_S250000_S250000x1_0),
    ternary main_v257 main_v258 main_v256 main_v259 (fun x i u => Host.scatterAdd scatter_S1024_S250000x1_S250000_n_0_0_1 x i u),
    binary main_v259 main_v255 main_v260 Host.divf,
    nullary main_c_59 (constantI S_ 32 0#32),
    unary main_c_59 main_v261 (broadcastInDim S250000 ![] bcast_S_S250000),
    binary main_arg5 main_v261 main_v262 (cmpi .slt),
    nullary main_c_60 (constantI S_ 32 1024#32),
    unary main_c_60 main_v263 (broadcastInDim S250000 ![] bcast_S_S250000),
    binary main_arg5 main_v263 main_v264 addi,
    ternary main_v262 main_v264 main_arg5 main_v265 select,
    unary main_v265 main_v266 (broadcastInDim S250000x1 ![0] bcast_S250000_S250000x1_0),
    binary main_v260 main_v266 main_v267 (fun x i => Host.gather gather_S1024_S250000x1_S250000_n_0_n_n_0_1_1 x i),
    unary main_v267 main_v268 (broadcastInDim S250000x1 ![0] bcast_S250000_S250000x1_0),
    unary main_v268 main_v269 (broadcastInDim S250000x64 ![0, 1] bcast_S250000x1_S250000x64_0_1),
    binary main_v247 main_v269 main_v270 subf,
    binary main_v270 main_v270 main_v271 mulf,
    nullary main_cst_61 (constant S_ .f32 0x00000000#32),
    binary main_v271 main_cst_61 main_v272 (fun x v => Host.reduceAdd x v reducesTo_S250000x64_S250000_d1 h_S_),
    nullary main_cst_62 (constant S_ .f32 0x00000000#32),
    unary main_cst_62 main_v273 (broadcastInDim S1024 ![] bcast_S_S1024),
    unary main_arg5 main_v274 (broadcastInDim S250000x1 ![0] bcast_S250000_S250000x1_0),
    ternary main_v273 main_v274 main_v272 main_v275 (fun x i u => Host.scatterAdd scatter_S1024_S250000x1_S250000_n_0_0_1 x i u),
    binary main_v275 main_v255 main_v276 Host.divf,
    nullary main_cst_63 (constant S_ .f32 0x3727C5AC#32),
    unary main_cst_63 main_v277 (broadcastInDim S1024 ![] bcast_S_S1024),
    binary main_v276 main_v277 main_v278 addf,
    unary main_v278 main_v279 Host.rsqrt,
    nullary main_c_64 (constantI S_ 32 0#32),
    unary main_c_64 main_v280 (broadcastInDim S250000 ![] bcast_S_S250000),
    binary main_arg5 main_v280 main_v281 (cmpi .slt),
    nullary main_c_65 (constantI S_ 32 1024#32),
    unary main_c_65 main_v282 (broadcastInDim S250000 ![] bcast_S_S250000),
    binary main_arg5 main_v282 main_v283 addi,
    ternary main_v281 main_v283 main_arg5 main_v284 select,
    unary main_v284 main_v285 (broadcastInDim S250000x1 ![0] bcast_S250000_S250000x1_0),
    binary main_v279 main_v285 main_v286 (fun x i => Host.gather gather_S1024_S250000x1_S250000_n_0_n_n_0_1_1 x i),
    unary main_v286 main_v287 (broadcastInDim S250000x1 ![0] bcast_S250000_S250000x1_0),
    unary main_v287 main_v288 (broadcastInDim S250000x64 ![0, 1] bcast_S250000x1_S250000x64_0_1),
    binary main_v270 main_v288 main_v289 mulf,
    unary main_arg18 main_v290 (broadcastInDim S1x64 ![1] bcast_S64_S1x64_1),
    unary main_v290 main_v291 (broadcastInDim S250000x64 ![0, 1] bcast_S1x64_S250000x64_0_1),
    binary main_v289 main_v291 main_v292 mulf,
    unary main_arg19 main_v293 (broadcastInDim S1x64 ![1] bcast_S64_S1x64_1),
    unary main_v293 main_v294 (broadcastInDim S250000x64 ![0, 1] bcast_S1x64_S250000x64_0_1),
    binary main_v292 main_v294 main_v295 addf,
    TRef.nullary (TRef.of (T := ⟨S_, .f32⟩) main_call7_cst) (constant S_ .f32 0x00000000#32),
    TRef.unary (TRef.of (T := ⟨S_, .f32⟩) main_call7_cst) (TRef.of (T := ⟨S250000x64, .f32⟩) main_call7_v0) (broadcastInDim S250000x64 ![] bcast_S_S250000x64),
    TRef.binary (TRef.of (T := ⟨S250000x64, .f32⟩) main_v295) (TRef.of (T := ⟨S250000x64, .f32⟩) main_call7_v0) (TRef.of (T := ⟨S250000x64, .f32⟩) main_v296) maximumf ]

abbrev writesD2 : List (Ref sig .tc) :=
  [main_cst_53, main_v248, main_cst_54, main_v249, main_v250, main_v251, main_cst_55, main_v252, main_v253, main_cst_56, main_v254, main_v255, main_cst_57, main_v256, main_cst_58, main_v257, main_v258, main_v259, main_v260, main_c_59, main_v261, main_v262, main_c_60, main_v263, main_v264, main_v265, main_v266, main_v267, main_v268, main_v269, main_v270, main_v271, main_cst_61, main_v272, main_cst_62, main_v273, main_v274, main_v275, main_v276, main_cst_63, main_v277, main_v278, main_v279, main_c_64, main_v280, main_v281, main_c_65, main_v282, main_v283, main_v284, main_v285, main_v286, main_v287, main_v288, main_v289, main_v290, main_v291, main_v292, main_v293, main_v294, main_v295, main_call7_cst, main_call7_v0, main_v296]

theorem lineD2 : Line writesD2 (opsD2 : List (HloOp τ sig (Elt F))) := by repeat' with_reducible constructor

end Cert.ReferenceIdeal.RefValue

end
-- ==== Proof.Ref.RunD2.lean ====
import proofs.«409413_j30142080483538_1_alg».proof.Proof.Ref.OpsD2
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepD2 (W : Valuation τ sig (Elt F)) : Valuation τ sig (Elt F) := after opsD2 W

theorem stepD2_keep (W : Valuation τ sig (Elt F)) {r : Ref sig .tc} (hr : r ∉ writesD2) : stepD2 W (no_index ↟r) = W ↟r :=
  lineD2.keep hr W

set_option maxRecDepth 8192 in
set_option maxHeartbeats 4000000 in
theorem stepD2_v296 (W : Valuation τ sig (Elt F)) :
    stepD2 W (no_index ↟main_v296) = lnRelu (W ↟main_v247) (W ↟main_arg5) (W ↟main_arg18) (W ↟main_arg19) := by
  unfold stepD2
  after_results_simp
  rfl

end Cert.ReferenceIdeal.RefValue

end
-- ==== Proof.Ref.OpsE2.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsE2 : List (HloOp τ sig (Elt F)) :=
  [ nullary main_cst_66 (constant S_ .f32 0x00000000#32),
    unary main_cst_66 main_v297 (broadcastInDim S1024x64 ![] bcast_S_S1024x64),
    unary main_arg5 main_v298 (broadcastInDim S250000x1 ![0] bcast_S250000_S250000x1_0),
    ternary main_v297 main_v298 main_v296 main_v299 (fun x i u => Host.scatterAdd scatter_S1024x64_S250000x1_S250000x64_1_0_0_1 x i u),
    nullary main_cst_67 (constant S_ .f32 0x3F800000#32),
    unary main_cst_67 main_v300 (broadcastInDim S250000 ![] bcast_S_S250000),
    nullary main_cst_68 (constant S_ .f32 0x00000000#32),
    unary main_cst_68 main_v301 (broadcastInDim S1024 ![] bcast_S_S1024),
    unary main_arg5 main_v302 (broadcastInDim S250000x1 ![0] bcast_S250000_S250000x1_0),
    ternary main_v301 main_v302 main_v300 main_v303 (fun x i u => Host.scatterAdd scatter_S1024_S250000x1_S250000_n_0_0_1 x i u),
    nullary main_cst_69 (constant S_ .f32 0x3F800000#32),
    unary main_cst_69 main_v304 (broadcastInDim S1024 ![] bcast_S_S1024),
    binary main_v303 main_v304 main_v305 maximumf,
    unary main_v305 main_v306 (broadcastInDim S1024x1 ![0] bcast_S1024_S1024x1_0),
    unary main_v306 main_v307 (broadcastInDim S1024x64 ![0, 1] bcast_S1024x1_S1024x64_0_1),
    binary main_v299 main_v307 main_v308 Host.divf,
    binary main_v299 main_v308 main_v309 addf ]

abbrev writesE2 : List (Ref sig .tc) :=
  [main_cst_66, main_v297, main_v298, main_v299, main_cst_67, main_v300, main_cst_68, main_v301, main_v302, main_v303, main_cst_69, main_v304, main_v305, main_v306, main_v307, main_v308, main_v309]

theorem lineE2 : Line writesE2 (opsE2 : List (HloOp τ sig (Elt F))) := by repeat' with_reducible constructor

end Cert.ReferenceIdeal.RefValue

end
-- ==== Proof.Ref.RunE2.lean ====
import proofs.«409413_j30142080483538_1_alg».proof.Proof.Ref.OpsE2
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepE2 (W : Valuation τ sig (Elt F)) : Valuation τ sig (Elt F) := after opsE2 W

theorem stepE2_keep (W : Valuation τ sig (Elt F)) {r : Ref sig .tc} (hr : r ∉ writesE2) : stepE2 W (no_index ↟r) = W ↟r :=
  lineE2.keep hr W

set_option maxRecDepth 8192 in
set_option maxHeartbeats 1000000 in
theorem stepE2_v309 (W : Valuation τ sig (Elt F)) :
    stepE2 W (no_index ↟main_v309) = emb (pool (W ↟main_v296) (W ↟main_arg5)) (W ↟main_arg5) := by
  unfold stepE2
  after_results_simp
  rfl

end Cert.ReferenceIdeal.RefValue

end
-- ==== Proof.Ref.OpsH.lean ====
import proofs.«409413_j30142080483538_1_alg».proof.Proof.Gen.ReferenceIdeal
import proofs.«409413_j30142080483538_1_alg».proof.Proof.Ref.Line

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
abbrev opsH : List (HloOp τ sig (Elt F)) :=
  [ nary ![main_v154, main_v309, main_arg6, main_arg7] main_v310 (fun u => concatenate S1024x138 1 [⟨S1024x64, u 0⟩, ⟨S1024x64, u 1⟩, ⟨S1024x5, u 2⟩, ⟨S1024x5, u 3⟩] concatenates_S1024x64_S1024x64_S1024x5_S1024x5_S1024x138_d1),
    binary main_v310 main_arg20 main_v311 (fun l r => Host.dotGeneral dot_S1024x138_S138x128_S1024x128_1_0_0_1_n_n none l r),
    unary main_arg21 main_v312 (broadcastInDim S1x128 ![1] bcast_S128_S1x128_1),
    unary main_v312 main_v313 (broadcastInDim S1024x128 ![0, 1] bcast_S1x128_S1024x128_0_1),
    binary main_v311 main_v313 main_v314 addf,
    TRef.nullary (TRef.of (T := ⟨S_, .f32⟩) main_call8_cst) (constant S_ .f32 0x00000000#32),
    TRef.unary (TRef.of (T := ⟨S_, .f32⟩) main_call8_cst) (TRef.of (T := ⟨S1024x128, .f32⟩) main_call8_v0) (broadcastInDim S1024x128 ![] bcast_S_S1024x128),
    TRef.binary (TRef.of (T := ⟨S1024x128, .f32⟩) main_v314) (TRef.of (T := ⟨S1024x128, .f32⟩) main_call8_v0) (TRef.of (T := ⟨S1024x128, .f32⟩) main_v315) maximumf,
    binary main_v315 main_arg22 main_v316 (fun l r => Host.dotGeneral dot_S1024x128_S128x64_S1024x64_1_0_0_1_n_n none l r),
    unary main_arg23 main_v317 (broadcastInDim S1x64 ![1] bcast_S64_S1x64_1),
    unary main_v317 main_v318 (broadcastInDim S1024x64 ![0, 1] bcast_S1x64_S1024x64_0_1),
    binary main_v316 main_v318 main_v319 addf,
    TRef.nullary (TRef.of (T := ⟨S_, .f32⟩) main_call9_cst) (constant S_ .f32 0x00000000#32),
    TRef.unary (TRef.of (T := ⟨S_, .f32⟩) main_call9_cst) (TRef.of (T := ⟨S1024x64, .f32⟩) main_call9_v0) (broadcastInDim S1024x64 ![] bcast_S_S1024x64),
    TRef.binary (TRef.of (T := ⟨S1024x64, .f32⟩) main_v319) (TRef.of (T := ⟨S1024x64, .f32⟩) main_call9_v0) (TRef.of (T := ⟨S1024x64, .f32⟩) main_v320) maximumf,
    binary main_v320 main_arg24 main_v321 (fun l r => Host.dotGeneral dot_S1024x64_S64x1_S1024x1_1_0_0_1_n_n none l r),
    unary main_arg25 main_v322 (broadcastInDim S1x1 ![1] bcast_S1_S1x1_1),
    unary main_v322 main_v323 (broadcastInDim S1024x1 ![0, 1] bcast_S1x1_S1024x1_0_1),
    binary main_v321 main_v323 main_v324 addf ]

abbrev writesH : List (Ref sig .tc) :=
  [main_v310, main_v311, main_v312, main_v313, main_v314, main_call8_cst, main_call8_v0, main_v315, main_v316, main_v317, main_v318, main_v319, main_call9_cst, main_call9_v0, main_v320, main_v321, main_v322, main_v323, main_v324]

theorem lineH : Line writesH (opsH : List (HloOp τ sig (Elt F))) := by repeat' with_reducible constructor

end Cert.ReferenceIdeal.RefValue

end
-- ==== Proof.Ref.RunH.lean ====
import proofs.«409413_j30142080483538_1_alg».proof.Proof.Ref.OpsH
import proofs.«409413_j30142080483538_1_alg».proof.Proof.Ref.RunIdx

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

def stepH (W : Valuation τ sig (Elt F)) : Valuation τ sig (Elt F) := after opsH W

theorem stepH_keep (W : Valuation τ sig (Elt F)) {r : Ref sig .tc} (hr : r ∉ writesH) : stepH W (no_index ↟r) = W ↟r :=
  lineH.keep hr W

set_option maxRecDepth 8192 in
set_option maxHeartbeats 1000000 in
theorem stepH_v324 (W : Valuation τ sig (Elt F)) :
    stepH W (no_index ↟main_v324)
      = head (W ↟main_v154) (W ↟main_v309) (W ↟main_arg6) (W ↟main_arg7) (W ↟main_arg20) (W ↟main_arg21) (W ↟main_arg22)
          (W ↟main_arg23) (W ↟main_arg24) (W ↟main_arg25) := by
  unfold stepH
  after_results_simp
  rfl

end Cert.ReferenceIdeal.RefValue

end
-- ==== Proof.Ref.Run.lean ====
import proofs.«409413_j30142080483538_1_alg».proof.Proof.Ref.RunA1
import proofs.«409413_j30142080483538_1_alg».proof.Proof.Ref.RunB1
import proofs.«409413_j30142080483538_1_alg».proof.Proof.Ref.RunC1
import proofs.«409413_j30142080483538_1_alg».proof.Proof.Ref.RunD1
import proofs.«409413_j30142080483538_1_alg».proof.Proof.Ref.RunE1
import proofs.«409413_j30142080483538_1_alg».proof.Proof.Ref.RunA2
import proofs.«409413_j30142080483538_1_alg».proof.Proof.Ref.RunB2
import proofs.«409413_j30142080483538_1_alg».proof.Proof.Ref.RunC2
import proofs.«409413_j30142080483538_1_alg».proof.Proof.Ref.RunD2
import proofs.«409413_j30142080483538_1_alg».proof.Proof.Ref.RunE2
import proofs.«409413_j30142080483538_1_alg».proof.Proof.Ref.RunH
import Idealize.ShloMosaic.Lib.Pipeline.Frame
import Idealize.ShloMosaic.Lib.Pipeline.Regions

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

local notation:max "↟" r:max => Proc.devRef (τ := τ) Proc.tc r

abbrev ops : List (HloOp τ sig (Elt F)) :=
  opsA1 ++ (opsB1 ++ (opsC1 ++ (opsD1 ++ (opsE1 ++ (opsA2 ++ (opsB2 ++ (opsC2 ++ (opsD2 ++ (opsE2 ++ (opsH))))))))))

set_option maxRecDepth 100000 in
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem after_ops (V : Valuation τ sig (Elt F)) :
    after ops V = stepH (stepE2 (stepD2 (stepC2 (stepB2 (stepA2 (stepE1 (stepD1 (stepC1 (stepB1 (stepA1 V)))))))))) := by
  simp only [ops, after_append]
  rfl

abbrev writes : List (Ref sig .tc) :=
  writesA1 ++ (writesB1 ++ (writesC1 ++ (writesD1 ++ (writesE1 ++ (writesA2 ++ (writesB2 ++ (writesC2 ++ (writesD2 ++ (writesE2 ++ (writesH))))))))))

theorem line : Line writes (ops : List (HloOp τ sig (Elt F))) :=
  lineA1.append (lineB1.append (lineC1.append (lineD1.append (lineE1.append (lineA2.append (lineB2.append (lineC2.append (lineD2.append (lineE2.append lineH)))))))))

def result (m : (ℓ : Loc nD τ sig) → Buf (Elt F) ℓ) (c : Dev nD) : Buf (Elt F) ((c.tc : Thread nD τ).loc main_v324) :=
  head (tower (m ((c.tc : Thread nD τ).loc main_arg0)) (m ((c.tc : Thread nD τ).loc main_arg1)) (m ((c.tc : Thread nD τ).loc main_arg2))
      (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
    (tower (m ((c.tc : Thread nD τ).loc main_arg3)) (m ((c.tc : Thread nD τ).loc main_arg4)) (m ((c.tc : Thread nD τ).loc main_arg5))
      (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)))
    (m ((c.tc : Thread nD τ).loc main_arg6)) (m ((c.tc : Thread nD τ).loc main_arg7)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))

set_option maxRecDepth 8192 in
set_option maxHeartbeats 4000000 in
theorem after_ops_result (m : (ℓ : Loc nD τ sig) → Buf (Elt F) ℓ) (c : Dev nD) :
    after ops (launchContents m c) ↟main_v324 = result m c := by
  rw [after_ops]
  simp (disch := decide) only [stepH_v324, stepE2_v309, stepD2_v296, stepC2_v247, stepB2_v227, stepA2_v178, stepA2_v156, stepA2_v158,
    stepE1_v154, stepD1_v141, stepC1_v92, stepB1_v72, stepA1_v23, stepA1_v1, stepA1_v3,
    stepA1_keep, stepB1_keep, stepC1_keep, stepD1_keep, stepE1_keep, stepA2_keep, stepB2_keep, stepC2_keep, stepD2_keep, stepE2_keep, stepH_keep, agg64r_raw]
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v324) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25) :=
  (θ_run defs _ _).mono (fun x h c =>
      have k (r : Ref sig .tc) (hr : r ∉ writes) : x.2.mem ((c.tc : Thread nD τ).loc r) = m ((c.tc : Thread nD τ).loc r) :=
        (h c r).trans (line.keep hr (launchContents m c))
      ⟨(h c main_v324).trans (after_ops_result m c), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide), k main_arg12 (by decide), k main_arg13 (by decide), k main_arg14 (by decide), k main_arg15 (by decide), k main_arg16 (by decide), k main_arg17 (by decide), k main_arg18 (by decide), k main_arg19 (by decide), k main_arg20 (by decide), k main_arg21 (by decide), k main_arg22 (by decide), k main_arg23 (by decide), k main_arg24 (by decide), k main_arg25 (by decide)⟩)
    (run_seq scopedRefs_eq scopedSems_eq defs main (fun _ => ops) main_eq (fun _ => line.sub) m ρ fun _ => line.fresh)

end Cert.ReferenceIdeal.RefValue

end
-- ==== Proof.Ref.PreReal.lean ====
import proofs.«409413_j30142080483538_1_alg».proof.Defs
import proofs.«409413_j30142080483538_1_alg».proof.Proof.Gen.Pre_finite_inputs
import proofs.«409413_j30142080483538_1_alg».proof.Proof.Gen.KernelIdeal
import Idealize.ShloMosaic.Lib.ReduceAll
import Idealize.ShloMosaic.Lib.ValueIdx
import Idealize.ShloMosaic.PureOps.Ideal

set_option maxRecDepth 16384

noncomputable section

namespace Cert.KernelIdeal.Val

open Cert.KernelIdeal
open Cert.Pre_finite_inputs
open Idealize.ShloMosaic Idealize.ShloMosaic.TcCoe Idealize.SL.Sem

instance : Subsingleton S_.Idx := ⟨fun a b => funext fun d => d.elim0⟩

-- |x| < +∞ excludes both infinities, and "all" over every axis being one gives the comparison at each entry
theorem real_of_all {s : Shape} {axes : List (Fin s.rank)} (hb : S_.BroadcastsInDim s (![] : Fin 0 → Fin s.rank))
    (hr : s.ReducesTo axes S_) (hu : 0 < S_.numel) (x : FVec Ideal s .f32) (j : S_.Idx)
    (h : Host.reduce IntOp.andi (cmpf .olt (Host.absf x) (broadcastInDim s ![] hb (constant S_ .f32 0x7F800000#32)))
      (constantI S_ 1 1#1) hr hu j = 1#1) (i : s.Idx) : ∃ r : ℝ, x i = (r : EReal) := by
  have e : Ideal.cmp .olt (max (x i) (-x i)) (Ideal.ofBits .f32 0x7F800000#32) = 1#1 := Host.reduce_andi_all _ _ hr hu j h i
  generalize x i = y at e ⊢
  induction y using EReal.rec with
  | coe r => exact ⟨r, rfl⟩
  | _ => simp [Ideal.cmp, Ideal.ofBits, Ideal.ieee] at e

theorem real_of_pre (m : (ℓ : Loc nD τ sig) → Buf (Elt Ideal) ℓ) (h : Cert.Pre_KernelIdeal m) (c : Dev nD) :
    (∀ i, ∃ r : ℝ, (m ((c.tc : Thread nD τ).loc main_arg0) : FVec Ideal S250000x6 .f32) i = (r : EReal)) ∧
    (∀ i, ∃ r : ℝ, (m ((c.tc : Thread nD τ).loc main_arg3) : FVec Ideal S250000x6 .f32) i = (r : EReal)) ∧
    (∀ i, ∃ r : ℝ, (m ((c.tc : Thread nD τ).loc main_arg6) : FVec Ideal S1024x5 .f32) i = (r : EReal)) ∧
    (∀ i, ∃ r : ℝ, (m ((c.tc : Thread nD τ).loc main_arg7) : FVec Ideal S1024x5 .f32) i = (r : EReal)) ∧
    (∀ i, ∃ r : ℝ, (m ((c.tc : Thread nD τ).loc main_arg8) : FVec Ideal S6x64 .f32) i = (r : EReal)) ∧
    (∀ i, ∃ r : ℝ, (m ((c.tc : Thread nD τ).loc main_arg9) : FVec Ideal S64 .f32) i = (r : EReal)) ∧
    (∀ i, ∃ r : ℝ, (m ((c.tc : Thread nD τ).loc main_arg10) : FVec Ideal S64x64 .f32) i = (r : EReal)) ∧
    (∀ i, ∃ r : ℝ, (m ((c.tc : Thread nD τ).loc main_arg11) : FVec Ideal S64 .f32) i = (r : EReal)) ∧
    (∀ i, ∃ r : ℝ, (m ((c.tc : Thread nD τ).loc main_arg12) : FVec Ideal S64 .f32) i = (r : EReal)) ∧
    (∀ i, ∃ r : ℝ, (m ((c.tc : Thread nD τ).loc main_arg13) : FVec Ideal S64 .f32) i = (r : EReal)) ∧
    (∀ i, ∃ r : ℝ, (m ((c.tc : Thread nD τ).loc main_arg14) : FVec Ideal S64x64 .f32) i = (r : EReal)) ∧
    (∀ i, ∃ r : ℝ, (m ((c.tc : Thread nD τ).loc main_arg15) : FVec Ideal S64 .f32) i = (r : EReal)) ∧
    (∀ i, ∃ r : ℝ, (m ((c.tc : Thread nD τ).loc main_arg16) : FVec Ideal S64x64 .f32) i = (r : EReal)) ∧
    (∀ i, ∃ r : ℝ, (m ((c.tc : Thread nD τ).loc main_arg17) : FVec Ideal S64 .f32) i = (r : EReal)) ∧
    (∀ i, ∃ r : ℝ, (m ((c.tc : Thread nD τ).loc main_arg18) : FVec Ideal S64 .f32) i = (r : EReal)) ∧
    (∀ i, ∃ r : ℝ, (m ((c.tc : Thread nD τ).loc main_arg19) : FVec Ideal S64 .f32) i = (r : EReal)) ∧
    (∀ i, ∃ r : ℝ, (m ((c.tc : Thread nD τ).loc main_arg20) : FVec Ideal S138x128 .f32) i = (r : EReal)) ∧
    (∀ i, ∃ r : ℝ, (m ((c.tc : Thread nD τ).loc main_arg21) : FVec Ideal S128 .f32) i = (r : EReal)) ∧
    (∀ i, ∃ r : ℝ, (m ((c.tc : Thread nD τ).loc main_arg22) : FVec Ideal S128x64 .f32) i = (r : EReal)) ∧
    (∀ i, ∃ r : ℝ, (m ((c.tc : Thread nD τ).loc main_arg23) : FVec Ideal S64 .f32) i = (r : EReal)) ∧
    (∀ i, ∃ r : ℝ, (m ((c.tc : Thread nD τ).loc main_arg24) : FVec Ideal S64x1 .f32) i = (r : EReal)) ∧
    (∀ i, ∃ r : ℝ, (m ((c.tc : Thread nD τ).loc main_arg25) : FVec Ideal S1 .f32) i = (r : EReal)) := by
  have e := congrFun (h c) ValueIdx.ix0
  dsimp only [fn, fn_part1, fn_part2, fn_part3, fn_part4, fn_part5, fn_part6, Idealize.ShloMosaic.andi] at e
  simp only [IntOp.andi_eq_one, and_assoc] at e
  iterate 21 refine ⟨real_of_all _ _ _ _ _ e.1, ?_⟩; replace e := e.2
  exact real_of_all _ _ _ _ _ e

end Cert.KernelIdeal.Val

end
-- ==== Proof.Val.GinOps.lean ====
import proofs.«409413_j30142080483538_1_alg».proof.Proof.Gen.KernelIdeal.Skeleton
import proofs.«409413_j30142080483538_1_alg».proof.Proof.Ref.Stages
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember

noncomputable section

namespace Cert.KernelIdeal.Val

open Cert.KernelIdeal Cert.KernelIdeal.Gen Cert.ReferenceIdeal.RefValue
open Idealize.ShloMosaic Idealize.ShloMosaic.ValueIdx Idealize.ShloMosaic.StackMember
open scoped BigOperators

-- Channel q of relu((xr + ar)·Wa + ba)·Wb + bb for one row.
def ginAt {ci : ℕ} (xr ar : Fin ci → EReal) (Wa : Fin ci → Fin 64 → EReal) (ba : Fin 64 → EReal) (Wb : Fin 64 → Fin 64 → EReal)
    (bb : Fin 64 → EReal) (q : Fin 64) : EReal :=
  (∑ j : Fin 64, max ((∑ k : Fin ci, (xr k + ar k) * Wa k j) + ba j) 0 * Wb j q) + bb q

-- A plain matrix product into the zero accumulator is, entry by entry, the sum over the contracted axis.
theorem mm_apply {m k n : ℕ} {φ₁ φ₂ : FTy} (d : DotDims ⟨2, ![m, k]⟩ ⟨2, ![k, n]⟩ ⟨2, ![m, n]⟩) (hd : d = DotDims.plain m k n)
    (l : FVec Ideal ⟨2, ![m, k]⟩ φ₁) (r : FVec Ideal ⟨2, ![k, n]⟩ φ₂) (p : Fin m) (q : Fin n) :
    matmul d none l r (constant _ .f32 0x00000000#32) (ix2 p q) = ∑ c : Fin k, l (ix2 p c) * r (ix2 c q) := by
  subst hd
  exact (Ideal.matmul_constant_zero_apply _ none l r _).trans
    ((Ideal.dotGeneral_apply _ none .single l r _).symm.trans (dotGeneral_plain_apply none l r p q))

theorem k0_pay1_apply (x0 x1 : Vec Ideal S2000x6 .f32) (x2 : Vec Ideal S6x64 .f32) (x3 : Vec Ideal S1x64 .f32)
    (x4 : Vec Ideal S64x64 .f32) (x5 : Vec Ideal S1x64 .f32) (p : Fin 2000) (q : Fin 64) :
    k0_pay1 x0 x1 x2 x3 x4 x5 (ix2 p q)
      = ginAt (fun k => x0 (ix2 p k)) (fun k => x1 (ix2 p k)) (fun k j => x2 (ix2 k j)) (fun j => x3 (ix2 (0 : Fin 1) j))
          (fun j c => x4 (ix2 j c)) (fun c => x5 (ix2 (0 : Fin 1) c)) q := by
  unfold k0_pay1 ginAt
  simp only [shapeCast_self]
  refine congrArg₂ (· + ·) ((mm_apply _ rfl _ _ p q).trans (Finset.sum_congr rfl fun j _ => congrArg₂ (· * ·) ?_ rfl))
    (broadcastTo_1b_ab_apply x5 broadcasts_S1x64_S2000x64 p q)
  exact congrArg₂ max (congrArg₂ (· + ·) (mm_apply _ rfl _ _ p j) (broadcastTo_1b_ab_apply x3 broadcasts_S1x64_S2000x64 p j))
    Ideal.ofBits_zero_f32

theorem k2_pay1_apply (x0 x1 : Vec Ideal S2000x64 .f32) (x2 : Vec Ideal S64x64 .f32) (x3 : Vec Ideal S1x64 .f32)
    (x4 : Vec Ideal S64x64 .f32) (x5 : Vec Ideal S1x64 .f32) (p : Fin 2000) (q : Fin 64) :
    k2_pay1 x0 x1 x2 x3 x4 x5 (ix2 p q)
      = ginAt (fun k => x0 (ix2 p k)) (fun k => x1 (ix2 p k)) (fun k j => x2 (ix2 k j)) (fun j => x3 (ix2 (0 : Fin 1) j))
          (fun j c => x4 (ix2 j c)) (fun c => x5 (ix2 (0 : Fin 1) c)) q := by
  unfold k2_pay1 ginAt
  simp only [shapeCast_self]
  refine congrArg₂ (· + ·) ((mm_apply _ rfl _ _ p q).trans (Finset.sum_congr rfl fun j _ => congrArg₂ (· * ·) ?_ rfl))
    (broadcastTo_1b_ab_apply x5 broadcasts_S1x64_S2000x64 p q)
  exact congrArg₂ max (congrArg₂ (· + ·) (mm_apply _ rfl _ _ p j) (broadcastTo_1b_ab_apply x3 broadcasts_S1x64_S2000x64 p j))
    Ideal.ofBits_zero_f32

theorem biasRows_apply (b : FVec Ideal Cert.ReferenceIdeal.S64 .f32) (n : Fin 250000) (q : Fin 64) :
    biasRows (F := Ideal) b (ix2 n q) = b (ix1 q) := by
  unfold biasRows
  refine (broadcastInDim_oneRow_apply _ _ n q).trans ?_
  refine broadcastInDim_apply ![1] _ b (ix2 (0 : Fin 1) q) (ix1 q) fun a => ?_
  match a with
  | ⟨0, _⟩ => rfl

theorem gin6_apply (x agg : FVec Ideal Cert.ReferenceIdeal.S250000x6 .f32) (Wa : FVec Ideal Cert.ReferenceIdeal.S6x64 .f32)
    (ba : FVec Ideal Cert.ReferenceIdeal.S64 .f32) (Wb : FVec Ideal Cert.ReferenceIdeal.S64x64 .f32)
    (bb : FVec Ideal Cert.ReferenceIdeal.S64 .f32) (n : Fin 250000) (q : Fin 64) :
    gin6 (F := Ideal) x agg Wa ba Wb bb (ix2 n q)
      = ginAt (fun k => x (ix2 n k)) (fun k => agg (ix2 n k)) (fun k j => Wa (ix2 k j)) (fun j => ba (ix1 j))
          (fun j c => Wb (ix2 j c)) (fun c => bb (ix1 c)) q := by
  unfold gin6 ginAt
  refine congrArg₂ (· + ·) ((dotGeneral_plain_apply none _ _ n q).trans (Finset.sum_congr rfl fun j _ => congrArg₂ (· * ·) ?_ rfl))
    (biasRows_apply bb n q)
  exact congrArg₂ max (congrArg₂ (· + ·) (dotGeneral_plain_apply none _ _ n j) (biasRows_apply ba n j)) Ideal.ofBits_zero_f32

theorem gin64_apply (x agg : FVec Ideal Cert.ReferenceIdeal.S250000x64 .f32) (Wa : FVec Ideal Cert.ReferenceIdeal.S64x64 .f32)
    (ba : FVec Ideal Cert.ReferenceIdeal.S64 .f32) (Wb : FVec Ideal Cert.ReferenceIdeal.S64x64 .f32)
    (bb : FVec Ideal Cert.ReferenceIdeal.S64 .f32) (n : Fin 250000) (q : Fin 64) :
    gin64 (F := Ideal) x agg Wa ba Wb bb (ix2 n q)
      = ginAt (fun k => x (ix2 n k)) (fun k => agg (ix2 n k)) (fun k j => Wa (ix2 k j)) (fun j => ba (ix1 j))
          (fun j c => Wb (ix2 j c)) (fun c => bb (ix1 c)) q := by
  unfold gin64 ginAt
  refine congrArg₂ (· + ·) ((dotGeneral_plain_apply none _ _ n q).trans (Finset.sum_congr rfl fun j _ => congrArg₂ (· * ·) ?_ rfl))
    (biasRows_apply bb n q)
  exact congrArg₂ max (congrArg₂ (· + ·) (dotGeneral_plain_apply none _ _ n j) (biasRows_apply ba n j)) Ideal.ofBits_zero_f32

-- The sum over the 64 columns, kept as one column, reads at row p the sum of row p.
theorem colSum (src : FVec Ideal S2000x64 .f32) (hφ : FKind.Formats .f32)
    (hacc : (0x00000000#32 : BitVec 32) = FKind.add.neutral .f32 hφ) (p : Fin 2000) (z : Fin 1) :
    shapeCast S2000x1 (multiReduction .add [1] S2000 src 0x00000000#32 reduces_S2000x64_S2000 hφ hacc) shapeCasts_S2000_S2000x1 (ix2 p z)
      = ∑ q : Fin 64, src (ix2 p q) := by
  refine (shapeCast_apply _ shapeCasts_S2000_S2000x1 (ix2 p z) (ix1 p) ?_).trans
    ((Ideal.multiReduction_add_single src 0x00000000#32 reduces_S2000x64_S2000 hφ hacc (ix1 p)).trans
      (Finset.sum_congr rfl fun q _ => congrArg src (Shape.idx_ext₂ rfl rfl)))
  rw [Shape.rowMajor_val_two, Shape.rowMajor_val_one]
  show p.val = p.val * 1 + z.val
  omega

theorem rowsum_apply (h : FVec Ideal Cert.ReferenceIdeal.S250000x64 .f32) (n : Fin 250000) :
    rowsum (F := Ideal) h (ix1 n) = ∑ q : Fin 64, h (ix2 n q) := by
  unfold rowsum Host.reduceAdd
  have hr : Cert.ReferenceIdeal.S250000x64.Reduces [1] Cert.ReferenceIdeal.S250000 := by decide
  refine (Ideal.hostReduceAdd_single Cert.ReferenceIdeal.Facts₀.reducesTo_S250000x64_S250000_d1 hr h _ (ix1 n)).trans ?_
  refine (congrArg₂ (· + ·) Ideal.ofBits_zero_f32 rfl).trans ((zero_add _).trans ?_)
  exact Finset.sum_congr rfl fun q _ => congrArg h (Shape.idx_ext₂ rfl rfl)

theorem col_apply (u : FVec Ideal Cert.ReferenceIdeal.S250000 .f32) (n : Fin 250000) (z : Fin 1) :
    col (F := Ideal) u (ix2 n z) = u (ix1 n) := by
  unfold col
  refine shapeCast_apply u _ (ix2 n z) (ix1 n) ?_
  rw [Shape.rowMajor_val_two, Shape.rowMajor_val_one]
  show n.val = n.val * 1 + z.val
  omega

theorem row_apply (b : FVec Ideal Cert.ReferenceIdeal.S64 .f32) (u : Fin 1) (q : Fin 64) :
    row (F := Ideal) b (ix2 u q) = b (ix1 q) := by
  unfold row
  exact shapeCast_a_1a_apply b _ u q

theorem rowSplit (n : Fin 250000) : ∃ (t : Fin 125) (p : Fin 2000), n.val = t.val * 2000 + p.val :=
  ⟨⟨n.val / 2000, by have := n.isLt; omega⟩, ⟨n.val % 2000, Nat.mod_lt _ (by decide)⟩, by show _ = n.val / 2000 * 2000 + n.val % 2000; omega⟩

theorem hz : (![0, 0] : Fin 2 → Nat) = fun _ => 0 := funext fun a => by fin_cases a <;> rfl

section
variable (x0 x1 : Vec Ideal S2000x6 .f32) (x agg : FVec Ideal Cert.ReferenceIdeal.S250000x6 .f32) (Wa : FVec Ideal Cert.ReferenceIdeal.S6x64 .f32)
    (ba : FVec Ideal Cert.ReferenceIdeal.S64 .f32) (Wb : FVec Ideal Cert.ReferenceIdeal.S64x64 .f32)
    (bb : FVec Ideal Cert.ReferenceIdeal.S64 .f32) (p : Fin 2000) (n : Fin 250000)
    (e0 : ∀ k, x0 (ix2 p k) = x (ix2 n k)) (e1 : ∀ k, x1 (ix2 p k) = agg (ix2 n k))
include e0 e1

-- A block whose row p is the arrays' row n computes, at row p, the reference's perceptron, its row sums and the row sums of its squares at row n.
theorem k0_gin (q : Fin 64) :
    k0_pay1 (F := Ideal) x0 x1 Wa (row (F := Ideal) ba) Wb (row (F := Ideal) bb) (ix2 p q) = gin6 (F := Ideal) x agg Wa ba Wb bb (ix2 n q) := by
  rw [k0_pay1_apply, gin6_apply]
  simp only [e0, e1, row_apply]

theorem k0_gin_sum (z : Fin 1) :
    k0_pay2 (F := Ideal) x0 x1 Wa (row (F := Ideal) ba) Wb (row (F := Ideal) bb) (ix2 p z)
      = col (F := Ideal) (rowsum (F := Ideal) (gin6 (F := Ideal) x agg Wa ba Wb bb)) (ix2 n z) := by
  rw [col_apply, rowsum_apply]
  exact (colSum _ _ _ p z).trans (Finset.sum_congr rfl fun q _ => k0_gin x0 x1 x agg Wa ba Wb bb p n e0 e1 q)

theorem k0_gin_sumsq (z : Fin 1) :
    k0_pay3 (F := Ideal) x0 x1 Wa (row (F := Ideal) ba) Wb (row (F := Ideal) bb) (ix2 p z)
      = col (F := Ideal) (rowsum (F := Ideal) (mulf (gin6 (F := Ideal) x agg Wa ba Wb bb) (gin6 (F := Ideal) x agg Wa ba Wb bb) : FVec Ideal Cert.ReferenceIdeal.S250000x64 .f32)) (ix2 n z) := by
  rw [col_apply, rowsum_apply]
  exact (colSum _ _ _ p z).trans (Finset.sum_congr rfl fun q _ =>
    congrArg₂ (· * ·) (k0_gin x0 x1 x agg Wa ba Wb bb p n e0 e1 q) (k0_gin x0 x1 x agg Wa ba Wb bb p n e0 e1 q))
end

section
variable (x0 x1 : Vec Ideal S2000x64 .f32) (x agg : FVec Ideal Cert.ReferenceIdeal.S250000x64 .f32) (Wa : FVec Ideal Cert.ReferenceIdeal.S64x64 .f32)
    (ba : FVec Ideal Cert.ReferenceIdeal.S64 .f32) (Wb : FVec Ideal Cert.ReferenceIdeal.S64x64 .f32)
    (bb : FVec Ideal Cert.ReferenceIdeal.S64 .f32) (p : Fin 2000) (n : Fin 250000)
    (e0 : ∀ k, x0 (ix2 p k) = x (ix2 n k)) (e1 : ∀ k, x1 (ix2 p k) = agg (ix2 n k))
include e0 e1

theorem k2_gin (q : Fin 64) :
    k2_pay1 (F := Ideal) x0 x1 Wa (row (F := Ideal) ba) Wb (row (F := Ideal) bb) (ix2 p q) = gin64 (F := Ideal) x agg Wa ba Wb bb (ix2 n q) := by
  rw [k2_pay1_apply, gin64_apply]
  simp only [e0, e1, row_apply]

theorem k2_gin_sum (z : Fin 1) :
    k2_pay2 (F := Ideal) x0 x1 Wa (row (F := Ideal) ba) Wb (row (F := Ideal) bb) (ix2 p z)
      = col (F := Ideal) (rowsum (F := Ideal) (gin64 (F := Ideal) x agg Wa ba Wb bb)) (ix2 n z) := by
  rw [col_apply, rowsum_apply]
  exact (colSum _ _ _ p z).trans (Finset.sum_congr rfl fun q _ => k2_gin x0 x1 x agg Wa ba Wb bb p n e0 e1 q)

theorem k2_gin_sumsq (z : Fin 1) :
    k2_pay3 (F := Ideal) x0 x1 Wa (row (F := Ideal) ba) Wb (row (F := Ideal) bb) (ix2 p z)
      = col (F := Ideal) (rowsum (F := Ideal) (mulf (gin64 (F := Ideal) x agg Wa ba Wb bb) (gin64 (F := Ideal) x agg Wa ba Wb bb) : FVec Ideal Cert.ReferenceIdeal.S250000x64 .f32)) (ix2 n z) := by
  rw [col_apply, rowsum_apply]
  exact (colSum _ _ _ p z).trans (Finset.sum_congr rfl fun q _ =>
    congrArg₂ (· * ·) (k2_gin x0 x1 x agg Wa ba Wb bb p n e0 e1 q) (k2_gin x0 x1 x agg Wa ba Wb bb p n e0 e1 q))
end

end Cert.KernelIdeal.Val
end
-- ==== Proof.Val.Gin0.lean ====
import proofs.«409413_j30142080483538_1_alg».proof.Proof.KI.Reg0
import proofs.«409413_j30142080483538_1_alg».proof.Proof.Val.GinOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr Cert.ReferenceIdeal.RefValue
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

section
variable (c : Dev nD) (t : Fin cfg0.N)

-- Entry (p, k) of block t of a row-tiled array is entry (2000·t + p, k) of the array; an untiled array is its own block.
theorem rd0_0 (p : Fin 2000) (k : Fin 6) (n : Fin 250000) (hn : n.val = t.val * 2000 + p.val) :
    (iblk0 V c 0 t : Vec Ideal S2000x6 .f32) (ix2 p k) = V c main_arg0 (ix2 n k) := by
  have := idx0 t
  unfold iblk0
  rw [View.read_apply]
  exact congrArg (V c main_arg0) (Shape.idx_ext₂ (by show win0_0.index t (0 : Fin 2) * 2000 + 1 * p.val = n.val; omega)
    (by show win0_0.index t (1 : Fin 2) * 6 + 1 * k.val = k.val; omega))

theorem rd0_1 (p : Fin 2000) (k : Fin 6) (n : Fin 250000) (hn : n.val = t.val * 2000 + p.val) :
    (iblk0 V c 1 t : Vec Ideal S2000x6 .f32) (ix2 p k) = V c main_v21 (ix2 n k) := by
  have := idx0 t
  unfold iblk0
  rw [View.read_apply]
  exact congrArg (V c main_v21) (Shape.idx_ext₂ (by show win0_1.index t (0 : Fin 2) * 2000 + 1 * p.val = n.val; omega)
    (by show win0_1.index t (1 : Fin 2) * 6 + 1 * k.val = k.val; omega))

theorem rd0_2 : (iblk0 V c 2 t : Vec Ideal S6x64 .f32) = V c main_arg8 := by
  have := idx0 t
  unfold iblk0
  funext y
  rw [View.read_apply]
  exact congrArg (V c main_arg8) (Shape.idx_ext₂ (by show win0_2.index t (0 : Fin 2) * 6 + 1 * (y 0).val = (y 0).val; omega)
    (by show win0_2.index t (1 : Fin 2) * 64 + 1 * (y 1).val = (y 1).val; omega))

theorem rd0_3 : (iblk0 V c 3 t : Vec Ideal S1x64 .f32) = V c main_v22 := by
  have := idx0 t
  unfold iblk0
  funext y
  rw [View.read_apply]
  exact congrArg (V c main_v22) (Shape.idx_ext₂ (by show win0_3.index t (0 : Fin 2) * 1 + 1 * (y 0).val = (y 0).val; omega)
    (by show win0_3.index t (1 : Fin 2) * 64 + 1 * (y 1).val = (y 1).val; omega))

theorem rd0_4 : (iblk0 V c 4 t : Vec Ideal S64x64 .f32) = V c main_arg10 := by
  have := idx0 t
  unfold iblk0
  funext y
  rw [View.read_apply]
  exact congrArg (V c main_arg10) (Shape.idx_ext₂ (by show win0_4.index t (0 : Fin 2) * 64 + 1 * (y 0).val = (y 0).val; omega)
    (by show win0_4.index t (1 : Fin 2) * 64 + 1 * (y 1).val = (y 1).val; omega))

theorem rd0_5 : (iblk0 V c 5 t : Vec Ideal S1x64 .f32) = V c main_v23 := by
  have := idx0 t
  unfold iblk0
  funext y
  rw [View.read_apply]
  exact congrArg (V c main_v23) (Shape.idx_ext₂ (by show win0_5.index t (0 : Fin 2) * 1 + 1 * (y 0).val = (y 0).val; omega)
    (by show win0_5.index t (1 : Fin 2) * 64 + 1 * (y 1).val = (y 1).val; omega))
end

section
variable (t : Fin cfg0.N) (p : Fin 2000) (n : Fin 250000) (hn : n.val = t.val * 2000 + p.val)
include hn

theorem emb0_6 (q : Fin 64) : ((cfg0.win 6).blk t).view.emb (ix2 p q) = ix2 n q := by
  have := idx0 t
  exact Shape.idx_ext₂ (by show win0_6.index t (0 : Fin 2) * 2000 + 1 * p.val = n.val; omega)
    (by show win0_6.index t (1 : Fin 2) * 64 + 1 * q.val = q.val; omega)

theorem emb0_7 (z : Fin 1) : ((cfg0.win 7).blk t).view.emb (ix2 p z) = ix2 n z := by
  have := idx0 t
  exact Shape.idx_ext₂ (by show win0_7.index t (0 : Fin 2) * 2000 + 1 * p.val = n.val; omega)
    (by show win0_7.index t (1 : Fin 2) * 1 + 1 * z.val = z.val; omega)

theorem emb0_8 (z : Fin 1) : ((cfg0.win 8).blk t).view.emb (ix2 p z) = ix2 n z := by
  have := idx0 t
  exact Shape.idx_ext₂ (by show win0_8.index t (0 : Fin 2) * 2000 + 1 * p.val = n.val; omega)
    (by show win0_8.index t (1 : Fin 2) * 1 + 1 * z.val = z.val; omega)
end

-- Row r of each output array lies in block r / 2000.
theorem tiles0_6 (i : S250000x64.Idx) :
    ∃ t : Fin cfg0.N, (cfg0.win 6).flush t = true ∧ i ∈ ((cfg0.win 6).blk t).view.set := by
  obtain ⟨n, q, rfl⟩ : ∃ (n : Fin 250000) (q : Fin 64), i = ix2 n q := ⟨i 0, i 1, eq_ix2 i⟩
  obtain ⟨t, p, h⟩ := rowSplit n
  refine ⟨t.cast N_0.symm, flush0_6 _, ?_⟩
  rw [← emb0_6 (t.cast N_0.symm) p n h q]
  exact View.emb_mem_set _ _

theorem tiles0_7 (i : S250000x1.Idx) :
    ∃ t : Fin cfg0.N, (cfg0.win 7).flush t = true ∧ i ∈ ((cfg0.win 7).blk t).view.set := by
  obtain ⟨n, q, rfl⟩ : ∃ (n : Fin 250000) (q : Fin 1), i = ix2 n q := ⟨i 0, i 1, eq_ix2 i⟩
  obtain ⟨t, p, h⟩ := rowSplit n
  refine ⟨t.cast N_0.symm, flush0_7 _, ?_⟩
  rw [← emb0_7 (t.cast N_0.symm) p n h q]
  exact View.emb_mem_set _ _

theorem tiles0_8 (i : S250000x1.Idx) :
    ∃ t : Fin cfg0.N, (cfg0.win 8).flush t = true ∧ i ∈ ((cfg0.win 8).blk t).view.set := by
  obtain ⟨n, q, rfl⟩ : ∃ (n : Fin 250000) (q : Fin 1), i = ix2 n q := ⟨i 0, i 1, eq_ix2 i⟩
  obtain ⟨t, p, h⟩ := rowSplit n
  refine ⟨t.cast N_0.symm, flush0_8 _, ?_⟩
  rw [← emb0_8 (t.cast N_0.symm) p n h q]
  exact View.emb_mem_set _ _

variable (c : Dev nD) (x agg : FVec Ideal Cert.ReferenceIdeal.S250000x6 .f32) (Wa : FVec Ideal Cert.ReferenceIdeal.S6x64 .f32)
    (ba : FVec Ideal Cert.ReferenceIdeal.S64 .f32) (Wb : FVec Ideal Cert.ReferenceIdeal.S64x64 .f32)
    (bb : FVec Ideal Cert.ReferenceIdeal.S64 .f32)
    (h0 : V c main_arg0 = x) (h1 : V c main_v21 = agg) (h2 : V c main_arg8 = Wa) (h3 : V c main_v22 = row (F := Ideal) ba)
    (h4 : V c main_arg10 = Wb) (h5 : V c main_v23 = row (F := Ideal) bb)
include h0 h1 h2 h3 h4 h5

-- Row p of the three blocks written at step t: the reference's three arrays at row 2000·t + p.
theorem blk0 (t : Fin cfg0.N) (p : Fin 2000) :
    (∀ q : Fin 64, (dat0 V c).after 6 t (ix2 p q) = gin6 (F := Ideal) x agg Wa ba Wb bb (((cfg0.win 6).blk t).view.emb (ix2 p q)))
    ∧ (∀ z : Fin 1, (dat0 V c).after 7 t (ix2 p z) = col (F := Ideal) (rowsum (F := Ideal) (gin6 (F := Ideal) x agg Wa ba Wb bb)) (((cfg0.win 7).blk t).view.emb (ix2 p z)))
    ∧ ∀ z : Fin 1, (dat0 V c).after 8 t (ix2 p z) = col (F := Ideal) (rowsum (F := Ideal) (mulf (gin6 (F := Ideal) x agg Wa ba Wb bb) (gin6 (F := Ideal) x agg Wa ba Wb bb) : FVec Ideal Cert.ReferenceIdeal.S250000x64 .f32)) (((cfg0.win 8).blk t).view.emb (ix2 p z)) := by
  obtain ⟨n, hn⟩ : ∃ n : Fin 250000, n.val = t.val * 2000 + p.val :=
    ⟨⟨t.val * 2000 + p.val, by have := lt_of_lt_of_eq t.isLt N_0; have := p.isLt; omega⟩, rfl⟩
  rw [after0_6, after0_7, after0_8]
  unfold out0_6 out0_7 out0_8
  simp only [emb0_6 t p n hn, emb0_7 t p n hn, emb0_8 t p n hn, View.canon_unit_zero (S := S2000x64) hz, View.canon_unit_zero (S := S2000x1) hz, View.ld_unit_zero (S := S2000x6) hz,
    View.ld_unit_zero (S := S6x64) hz, View.ld_unit_zero (S := S1x64) hz, View.ld_unit_zero (S := S64x64) hz,
    rd0_2 V c t, rd0_3 V c t, rd0_4 V c t, rd0_5 V c t, h2, h3, h4, h5]
  have e0 := fun k => (rd0_0 V c t p k n hn).trans (congrFun h0 _)
  have e1 := fun k => (rd0_1 V c t p k n hn).trans (congrFun h1 _)
  exact ⟨k0_gin _ _ x agg Wa ba Wb bb p n e0 e1, k0_gin_sum _ _ x agg Wa ba Wb bb p n e0 e1, k0_gin_sumsq _ _ x agg Wa ba Wb bb p n e0 e1⟩

theorem final0_6 : (dat0 V c).arrAt 6 cfg0.N = gin6 (F := Ideal) x agg Wa ba Wb bb :=
  (dat0 V c).arrAt_eq_of_cover 6 _ (fun t _ => funext fun y => by
    obtain ⟨p, q, rfl⟩ : ∃ (p : Fin 2000) (q : Fin 64), y = ix2 p q := ⟨y 0, y 1, eq_ix2 y⟩
    exact (blk0 V c x agg Wa ba Wb bb h0 h1 h2 h3 h4 h5 t p).1 q) tiles0_6

theorem final0_7 : (dat0 V c).arrAt 7 cfg0.N = col (F := Ideal) (rowsum (F := Ideal) (gin6 (F := Ideal) x agg Wa ba Wb bb)) :=
  (dat0 V c).arrAt_eq_of_cover 7 _ (fun t _ => funext fun y => by
    obtain ⟨p, z, rfl⟩ : ∃ (p : Fin 2000) (z : Fin 1), y = ix2 p z := ⟨y 0, y 1, eq_ix2 y⟩
    exact (blk0 V c x agg Wa ba Wb bb h0 h1 h2 h3 h4 h5 t p).2.1 z) tiles0_7

theorem final0_8 : (dat0 V c).arrAt 8 cfg0.N = col (F := Ideal) (rowsum (F := Ideal) (mulf (gin6 (F := Ideal) x agg Wa ba Wb bb) (gin6 (F := Ideal) x agg Wa ba Wb bb) : FVec Ideal Cert.ReferenceIdeal.S250000x64 .f32)) :=
  (dat0 V c).arrAt_eq_of_cover 8 _ (fun t _ => funext fun y => by
    obtain ⟨p, z, rfl⟩ : ∃ (p : Fin 2000) (z : Fin 1), y = ix2 p z := ⟨y 0, y 1, eq_ix2 y⟩
    exact (blk0 V c x agg Wa ba Wb bb h0 h1 h2 h3 h4 h5 t p).2.2 z) tiles0_8

end Cert.KernelIdeal.Val
end
-- ==== Proof.Val.Gin2.lean ====
import proofs.«409413_j30142080483538_1_alg».proof.Proof.KI.Reg2
import proofs.«409413_j30142080483538_1_alg».proof.Proof.Val.GinOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr Cert.ReferenceIdeal.RefValue
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

section
variable (c : Dev nD) (t : Fin cfg2.N)

-- Entry (p, k) of block t of a row-tiled array is entry (2000·t + p, k) of the array; an untiled array is its own block.
theorem rd2_0 (p : Fin 2000) (k : Fin 64) (n : Fin 250000) (hn : n.val = t.val * 2000 + p.val) :
    (iblk2 V c 0 t : Vec Ideal S2000x64 .f32) (ix2 p k) = V c main_v55 (ix2 n k) := by
  have := idx2 t
  unfold iblk2
  rw [View.read_apply]
  exact congrArg (V c main_v55) (Shape.idx_ext₂ (by show win2_0.index t (0 : Fin 2) * 2000 + 1 * p.val = n.val; omega)
    (by show win2_0.index t (1 : Fin 2) * 64 + 1 * k.val = k.val; omega))

theorem rd2_1 (p : Fin 2000) (k : Fin 64) (n : Fin 250000) (hn : n.val = t.val * 2000 + p.val) :
    (iblk2 V c 1 t : Vec Ideal S2000x64 .f32) (ix2 p k) = V c main_v65 (ix2 n k) := by
  have := idx2 t
  unfold iblk2
  rw [View.read_apply]
  exact congrArg (V c main_v65) (Shape.idx_ext₂ (by show win2_1.index t (0 : Fin 2) * 2000 + 1 * p.val = n.val; omega)
    (by show win2_1.index t (1 : Fin 2) * 64 + 1 * k.val = k.val; omega))

theorem rd2_2 : (iblk2 V c 2 t : Vec Ideal S64x64 .f32) = V c main_arg14 := by
  have := idx2 t
  unfold iblk2
  funext y
  rw [View.read_apply]
  exact congrArg (V c main_arg14) (Shape.idx_ext₂ (by show win2_2.index t (0 : Fin 2) * 64 + 1 * (y 0).val = (y 0).val; omega)
    (by show win2_2.index t (1 : Fin 2) * 64 + 1 * (y 1).val = (y 1).val; omega))

theorem rd2_3 : (iblk2 V c 3 t : Vec Ideal S1x64 .f32) = V c main_v66 := by
  have := idx2 t
  unfold iblk2
  funext y
  rw [View.read_apply]
  exact congrArg (V c main_v66) (Shape.idx_ext₂ (by show win2_3.index t (0 : Fin 2) * 1 + 1 * (y 0).val = (y 0).val; omega)
    (by show win2_3.index t (1 : Fin 2) * 64 + 1 * (y 1).val = (y 1).val; omega))

theorem rd2_4 : (iblk2 V c 4 t : Vec Ideal S64x64 .f32) = V c main_arg16 := by
  have := idx2 t
  unfold iblk2
  funext y
  rw [View.read_apply]
  exact congrArg (V c main_arg16) (Shape.idx_ext₂ (by show win2_4.index t (0 : Fin 2) * 64 + 1 * (y 0).val = (y 0).val; omega)
    (by show win2_4.index t (1 : Fin 2) * 64 + 1 * (y 1).val = (y 1).val; omega))

theorem rd2_5 : (iblk2 V c 5 t : Vec Ideal S1x64 .f32) = V c main_v67 := by
  have := idx2 t
  unfold iblk2
  funext y
  rw [View.read_apply]
  exact congrArg (V c main_v67) (Shape.idx_ext₂ (by show win2_5.index t (0 : Fin 2) * 1 + 1 * (y 0).val = (y 0).val; omega)
    (by show win2_5.index t (1 : Fin 2) * 64 + 1 * (y 1).val = (y 1).val; omega))
end

section
variable (t : Fin cfg2.N) (p : Fin 2000) (n : Fin 250000) (hn : n.val = t.val * 2000 + p.val)
include hn

theorem emb2_6 (q : Fin 64) : ((cfg2.win 6).blk t).view.emb (ix2 p q) = ix2 n q := by
  have := idx2 t
  exact Shape.idx_ext₂ (by show win2_6.index t (0 : Fin 2) * 2000 + 1 * p.val = n.val; omega)
    (by show win2_6.index t (1 : Fin 2) * 64 + 1 * q.val = q.val; omega)

theorem emb2_7 (z : Fin 1) : ((cfg2.win 7).blk t).view.emb (ix2 p z) = ix2 n z := by
  have := idx2 t
  exact Shape.idx_ext₂ (by show win2_7.index t (0 : Fin 2) * 2000 + 1 * p.val = n.val; omega)
    (by show win2_7.index t (1 : Fin 2) * 1 + 1 * z.val = z.val; omega)

theorem emb2_8 (z : Fin 1) : ((cfg2.win 8).blk t).view.emb (ix2 p z) = ix2 n z := by
  have := idx2 t
  exact Shape.idx_ext₂ (by show win2_8.index t (0 : Fin 2) * 2000 + 1 * p.val = n.val; omega)
    (by show win2_8.index t (1 : Fin 2) * 1 + 1 * z.val = z.val; omega)
end

-- Row r of each output array lies in block r / 2000.
theorem tiles2_6 (i : S250000x64.Idx) :
    ∃ t : Fin cfg2.N, (cfg2.win 6).flush t = true ∧ i ∈ ((cfg2.win 6).blk t).view.set := by
  obtain ⟨n, q, rfl⟩ : ∃ (n : Fin 250000) (q : Fin 64), i = ix2 n q := ⟨i 0, i 1, eq_ix2 i⟩
  obtain ⟨t, p, h⟩ := rowSplit n
  refine ⟨t.cast N_2.symm, flush2_6 _, ?_⟩
  rw [← emb2_6 (t.cast N_2.symm) p n h q]
  exact View.emb_mem_set _ _

theorem tiles2_7 (i : S250000x1.Idx) :
    ∃ t : Fin cfg2.N, (cfg2.win 7).flush t = true ∧ i ∈ ((cfg2.win 7).blk t).view.set := by
  obtain ⟨n, q, rfl⟩ : ∃ (n : Fin 250000) (q : Fin 1), i = ix2 n q := ⟨i 0, i 1, eq_ix2 i⟩
  obtain ⟨t, p, h⟩ := rowSplit n
  refine ⟨t.cast N_2.symm, flush2_7 _, ?_⟩
  rw [← emb2_7 (t.cast N_2.symm) p n h q]
  exact View.emb_mem_set _ _

theorem tiles2_8 (i : S250000x1.Idx) :
    ∃ t : Fin cfg2.N, (cfg2.win 8).flush t = true ∧ i ∈ ((cfg2.win 8).blk t).view.set := by
  obtain ⟨n, q, rfl⟩ : ∃ (n : Fin 250000) (q : Fin 1), i = ix2 n q := ⟨i 0, i 1, eq_ix2 i⟩
  obtain ⟨t, p, h⟩ := rowSplit n
  refine ⟨t.cast N_2.symm, flush2_8 _, ?_⟩
  rw [← emb2_8 (t.cast N_2.symm) p n h q]
  exact View.emb_mem_set _ _

variable (c : Dev nD) (x agg : FVec Ideal Cert.ReferenceIdeal.S250000x64 .f32) (Wa : FVec Ideal Cert.ReferenceIdeal.S64x64 .f32)
    (ba : FVec Ideal Cert.ReferenceIdeal.S64 .f32) (Wb : FVec Ideal Cert.ReferenceIdeal.S64x64 .f32)
    (bb : FVec Ideal Cert.ReferenceIdeal.S64 .f32)
    (h0 : V c main_v55 = x) (h1 : V c main_v65 = agg) (h2 : V c main_arg14 = Wa) (h3 : V c main_v66 = row (F := Ideal) ba)
    (h4 : V c main_arg16 = Wb) (h5 : V c main_v67 = row (F := Ideal) bb)
include h0 h1 h2 h3 h4 h5

-- Row p of the three blocks written at step t: the reference's three arrays at row 2000·t + p.
theorem blk2 (t : Fin cfg2.N) (p : Fin 2000) :
    (∀ q : Fin 64, (dat2 V c).after 6 t (ix2 p q) = gin64 (F := Ideal) x agg Wa ba Wb bb (((cfg2.win 6).blk t).view.emb (ix2 p q)))
    ∧ (∀ z : Fin 1, (dat2 V c).after 7 t (ix2 p z) = col (F := Ideal) (rowsum (F := Ideal) (gin64 (F := Ideal) x agg Wa ba Wb bb)) (((cfg2.win 7).blk t).view.emb (ix2 p z)))
    ∧ ∀ z : Fin 1, (dat2 V c).after 8 t (ix2 p z) = col (F := Ideal) (rowsum (F := Ideal) (mulf (gin64 (F := Ideal) x agg Wa ba Wb bb) (gin64 (F := Ideal) x agg Wa ba Wb bb) : FVec Ideal Cert.ReferenceIdeal.S250000x64 .f32)) (((cfg2.win 8).blk t).view.emb (ix2 p z)) := by
  obtain ⟨n, hn⟩ : ∃ n : Fin 250000, n.val = t.val * 2000 + p.val :=
    ⟨⟨t.val * 2000 + p.val, by have := lt_of_lt_of_eq t.isLt N_2; have := p.isLt; omega⟩, rfl⟩
  rw [after2_6, after2_7, after2_8]
  unfold out2_6 out2_7 out2_8
  simp only [emb2_6 t p n hn, emb2_7 t p n hn, emb2_8 t p n hn, View.canon_unit_zero (S := S2000x64) hz, View.canon_unit_zero (S := S2000x1) hz, View.ld_unit_zero (S := S2000x64) hz,
    View.ld_unit_zero (S := S64x64) hz, View.ld_unit_zero (S := S1x64) hz, View.ld_unit_zero (S := S64x64) hz,
    rd2_2 V c t, rd2_3 V c t, rd2_4 V c t, rd2_5 V c t, h2, h3, h4, h5]
  have e0 := fun k => (rd2_0 V c t p k n hn).trans (congrFun h0 _)
  have e1 := fun k => (rd2_1 V c t p k n hn).trans (congrFun h1 _)
  exact ⟨k2_gin _ _ x agg Wa ba Wb bb p n e0 e1, k2_gin_sum _ _ x agg Wa ba Wb bb p n e0 e1, k2_gin_sumsq _ _ x agg Wa ba Wb bb p n e0 e1⟩

theorem final2_6 : (dat2 V c).arrAt 6 cfg2.N = gin64 (F := Ideal) x agg Wa ba Wb bb :=
  (dat2 V c).arrAt_eq_of_cover 6 _ (fun t _ => funext fun y => by
    obtain ⟨p, q, rfl⟩ : ∃ (p : Fin 2000) (q : Fin 64), y = ix2 p q := ⟨y 0, y 1, eq_ix2 y⟩
    exact (blk2 V c x agg Wa ba Wb bb h0 h1 h2 h3 h4 h5 t p).1 q) tiles2_6

theorem final2_7 : (dat2 V c).arrAt 7 cfg2.N = col (F := Ideal) (rowsum (F := Ideal) (gin64 (F := Ideal) x agg Wa ba Wb bb)) :=
  (dat2 V c).arrAt_eq_of_cover 7 _ (fun t _ => funext fun y => by
    obtain ⟨p, z, rfl⟩ : ∃ (p : Fin 2000) (z : Fin 1), y = ix2 p z := ⟨y 0, y 1, eq_ix2 y⟩
    exact (blk2 V c x agg Wa ba Wb bb h0 h1 h2 h3 h4 h5 t p).2.1 z) tiles2_7

theorem final2_8 : (dat2 V c).arrAt 8 cfg2.N = col (F := Ideal) (rowsum (F := Ideal) (mulf (gin64 (F := Ideal) x agg Wa ba Wb bb) (gin64 (F := Ideal) x agg Wa ba Wb bb) : FVec Ideal Cert.ReferenceIdeal.S250000x64 .f32)) :=
  (dat2 V c).arrAt_eq_of_cover 8 _ (fun t _ => funext fun y => by
    obtain ⟨p, z, rfl⟩ : ∃ (p : Fin 2000) (z : Fin 1), y = ix2 p z := ⟨y 0, y 1, eq_ix2 y⟩
    exact (blk2 V c x agg Wa ba Wb bb h0 h1 h2 h3 h4 h5 t p).2.2 z) tiles2_8

end Cert.KernelIdeal.Val
end
-- ==== Proof.Val.Gin5.lean ====
import proofs.«409413_j30142080483538_1_alg».proof.Proof.KI.Reg5
import proofs.«409413_j30142080483538_1_alg».proof.Proof.Val.GinOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr Cert.ReferenceIdeal.RefValue
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0
    ∧ win5_7.index t (0 : Fin 2) = t.val ∧ win5_7.index t (1 : Fin 2) = 0
    ∧ win5_8.index t (0 : Fin 2) = t.val ∧ win5_8.index t (1 : Fin 2) = 0 :=
  (by decide +kernel : ∀ t : Fin grid5.N, _)

section
variable (c : Dev nD) (t : Fin cfg5.N)

-- Entry (p, k) of block t of a row-tiled array is entry (2000·t + p, k) of the array; an untiled array is its own block.
theorem rd5_0 (p : Fin 2000) (k : Fin 6) (n : Fin 250000) (hn : n.val = t.val * 2000 + p.val) :
    (iblk5 V c 0 t : Vec Ideal S2000x6 .f32) (ix2 p k) = V c main_arg3 (ix2 n k) := by
  have := idx5 t
  unfold iblk5
  rw [View.read_apply]
  exact congrArg (V c main_arg3) (Shape.idx_ext₂ (by show win5_0.index t (0 : Fin 2) * 2000 + 1 * p.val = n.val; omega)
    (by show win5_0.index t (1 : Fin 2) * 6 + 1 * k.val = k.val; omega))

theorem rd5_1 (p : Fin 2000) (k : Fin 6) (n : Fin 250000) (hn : n.val = t.val * 2000 + p.val) :
    (iblk5 V c 1 t : Vec Ideal S2000x6 .f32) (ix2 p k) = V c main_v129 (ix2 n k) := by
  have := idx5 t
  unfold iblk5
  rw [View.read_apply]
  exact congrArg (V c main_v129) (Shape.idx_ext₂ (by show win5_1.index t (0 : Fin 2) * 2000 + 1 * p.val = n.val; omega)
    (by show win5_1.index t (1 : Fin 2) * 6 + 1 * k.val = k.val; omega))

theorem rd5_2 : (iblk5 V c 2 t : Vec Ideal S6x64 .f32) = V c main_arg8 := by
  have := idx5 t
  unfold iblk5
  funext y
  rw [View.read_apply]
  exact congrArg (V c main_arg8) (Shape.idx_ext₂ (by show win5_2.index t (0 : Fin 2) * 6 + 1 * (y 0).val = (y 0).val; omega)
    (by show win5_2.index t (1 : Fin 2) * 64 + 1 * (y 1).val = (y 1).val; omega))

theorem rd5_3 : (iblk5 V c 3 t : Vec Ideal S1x64 .f32) = V c main_v130 := by
  have := idx5 t
  unfold iblk5
  funext y
  rw [View.read_apply]
  exact congrArg (V c main_v130) (Shape.idx_ext₂ (by show win5_3.index t (0 : Fin 2) * 1 + 1 * (y 0).val = (y 0).val; omega)
    (by show win5_3.index t (1 : Fin 2) * 64 + 1 * (y 1).val = (y 1).val; omega))

theorem rd5_4 : (iblk5 V c 4 t : Vec Ideal S64x64 .f32) = V c main_arg10 := by
  have := idx5 t
  unfold iblk5
  funext y
  rw [View.read_apply]
  exact congrArg (V c main_arg10) (Shape.idx_ext₂ (by show win5_4.index t (0 : Fin 2) * 64 + 1 * (y 0).val = (y 0).val; omega)
    (by show win5_4.index t (1 : Fin 2) * 64 + 1 * (y 1).val = (y 1).val; omega))

theorem rd5_5 : (iblk5 V c 5 t : Vec Ideal S1x64 .f32) = V c main_v131 := by
  have := idx5 t
  unfold iblk5
  funext y
  rw [View.read_apply]
  exact congrArg (V c main_v131) (Shape.idx_ext₂ (by show win5_5.index t (0 : Fin 2) * 1 + 1 * (y 0).val = (y 0).val; omega)
    (by show win5_5.index t (1 : Fin 2) * 64 + 1 * (y 1).val = (y 1).val; omega))
end

section
variable (t : Fin cfg5.N) (p : Fin 2000) (n : Fin 250000) (hn : n.val = t.val * 2000 + p.val)
include hn

theorem emb5_6 (q : Fin 64) : ((cfg5.win 6).blk t).view.emb (ix2 p q) = ix2 n q := by
  have := idx5 t
  exact Shape.idx_ext₂ (by show win5_6.index t (0 : Fin 2) * 2000 + 1 * p.val = n.val; omega)
    (by show win5_6.index t (1 : Fin 2) * 64 + 1 * q.val = q.val; omega)

theorem emb5_7 (z : Fin 1) : ((cfg5.win 7).blk t).view.emb (ix2 p z) = ix2 n z := by
  have := idx5 t
  exact Shape.idx_ext₂ (by show win5_7.index t (0 : Fin 2) * 2000 + 1 * p.val = n.val; omega)
    (by show win5_7.index t (1 : Fin 2) * 1 + 1 * z.val = z.val; omega)

theorem emb5_8 (z : Fin 1) : ((cfg5.win 8).blk t).view.emb (ix2 p z) = ix2 n z := by
  have := idx5 t
  exact Shape.idx_ext₂ (by show win5_8.index t (0 : Fin 2) * 2000 + 1 * p.val = n.val; omega)
    (by show win5_8.index t (1 : Fin 2) * 1 + 1 * z.val = z.val; omega)
end

-- Row r of each output array lies in block r / 2000.
theorem tiles5_6 (i : S250000x64.Idx) :
    ∃ t : Fin cfg5.N, (cfg5.win 6).flush t = true ∧ i ∈ ((cfg5.win 6).blk t).view.set := by
  obtain ⟨n, q, rfl⟩ : ∃ (n : Fin 250000) (q : Fin 64), i = ix2 n q := ⟨i 0, i 1, eq_ix2 i⟩
  obtain ⟨t, p, h⟩ := rowSplit n
  refine ⟨t.cast N_5.symm, flush5_6 _, ?_⟩
  rw [← emb5_6 (t.cast N_5.symm) p n h q]
  exact View.emb_mem_set _ _

theorem tiles5_7 (i : S250000x1.Idx) :
    ∃ t : Fin cfg5.N, (cfg5.win 7).flush t = true ∧ i ∈ ((cfg5.win 7).blk t).view.set := by
  obtain ⟨n, q, rfl⟩ : ∃ (n : Fin 250000) (q : Fin 1), i = ix2 n q := ⟨i 0, i 1, eq_ix2 i⟩
  obtain ⟨t, p, h⟩ := rowSplit n
  refine ⟨t.cast N_5.symm, flush5_7 _, ?_⟩
  rw [← emb5_7 (t.cast N_5.symm) p n h q]
  exact View.emb_mem_set _ _

theorem tiles5_8 (i : S250000x1.Idx) :
    ∃ t : Fin cfg5.N, (cfg5.win 8).flush t = true ∧ i ∈ ((cfg5.win 8).blk t).view.set := by
  obtain ⟨n, q, rfl⟩ : ∃ (n : Fin 250000) (q : Fin 1), i = ix2 n q := ⟨i 0, i 1, eq_ix2 i⟩
  obtain ⟨t, p, h⟩ := rowSplit n
  refine ⟨t.cast N_5.symm, flush5_8 _, ?_⟩
  rw [← emb5_8 (t.cast N_5.symm) p n h q]
  exact View.emb_mem_set _ _

variable (c : Dev nD) (x agg : FVec Ideal Cert.ReferenceIdeal.S250000x6 .f32) (Wa : FVec Ideal Cert.ReferenceIdeal.S6x64 .f32)
    (ba : FVec Ideal Cert.ReferenceIdeal.S64 .f32) (Wb : FVec Ideal Cert.ReferenceIdeal.S64x64 .f32)
    (bb : FVec Ideal Cert.ReferenceIdeal.S64 .f32)
    (h0 : V c main_arg3 = x) (h1 : V c main_v129 = agg) (h2 : V c main_arg8 = Wa) (h3 : V c main_v130 = row (F := Ideal) ba)
    (h4 : V c main_arg10 = Wb) (h5 : V c main_v131 = row (F := Ideal) bb)
include h0 h1 h2 h3 h4 h5

-- Row p of the three blocks written at step t: the reference's three arrays at row 2000·t + p.
theorem blk5 (t : Fin cfg5.N) (p : Fin 2000) :
    (∀ q : Fin 64, (dat5 V c).after 6 t (ix2 p q) = gin6 (F := Ideal) x agg Wa ba Wb bb (((cfg5.win 6).blk t).view.emb (ix2 p q)))
    ∧ (∀ z : Fin 1, (dat5 V c).after 7 t (ix2 p z) = col (F := Ideal) (rowsum (F := Ideal) (gin6 (F := Ideal) x agg Wa ba Wb bb)) (((cfg5.win 7).blk t).view.emb (ix2 p z)))
    ∧ ∀ z : Fin 1, (dat5 V c).after 8 t (ix2 p z) = col (F := Ideal) (rowsum (F := Ideal) (mulf (gin6 (F := Ideal) x agg Wa ba Wb bb) (gin6 (F := Ideal) x agg Wa ba Wb bb) : FVec Ideal Cert.ReferenceIdeal.S250000x64 .f32)) (((cfg5.win 8).blk t).view.emb (ix2 p z)) := by
  obtain ⟨n, hn⟩ : ∃ n : Fin 250000, n.val = t.val * 2000 + p.val :=
    ⟨⟨t.val * 2000 + p.val, by have := lt_of_lt_of_eq t.isLt N_5; have := p.isLt; omega⟩, rfl⟩
  rw [after5_6, after5_7, after5_8]
  unfold out5_6 out5_7 out5_8
  simp only [emb5_6 t p n hn, emb5_7 t p n hn, emb5_8 t p n hn, View.canon_unit_zero (S := S2000x64) hz, View.canon_unit_zero (S := S2000x1) hz, View.ld_unit_zero (S := S2000x6) hz,
    View.ld_unit_zero (S := S6x64) hz, View.ld_unit_zero (S := S1x64) hz, View.ld_unit_zero (S := S64x64) hz,
    rd5_2 V c t, rd5_3 V c t, rd5_4 V c t, rd5_5 V c t, h2, h3, h4, h5]
  have e0 := fun k => (rd5_0 V c t p k n hn).trans (congrFun h0 _)
  have e1 := fun k => (rd5_1 V c t p k n hn).trans (congrFun h1 _)
  exact ⟨k0_gin _ _ x agg Wa ba Wb bb p n e0 e1, k0_gin_sum _ _ x agg Wa ba Wb bb p n e0 e1, k0_gin_sumsq _ _ x agg Wa ba Wb bb p n e0 e1⟩

theorem final5_6 : (dat5 V c).arrAt 6 cfg5.N = gin6 (F := Ideal) x agg Wa ba Wb bb :=
  (dat5 V c).arrAt_eq_of_cover 6 _ (fun t _ => funext fun y => by
    obtain ⟨p, q, rfl⟩ : ∃ (p : Fin 2000) (q : Fin 64), y = ix2 p q := ⟨y 0, y 1, eq_ix2 y⟩
    exact (blk5 V c x agg Wa ba Wb bb h0 h1 h2 h3 h4 h5 t p).1 q) tiles5_6

theorem final5_7 : (dat5 V c).arrAt 7 cfg5.N = col (F := Ideal) (rowsum (F := Ideal) (gin6 (F := Ideal) x agg Wa ba Wb bb)) :=
  (dat5 V c).arrAt_eq_of_cover 7 _ (fun t _ => funext fun y => by
    obtain ⟨p, z, rfl⟩ : ∃ (p : Fin 2000) (z : Fin 1), y = ix2 p z := ⟨y 0, y 1, eq_ix2 y⟩
    exact (blk5 V c x agg Wa ba Wb bb h0 h1 h2 h3 h4 h5 t p).2.1 z) tiles5_7

theorem final5_8 : (dat5 V c).arrAt 8 cfg5.N = col (F := Ideal) (rowsum (F := Ideal) (mulf (gin6 (F := Ideal) x agg Wa ba Wb bb) (gin6 (F := Ideal) x agg Wa ba Wb bb) : FVec Ideal Cert.ReferenceIdeal.S250000x64 .f32)) :=
  (dat5 V c).arrAt_eq_of_cover 8 _ (fun t _ => funext fun y => by
    obtain ⟨p, z, rfl⟩ : ∃ (p : Fin 2000) (z : Fin 1), y = ix2 p z := ⟨y 0, y 1, eq_ix2 y⟩
    exact (blk5 V c x agg Wa ba Wb bb h0 h1 h2 h3 h4 h5 t p).2.2 z) tiles5_8

end Cert.KernelIdeal.Val
end
-- ==== Proof.Val.Gin7.lean ====
import proofs.«409413_j30142080483538_1_alg».proof.Proof.KI.Reg7
import proofs.«409413_j30142080483538_1_alg».proof.Proof.Val.GinOps
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen Cert.KernelIdeal.Fr Cert.ReferenceIdeal.RefValue
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0
    ∧ win7_7.index t (0 : Fin 2) = t.val ∧ win7_7.index t (1 : Fin 2) = 0
    ∧ win7_8.index t (0 : Fin 2) = t.val ∧ win7_8.index t (1 : Fin 2) = 0 :=
  (by decide +kernel : ∀ t : Fin grid7.N, _)

section
variable (c : Dev nD) (t : Fin cfg7.N)

-- Entry (p, k) of block t of a row-tiled array is entry (2000·t + p, k) of the array; an untiled array is its own block.
theorem rd7_0 (p : Fin 2000) (k : Fin 64) (n : Fin 250000) (hn : n.val = t.val * 2000 + p.val) :
    (iblk7 V c 0 t : Vec Ideal S2000x64 .f32) (ix2 p k) = V c main_v163 (ix2 n k) := by
  have := idx7 t
  unfold iblk7
  rw [View.read_apply]
  exact congrArg (V c main_v163) (Shape.idx_ext₂ (by show win7_0.index t (0 : Fin 2) * 2000 + 1 * p.val = n.val; omega)
    (by show win7_0.index t (1 : Fin 2) * 64 + 1 * k.val = k.val; omega))

theorem rd7_1 (p : Fin 2000) (k : Fin 64) (n : Fin 250000) (hn : n.val = t.val * 2000 + p.val) :
    (iblk7 V c 1 t : Vec Ideal S2000x64 .f32) (ix2 p k) = V c main_v173 (ix2 n k) := by
  have := idx7 t
  unfold iblk7
  rw [View.read_apply]
  exact congrArg (V c main_v173) (Shape.idx_ext₂ (by show win7_1.index t (0 : Fin 2) * 2000 + 1 * p.val = n.val; omega)
    (by show win7_1.index t (1 : Fin 2) * 64 + 1 * k.val = k.val; omega))

theorem rd7_2 : (iblk7 V c 2 t : Vec Ideal S64x64 .f32) = V c main_arg14 := by
  have := idx7 t
  unfold iblk7
  funext y
  rw [View.read_apply]
  exact congrArg (V c main_arg14) (Shape.idx_ext₂ (by show win7_2.index t (0 : Fin 2) * 64 + 1 * (y 0).val = (y 0).val; omega)
    (by show win7_2.index t (1 : Fin 2) * 64 + 1 * (y 1).val = (y 1).val; omega))

theorem rd7_3 : (iblk7 V c 3 t : Vec Ideal S1x64 .f32) = V c main_v174 := by
  have := idx7 t
  unfold iblk7
  funext y
  rw [View.read_apply]
  exact congrArg (V c main_v174) (Shape.idx_ext₂ (by show win7_3.index t (0 : Fin 2) * 1 + 1 * (y 0).val = (y 0).val; omega)
    (by show win7_3.index t (1 : Fin 2) * 64 + 1 * (y 1).val = (y 1).val; omega))

theorem rd7_4 : (iblk7 V c 4 t : Vec Ideal S64x64 .f32) = V c main_arg16 := by
  have := idx7 t
  unfold iblk7
  funext y
  rw [View.read_apply]
  exact congrArg (V c main_arg16) (Shape.idx_ext₂ (by show win7_4.index t (0 : Fin 2) * 64 + 1 * (y 0).val = (y 0).val; omega)
    (by show win7_4.index t (1 : Fin 2) * 64 + 1 * (y 1).val = (y 1).val; omega))

theorem rd7_5 : (iblk7 V c 5 t : Vec Ideal S1x64 .f32) = V c main_v175 := by
  have := idx7 t
  unfold iblk7
  funext y
  rw [View.read_apply]
  exact congrArg (V c main_v175) (Shape.idx_ext₂ (by show win7_5.index t (0 : Fin 2) * 1 + 1 * (y 0).val = (y 0).val; omega)
    (by show win7_5.index t (1 : Fin 2) * 64 + 1 * (y 1).val = (y 1).val; omega))
end

section
variable (t : Fin cfg7.N) (p : Fin 2000) (n : Fin 250000) (hn : n.val = t.val * 2000 + p.val)
include hn

theorem emb7_6 (q : Fin 64) : ((cfg7.win 6).blk t).view.emb (ix2 p q) = ix2 n q := by
  have := idx7 t
  exact Shape.idx_ext₂ (by show win7_6.index t (0 : Fin 2) * 2000 + 1 * p.val = n.val; omega)
    (by show win7_6.index t (1 : Fin 2) * 64 + 1 * q.val = q.val; omega)

theorem emb7_7 (z : Fin 1) : ((cfg7.win 7).blk t).view.emb (ix2 p z) = ix2 n z := by
  have := idx7 t
  exact Shape.idx_ext₂ (by show win7_7.index t (0 : Fin 2) * 2000 + 1 * p.val = n.val; omega)
    (by show win7_7.index t (1 : Fin 2) * 1 + 1 * z.val = z.val; omega)

theorem emb7_8 (z : Fin 1) : ((cfg7.win 8).blk t).view.emb (ix2 p z) = ix2 n z := by
  have := idx7 t
  exact Shape.idx_ext₂ (by show win7_8.index t (0 : Fin 2) * 2000 + 1 * p.val = n.val; omega)
    (by show win7_8.index t (1 : Fin 2) * 1 + 1 * z.val = z.val; omega)
end

-- Row r of each output array lies in block r / 2000.
theorem tiles7_6 (i : S250000x64.Idx) :
    ∃ t : Fin cfg7.N, (cfg7.win 6).flush t = true ∧ i ∈ ((cfg7.win 6).blk t).view.set := by
  obtain ⟨n, q, rfl⟩ : ∃ (n : Fin 250000) (q : Fin 64), i = ix2 n q := ⟨i 0, i 1, eq_ix2 i⟩
  obtain ⟨t, p, h⟩ := rowSplit n
  refine ⟨t.cast N_7.symm, flush7_6 _, ?_⟩
  rw [← emb7_6 (t.cast N_7.symm) p n h q]
  exact View.emb_mem_set _ _

theorem tiles7_7 (i : S250000x1.Idx) :
    ∃ t : Fin cfg7.N, (cfg7.win 7).flush t = true ∧ i ∈ ((cfg7.win 7).blk t).view.set := by
  obtain ⟨n, q, rfl⟩ : ∃ (n : Fin 250000) (q : Fin 1), i = ix2 n q := ⟨i 0, i 1, eq_ix2 i⟩
  obtain ⟨t, p, h⟩ := rowSplit n
  refine ⟨t.cast N_7.symm, flush7_7 _, ?_⟩
  rw [← emb7_7 (t.cast N_7.symm) p n h q]
  exact View.emb_mem_set _ _

theorem tiles7_8 (i : S250000x1.Idx) :
    ∃ t : Fin cfg7.N, (cfg7.win 8).flush t = true ∧ i ∈ ((cfg7.win 8).blk t).view.set := by
  obtain ⟨n, q, rfl⟩ : ∃ (n : Fin 250000) (q : Fin 1), i = ix2 n q := ⟨i 0, i 1, eq_ix2 i⟩
  obtain ⟨t, p, h⟩ := rowSplit n
  refine ⟨t.cast N_7.symm, flush7_8 _, ?_⟩
  rw [← emb7_8 (t.cast N_7.symm) p n h q]
  exact View.emb_mem_set _ _

variable (c : Dev nD) (x agg : FVec Ideal Cert.ReferenceIdeal.S250000x64 .f32) (Wa : FVec Ideal Cert.ReferenceIdeal.S64x64 .f32)
    (ba : FVec Ideal Cert.ReferenceIdeal.S64 .f32) (Wb : FVec Ideal Cert.ReferenceIdeal.S64x64 .f32)
    (bb : FVec Ideal Cert.ReferenceIdeal.S64 .f32)
    (h0 : V c main_v163 = x) (h1 : V c main_v173 = agg) (h2 : V c main_arg14 = Wa) (h3 : V c main_v174 = row (F := Ideal) ba)
    (h4 : V c main_arg16 = Wb) (h5 : V c main_v175 = row (F := Ideal) bb)
include h0 h1 h2 h3 h4 h5

-- Row p of the three blocks written at step t: the reference's three arrays at row 2000·t + p.
theorem blk7 (t : Fin cfg7.N) (p : Fin 2000) :
    (∀ q : Fin 64, (dat7 V c).after 6 t (ix2 p q) = gin64 (F := Ideal) x agg Wa ba Wb bb (((cfg7.win 6).blk t).view.emb (ix2 p q)))
    ∧ (∀ z : Fin 1, (dat7 V c).after 7 t (ix2 p z) = col (F := Ideal) (rowsum (F := Ideal) (gin64 (F := Ideal) x agg Wa ba Wb bb)) (((cfg7.win 7).blk t).view.emb (ix2 p z)))
    ∧ ∀ z : Fin 1, (dat7 V c).after 8 t (ix2 p z) = col (F := Ideal) (rowsum (F := Ideal) (mulf (gin64 (F := Ideal) x agg Wa ba Wb bb) (gin64 (F := Ideal) x agg Wa ba Wb bb) : FVec Ideal Cert.ReferenceIdeal.S250000x64 .f32)) (((cfg7.win 8).blk t).view.emb (ix2 p z)) := by
  obtain ⟨n, hn⟩ : ∃ n : Fin 250000, n.val = t.val * 2000 + p.val :=
    ⟨⟨t.val * 2000 + p.val, by have := lt_of_lt_of_eq t.isLt N_7; have := p.isLt; omega⟩, rfl⟩
  rw [after7_6, after7_7, after7_8]
  unfold out7_6 out7_7 out7_8
  simp only [emb7_6 t p n hn, emb7_7 t p n hn, emb7_8 t p n hn, View.canon_unit_zero (S := S2000x64) hz, View.canon_unit_zero (S := S2000x1) hz, View.ld_unit_zero (S := S2000x64) hz,
    View.ld_unit_zero (S := S64x64) hz, View.ld_unit_zero (S := S1x64) hz, View.ld_unit_zero (S := S64x64) hz,
    rd7_2 V c t, rd7_3 V c t, rd7_4 V c t, rd7_5 V c t, h2, h3, h4, h5]
  have e0 := fun k => (rd7_0 V c t p k n hn).trans (congrFun h0 _)
  have e1 := fun k => (rd7_1 V c t p k n hn).trans (congrFun h1 _)
  exact ⟨k2_gin _ _ x agg Wa ba Wb bb p n e0 e1, k2_gin_sum _ _ x agg Wa ba Wb bb p n e0 e1, k2_gin_sumsq _ _ x agg Wa ba Wb bb p n e0 e1⟩

theorem final7_6 : (dat7 V c).arrAt 6 cfg7.N = gin64 (F := Ideal) x agg Wa ba Wb bb :=
  (dat7 V c).arrAt_eq_of_cover 6 _ (fun t _ => funext fun y => by
    obtain ⟨p, q, rfl⟩ : ∃ (p : Fin 2000) (q : Fin 64), y = ix2 p q := ⟨y 0, y 1, eq_ix2 y⟩
    exact (blk7 V c x agg Wa ba Wb bb h0 h1 h2 h3 h4 h5 t p).1 q) tiles7_6

theorem final7_7 : (dat7 V c).arrAt 7 cfg7.N = col (F := Ideal) (rowsum (F := Ideal) (gin64 (F := Ideal) x agg Wa ba Wb bb)) :=
  (dat7 V c).arrAt_eq_of_cover 7 _ (fun t _ => funext fun y => by
    obtain ⟨p, z, rfl⟩ : ∃ (p : Fin 2000) (z : Fin 1), y = ix2 p z := ⟨y 0, y 1, eq_ix2 y⟩
    exact (blk7 V c x agg Wa ba Wb bb h0 h1 h2 h3 h4 h5 t p).2.1 z) tiles7_7

theorem final7_8 : (dat7 V c).arrAt 8 cfg7.N = col (F := Ideal) (rowsum (F := Ideal) (mulf (gin64 (F := Ideal) x agg Wa ba Wb bb) (gin64 (F := Ideal) x agg Wa ba Wb bb) : FVec Ideal Cert.ReferenceIdeal.S250000x64 .f32)) :=
  (dat7 V c).arrAt_eq_of_cover 8 _ (fun t _ => funext fun y => by
    obtain ⟨p, z, rfl⟩ : ∃ (p : Fin 2000) (z : Fin 1), y = ix2 p z := ⟨y 0, y 1, eq_ix2 y⟩
    exact (blk7 V c x agg Wa ba Wb bb h0 h1 h2 h3 h4 h5 t p).2.2 z) tiles7_8

end Cert.KernelIdeal.Val
end
-- ==== Proof.Ref.LnAt.lean ====
import proofs.«409413_j30142080483538_1_alg».proof.Proof.Ref.Stages
import Idealize.ShloMosaic.PureOps.Ideal
import Idealize.ShloMosaic.Lib.ValueIdx
import Idealize.ShloMosaic.Lib.ValueLayout
import Idealize.ShloMosaic.Lib.Pipeline.Value

noncomputable section

namespace Cert.ReferenceIdeal.RefValue

open Cert.ReferenceIdeal Cert.ReferenceIdeal.Gen
open Idealize.ShloMosaic Idealize.ShloMosaic.ValueIdx Idealize.ShloMosaic.TcCoe Idealize.SL.Sem Idealize.ShloMosaic.StableHlo

theorem overChannels_apply (u : (⟨S250000, .f32⟩ : BufTy).Contents (Elt Ideal)) (r : Fin 250000) (q : Fin 64) :
    overChannels (F := Ideal) u (ix2 r q) = u (ix1 r) := by
  unfold overChannels
  refine (broadcastInDim_apply _ _ _ _ (ix2 r (0 : Fin 1)) fun a => ?_).trans (broadcastInDim_apply _ _ u _ (ix1 r) fun a => ?_)
  · match a with
    | ⟨0, _⟩ => rfl
    | ⟨1, _⟩ => rfl
  · match a with
    | ⟨0, _⟩ => rfl

theorem biasRows_apply (b : (⟨S64, .f32⟩ : BufTy).Contents (Elt Ideal)) (r : Fin 250000) (q : Fin 64) :
    biasRows (F := Ideal) b (ix2 r q) = b (ix1 q) := by
  unfold biasRows
  refine (broadcastInDim_apply _ _ _ _ (ix2 (0 : Fin 1) q) fun a => ?_).trans (broadcastInDim_apply _ _ b _ (ix1 q) fun a => ?_)
  · match a with
    | ⟨0, _⟩ => rfl
    | ⟨1, _⟩ => rfl
  · match a with
    | ⟨0, _⟩ => rfl

-- row-major position r * 1 + z of the column is position r of the vector
theorem col_apply (u : (⟨S250000, .f32⟩ : BufTy).Contents (Elt Ideal)) (r : Fin 250000) (z : Fin 1) :
    col (F := Ideal) u (ix2 r z) = u (ix1 r) := by
  unfold col
  refine shapeCast_apply u _ _ _ ?_
  rw [Shape.rowMajor_val_one, Shape.rowMajor_val_two]
  show r.val = r.val * 1 + z.val
  omega

theorem flat_col {F : FTy → Type} [FloatOps F] (u : (⟨S250000, .f32⟩ : BufTy).Contents (Elt F)) : flat (col u) = u :=
  shapeCast_shapeCast u _ _

theorem row_apply (b : (⟨S64, .f32⟩ : BufTy).Contents (Elt Ideal)) (z : Fin 1) (q : Fin 64) :
    row (F := Ideal) b (ix2 z q) = b (ix1 q) :=
  shapeCast_a_1a_apply b _ z q

theorem lnPerNode_apply (h : (⟨S250000x64, .f32⟩ : BufTy).Contents (Elt Ideal)) (mu va : (⟨S250000, .f32⟩ : BufTy).Contents (Elt Ideal))
    (w bias : (⟨S64, .f32⟩ : BufTy).Contents (Elt Ideal)) (r : Fin 250000) (q : Fin 64) :
    lnPerNode (F := Ideal) h mu va w bias (ix2 r q)
      = max (((h (ix2 r q) - mu (ix1 r)) * Ideal.rsqrt (va (ix1 r) + Ideal.ofBits .f32 0x3727C5AC#32))
          * w (ix1 q) + bias (ix1 q)) (Ideal.ofBits .f32 0x00000000#32) := by
  unfold lnPerNode
  rw [maximumf_apply, addf_apply, mulf_apply, mulf_apply, subf_apply, overChannels_apply, overChannels_apply, biasRows_apply, biasRows_apply]
  rfl

end Cert.ReferenceIdeal.RefValue

end
-- ==== Proof.Val.LnOps.lean ====
import proofs.«409413_j30142080483538_1_alg».proof.Proof.KI.Reg1
import proofs.«409413_j30142080483538_1_alg».proof.Proof.Ref.LnAt
import Idealize.ShloMosaic.Lib.ValueLayout
import Idealize.ShloMosaic.Lib.Pipeline.Value

noncomputable section

namespace Cert.KernelIdeal.Val

open Cert.KernelIdeal Cert.KernelIdeal.Gen Cert.KernelIdeal.Fr Cert.ReferenceIdeal.RefValue
open Idealize.ShloMosaic Idealize.ShloMosaic.ValueIdx Idealize.ShloMosaic.Pipeline Idealize.SL.Sem

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- An entry of a window's block is the array's entry at the block's offset plus the entry's own index.
theorem read_blk {G : Grid} {Val : EltTy → Type} (w : Window sig G) (t : Fin G.N) {k : Fin w.shape.rank → ℕ}
    (hk : w.index t = k) (A : w.arr.view.ty.Contents Val) (y : (w.xblock (G.coords t)).Idx) (i : w.shape.Idx)
    (hi : ∀ a, (i a : ℕ) = k a * w.size a + y a) : (w.blk t).view.read Val A y = w.arr.view.read Val A i := by
  subst hk
  rw [← show (w.rect t).emb y = i from funext fun a => Fin.ext ((w.rect_emb_val t y a).trans (hi a).symm)]
  rfl

-- An index between the block's offset and its end on every axis lies in the block.
theorem mem_blk {G : Grid} (w : Window sig G) (t : Fin G.N) {k : Fin w.shape.rank → ℕ} (hk : w.index t = k) (i : w.shape.Idx)
    (hi : ∀ a, k a * w.size a ≤ i a ∧ (i a : ℕ) < k a * w.size a + w.xsize (G.coords t) a) :
    w.arr.view.emb i ∈ (w.blk t).view.set := by
  subst hk
  rw [View.set_slice]
  exact Finset.mem_map_of_mem _ (Rect.mem_set_unit.2 hi)

-- Row `k * bm + p` of an array is row `p` of its block of `bm` rows at block index `(k, 0)`.
theorem rowblk {m n bm : ℕ} (k : ℕ) (p : Fin bm) (q : Fin n) (r : Fin m) (hr : r.val = k * bm + p.val) (a : Fin 2) :
    (ix2 r q a : ℕ) = ![k, 0] a * (⟨2, ![bm, n]⟩ : Shape).size a + ix2 p q a := by
  match a with
  | ⟨0, _⟩ => exact hr
  | ⟨1, _⟩ => exact (Nat.zero_add _).symm.trans (congrArg (· + q.val) (Nat.zero_mul n).symm)

-- Row `i 0` lies in the block of `bm` rows at block index `i 0 / bm`.
theorem rowcover {m n bm : ℕ} (hb : 0 < bm) (i : (⟨2, ![m, n]⟩ : Shape).Idx) (a : Fin 2) :
    ![(i 0).val / bm, 0] a * (⟨2, ![bm, n]⟩ : Shape).size a ≤ i a
      ∧ (i a : ℕ) < ![(i 0).val / bm, 0] a * (⟨2, ![bm, n]⟩ : Shape).size a + (⟨2, ![bm, n]⟩ : Shape).size a := by
  match a with
  | ⟨0, _⟩ => exact ⟨Nat.div_mul_le_self _ _, Nat.lt_div_mul_add hb⟩
  | ⟨1, _⟩ =>
    show 0 * n ≤ (i 1).val ∧ (i 1).val < 0 * n + n
    have := idx2_lt1 i
    omega

theorem hz : (![0, 0] : Fin 2 → Nat) = fun _ => 0 := funext fun a => by fin_cases a <;> rfl

-- The body's output at `(p, q)` is the layer-normalisation at `(r, q)` of arrays whose entries the five blocks hold.
theorem out_apply (x0 : Vec Ideal S2000x64 .f32) (x1 x2 : Vec Ideal S2000x1 .f32) (x3 x4 : Vec Ideal S1x64 .f32)
    (h : (⟨2, ![250000, 64]⟩ : Shape).Idx → Elt Ideal .f32) (mu va : (⟨1, ![250000]⟩ : Shape).Idx → Elt Ideal .f32)
    (w bias : (⟨1, ![64]⟩ : Shape).Idx → Elt Ideal .f32) (r : Fin 250000) (p : Fin 2000) (q : Fin 64)
    (e0 : x0 (ix2 p q) = h (ix2 r q)) (e1 : x1 (ix2 p (0 : Fin 1)) = mu (ix1 r))
    (e2 : x2 (ix2 p (0 : Fin 1)) = va (ix1 r)) (e3 : x3 (ix2 (0 : Fin 1) q) = w (ix1 q))
    (e4 : x4 (ix2 (0 : Fin 1) q) = bias (ix1 q)) :
    out1_5 x0 x1 x2 x3 x4 (ix2 p q) = lnPerNode (F := Ideal) h mu va w bias (ix2 r q) := by
  unfold out1_5
  rw [View.canon_unit_zero hz]
  simp only [View.ld_unit_zero (S := S2000x64) hz, View.ld_unit_zero (S := S2000x1) hz, View.ld_unit_zero (S := S1x64) hz]
  unfold k1_pay1
  simp only [shapeCast_self]
  rw [maximumf_apply, addf_apply, mulf_apply, mulf_apply, subf_apply]
  rw [broadcastTo_1b_ab_apply, broadcastTo_1b_ab_apply, broadcastTo_a1_ab_apply, broadcastTo_a1_ab_apply]
  rw [lnPerNode_apply, ← e0, ← e1, ← e2, ← e3, ← e4]
  rfl

-- Block indices at point `t`: `(t, 0)` for the row-blocked arrays, `(0, 0)` for the one-row arrays; the four regions share these maps and the body.
theorem idx : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![t.val, 0] :=
  (by decide +kernel : ∀ t : Fin grid1.N, _)

-- What the body leaves from block `t` of five arrays is block `t` of their layer-normalisation.
theorem blk_eq (t : Fin cfg1.N) (A0 : S250000x64.Idx → Elt Ideal .f32) (A1 A2 : S250000x1.Idx → Elt Ideal .f32)
    (A3 A4 : S1x64.Idx → Elt Ideal .f32) (h : (⟨2, ![250000, 64]⟩ : Shape).Idx → Elt Ideal .f32)
    (mu va : (⟨1, ![250000]⟩ : Shape).Idx → Elt Ideal .f32) (w bias : (⟨1, ![64]⟩ : Shape).Idx → Elt Ideal .f32)
    (h0 : A0 = h) (h1 : A1 = col (F := Ideal) mu) (h2 : A2 = col (F := Ideal) va) (h3 : A3 = row (F := Ideal) w)
    (h4 : A4 = row (F := Ideal) bias) :
    out1_5 ((win1_0.blk t).view.read (Elt Ideal) A0) ((win1_1.blk t).view.read (Elt Ideal) A1)
        ((win1_2.blk t).view.read (Elt Ideal) A2) ((win1_3.blk t).view.read (Elt Ideal) A3) ((win1_4.blk t).view.read (Elt Ideal) A4)
      = (win1_5.blk t).view.read (Elt Ideal) (lnPerNode (F := Ideal) h mu va w bias) := by
  subst h0 h1 h2 h3 h4
  obtain ⟨e0, e1, e2, e3, e4, e5⟩ := idx t
  refine funext fun (j : S2000x64.Idx) => ?_
  obtain ⟨p, q, rfl⟩ : ∃ (p : Fin 2000) (q : Fin 64), j = ix2 p q := ⟨j 0, j 1, eq_ix2 j⟩
  have hr : t.val * 2000 + p.val < 250000 := by have := p.isLt; have := t.isLt; have : cfg1.N = 125 := N_1; omega
  refine (out_apply _ _ _ _ _ A0 mu va w bias ⟨_, hr⟩ p q ?_ ?_ ?_ ?_ ?_).trans ?_
  · exact read_blk win1_0 t e0 _ _ _ (rowblk _ p q _ rfl)
  · exact (read_blk win1_1 t e1 _ _ (ix2 ⟨_, hr⟩ 0) (rowblk _ p 0 _ rfl)).trans (col_apply mu _ 0)
  · exact (read_blk win1_2 t e2 _ _ (ix2 ⟨_, hr⟩ 0) (rowblk _ p 0 _ rfl)).trans (col_apply va _ 0)
  · exact (read_blk win1_3 t e3 _ _ (ix2 0 q) (rowblk 0 0 q 0 rfl)).trans (row_apply w 0 q)
  · exact (read_blk win1_4 t e4 _ _ (ix2 0 q) (rowblk 0 0 q 0 rfl)).trans (row_apply bias 0 q)
  · exact (read_blk (Val := Elt Ideal) win1_5 t e5 (lnPerNode (F := Ideal) A0 mu va w bias) (ix2 p q) (ix2 ⟨_, hr⟩ q) (rowblk _ p q _ rfl)).symm

-- Every row of the output array lies in the block of some point.
theorem cover (i : S250000x64.Idx) : ∃ t : Fin cfg1.N, i ∈ (win1_5.blk t).view.set :=
  ⟨⟨(i 0).val / 2000, by have := idx2_lt0 i; have : cfg1.N = 125 := N_1; omega⟩,
    mem_blk win1_5 _ (idx _).2.2.2.2.2 i (rowcover (by decide) i)⟩

end Cert.KernelIdeal.Val

end
-- ==== Proof.Val.Ln1.lean ====
import proofs.«409413_j30142080483538_1_alg».proof.Proof.KI.Reg1
import proofs.«409413_j30142080483538_1_alg».proof.Proof.Val.LnOps

noncomputable section

namespace Cert.KernelIdeal.Val

open Cert.KernelIdeal Cert.KernelIdeal.Gen Cert.KernelIdeal.Fr Cert.ReferenceIdeal.RefValue
open Idealize.ShloMosaic Idealize.ShloMosaic.TcCoe Idealize.SL.Sem

variable (V : (c : Dev nD) → (b : Ref sig .tc) → Buf (Elt Ideal) ((c : Thread nD τ).loc b))

set_option maxHeartbeats 2000000 in
theorem final1_5 (c : Dev nD) (h : (⟨2, ![250000, 64]⟩ : Shape).Idx → Elt Ideal .f32)
    (mu va : (⟨1, ![250000]⟩ : Shape).Idx → Elt Ideal .f32) (w bias : (⟨1, ![64]⟩ : Shape).Idx → Elt Ideal .f32)
    (h0 : V c (Pipeline.arrRef spec1 0) = h) (h1 : V c (Pipeline.arrRef spec1 1) = col (F := Ideal) mu)
    (h2 : V c (Pipeline.arrRef spec1 2) = col (F := Ideal) va) (h3 : V c (Pipeline.arrRef spec1 3) = row (F := Ideal) w)
    (h4 : V c (Pipeline.arrRef spec1 4) = row (F := Ideal) bias) :
    (dat1 V c).arrAt 5 cfg1.N = lnPerNode (F := Ideal) h mu va w bias := by
  refine (dat1 V c).arrAt_eq_of_cover 5 _ (fun t _ => ?_) fun i => (cover i).imp fun t ht => ⟨flush1_5 t, ht⟩
  show (cfg1.win 5).cut (grid1.coords t) ((dat1 V c).after 5 t) = _
  rw [after1_5]
  exact blk_eq t _ _ _ _ _ h mu va w bias h0 h1 h2 h3 h4

end Cert.KernelIdeal.Val

end
-- ==== Proof.Val.Ln3.lean ====
import proofs.«409413_j30142080483538_1_alg».proof.Proof.KI.Reg3
import proofs.«409413_j30142080483538_1_alg».proof.Proof.Val.LnOps

noncomputable section

namespace Cert.KernelIdeal.Val

open Cert.KernelIdeal Cert.KernelIdeal.Gen Cert.KernelIdeal.Fr Cert.ReferenceIdeal.RefValue
open Idealize.ShloMosaic Idealize.ShloMosaic.TcCoe Idealize.SL.Sem

variable (V : (c : Dev nD) → (b : Ref sig .tc) → Buf (Elt Ideal) ((c : Thread nD τ).loc b))

set_option maxHeartbeats 2000000 in
theorem final3_5 (c : Dev nD) (h : (⟨2, ![250000, 64]⟩ : Shape).Idx → Elt Ideal .f32)
    (mu va : (⟨1, ![250000]⟩ : Shape).Idx → Elt Ideal .f32) (w bias : (⟨1, ![64]⟩ : Shape).Idx → Elt Ideal .f32)
    (h0 : V c (Pipeline.arrRef spec3 0) = h) (h1 : V c (Pipeline.arrRef spec3 1) = col (F := Ideal) mu)
    (h2 : V c (Pipeline.arrRef spec3 2) = col (F := Ideal) va) (h3 : V c (Pipeline.arrRef spec3 3) = row (F := Ideal) w)
    (h4 : V c (Pipeline.arrRef spec3 4) = row (F := Ideal) bias) :
    (dat3 V c).arrAt 5 cfg3.N = lnPerNode (F := Ideal) h mu va w bias := by
  refine (dat3 V c).arrAt_eq_of_cover 5 _ (fun t _ => ?_) fun i => (cover i).imp fun t ht => ⟨flush3_5 t, ht⟩
  show (cfg3.win 5).cut (grid3.coords t) ((dat3 V c).after 5 t) = _
  rw [after3_5]
  exact blk_eq t _ _ _ _ _ h mu va w bias h0 h1 h2 h3 h4

end Cert.KernelIdeal.Val

end
-- ==== Proof.Val.Ln6.lean ====
import proofs.«409413_j30142080483538_1_alg».proof.Proof.KI.Reg6
import proofs.«409413_j30142080483538_1_alg».proof.Proof.Val.LnOps

noncomputable section

namespace Cert.KernelIdeal.Val

open Cert.KernelIdeal Cert.KernelIdeal.Gen Cert.KernelIdeal.Fr Cert.ReferenceIdeal.RefValue
open Idealize.ShloMosaic Idealize.ShloMosaic.TcCoe Idealize.SL.Sem

variable (V : (c : Dev nD) → (b : Ref sig .tc) → Buf (Elt Ideal) ((c : Thread nD τ).loc b))

set_option maxHeartbeats 2000000 in
theorem final6_5 (c : Dev nD) (h : (⟨2, ![250000, 64]⟩ : Shape).Idx → Elt Ideal .f32)
    (mu va : (⟨1, ![250000]⟩ : Shape).Idx → Elt Ideal .f32) (w bias : (⟨1, ![64]⟩ : Shape).Idx → Elt Ideal .f32)
    (h0 : V c (Pipeline.arrRef spec6 0) = h) (h1 : V c (Pipeline.arrRef spec6 1) = col (F := Ideal) mu)
    (h2 : V c (Pipeline.arrRef spec6 2) = col (F := Ideal) va) (h3 : V c (Pipeline.arrRef spec6 3) = row (F := Ideal) w)
    (h4 : V c (Pipeline.arrRef spec6 4) = row (F := Ideal) bias) :
    (dat6 V c).arrAt 5 cfg6.N = lnPerNode (F := Ideal) h mu va w bias := by
  refine (dat6 V c).arrAt_eq_of_cover 5 _ (fun t _ => ?_) fun i => (cover i).imp fun t ht => ⟨flush6_5 t, ht⟩
  show (cfg6.win 5).cut (grid6.coords t) ((dat6 V c).after 5 t) = _
  rw [after6_5]
  exact blk_eq t _ _ _ _ _ h mu va w bias h0 h1 h2 h3 h4

end Cert.KernelIdeal.Val

end
-- ==== Proof.Val.Ln8.lean ====
import proofs.«409413_j30142080483538_1_alg».proof.Proof.KI.Reg8
import proofs.«409413_j30142080483538_1_alg».proof.Proof.Val.LnOps

noncomputable section

namespace Cert.KernelIdeal.Val

open Cert.KernelIdeal Cert.KernelIdeal.Gen Cert.KernelIdeal.Fr Cert.ReferenceIdeal.RefValue
open Idealize.ShloMosaic Idealize.ShloMosaic.TcCoe Idealize.SL.Sem

variable (V : (c : Dev nD) → (b : Ref sig .tc) → Buf (Elt Ideal) ((c : Thread nD τ).loc b))

set_option maxHeartbeats 2000000 in
theorem final8_5 (c : Dev nD) (h : (⟨2, ![250000, 64]⟩ : Shape).Idx → Elt Ideal .f32)
    (mu va : (⟨1, ![250000]⟩ : Shape).Idx → Elt Ideal .f32) (w bias : (⟨1, ![64]⟩ : Shape).Idx → Elt Ideal .f32)
    (h0 : V c (Pipeline.arrRef spec8 0) = h) (h1 : V c (Pipeline.arrRef spec8 1) = col (F := Ideal) mu)
    (h2 : V c (Pipeline.arrRef spec8 2) = col (F := Ideal) va) (h3 : V c (Pipeline.arrRef spec8 3) = row (F := Ideal) w)
    (h4 : V c (Pipeline.arrRef spec8 4) = row (F := Ideal) bias) :
    (dat8 V c).arrAt 5 cfg8.N = lnPerNode (F := Ideal) h mu va w bias := by
  refine (dat8 V c).arrAt_eq_of_cover 5 _ (fun t _ => ?_) fun i => (cover i).imp fun t ht => ⟨flush8_5 t, ht⟩
  show (cfg8.win 5).cut (grid8.coords t) ((dat8 V c).after 5 t) = _
  rw [after8_5]
  exact blk_eq t _ _ _ _ _ h mu va w bias h0 h1 h2 h3 h4

end Cert.KernelIdeal.Val

end
-- ==== Proof.Ref.Consts.lean ====
import Idealize.ShloMosaic.PureOps.Ideal
import Idealize.ShloMosaic.PureOps.Ideal.Laws
import Idealize.ShloMosaic.Lib.IdealHost

noncomputable section

namespace Cert.ReferenceIdeal.RefValue

open Idealize.ShloMosaic
open scoped BigOperators

theorem ofBits_f32_0 : Ideal.ofBits .f32 0x00000000#32 = 0 := Ideal.ofBits_zero_f32

theorem ofBits_f32_1 : Ideal.ofBits .f32 0x3F800000#32 = 1 := Ideal.ofBits_one_f32

-- exponent field 133, fraction 0: 2^23 * 2^(133 - 127 - 23)
theorem ofBits_f32_64 : Ideal.ofBits .f32 0x42800000#32 = ((64 : ℝ) : EReal) := by
  simp [Ideal.ofBits, Ideal.ieee, -EReal.coe_mul]; norm_num

-- exponent field 110, fraction 2606508: (2^23 + 2606508) * 2^(110 - 127 - 23), a positive real
theorem ofBits_f32_eps : ∃ e : ℝ, 0 < e ∧ Ideal.ofBits .f32 0x3727C5AC#32 = (e : EReal) :=
  ⟨(10995116 : ℝ) * (2 : ℝ) ^ (-40 : ℤ), by positivity, by simp [Ideal.ofBits, Ideal.ieee, -EReal.coe_mul]⟩

-- the inclusion of the reals is additive, so it commutes with finite sums
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

theorem coe_max (x y : ℝ) : ((max x y : ℝ) : EReal) = max (x : EReal) (y : EReal) :=
  EReal.coe_strictMono.monotone.map_max

theorem div_coe_coe (x : ℝ) {y : ℝ} (hy : y ≠ 0) : Ideal.div (x : EReal) (y : EReal) = ((x / y : ℝ) : EReal) := by
  rw [Ideal.div_coe hy, ← EReal.coe_mul, mul_one_div]

-- a scatter update is kept at element i iff on each axis start + window coordinate is i's coordinate
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i hc
    rw [Option.some.injEq, funext_iff]
    exact forall_congr' fun a => by simp only [Fin.ext_iff]; have := hc a; omega
  · rename_i hc
    refine iff_of_false (by simp) fun h => hc fun a => ?_
    have := h a; have := (i a).isLt; omega

end Cert.ReferenceIdeal.RefValue

end
-- ==== Proof.Ref.PoolLaw.lean ====
import proofs.«409413_j30142080483538_1_alg».proof.Proof.Ref.Stages
import proofs.«409413_j30142080483538_1_alg».proof.Proof.Ref.Consts
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen
open Idealize.ShloMosaic Idealize.ShloMosaic.ValueIdx
open scoped BigOperators

theorem pool_start0 (idx : IVec S250000x1 32) (n : Fin 250000) (q : Fin 64) :
    scatter_S1024x64_S250000x1_S250000x64_1_0_0_1.start (ix2 n q) idx (0 : Fin 2) = (idx (ix2 n (0 : Fin 1))).toInt := by
  unfold ScatterDims.start
  rw [dif_pos (by decide)]
  refine congrArg (fun k => (idx k).toInt) (funext fun b => Fin.ext ?_)
  match b with
  | ⟨0, _⟩ => rfl
  | ⟨1, _⟩ => rfl

theorem pool_start1 (idx : IVec S250000x1 32) (n : Fin 250000) (q : Fin 64) :
    scatter_S1024x64_S250000x1_S250000x64_1_0_0_1.start (ix2 n q) idx (1 : Fin 2) = 0 := by
  unfold ScatterDims.start
  rw [dif_neg (by decide)]

theorem pool_window0 (n : Fin 250000) (q : Fin 64) :
    scatter_S1024x64_S250000x1_S250000x64_1_0_0_1.window (ix2 n q) (0 : Fin 2) = 0 := by
  unfold ScatterDims.window
  rw [dif_neg (by decide)]

theorem pool_window1 (n : Fin 250000) (q : Fin 64) :
    scatter_S1024x64_S250000x1_S250000x64_1_0_0_1.window (ix2 n q) (1 : Fin 2) = q.val := by
  unfold ScatterDims.window
  rw [dif_pos (by decide)]
  rfl

theorem toInt_eq_iff_eq_ofNat (w : BitVec 32) (g : Fin 1024) : w.toInt = (g.val : ℤ) ↔ w = BitVec.ofNat 32 g.val := by
  have hg := g.isLt
  have e : (BitVec.ofNat 32 g.val).toInt = (g.val : ℤ) := by
    rw [BitVec.toInt_eq_toNat_cond, BitVec.toNat_ofNat]
    have : g.val % 2 ^ 32 = g.val := Nat.mod_eq_of_lt (by omega)
    rw [this, if_pos (by omega)]
  constructor
  · intro h; exact BitVec.eq_of_toInt_eq (h.trans e.symm)
  · intro h; rw [h, e]

theorem segIdx_apply (b : (⟨S250000, .i32⟩ : BufTy).Contents (Elt Ideal)) (n : Fin 250000) :
    segIdx (F := Ideal) b (ix2 n (0 : Fin 1)) = b (ix1 n) := by
  unfold segIdx
  refine broadcastInDim_apply _ _ b (ix2 n (0 : Fin 1)) (ix1 n) fun a => ?_
  match a with
  | ⟨0, _⟩ => rfl

theorem colI_apply (b : (⟨S250000, .i32⟩ : BufTy).Contents (Elt Ideal)) (n : Fin 250000) :
    colI (F := Ideal) b (ix2 n (0 : Fin 1)) = b (ix1 n) := by
  unfold colI
  refine shapeCast_apply b _ (ix2 n (0 : Fin 1)) (ix1 n) ?_
  rw [Shape.rowMajor_val_one, Shape.rowMajor_val_two]
  show n.val = n.val * 1 + 0
  omega

theorem pool_lands (b : (⟨S250000, .i32⟩ : BufTy).Contents (Elt Ideal)) (n : Fin 250000) (q' : Fin 64) (g : Fin 1024) (q : Fin 64) :
    scatter_S1024x64_S250000x1_S250000x64_1_0_0_1.resultIdx? (ix2 n q') (segIdx (F := Ideal) b) = some (ix2 g q)
      ↔ (b (ix1 n) = BitVec.ofNat 32 g.val ∧ q' = q) := by
  rw [resultIdx?_eq_some_iff, Fin.forall_fin_two, pool_start0, pool_start1, pool_window0, pool_window1, segIdx_apply]
  show (b (ix1 n)).toInt + ((0 : ℕ) : ℤ) = (g.val : ℤ) ∧ (0 : ℤ) + ((q'.val : ℕ) : ℤ) = (q.val : ℤ) ↔ _
  rw [Nat.cast_zero, add_zero, zero_add, toInt_eq_iff_eq_ofNat, Nat.cast_inj, Fin.val_inj]

theorem pool_apply (x : (⟨S250000x64, .f32⟩ : BufTy).Contents (Elt Ideal)) (b : (⟨S250000, .i32⟩ : BufTy).Contents (Elt Ideal))
    (g : Fin 1024) (q : Fin 64) :
    pool (F := Ideal) x b (ix2 g q) = ∑ n : Fin 250000, if b (ix1 n) = BitVec.ofNat 32 g.val then x (ix2 n q) else 0 := by
  unfold pool Host.scatterAdd
  rw [Ideal.hostScatterAdd_def]
  unfold Ideal.hostScatterAdd
  have hz : (broadcastInDim S1024x64 ![] bcast_S_S1024x64 (constant (F := Ideal) S_ .f32 0x00000000#32)) (ix2 g q) = 0 :=
    Ideal.ofBits_zero_f32
  rw [hz, zero_add, Finset.sum_filter, sum_idx2]
  refine Finset.sum_congr rfl fun n _ => ?_
  rw [Finset.sum_congr rfl fun q' _ => if_congr (pool_lands b n q' g q) rfl rfl]
  by_cases hb : b (ix1 n) = BitVec.ofNat 32 g.val
  · simp only [hb, true_and, if_true, Finset.sum_ite_eq', Finset.mem_univ]
  · simp only [hb, false_and, if_false, Finset.sum_const_zero]

def tileRow (t : Fin 125) (r : Fin 2000) : Fin 250000 := ⟨2000 * t.val + r.val, by omega⟩

theorem sum_nodes_eq_sum_tiles {M : Type*} [AddCommMonoid M] (f : Fin 250000 → M) :
    ∑ n : Fin 250000, f n = ∑ t : Fin 125, ∑ r : Fin 2000, f (tileRow t r) := by
  have e : ∑ n : Fin 250000, f n = ∑ p : Fin 125 × Fin 2000, f (finProdFinEquiv p) :=
    (Equiv.sum_comp (finProdFinEquiv (m := 125) (n := 2000)) f).symm
  rw [e, Fintype.sum_prod_type]
  refine Finset.sum_congr rfl fun t _ => Finset.sum_congr rfl fun r _ => congrArg f (Fin.ext ?_)
  show r.val + 2000 * t.val = 2000 * t.val + r.val
  omega

def poolTile (x : (⟨S250000x64, .f32⟩ : BufTy).Contents (Elt Ideal)) (b : (⟨S250000, .i32⟩ : BufTy).Contents (Elt Ideal))
    (g : Fin 1024) (q : Fin 64) (t : Fin 125) : EReal :=
  ∑ r : Fin 2000, if b (ix1 (tileRow t r)) = BitVec.ofNat 32 g.val then x (ix2 (tileRow t r) q) else 0

theorem pool_eq_sum_tiles (x : (⟨S250000x64, .f32⟩ : BufTy).Contents (Elt Ideal)) (b : (⟨S250000, .i32⟩ : BufTy).Contents (Elt Ideal))
    (g : Fin 1024) (q : Fin 64) :
    pool (F := Ideal) x b (ix2 g q) = ∑ t : Fin 125, poolTile x b g q t := by
  rw [pool_apply, sum_nodes_eq_sum_tiles]
  rfl

end Cert.ReferenceIdeal.RefValue

end
-- ==== Proof.Val.PoolOps.lean ====
import proofs.«409413_j30142080483538_1_alg».proof.Proof.Gen.KernelIdeal.Skeleton
import proofs.«409413_j30142080483538_1_alg».proof.Proof.Ref.Stages
import proofs.«409413_j30142080483538_1_alg».proof.Proof.Ref.PoolLaw
import Idealize.ShloMosaic.PureOps.Ideal.Laws
import Idealize.ShloMosaic.Lib.ValueIdx

noncomputable section

namespace Cert.KernelIdeal.Val

open Cert.KernelIdeal Cert.KernelIdeal.Gen Cert.ReferenceIdeal.RefValue
open Idealize.ShloMosaic Idealize.ShloMosaic.ValueIdx
open scoped BigOperators

-- An equality bit, widened to a word and read as a signed integer, is the indicator of the equality.
theorem indicator_of_cmpi (w y : BitVec 32) :
    FloatOps.sitofp (F := Ideal) .f32 ((IntOp.cmpi .eq w y).setWidth 32) = if w = y then (1 : EReal) else 0 := by
  have hc : ∀ c : Bool, ((BitVec.ofBool c).setWidth 32).toInt = if c then 1 else 0 := by decide
  show ((((BitVec.ofBool (w == y)).setWidth 32).toInt : ℝ) : EReal) = _
  rw [hc]
  by_cases h : w = y <;> simp [h]

-- The one-hot operand is 1 exactly where the row's graph number is the column number.
theorem onehot_apply (v6 : IVec S2000x1 32) (r : Fin 2000) (g : Fin 1024) :
    (truncf (F := Ideal) .bf16 (sitofp (F := Ideal) .f32 (extui 32 (cmpi .eq (broadcastTo S2000x1024 v6 broadcasts_S2000x1_S2000x1024)
        (iota .tc S2000x1024 32 [1] iota_S2000x1024_d1_w32)) natLt_1_32)) bitsLt_bf16_f32) (ix2 r g)
      = if v6 (ix2 r (0 : Fin 1)) = BitVec.ofNat 32 g.val then (1 : EReal) else 0 := by
  refine Eq.trans ?_ (indicator_of_cmpi _ _)
  show FloatOps.sitofp (F := Ideal) .f32 ((IntOp.cmpi .eq (broadcastTo S2000x1024 v6 broadcasts_S2000x1_S2000x1024 (ix2 r g))
      (iota .tc S2000x1024 32 [1] iota_S2000x1024_d1_w32 (ix2 r g))).setWidth 32) = _
  rw [iota_single_apply, broadcastTo_apply v6 _ (ix2 r g) (ix2 r (0 : Fin 1)) fun a => by
    match a with
    | ⟨0, _⟩ => rfl
    | ⟨1, _⟩ => rfl]

-- The matmul contracts the tile's 2000 rows: into the zero block it leaves the sum of the products.
theorem matmul_pool_apply (L : FVec Ideal S2000x1024 .bf16) (R : FVec Ideal S2000x64 .bf16) (g : Fin 1024) (q : Fin 64) :
    matmul dot_S2000x1024_S2000x64_S1024x64_0_0_1_1_n_n none L R (constant (F := Ideal) S1024x64 .f32 0x00000000#32) (ix2 g q)
      = ∑ r : Fin 2000, L (ix2 r g) * R (ix2 r q) := by
  refine (Ideal.matmul_constant_zero_apply _ none L R (ix2 g q)).trans ?_
  rw [← Equiv.sum_comp (contrEquiv1 dot_S2000x1024_S2000x64_S1024x64_0_0_1_1_n_n 2000 rfl rfl).symm]
  refine Finset.sum_congr rfl fun r _ => ?_
  have hk := contrEquiv1_symm_val dot_S2000x1024_S2000x64_S1024x64_0_0_1_1_n_n 2000 rfl rfl r
  congr 2 <;> funext a <;> apply Fin.ext <;> match a with
    | ⟨0, _⟩ => exact (DotDims.lhsIdx_val_of_single _ rfl _ _).trans hk
    | ⟨1, _⟩ => rfl

theorem k4_pay1_apply (i : S1024x64.Idx) : (k4_pay1 (F := Ideal)) i = 0 := by
  unfold k4_pay1
  rw [shapeCast_self]
  exact Ideal.ofBits_zero_f32

-- The accumulating block adds to the scratch, at graph row g, the tile's rows whose graph number is g.
theorem k4_pay2_apply (xt : Vec Ideal S2000x64 .f32) (bt : Vec Ideal S2000x1 .i32) (a : Vec Ideal S1024x64 .f32)
    (g : Fin 1024) (q : Fin 64) :
    k4_pay2 xt bt a (ix2 g q)
      = a (ix2 g q) + ∑ r : Fin 2000, if bt (ix2 r (0 : Fin 1)) = BitVec.ofNat 32 g.val then xt (ix2 r q) else 0 := by
  unfold k4_pay2
  simp only [shapeCast_self]
  refine (addf_apply _ _ _).trans (congrArg (a (ix2 g q) + ·) ((matmul_pool_apply _ _ g q).trans ?_))
  refine Finset.sum_congr rfl fun r _ => ?_
  rw [onehot_apply, truncf_apply, ite_mul, one_mul, zero_mul]

-- Starting at zero and adding tile after tile, the scratch ends at the sum over all 125 tiles: the pooled sum.
theorem pool_of_fold {N : ℕ} (hN : N = 125)
    (x : (⟨S250000x64, .f32⟩ : BufTy).Contents (Elt Ideal)) (b : (⟨S250000, .i32⟩ : BufTy).Contents (Elt Ideal))
    (X : Fin N → Vec Ideal S2000x64 .f32) (B : Fin N → Vec Ideal S2000x1 .i32)
    (hX : ∀ t r q, X t (ix2 r q) = x (ix2 (tileRow ⟨t, lt_of_lt_of_eq t.isLt hN⟩ r) q))
    (hB : ∀ t r, B t (ix2 r (0 : Fin 1)) = b (ix1 (tileRow ⟨t, lt_of_lt_of_eq t.isLt hN⟩ r)))
    (A : (n : ℕ) → n < N → Vec Ideal S1024x64 .f32)
    (h0 : ∀ h, A 0 h = k4_pay2 (X ⟨0, h⟩) (B ⟨0, h⟩) (k4_pay1 (F := Ideal)))
    (hs : ∀ n h, A (n + 1) h = k4_pay2 (X ⟨n + 1, h⟩) (B ⟨n + 1, h⟩) (A n (Nat.lt_of_succ_lt h)))
    (n : ℕ) (h : n < N) (hn : n = 124) : A n h = pool (F := Ideal) x b := by
  subst hN hn
  have tile : ∀ (t : Fin 125) (g : Fin 1024) (q : Fin 64),
      (∑ r : Fin 2000, if B t (ix2 r (0 : Fin 1)) = BitVec.ofNat 32 g.val then X t (ix2 r q) else 0) = poolTile x b g q t :=
    fun t g q => by
      unfold poolTile
      exact Finset.sum_congr rfl fun r _ => by rw [hB, hX]
  have key : ∀ (n : ℕ) (h : n < 125) (g : Fin 1024) (q : Fin 64),
      A n h (ix2 g q) = ∑ k : Fin (n + 1), poolTile x b g q ⟨k.val, by omega⟩ := by
    intro n
    induction n with
    | zero => intro h g q; rw [h0, k4_pay2_apply, k4_pay1_apply, zero_add, tile, Fin.sum_univ_one]; rfl
    | succ n ih => intro h g q; rw [hs, k4_pay2_apply, ih, tile, Fin.sum_univ_castSucc (n := n + 1)]; rfl
  funext j
  obtain ⟨g, q, rfl⟩ : ∃ (g : Fin 1024) (q : Fin 64), j = ix2 g q := ⟨j 0, j 1, eq_ix2 j⟩
  rw [key, pool_eq_sum_tiles]

end Cert.KernelIdeal.Val

end
-- ==== Proof.Val.Pool4.lean ====
import proofs.«409413_j30142080483538_1_alg».proof.Proof.KI.Reg4
import proofs.«409413_j30142080483538_1_alg».proof.Proof.Val.PoolOps
import Idealize.ShloMosaic.Lib.ValueLayout
import Idealize.ShloMosaic.Lib.Pipeline.Value

noncomputable section

namespace Cert.KernelIdeal.Val

open Cert.KernelIdeal Cert.KernelIdeal.Gen Cert.KernelIdeal.Fr Cert.ReferenceIdeal.RefValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

abbrev last4 : Fin cfg4.N := ⟨124, by rw [show cfg4.N = 125 from N_4]; decide⟩

-- Point t's node-row block is rows 2000 t … 2000 t + 1999 of the node array.
theorem xblk4_apply (c : Dev nD) (t : Fin cfg4.N) (r : Fin 2000) (q : Fin 64) :
    (iblk4 V c 0 t : Vec Ideal S2000x64 .f32) (ix2 r q)
      = (V c main_v99 : S250000x64.Idx → Elt Ideal .f32) (ix2 (tileRow ⟨t, lt_of_lt_of_eq t.isLt N_4⟩ r) q) := by
  obtain ⟨e0, e1, -⟩ := idx_facts4 t
  unfold iblk4
  rw [View.read_apply]
  show V c main_v99 _ = V c main_v99 _
  congr 1
  funext a
  apply Fin.ext
  match a with
  | ⟨0, _⟩ => show win4_0.index t (0 : Fin 2) * 2000 + 1 * r.val = 2000 * t.val + r.val; rw [e0]; omega
  | ⟨1, _⟩ => show win4_0.index t (1 : Fin 2) * 64 + 1 * q.val = q.val; rw [e1]; omega

-- Point t's graph-number block is the same rows of the graph-number column.
theorem bblk4_apply (c : Dev nD) (t : Fin cfg4.N) (r : Fin 2000) :
    (iblk4 V c 1 t : Vec Ideal S2000x1 .i32) (ix2 r (0 : Fin 1))
      = (V c main_v100 : S250000x1.Idx → Elt Ideal .i32) (ix2 (tileRow ⟨t, lt_of_lt_of_eq t.isLt N_4⟩ r) (0 : Fin 1)) := by
  obtain ⟨-, -, e2, e3, -⟩ := idx_facts4 t
  unfold iblk4
  rw [View.read_apply]
  show V c main_v100 _ = V c main_v100 _
  congr 1
  funext a
  apply Fin.ext
  match a with
  | ⟨0, _⟩ => show win4_1.index t (0 : Fin 2) * 2000 + 1 * r.val = 2000 * t.val + r.val; rw [e2]; omega
  | ⟨1, _⟩ => show win4_1.index t (1 : Fin 2) * 1 + 1 * 0 = 0; rw [e3]

theorem zoff4 (t : Fin cfg4.N) : (fun a => win4_2.index t a * main_v101.ty.shape.size a) = fun _ => 0 := by
  obtain ⟨-, -, -, -, e4, e5⟩ := idx_facts4 t
  funext a
  match a with
  | ⟨0, _⟩ => show win4_2.index t (0 : Fin 2) * 1024 = 0; rw [e4]
  | ⟨1, _⟩ => show win4_2.index t (1 : Fin 2) * 64 = 0; rw [e5]

theorem flushed4_2 (c : Dev nD) (x : (⟨S250000x64, .f32⟩ : BufTy).Contents (Elt Ideal)) (b : (⟨S250000, .i32⟩ : BufTy).Contents (Elt Ideal))
    (h0 : V c main_v99 = x) (h1 : V c main_v100 = colI (F := Ideal) b) (t : Fin cfg4.N) (hf : (cfg4.win 2).flush t = true) :
    (dat4 V c).flushed 2 t = ((cfg4.win 2).blk t).view.read (Elt Ideal) (pool (F := Ideal) x b) := by
  have hN : cfg4.N = 125 := N_4
  have ht : t.val = 124 := by have := (flush4_2 t).mp hf; have := t.isLt; omega
  show (cfg4.win 2).cut (grid4.coords t) ((dat4 V c).after 2 t) = _
  rw [after4_2, pool_of_fold N_4 x b (iblk4 V c 0) (iblk4 V c 1) (fun t r q => by rw [xblk4_apply, h0])
    (fun t r => by rw [bblk4_apply, h1, colI_apply]) (acc4 V c) (fun _ => acc4_zero ..) (fun _ _ => acc4_succ ..)
    t.val t.isLt ht]
  exact (Memref.read_access_unit_zero (Elt Ideal) main_v101 (zoff4 t) (fun a => by rw [congrFun (zoff4 t) a]; simp) (pool (F := Ideal) x b)).symm

-- The array after the region is the pooled sum of the node rows.
theorem final4_2 (c : Dev nD) (x : (⟨S250000x64, .f32⟩ : BufTy).Contents (Elt Ideal)) (b : (⟨S250000, .i32⟩ : BufTy).Contents (Elt Ideal))
    (h0 : V c main_v99 = x) (h1 : V c main_v100 = colI (F := Ideal) b) :
    (dat4 V c).arrAt 2 cfg4.N = pool (F := Ideal) x b :=
  (dat4 V c).arrAt_eq_of_cover 2 (pool (F := Ideal) x b) (flushed4_2 V c x b h0 h1) fun i =>
    ⟨last4, (flush4_2 last4).mpr rfl, by
      show i ∈ ((View.whole main_v101).slice (win4_2.rect last4)).set
      rw [View.set_slice_whole, Rect.mem_set_unit]
      intro a
      show win4_2.index last4 a * main_v101.ty.shape.size a ≤ (i a : Nat)
        ∧ (i a : Nat) < win4_2.index last4 a * main_v101.ty.shape.size a + main_v101.ty.shape.size a
      rw [congrFun (zoff4 last4) a, Nat.zero_add]
      exact ⟨Nat.zero_le _, (i a).isLt⟩⟩

end Cert.KernelIdeal.Val

end
-- ==== Proof.Val.Pool9.lean ====
import proofs.«409413_j30142080483538_1_alg».proof.Proof.KI.Reg9
import proofs.«409413_j30142080483538_1_alg».proof.Proof.Val.PoolOps
import Idealize.ShloMosaic.Lib.ValueLayout
import Idealize.ShloMosaic.Lib.Pipeline.Value

noncomputable section

namespace Cert.KernelIdeal.Val

open Cert.KernelIdeal Cert.KernelIdeal.Gen Cert.KernelIdeal.Fr Cert.ReferenceIdeal.RefValue
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0 :=
  (by decide +kernel : ∀ t : Fin grid9.N, _)

abbrev last9 : Fin cfg9.N := ⟨124, by rw [show cfg9.N = 125 from N_9]; decide⟩

-- Point t's node-row block is rows 2000 t … 2000 t + 1999 of the node array.
theorem xblk9_apply (c : Dev nD) (t : Fin cfg9.N) (r : Fin 2000) (q : Fin 64) :
    (iblk9 V c 0 t : Vec Ideal S2000x64 .f32) (ix2 r q)
      = (V c main_v207 : S250000x64.Idx → Elt Ideal .f32) (ix2 (tileRow ⟨t, lt_of_lt_of_eq t.isLt N_9⟩ r) q) := by
  obtain ⟨e0, e1, -⟩ := idx_facts9 t
  unfold iblk9
  rw [View.read_apply]
  show V c main_v207 _ = V c main_v207 _
  congr 1
  funext a
  apply Fin.ext
  match a with
  | ⟨0, _⟩ => show win9_0.index t (0 : Fin 2) * 2000 + 1 * r.val = 2000 * t.val + r.val; rw [e0]; omega
  | ⟨1, _⟩ => show win9_0.index t (1 : Fin 2) * 64 + 1 * q.val = q.val; rw [e1]; omega

-- Point t's graph-number block is the same rows of the graph-number column.
theorem bblk9_apply (c : Dev nD) (t : Fin cfg9.N) (r : Fin 2000) :
    (iblk9 V c 1 t : Vec Ideal S2000x1 .i32) (ix2 r (0 : Fin 1))
      = (V c main_v208 : S250000x1.Idx → Elt Ideal .i32) (ix2 (tileRow ⟨t, lt_of_lt_of_eq t.isLt N_9⟩ r) (0 : Fin 1)) := by
  obtain ⟨-, -, e2, e3, -⟩ := idx_facts9 t
  unfold iblk9
  rw [View.read_apply]
  show V c main_v208 _ = V c main_v208 _
  congr 1
  funext a
  apply Fin.ext
  match a with
  | ⟨0, _⟩ => show win9_1.index t (0 : Fin 2) * 2000 + 1 * r.val = 2000 * t.val + r.val; rw [e2]; omega
  | ⟨1, _⟩ => show win9_1.index t (1 : Fin 2) * 1 + 1 * 0 = 0; rw [e3]

theorem zoff9 (t : Fin cfg9.N) : (fun a => win9_2.index t a * main_v209.ty.shape.size a) = fun _ => 0 := by
  obtain ⟨-, -, -, -, e4, e5⟩ := idx_facts9 t
  funext a
  match a with
  | ⟨0, _⟩ => show win9_2.index t (0 : Fin 2) * 1024 = 0; rw [e4]
  | ⟨1, _⟩ => show win9_2.index t (1 : Fin 2) * 64 = 0; rw [e5]

theorem flushed9_2 (c : Dev nD) (x : (⟨S250000x64, .f32⟩ : BufTy).Contents (Elt Ideal)) (b : (⟨S250000, .i32⟩ : BufTy).Contents (Elt Ideal))
    (h0 : V c main_v207 = x) (h1 : V c main_v208 = colI (F := Ideal) b) (t : Fin cfg9.N) (hf : (cfg9.win 2).flush t = true) :
    (dat9 V c).flushed 2 t = ((cfg9.win 2).blk t).view.read (Elt Ideal) (pool (F := Ideal) x b) := by
  have hN : cfg9.N = 125 := N_9
  have ht : t.val = 124 := by have := (flush9_2 t).mp hf; have := t.isLt; omega
  show (cfg9.win 2).cut (grid9.coords t) ((dat9 V c).after 2 t) = _
  rw [after9_2, pool_of_fold N_9 x b (iblk9 V c 0) (iblk9 V c 1) (fun t r q => by rw [xblk9_apply, h0])
    (fun t r => by rw [bblk9_apply, h1, colI_apply]) (acc9 V c) (fun _ => acc9_zero ..) (fun _ _ => acc9_succ ..)
    t.val t.isLt ht]
  exact (Memref.read_access_unit_zero (Elt Ideal) main_v209 (zoff9 t) (fun a => by rw [congrFun (zoff9 t) a]; simp) (pool (F := Ideal) x b)).symm

-- The array after the region is the pooled sum of the node rows.
theorem final9_2 (c : Dev nD) (x : (⟨S250000x64, .f32⟩ : BufTy).Contents (Elt Ideal)) (b : (⟨S250000, .i32⟩ : BufTy).Contents (Elt Ideal))
    (h0 : V c main_v207 = x) (h1 : V c main_v208 = colI (F := Ideal) b) :
    (dat9 V c).arrAt 2 cfg9.N = pool (F := Ideal) x b :=
  (dat9 V c).arrAt_eq_of_cover 2 (pool (F := Ideal) x b) (flushed9_2 V c x b h0 h1) fun i =>
    ⟨last9, (flush9_2 last9).mpr rfl, by
      show i ∈ ((View.whole main_v209).slice (win9_2.rect last9)).set
      rw [View.set_slice_whole, Rect.mem_set_unit]
      intro a
      show win9_2.index last9 a * main_v209.ty.shape.size a ≤ (i a : Nat)
        ∧ (i a : Nat) < win9_2.index last9 a * main_v209.ty.shape.size a + main_v209.ty.shape.size a
      rw [congrFun (zoff9 last9) a, Nat.zero_add]
      exact ⟨Nat.zero_le _, (i a).isLt⟩⟩

end Cert.KernelIdeal.Val

end
-- ==== Proof.Ref.StagesK.lean ====
import proofs.«409413_j30142080483538_1_alg».proof.Proof.Ref.Stages

noncomputable section

namespace Cert.ReferenceIdeal.RefValue

open Cert.ReferenceIdeal Cert.ReferenceIdeal.Gen
open Idealize.ShloMosaic Idealize.ShloMosaic.TcCoe Idealize.SL.Sem Idealize.ShloMosaic.StableHlo

variable {F : FTy → Type} [FloatOps F]

def srcRow (ei : (⟨S2x4000000, .i32⟩ : BufTy).Contents (Elt F)) : (⟨S4000000, .i32⟩ : BufTy).Contents (Elt F) :=
  shapeCast _ (extractStridedSlice S1x4000000 ![0, 0] ei slices_S2x4000000_S1x4000000_0_0) shapeCasts_S1x4000000_S4000000

def dstRow (ei : (⟨S2x4000000, .i32⟩ : BufTy).Contents (Elt F)) : (⟨S4000000, .i32⟩ : BufTy).Contents (Elt F) :=
  shapeCast _ (extractStridedSlice S1x4000000 ![1, 0] ei slices_S2x4000000_S1x4000000_1_0) shapeCasts_S1x4000000_S4000000

def srcIdxOf (s : (⟨S4000000, .i32⟩ : BufTy).Contents (Elt F)) : (⟨S4000000x1, .i32⟩ : BufTy).Contents (Elt F) :=
  broadcastInDim S4000000x1 ![0] bcast_S4000000_S4000000x1_0
    (select (cmpi .slt s (broadcastInDim S4000000 ![] bcast_S_S4000000 (constantI S_ 32 0#32)))
      (addi s (broadcastInDim S4000000 ![] bcast_S_S4000000 (constantI S_ 32 250000#32))) s)

def dstIdxOf (d : (⟨S4000000, .i32⟩ : BufTy).Contents (Elt F)) : (⟨S4000000x1, .i32⟩ : BufTy).Contents (Elt F) :=
  broadcastInDim S4000000x1 ![0] bcast_S4000000_S4000000x1_0 d

-- the aggregation from the two rows of the edge list read once
def agg6R (x : (⟨S250000x6, .f32⟩ : BufTy).Contents (Elt F)) (s d : (⟨S4000000, .i32⟩ : BufTy).Contents (Elt F)) :
    (⟨S250000x6, .f32⟩ : BufTy).Contents (Elt F) :=
  Host.scatterAdd scatter_S250000x6_S4000000x1_S4000000x6_1_0_0_1
    (broadcastInDim S250000x6 ![] bcast_S_S250000x6 (constant S_ .f32 0x00000000#32)) (dstIdxOf d)
    (Host.gather gather_S250000x6_S4000000x1_S4000000x6_1_0_n_n_0_1_16 x (srcIdxOf s))

def agg64R (x : (⟨S250000x64, .f32⟩ : BufTy).Contents (Elt F)) (s d : (⟨S4000000, .i32⟩ : BufTy).Contents (Elt F)) :
    (⟨S250000x64, .f32⟩ : BufTy).Contents (Elt F) :=
  Host.scatterAdd scatter_S250000x64_S4000000x1_S4000000x64_1_0_0_1
    (broadcastInDim S250000x64 ![] bcast_S_S250000x64 (constant S_ .f32 0x00000000#32)) (dstIdxOf d)
    (Host.gather gather_S250000x64_S4000000x1_S4000000x64_1_0_n_n_0_1_164 x (srcIdxOf s))

theorem agg6_eq (x : (⟨S250000x6, .f32⟩ : BufTy).Contents (Elt F)) (ei : (⟨S2x4000000, .i32⟩ : BufTy).Contents (Elt F)) :
    agg6R x (srcRow ei) (dstRow ei) = agg6 x ei := rfl

theorem agg64_eq (x : (⟨S250000x64, .f32⟩ : BufTy).Contents (Elt F)) (ei : (⟨S2x4000000, .i32⟩ : BufTy).Contents (Elt F)) :
    agg64R x (srcRow ei) (dstRow ei) = agg64 x ei := rfl

-- the embedding from the pooled rows and the node count
def embR (p : (⟨S1024x64, .f32⟩ : BufTy).Contents (Elt F)) (cn : (⟨S1024, .f32⟩ : BufTy).Contents (Elt F)) :
    (⟨S1024x64, .f32⟩ : BufTy).Contents (Elt F) :=
  addf p (Host.divf p (broadcastInDim S1024x64 ![0, 1] bcast_S1024x1_S1024x64_0_1 (broadcastInDim S1024x1 ![0] bcast_S1024_S1024x1_0
    (maximumf cn (broadcastInDim S1024 ![] bcast_S_S1024 (constant S_ .f32 0x3F800000#32))))))

theorem emb_eq (p : (⟨S1024x64, .f32⟩ : BufTy).Contents (Elt F)) (b : (⟨S250000, .i32⟩ : BufTy).Contents (Elt F)) :
    embR p (cnt b) = emb p b := rfl

-- the mean from the row sums and the number of entries
def meanR (rs : (⟨S250000, .f32⟩ : BufTy).Contents (Elt F)) (b : (⟨S250000, .i32⟩ : BufTy).Contents (Elt F))
    (nrm : (⟨S1024, .f32⟩ : BufTy).Contents (Elt F)) : (⟨S1024, .f32⟩ : BufTy).Contents (Elt F) :=
  Host.divf (segsum rs b) nrm

-- the mean of the squares less the squared mean, from the row sums of the entries and of their squares
def varR (rs rq : (⟨S250000, .f32⟩ : BufTy).Contents (Elt F)) (b : (⟨S250000, .i32⟩ : BufTy).Contents (Elt F))
    (nrm : (⟨S1024, .f32⟩ : BufTy).Contents (Elt F)) : (⟨S1024, .f32⟩ : BufTy).Contents (Elt F) :=
  subf (Host.divf (segsum rq b) nrm) (mulf (meanR rs b nrm) (meanR rs b nrm))

theorem meanR_eq (h : (⟨S250000x64, .f32⟩ : BufTy).Contents (Elt F)) (b : (⟨S250000, .i32⟩ : BufTy).Contents (Elt F)) :
    meanR (rowsum h) b (norm b) = mean h b := rfl

theorem varR_eq (h : (⟨S250000x64, .f32⟩ : BufTy).Contents (Elt F)) (b : (⟨S250000, .i32⟩ : BufTy).Contents (Elt F)) :
    varR (rowsum h) (rowsum (mulf h h)) b (norm b) = varK h b := rfl

end Cert.ReferenceIdeal.RefValue

end
-- ==== Proof.Glue.H0.lean ====
import proofs.«409413_j30142080483538_1_alg».proof.Proof.Gen.KernelIdeal.Launch
import proofs.«409413_j30142080483538_1_alg».proof.Proof.Ref.StagesK
import Idealize.ShloMosaic.Lib.StableHlo.Run

noncomputable section

namespace Cert.KernelIdeal.Glue

open Cert.KernelIdeal Cert.KernelIdeal.Gen Cert.ReferenceIdeal.RefValue
open Idealize.ShloMosaic Idealize.ShloMosaic.TcCoe Idealize.SL.Sem Idealize.ShloMosaic.StableHlo

variable {F : FTy → Type} [FloatOps F] (W : Valuation τ sig (Elt F))

theorem h0_v1 : StableHlo.after hostOps0 W main_v1 = srcRow (W main_arg1) := by
  after_results_simp; rfl

theorem h0_v3 : StableHlo.after hostOps0 W main_v3 = dstRow (W main_arg1) := by
  after_results_simp; rfl

theorem h0_v7 : StableHlo.after hostOps0 W main_v7 = cnt (W main_arg2) := by
  after_results_simp; rfl

theorem h0_v11 : StableHlo.after hostOps0 W main_v11 = norm (W main_arg2) := by
  after_results_simp; rfl

theorem h0_v21 :
    StableHlo.after hostOps0 W main_v21 = agg6R (W main_arg0) (srcRow (W main_arg1)) (dstRow (W main_arg1)) := by
  after_results_simp; rfl

theorem h0_v22 : StableHlo.after hostOps0 W main_v22 = row (W main_arg9) := by
  after_results_simp; rfl

theorem h0_v23 : StableHlo.after hostOps0 W main_v23 = row (W main_arg11) := by
  after_results_simp; rfl

end Cert.KernelIdeal.Glue

end
-- ==== Proof.Glue.H1.lean ====
import proofs.«409413_j30142080483538_1_alg».proof.Proof.Gen.KernelIdeal.Launch
import proofs.«409413_j30142080483538_1_alg».proof.Proof.Ref.StagesK
import Idealize.ShloMosaic.Lib.StableHlo.Run

noncomputable section

namespace Cert.KernelIdeal.Glue

open Cert.KernelIdeal Cert.KernelIdeal.Gen Cert.ReferenceIdeal.RefValue
open Idealize.ShloMosaic Idealize.ShloMosaic.TcCoe Idealize.SL.Sem Idealize.ShloMosaic.StableHlo

variable {F : FTy → Type} [FloatOps F] (W : Valuation τ sig (Elt F))

theorem h1_v51 :
    StableHlo.after hostOps1 W main_v51 = col (perNode (meanR (flat (W main_v24_1)) (W main_arg2) (W main_v11)) (W main_arg2)) := by
  after_results_simp; rfl

theorem h1_v52 :
    StableHlo.after hostOps1 W main_v52 = col (perNode (varR (flat (W main_v24_1)) (flat (W main_v24_2)) (W main_arg2) (W main_v11)) (W main_arg2)) := by
  after_results_simp; rfl

theorem h1_v53 :
    StableHlo.after hostOps1 W main_v53 = row (W main_arg12) := by
  after_results_simp; rfl

theorem h1_v54 :
    StableHlo.after hostOps1 W main_v54 = row (W main_arg13) := by
  after_results_simp; rfl

end Cert.KernelIdeal.Glue

end
-- ==== Proof.Glue.H2.lean ====
import proofs.«409413_j30142080483538_1_alg».proof.Proof.Gen.KernelIdeal.Launch
import proofs.«409413_j30142080483538_1_alg».proof.Proof.Ref.StagesK
import Idealize.ShloMosaic.Lib.StableHlo.Run

noncomputable section

namespace Cert.KernelIdeal.Glue

open Cert.KernelIdeal Cert.KernelIdeal.Gen Cert.ReferenceIdeal.RefValue
open Idealize.ShloMosaic Idealize.ShloMosaic.TcCoe Idealize.SL.Sem Idealize.ShloMosaic.StableHlo

variable {F : FTy → Type} [FloatOps F] (W : Valuation τ sig (Elt F))

theorem h2_v65 :
    StableHlo.after hostOps2 W main_v65 = agg64R (W main_v55) (W main_v1) (W main_v3) := by
  after_results_simp; rfl

theorem h2_v66 :
    StableHlo.after hostOps2 W main_v66 = row (W main_arg15) := by
  after_results_simp; rfl

theorem h2_v67 :
    StableHlo.after hostOps2 W main_v67 = row (W main_arg17) := by
  after_results_simp; rfl

end Cert.KernelIdeal.Glue

end
-- ==== Proof.Glue.H3.lean ====
import proofs.«409413_j30142080483538_1_alg».proof.Proof.Gen.KernelIdeal.Launch
import proofs.«409413_j30142080483538_1_alg».proof.Proof.Ref.StagesK
import Idealize.ShloMosaic.Lib.StableHlo.Run

noncomputable section

namespace Cert.KernelIdeal.Glue

open Cert.KernelIdeal Cert.KernelIdeal.Gen Cert.ReferenceIdeal.RefValue
open Idealize.ShloMosaic Idealize.ShloMosaic.TcCoe Idealize.SL.Sem Idealize.ShloMosaic.StableHlo

variable {F : FTy → Type} [FloatOps F] (W : Valuation τ sig (Elt F))

theorem h3_v95 :
    StableHlo.after hostOps3 W main_v95 = col (perNode (meanR (flat (W main_v68_1)) (W main_arg2) (W main_v11)) (W main_arg2)) := by
  after_results_simp; rfl

theorem h3_v96 :
    StableHlo.after hostOps3 W main_v96 = col (perNode (varR (flat (W main_v68_1)) (flat (W main_v68_2)) (W main_arg2) (W main_v11)) (W main_arg2)) := by
  after_results_simp; rfl

theorem h3_v97 :
    StableHlo.after hostOps3 W main_v97 = row (W main_arg18) := by
  after_results_simp; rfl

theorem h3_v98 :
    StableHlo.after hostOps3 W main_v98 = row (W main_arg19) := by
  after_results_simp; rfl

end Cert.KernelIdeal.Glue

end
-- ==== Proof.Glue.H4.lean ====
import proofs.«409413_j30142080483538_1_alg».proof.Proof.Gen.KernelIdeal.Launch
import proofs.«409413_j30142080483538_1_alg».proof.Proof.Ref.StagesK
import Idealize.ShloMosaic.Lib.StableHlo.Run

noncomputable section

namespace Cert.KernelIdeal.Glue

open Cert.KernelIdeal Cert.KernelIdeal.Gen Cert.ReferenceIdeal.RefValue
open Idealize.ShloMosaic Idealize.ShloMosaic.TcCoe Idealize.SL.Sem Idealize.ShloMosaic.StableHlo

variable {F : FTy → Type} [FloatOps F] (W : Valuation τ sig (Elt F))

theorem h4_v100 :
    StableHlo.after hostOps4 W main_v100 = colI (W main_arg2) := by
  after_results_simp; rfl

end Cert.KernelIdeal.Glue

end
-- ==== Proof.Glue.H5.lean ====
import proofs.«409413_j30142080483538_1_alg».proof.Proof.Gen.KernelIdeal.Launch
import proofs.«409413_j30142080483538_1_alg».proof.Proof.Ref.StagesK
import Idealize.ShloMosaic.Lib.StableHlo.Run

noncomputable section

namespace Cert.KernelIdeal.Glue

open Cert.KernelIdeal Cert.KernelIdeal.Gen Cert.ReferenceIdeal.RefValue
open Idealize.ShloMosaic Idealize.ShloMosaic.TcCoe Idealize.SL.Sem Idealize.ShloMosaic.StableHlo

variable {F : FTy → Type} [FloatOps F] (W : Valuation τ sig (Elt F))

theorem h5_v107 :
    StableHlo.after hostOps5 W main_v107 = embR (W main_v101) (W main_v7) := by
  after_results_simp; rfl

theorem h5_v109 :
    StableHlo.after hostOps5 W main_v109 = srcRow (W main_arg4) := by
  after_results_simp; rfl

theorem h5_v111 :
    StableHlo.after hostOps5 W main_v111 = dstRow (W main_arg4) := by
  after_results_simp; rfl

theorem h5_v115 :
    StableHlo.after hostOps5 W main_v115 = cnt (W main_arg5) := by
  after_results_simp; rfl

theorem h5_v119 :
    StableHlo.after hostOps5 W main_v119 = norm (W main_arg5) := by
  after_results_simp; rfl

theorem h5_v129 :
    StableHlo.after hostOps5 W main_v129 = agg6R (W main_arg3) (srcRow (W main_arg4)) (dstRow (W main_arg4)) := by
  after_results_simp; rfl

theorem h5_v130 :
    StableHlo.after hostOps5 W main_v130 = row (W main_arg9) := by
  after_results_simp; rfl

theorem h5_v131 :
    StableHlo.after hostOps5 W main_v131 = row (W main_arg11) := by
  after_results_simp; rfl

end Cert.KernelIdeal.Glue

end
-- ==== Proof.Glue.H6.lean ====
import proofs.«409413_j30142080483538_1_alg».proof.Proof.Gen.KernelIdeal.Launch
import proofs.«409413_j30142080483538_1_alg».proof.Proof.Ref.StagesK
import Idealize.ShloMosaic.Lib.StableHlo.Run
noncomputable section
namespace Cert.KernelIdeal.Glue
open Cert.KernelIdeal Cert.KernelIdeal.Gen Cert.ReferenceIdeal.RefValue
open Idealize.ShloMosaic Idealize.ShloMosaic.TcCoe Idealize.SL.Sem
variable {F : FTy → Type} [FloatOps F] (W : Valuation τ sig (Elt F))

theorem h6_v159 :
    StableHlo.after hostOps6 W main_v159
      = col (perNode (meanR (flat (W main_v132_1)) (W main_arg5) (W main_v119)) (W main_arg5)) := by
  after_results_simp; rfl

theorem h6_v160 :
    StableHlo.after hostOps6 W main_v160
      = col (perNode (varR (flat (W main_v132_1)) (flat (W main_v132_2)) (W main_arg5) (W main_v119)) (W main_arg5)) := by
  after_results_simp; rfl

theorem h6_v161 : StableHlo.after hostOps6 W main_v161 = row (W main_arg12) := by
  after_results; rfl

theorem h6_v162 : StableHlo.after hostOps6 W main_v162 = row (W main_arg13) := by
  after_results; rfl

end Cert.KernelIdeal.Glue
end
-- ==== Proof.Glue.H7.lean ====
import proofs.«409413_j30142080483538_1_alg».proof.Proof.Gen.KernelIdeal.Launch
import proofs.«409413_j30142080483538_1_alg».proof.Proof.Ref.StagesK
import Idealize.ShloMosaic.Lib.StableHlo.Run
noncomputable section
namespace Cert.KernelIdeal.Glue
open Cert.KernelIdeal Cert.KernelIdeal.Gen Cert.ReferenceIdeal.RefValue
open Idealize.ShloMosaic Idealize.ShloMosaic.TcCoe Idealize.SL.Sem
variable {F : FTy → Type} [FloatOps F] (W : Valuation τ sig (Elt F))

theorem h7_v173 :
    StableHlo.after hostOps7 W main_v173 = agg64R (W main_v163) (W main_v109) (W main_v111) := by
  after_results_simp; rfl

theorem h7_v174 : StableHlo.after hostOps7 W main_v174 = row (W main_arg15) := by
  after_results; rfl

theorem h7_v175 : StableHlo.after hostOps7 W main_v175 = row (W main_arg17) := by
  after_results; rfl

end Cert.KernelIdeal.Glue
end
-- ==== Proof.Glue.H8.lean ====
import proofs.«409413_j30142080483538_1_alg».proof.Proof.Gen.KernelIdeal.Launch
import proofs.«409413_j30142080483538_1_alg».proof.Proof.Ref.StagesK
import Idealize.ShloMosaic.Lib.StableHlo.Run
noncomputable section
namespace Cert.KernelIdeal.Glue
open Cert.KernelIdeal Cert.KernelIdeal.Gen Cert.ReferenceIdeal.RefValue
open Idealize.ShloMosaic Idealize.ShloMosaic.TcCoe Idealize.SL.Sem
variable {F : FTy → Type} [FloatOps F] (W : Valuation τ sig (Elt F))

theorem h8_v203 :
    StableHlo.after hostOps8 W main_v203
      = col (perNode (meanR (flat (W main_v176_1)) (W main_arg5) (W main_v119)) (W main_arg5)) := by
  after_results_simp; rfl

theorem h8_v204 :
    StableHlo.after hostOps8 W main_v204
      = col (perNode (varR (flat (W main_v176_1)) (flat (W main_v176_2)) (W main_arg5) (W main_v119)) (W main_arg5)) := by
  after_results_simp; rfl

theorem h8_v205 : StableHlo.after hostOps8 W main_v205 = row (W main_arg18) := by
  after_results; rfl

theorem h8_v206 : StableHlo.after hostOps8 W main_v206 = row (W main_arg19) := by
  after_results; rfl

end Cert.KernelIdeal.Glue
end
-- ==== Proof.Glue.H9.lean ====
import proofs.«409413_j30142080483538_1_alg».proof.Proof.Gen.KernelIdeal.Launch
import proofs.«409413_j30142080483538_1_alg».proof.Proof.Ref.StagesK
import Idealize.ShloMosaic.Lib.StableHlo.Run
noncomputable section
namespace Cert.KernelIdeal.Glue
open Cert.KernelIdeal Cert.KernelIdeal.Gen Cert.ReferenceIdeal.RefValue
open Idealize.ShloMosaic Idealize.ShloMosaic.TcCoe Idealize.SL.Sem
variable {F : FTy → Type} [FloatOps F] (W : Valuation τ sig (Elt F))

theorem h9_v208 : StableHlo.after hostOps9 W main_v208 = colI (W main_arg5) := by
  after_results; rfl

end Cert.KernelIdeal.Glue
end
-- ==== Proof.Glue.H10.lean ====
import proofs.«409413_j30142080483538_1_alg».proof.Proof.Gen.KernelIdeal.Launch
import proofs.«409413_j30142080483538_1_alg».proof.Proof.Ref.StagesK
import Idealize.ShloMosaic.Lib.StableHlo.Run
noncomputable section
namespace Cert.KernelIdeal.Glue
open Cert.KernelIdeal Cert.KernelIdeal.Gen Cert.ReferenceIdeal.RefValue
open Idealize.ShloMosaic Idealize.ShloMosaic.TcCoe Idealize.SL.Sem
variable {F : FTy → Type} [FloatOps F] (W : Valuation τ sig (Elt F))

-- The five last stretches, run one after the other, compute the read-out head.
theorem h10_v230 :
    StableHlo.after hostOps10_4 (StableHlo.after hostOps10_3 (StableHlo.after hostOps10_2 (StableHlo.after hostOps10_1 (StableHlo.after hostOps10 W)))) main_v230
      = head (W main_v107) (embR (W main_v209) (W main_v115)) (W main_arg6) (W main_arg7) (W main_arg20) (W main_arg21)
          (W main_arg22) (W main_arg23) (W main_arg24) (W main_arg25) := by
  after_results_simp; rfl

end Cert.KernelIdeal.Glue
end
-- ==== Proof.Ref.VarLaw.lean ====
import proofs.«409413_j30142080483538_1_alg».proof.Proof.Ref.Stages
import proofs.«409413_j30142080483538_1_alg».proof.Proof.Ref.Consts
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen
open Idealize.ShloMosaic Idealize.ShloMosaic.TcCoe Idealize.SL.Sem Idealize.ShloMosaic.StableHlo
open Idealize.ShloMosaic.ValueIdx
open scoped BigOperators

section
variable (b : (⟨S250000, .i32⟩ : BufTy).Contents (Elt Ideal)) (n : S250000.Idx) (g : S1024.Idx)

-- the nodes whose value a per-graph sum adds into graph g
def nodesOf : Finset S250000.Idx :=
  Finset.univ.filter fun n => scatter_S1024_S250000x1_S250000_n_0_0_1.resultIdx? n (segIdx (F := Ideal) b) = some g

theorem segsum_apply (u : (⟨S250000, .f32⟩ : BufTy).Contents (Elt Ideal)) : segsum (F := Ideal) u b g = ∑ n ∈ nodesOf b g, u n := by
  show Ideal.ofBits .f32 0x00000000#32 + ∑ n ∈ nodesOf b g, u n = _
  rw [ofBits_f32_0, zero_add]

private theorem scatter_start (a : Fin S1024.rank) : scatter_S1024_S250000x1_S250000_n_0_0_1.start n (segIdx (F := Ideal) b) a = (b n).toInt := by
  obtain rfl : a = 0 := Subsingleton.elim _ _
  unfold ScatterDims.start segIdx
  rw [dif_pos (show (0 : Fin 1) ∈ scatter_S1024_S250000x1_S250000_n_0_0_1.scatterDimsToOperandDims from List.mem_singleton.mpr rfl)]
  exact congrArg BitVec.toInt (broadcastInDim_apply _ _ b _ n fun a => by obtain rfl : a = 0 := Subsingleton.elim _ _; rfl)

private theorem scatter_window (a : Fin S1024.rank) : scatter_S1024_S250000x1_S250000_n_0_0_1.window n a = 0 := by
  obtain rfl : a = 0 := Subsingleton.elim _ _
  unfold ScatterDims.window
  rw [dif_neg]
  decide

-- membership pins the node's graph number, read signed, to g
private theorem mem_nodesOf (hn : n ∈ nodesOf b g) : (b n).toInt = ((g 0).val : ℤ) := by
  have h := (resultIdx?_eq_some_iff _ n _ g).mp (Finset.mem_filter.mp hn).2 0
  rwa [scatter_start, scatter_window, Nat.cast_zero, add_zero] at h

private theorem nodeIdx_at (c : Fin gather_S1024_S250000x1_S250000_n_0_n_n_0_1_1.startIndexMap.length) :
    nodeIdx (F := Ideal) b (gather_S1024_S250000x1_S250000_n_0_n_n_0_1_1.siIdx n c) = Scalar.select (IntOp.cmpi .slt (b n) 0#32) (IntOp.addi (b n) 1024#32) (b n) := by
  unfold nodeIdx
  exact (broadcastInDim_apply _ _ _ _ n fun a => by obtain rfl : a = 0 := Subsingleton.elim _ _; rfl).trans rfl

-- a graph number in [0, 1024) is used as it is, so such a node reads the entry of its own graph
theorem perNode_of_mem (v : (⟨S1024, .f32⟩ : BufTy).Contents (Elt Ideal)) (hn : n ∈ nodesOf b g) : perNode (F := Ideal) v b n = v g := by
  have hm := mem_nodesOf b n g hn
  have hc : ¬ IntOp.cmpi .slt (b n) 0#32 = 1#1 := fun hh => by
    have h2 := IntOp.cmpi_slt.mp hh
    have h3 : (0#32 : BitVec 32).toInt = 0 := by decide
    omega
  unfold perNode Host.gather
  congr 1
  funext a
  obtain rfl : a = 0 := Subsingleton.elim _ _
  refine Fin.ext ?_
  show gather_S1024_S250000x1_S250000_n_0_n_n_0_1_1.start n (nodeIdx (F := Ideal) b) 0 + gather_S1024_S250000x1_S250000_n_0_n_n_0_1_1.batchCoord n 0 + gather_S1024_S250000x1_S250000_n_0_n_n_0_1_1.offCoord n 0 = (g 0).val
  rw [GatherDims.batchCoord_eq_zero _ _ _ List.not_mem_nil,
    GatherDims.offCoord_eq_zero _ _ _ (fun hk => ((GatherDims.mem_sKept _ _).mp hk).1 (List.mem_singleton.mpr rfl))]
  unfold GatherDims.start
  rw [dif_pos (show (0 : Fin 1) ∈ gather_S1024_S250000x1_S250000_n_0_n_n_0_1_1.startIndexMap from List.mem_singleton.mpr rfl), nodeIdx_at,
    show Scalar.select (IntOp.cmpi .slt (b n) 0#32) (IntOp.addi (b n) 1024#32) (b n) = b n from if_neg hc]
  show min (b n).toInt.toNat (1024 - 1) + 0 + 0 = (g 0).val
  have hlt : (g 0).val < 1024 := (g 0).isLt
  omega

private theorem reduces_rows : S250000x64.Reduces [1] S250000 := by decide

private theorem rowsum_apply (x : (⟨S250000x64, .f32⟩ : BufTy).Contents (Elt Ideal)) : rowsum (F := Ideal) x n = ∑ k, x (reduces_rows.lift n k) := by
  unfold rowsum
  rw [hostReduceAdd_apply, Ideal.hostReduceAdd_single _ reduces_rows]
  show Ideal.ofBits .f32 0x00000000#32 + _ = _
  rw [ofBits_f32_0, zero_add]

private theorem overChannels_lift (u : (⟨S250000, .f32⟩ : BufTy).Contents (Elt Ideal)) (k : Fin (S250000x64.size 1)) : overChannels (F := Ideal) u (reduces_rows.lift n k) = u n := by
  unfold overChannels
  refine (broadcastInDim_apply _ _ _ _ (ix2 (n 0) (0 : Fin 1)) fun a => ?_).trans
    (broadcastInDim_apply _ _ u _ n fun a => by obtain rfl : a = 0 := Subsingleton.elim _ _; rfl)
  match a with
  | ⟨0, _⟩ => rfl
  | ⟨1, _⟩ => rfl

end

-- the sum of a real array over the entries of a set of nodes, and the number of those entries, an empty set counted as one node
private def tot (S : Finset S250000.Idx) (U : S250000x64.Idx → ℝ) : ℝ := ∑ n ∈ S, ∑ k, U (reduces_rows.lift n k)
private def ents (S : Finset S250000.Idx) : ℝ := max (S.card : ℝ) 1 * 64

private theorem ents_pos (S : Finset S250000.Idx) : 0 < ents S :=
  mul_pos (lt_of_lt_of_le one_pos (le_max_right _ _)) (by norm_num)

theorem cnt_apply (b : (⟨S250000, .i32⟩ : BufTy).Contents (Elt Ideal)) (g : S1024.Idx) :
    cnt (F := Ideal) b g = (((nodesOf b g).card : ℝ) : EReal) := by
  unfold cnt
  rw [segsum_apply]
  have h1 : ∀ n ∈ nodesOf b g, (broadcastInDim S250000 ![] bcast_S_S250000 (constant (F := Ideal) S_ .f32 0x3F800000#32)) n = ((1 : ℝ) : EReal) := by
    intro n _
    show Ideal.ofBits .f32 0x3F800000#32 = _
    rw [ofBits_f32_1, EReal.coe_one]
  rw [Finset.sum_congr rfl h1, ← coe_sum, Finset.sum_const, nsmul_eq_mul, mul_one]

theorem norm_apply (b : (⟨S250000, .i32⟩ : BufTy).Contents (Elt Ideal)) (g : S1024.Idx) :
    norm (F := Ideal) b g = ((ents (nodesOf b g) : ℝ) : EReal) := by
  show max (cnt (F := Ideal) b g) (Ideal.ofBits .f32 0x3F800000#32) * Ideal.ofBits .f32 0x42800000#32 = ((max ((nodesOf b g).card : ℝ) 1 * 64 : ℝ) : EReal)
  rw [cnt_apply, ofBits_f32_1, ofBits_f32_64, ← EReal.coe_one, ← coe_max, ← EReal.coe_mul]

-- with N = 64 max(c, 1) entries and mean μ = B / N the squared deviations sum to A - 2 μ B + 64 c μ²: A - N μ² if the graph has a node, zero like A and B if not
private theorem var_law_real {ι : Type} {m : ℕ} (hm : m = 64) (S : Finset ι) (f : ι → Fin m → ℝ) (N μ : ℝ)
    (hN : N = max (S.card : ℝ) 1 * 64) (hμ : μ = (∑ n ∈ S, ∑ k, f n k) / N) :
    (∑ n ∈ S, ∑ k, f n k * f n k) / N - μ * μ = (∑ n ∈ S, ∑ k, (f n k - μ) * (f n k - μ)) / N := by
  subst hm
  have hN0 : N ≠ 0 := hN ▸ (mul_pos (lt_of_lt_of_le one_pos (le_max_right _ _)) (by norm_num)).ne'
  have h1 : ∀ n k, (f n k - μ) * (f n k - μ) = f n k * f n k - 2 * μ * f n k + μ * μ := fun n k => by ring
  have hB : ∑ n ∈ S, ∑ k, f n k = μ * N := by rw [hμ]; field_simp
  rw [eq_div_iff hN0, sub_mul, div_mul_cancel₀ _ hN0]
  simp only [h1, Finset.sum_add_distrib, Finset.sum_sub_distrib, ← Finset.mul_sum, Finset.sum_const, Finset.card_univ,
    Fintype.card_fin, nsmul_eq_mul, hB]
  rcases S.eq_empty_or_nonempty with rfl | hS
  · have h0 : μ = 0 := by simpa using hμ
    simp [h0]
  · rw [hN, max_eq_left (by exact_mod_cast hS.card_pos : (1 : ℝ) ≤ (S.card : ℝ))]
    push_cast
    ring

-- the sum of x over a graph's entries divided by their number, when x is the real array U at those entries
private theorem gmean_coe (U : S250000x64.Idx → ℝ) (x : (⟨S250000x64, .f32⟩ : BufTy).Contents (Elt Ideal)) (b : (⟨S250000, .i32⟩ : BufTy).Contents (Elt Ideal)) (g : S1024.Idx)
    (hx : ∀ n ∈ nodesOf b g, ∀ k : Fin (S250000x64.size 1), x (reduces_rows.lift n k) = ((U (reduces_rows.lift n k) : ℝ) : EReal)) :
    Ideal.div (segsum (F := Ideal) (rowsum x) b g) (norm (F := Ideal) b g) = ((tot (nodesOf b g) U / ents (nodesOf b g) : ℝ) : EReal) := by
  have e : segsum (F := Ideal) (rowsum x) b g = ((∑ n ∈ nodesOf b g, ∑ k, U (reduces_rows.lift n k) : ℝ) : EReal) := by
    rw [segsum_apply, coe_sum]
    refine Finset.sum_congr rfl fun n hn => ?_
    rw [rowsum_apply, coe_sum]
    exact Finset.sum_congr rfl fun k _ => hx n hn k
  rw [e, norm_apply, div_coe_coe _ (ents_pos _).ne']
  rfl

section
variable (H : S250000x64.Idx → ℝ) (h : (⟨S250000x64, .f32⟩ : BufTy).Contents (Elt Ideal)) (b : (⟨S250000, .i32⟩ : BufTy).Contents (Elt Ideal)) (g : S1024.Idx)

private theorem mean_coe (hH : ∀ i, h i = ((H i : ℝ) : EReal)) :
    mean (F := Ideal) h b g = ((tot (nodesOf b g) H / ents (nodesOf b g) : ℝ) : EReal) := by
  unfold mean
  rw [hostDivf_apply]
  exact gmean_coe H h b g fun n _ k => hH _

-- at a node of the graph the centred entry is the entry less the graph's real mean
private theorem var_coe (hH : ∀ i, h i = ((H i : ℝ) : EReal)) : var (F := Ideal) h b g
    = ((tot (nodesOf b g) (fun i => (H i - tot (nodesOf b g) H / ents (nodesOf b g)) * (H i - tot (nodesOf b g) H / ents (nodesOf b g)))
        / ents (nodesOf b g) : ℝ) : EReal) := by
  unfold var
  rw [hostDivf_apply]
  refine gmean_coe _ _ b g fun n hn k => ?_
  rw [mulf_apply]
  unfold centred
  rw [subf_apply, overChannels_lift, perNode_of_mem b n g _ hn, mean_coe H h b g hH, hH, ← EReal.coe_sub, ← EReal.coe_mul]

end

theorem varlaw_mean_real (h : (⟨S250000x64, .f32⟩ : BufTy).Contents (Elt Ideal)) (b : (⟨S250000, .i32⟩ : BufTy).Contents (Elt Ideal))
    (hreal : ∀ i, ∃ r : ℝ, h i = (r : EReal)) (g : S1024.Idx) : ∃ r : ℝ, mean (F := Ideal) h b g = (r : EReal) := by
  choose H hH using hreal
  exact ⟨_, mean_coe H h b g hH⟩

theorem varlaw_var_nonneg (h : (⟨S250000x64, .f32⟩ : BufTy).Contents (Elt Ideal)) (b : (⟨S250000, .i32⟩ : BufTy).Contents (Elt Ideal))
    (hreal : ∀ i, ∃ r : ℝ, h i = (r : EReal)) (g : S1024.Idx) : ∃ v : ℝ, 0 ≤ v ∧ var (F := Ideal) h b g = (v : EReal) := by
  choose H hH using hreal
  exact ⟨_, div_nonneg (Finset.sum_nonneg fun n _ => Finset.sum_nonneg fun k _ => mul_self_nonneg _) (ents_pos _).le, var_coe H h b g hH⟩

-- the mean of the squares less the squared mean is the mean of the squared deviations, graph by graph, on real entries
theorem varK_eq (h : (⟨S250000x64, .f32⟩ : BufTy).Contents (Elt Ideal)) (b : (⟨S250000, .i32⟩ : BufTy).Contents (Elt Ideal))
    (hreal : ∀ i, ∃ r : ℝ, h i = (r : EReal)) : varK (F := Ideal) h b = var (F := Ideal) h b := by
  choose H hH using hreal
  funext g
  unfold varK
  rw [subf_apply, mulf_apply, hostDivf_apply,
    gmean_coe (fun i => H i * H i) (mulf (F := Ideal) (s := S250000x64) (φ := .f32) h h) b g (fun n _ k => by rw [mulf_apply, hH, ← EReal.coe_mul]),
    mean_coe H h b g hH, var_coe H h b g hH, ← EReal.coe_mul, ← EReal.coe_sub]
  exact congrArg _ (var_law_real rfl (nodesOf b g) (fun n k => H (reduces_rows.lift n k)) _ _ rfl rfl)

end Cert.ReferenceIdeal.RefValue

end
-- ==== Proof.Ref.Real.lean ====
import proofs.«409413_j30142080483538_1_alg».proof.Proof.Ref.VarLaw

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.StableHlo
open scoped BigOperators

def IsReal {s : Shape} (f : s.Idx → EReal) : Prop := ∀ i, ∃ r : ℝ, f i = (r : EReal)

-- an operation that restricts to the reals maps reals to reals
theorem IsReal.op₂ (op : EReal → EReal → EReal) {opR : ℝ → ℝ → ℝ} (hop : ∀ a b : ℝ, ((opR a b : ℝ) : EReal) = op a b) {x y : EReal}
    (hx : ∃ r : ℝ, x = (r : EReal)) (hy : ∃ r : ℝ, y = (r : EReal)) : ∃ r : ℝ, op x y = (r : EReal) := by
  obtain ⟨a, rfl⟩ := hx; obtain ⟨b, rfl⟩ := hy; exact ⟨opR a b, (hop a b).symm⟩

theorem IsReal.sum {ι : Type*} (t : Finset ι) {f : ι → EReal} (h : ∀ i, ∃ r : ℝ, f i = (r : EReal)) :
    ∃ r : ℝ, ∑ i ∈ t, f i = (r : EReal) := by
  choose g hg using h
  exact ⟨∑ i ∈ t, g i, by simp only [hg, coe_sum]⟩

section Arrays
variable {s t : Shape} {φ : FTy}

theorem IsReal.addf {a b : FVec Ideal s φ} (ha : IsReal a) (hb : IsReal b) : IsReal (addf a b) := fun i => IsReal.op₂ (· + ·) EReal.coe_add (ha i) (hb i)
theorem IsReal.subf {a b : FVec Ideal s φ} (ha : IsReal a) (hb : IsReal b) : IsReal (subf a b) := fun i => IsReal.op₂ (· - ·) EReal.coe_sub (ha i) (hb i)
theorem IsReal.mulf {a b : FVec Ideal s φ} (ha : IsReal a) (hb : IsReal b) : IsReal (mulf a b) := fun i => IsReal.op₂ (· * ·) EReal.coe_mul (ha i) (hb i)
theorem IsReal.maximumf {a b : FVec Ideal s φ} (ha : IsReal a) (hb : IsReal b) : IsReal (maximumf a b) := fun i => IsReal.op₂ max coe_max (ha i) (hb i)

-- a broadcast and a gather each read one entry of the operand at every index
theorem IsReal.bcast {x : s.Idx → EReal} (hx : IsReal x) (dims : Fin s.rank → Fin t.rank) (h : s.BroadcastsInDim t dims) :
    IsReal (broadcastInDim t dims h x) := fun j => hx _

theorem IsReal.gather {si : Shape} {w : Nat} {x : s.Idx → EReal} (hx : IsReal x) (d : GatherDims s si t) (idx : IVec si w) :
    IsReal (Host.gather d x idx) := fun j => hx _

-- each entry is the operand's plus a finite sum of update entries
theorem IsReal.scatterAdd {si u : Shape} {w : Nat} {x : FVec Ideal s φ} {upd : FVec Ideal u φ} (hx : IsReal x) (hu : IsReal upd)
    (d : ScatterDims s si u) (idx : IVec si w) : IsReal (Host.scatterAdd d x idx upd) := fun i =>
  IsReal.op₂ (· + ·) EReal.coe_add (hx i) (IsReal.sum _ hu)

-- each entry is a finite sum of products
theorem IsReal.dotGeneral {sl sr so : Shape} {φ₁ φ₂ : FTy} {l : FVec Ideal sl φ₁} {r : FVec Ideal sr φ₂} (hl : IsReal l) (hr : IsReal r)
    (d : DotDims sl sr so) (prec : Option ContractPrecision) : IsReal (Host.dotGeneral d prec l r) := fun j =>
  let ⟨v, hv⟩ := IsReal.sum Finset.univ fun k : d.contr.Idx => IsReal.op₂ (· * ·) EReal.coe_mul (hl (d.lhsIdx j k)) (hr (d.rhsIdx j k))
  ⟨v, (Ideal.dotGeneral_apply d prec .single l r j).trans hv⟩

theorem hostRsqrt_apply (a : FVec Ideal s φ) (i : s.Idx) : Host.rsqrt a i = Ideal.rsqrt (a i) := rfl
theorem splat_apply (bits : BitVec φ.bits) (dims : Fin s.rank → Fin t.rank) (h : s.BroadcastsInDim t dims) (i : t.Idx) :
    broadcastInDim t dims h (constant (F := Ideal) s φ bits) i = Ideal.ofBits φ bits := rfl

end Arrays

theorem zero_real : IsReal (s := S_) (constant (F := Ideal) S_ .f32 0x00000000#32) := fun _ => ⟨0, ofBits_f32_0.trans EReal.coe_zero.symm⟩

section Stages
variable {x6 a6 : (⟨S250000x6, .f32⟩ : BufTy).Contents (Elt Ideal)} {x a h : (⟨S250000x64, .f32⟩ : BufTy).Contents (Elt Ideal)}
  {u : (⟨S250000, .f32⟩ : BufTy).Contents (Elt Ideal)}
  (ei : (⟨S2x4000000, .i32⟩ : BufTy).Contents (Elt Ideal)) (b : (⟨S250000, .i32⟩ : BufTy).Contents (Elt Ideal))
  {W6 : (⟨S6x64, .f32⟩ : BufTy).Contents (Elt Ideal)} {Wa Wb : (⟨S64x64, .f32⟩ : BufTy).Contents (Elt Ideal)}
  {ba bb w bias : (⟨S64, .f32⟩ : BufTy).Contents (Elt Ideal)}

theorem agg6_real (hx : IsReal (s := S250000x6) x6) : IsReal (s := S250000x6) (agg6 (F := Ideal) x6 ei) :=
  IsReal.scatterAdd (zero_real.bcast _ _) (hx.gather _ _) _ _

theorem agg64_real (hx : IsReal (s := S250000x64) x) : IsReal (s := S250000x64) (agg64 (F := Ideal) x ei) :=
  IsReal.scatterAdd (zero_real.bcast _ _) (hx.gather _ _) _ _

theorem biasRows_real (hb : IsReal (s := S64) ba) : IsReal (s := S250000x64) (biasRows (F := Ideal) ba) := (hb.bcast _ _).bcast _ _

theorem zeroRows_real : IsReal (s := S250000x64) (zeroRows (F := Ideal)) := zero_real.bcast _ _

theorem overChannels_real (hu : IsReal (s := S250000) u) : IsReal (s := S250000x64) (overChannels (F := Ideal) u) := (hu.bcast _ _).bcast _ _

theorem gin6_real (hx : IsReal (s := S250000x6) x6) (hagg : IsReal (s := S250000x6) a6) (hWa : IsReal (s := S6x64) W6) (hba : IsReal (s := S64) ba)
    (hWb : IsReal (s := S64x64) Wb) (hbb : IsReal (s := S64) bb) : IsReal (s := S250000x64) (gin6 (F := Ideal) x6 a6 W6 ba Wb bb) :=
  (IsReal.dotGeneral ((((hx.addf hagg).dotGeneral hWa _ _).addf (biasRows_real hba)).maximumf zeroRows_real) hWb _ _).addf (biasRows_real hbb)

theorem gin64_real (hx : IsReal (s := S250000x64) x) (hagg : IsReal (s := S250000x64) a) (hWa : IsReal (s := S64x64) Wa) (hba : IsReal (s := S64) ba)
    (hWb : IsReal (s := S64x64) Wb) (hbb : IsReal (s := S64) bb) : IsReal (s := S250000x64) (gin64 (F := Ideal) x a Wa ba Wb bb) :=
  (IsReal.dotGeneral ((((hx.addf hagg).dotGeneral hWa _ _).addf (biasRows_real hba)).maximumf zeroRows_real) hWb _ _).addf (biasRows_real hbb)

-- the mean is a real quotient; the variance is a mean of squares, so not negative, and eps is positive: the reciprocal square root is taken of a positive real
theorem lnRelu_real (hh : IsReal (s := S250000x64) h) (hw : IsReal (s := S64) w) (hbias : IsReal (s := S64) bias) :
    IsReal (s := S250000x64) (lnRelu (F := Ideal) h b w bias) := by
  have hm : IsReal (s := S1024) (mean (F := Ideal) h b) := varlaw_mean_real h b hh
  have hi : IsReal (s := S1024) (invStd (F := Ideal) h b) := fun g => by
    obtain ⟨v, hv0, hv⟩ := varlaw_var_nonneg h b hh g
    obtain ⟨e, he0, he⟩ := ofBits_f32_eps
    have hp : 0 < v + e := add_pos_of_nonneg_of_pos hv0 he0
    exact ⟨(Real.sqrt (v + e))⁻¹, by
      unfold invStd
      rw [hostRsqrt_apply, ValueIdx.addf_apply, splat_apply, hv, he, ← EReal.coe_add, Ideal.rsqrt_coe, if_neg (not_lt.mpr hp.le), if_neg hp.ne']⟩
  exact ((((hh.subf (overChannels_real (hm.gather _ _))).mulf (overChannels_real (hi.gather _ _))).mulf (biasRows_real hw)).addf
    (biasRows_real hbias)).maximumf zeroRows_real

end Stages

end Cert.ReferenceIdeal.RefValue

end
-- ==== Proof.Ref.LnLaw.lean ====
import proofs.«409413_j30142080483538_1_alg».proof.Proof.Ref.Stages
import Idealize.ShloMosaic.PureOps.Ideal

noncomputable section

namespace Cert.ReferenceIdeal.RefValue

open Cert.ReferenceIdeal Cert.ReferenceIdeal.Gen
open Idealize.ShloMosaic Idealize.ShloMosaic.TcCoe Idealize.SL.Sem Idealize.ShloMosaic.StableHlo

-- reading a per-graph array at a node picks one of its entries, so it commutes with the entrywise 1 / sqrt (· + eps)
theorem lnPerNode_eq (h : (⟨S250000x64, .f32⟩ : BufTy).Contents (Elt Ideal)) (b : (⟨S250000, .i32⟩ : BufTy).Contents (Elt Ideal))
    (w bias : (⟨S64, .f32⟩ : BufTy).Contents (Elt Ideal)) :
    lnPerNode (F := Ideal) h (perNode (mean h b) b) (perNode (var h b) b) w bias = lnRelu h b w bias := rfl

end Cert.ReferenceIdeal.RefValue

end
-- ==== Proof.Val.Chain.lean ====
import proofs.«409413_j30142080483538_1_alg».proof.Proof.KI.Run.Outs
import proofs.«409413_j30142080483538_1_alg».proof.Proof.Val.Gin0
import proofs.«409413_j30142080483538_1_alg».proof.Proof.Val.Gin2
import proofs.«409413_j30142080483538_1_alg».proof.Proof.Val.Gin5
import proofs.«409413_j30142080483538_1_alg».proof.Proof.Val.Gin7
import proofs.«409413_j30142080483538_1_alg».proof.Proof.Val.Ln1
import proofs.«409413_j30142080483538_1_alg».proof.Proof.Val.Ln3
import proofs.«409413_j30142080483538_1_alg».proof.Proof.Val.Ln6
import proofs.«409413_j30142080483538_1_alg».proof.Proof.Val.Ln8
import proofs.«409413_j30142080483538_1_alg».proof.Proof.Val.Pool4
import proofs.«409413_j30142080483538_1_alg».proof.Proof.Val.Pool9
import proofs.«409413_j30142080483538_1_alg».proof.Proof.Glue.H0
import proofs.«409413_j30142080483538_1_alg».proof.Proof.Glue.H1
import proofs.«409413_j30142080483538_1_alg».proof.Proof.Glue.H2
import proofs.«409413_j30142080483538_1_alg».proof.Proof.Glue.H3
import proofs.«409413_j30142080483538_1_alg».proof.Proof.Glue.H4
import proofs.«409413_j30142080483538_1_alg».proof.Proof.Glue.H5
import proofs.«409413_j30142080483538_1_alg».proof.Proof.Glue.H6
import proofs.«409413_j30142080483538_1_alg».proof.Proof.Glue.H7
import proofs.«409413_j30142080483538_1_alg».proof.Proof.Glue.H8
import proofs.«409413_j30142080483538_1_alg».proof.Proof.Glue.H9
import proofs.«409413_j30142080483538_1_alg».proof.Proof.Glue.H10
import proofs.«409413_j30142080483538_1_alg».proof.Proof.Ref.StagesK
import proofs.«409413_j30142080483538_1_alg».proof.Proof.Ref.VarLaw
import proofs.«409413_j30142080483538_1_alg».proof.Proof.Ref.Real
import proofs.«409413_j30142080483538_1_alg».proof.Proof.Ref.LnLaw
import proofs.«409413_j30142080483538_1_alg».proof.Proof.Ref.LnAt

noncomputable section
namespace Cert.KernelIdeal.Val
open Cert.KernelIdeal Cert.KernelIdeal.Gen Cert.KernelIdeal.Fr Cert.KernelIdeal.Glue Cert.ReferenceIdeal.RefValue
open Idealize.ShloMosaic Idealize.ShloMosaic.TcCoe Idealize.SL.Sem

variable (m : (ℓ : Loc nD τ sig) → Buf (Elt Ideal) ℓ) (c : Dev nD)

abbrev A (r : Ref sig .tc) : Buf (Elt Ideal) ((c : Thread nD τ).loc r) := m ((c : Thread nD τ).loc r)

structure RealArgs : Prop where
  a0 : ∀ i, ∃ r : ℝ, A m c main_arg0 i = (r : EReal)
  a3 : ∀ i, ∃ r : ℝ, A m c main_arg3 i = (r : EReal)
  a6 : ∀ i, ∃ r : ℝ, A m c main_arg6 i = (r : EReal)
  a7 : ∀ i, ∃ r : ℝ, A m c main_arg7 i = (r : EReal)
  a8 : ∀ i, ∃ r : ℝ, A m c main_arg8 i = (r : EReal)
  a9 : ∀ i, ∃ r : ℝ, A m c main_arg9 i = (r : EReal)
  a10 : ∀ i, ∃ r : ℝ, A m c main_arg10 i = (r : EReal)
  a11 : ∀ i, ∃ r : ℝ, A m c main_arg11 i = (r : EReal)
  a12 : ∀ i, ∃ r : ℝ, A m c main_arg12 i = (r : EReal)
  a13 : ∀ i, ∃ r : ℝ, A m c main_arg13 i = (r : EReal)
  a14 : ∀ i, ∃ r : ℝ, A m c main_arg14 i = (r : EReal)
  a15 : ∀ i, ∃ r : ℝ, A m c main_arg15 i = (r : EReal)
  a16 : ∀ i, ∃ r : ℝ, A m c main_arg16 i = (r : EReal)
  a17 : ∀ i, ∃ r : ℝ, A m c main_arg17 i = (r : EReal)
  a18 : ∀ i, ∃ r : ℝ, A m c main_arg18 i = (r : EReal)
  a19 : ∀ i, ∃ r : ℝ, A m c main_arg19 i = (r : EReal)
  a20 : ∀ i, ∃ r : ℝ, A m c main_arg20 i = (r : EReal)
  a21 : ∀ i, ∃ r : ℝ, A m c main_arg21 i = (r : EReal)
  a22 : ∀ i, ∃ r : ℝ, A m c main_arg22 i = (r : EReal)
  a23 : ∀ i, ∃ r : ℝ, A m c main_arg23 i = (r : EReal)
  a24 : ∀ i, ∃ r : ℝ, A m c main_arg24 i = (r : EReal)
  a25 : ∀ i, ∃ r : ℝ, A m c main_arg25 i = (r : EReal)

/-- The stages of a graph's tower over its features `x`, edges `e` and graph numbers `b`: the two convolutions' outputs `hA`, `hB`, each normalised to `xA`, `xB`. -/
abbrev hA x e := gin6 x (agg6 x e) (A m c main_arg8) (A m c main_arg9) (A m c main_arg10) (A m c main_arg11)
abbrev xA x e b := lnRelu (hA m c x e) b (A m c main_arg12) (A m c main_arg13)
abbrev hB x e b := gin64 (xA m c x e b) (agg64 (xA m c x e b) e) (A m c main_arg14) (A m c main_arg15) (A m c main_arg16) (A m c main_arg17)
abbrev xB x e b := lnRelu (hB m c x e b) b (A m c main_arg18) (A m c main_arg19)

section
variable {m c} {x e b} (hr : RealArgs m c) (hx : IsReal x)
include hr hx
theorem hA_real : IsReal (hA m c x e) := gin6_real hx (agg6_real _ hx) hr.a8 hr.a9 hr.a10 hr.a11
theorem xA_real : IsReal (xA m c x e b) := lnRelu_real _ (hA_real hr hx) hr.a12 hr.a13
theorem hB_real : IsReal (hB m c x e b) :=
  gin64_real (xA_real hr hx) (agg64_real _ (xA_real hr hx)) hr.a14 hr.a15 hr.a16 hr.a17
end

/-- Normalising with the mean and variance taken from the row sums of `h` and of its square is the reference's normalisation when `h` is real. -/
theorem ln_sums {h : FVec Ideal Cert.ReferenceIdeal.S250000x64 .f32} (hh : IsReal h) b w bias :
    lnPerNode h (perNode (meanR (flat (col (rowsum h))) b (Cert.ReferenceIdeal.RefValue.norm b)) b)
      (perNode (varR (flat (col (rowsum h))) (flat (col (rowsum (mulf h h)))) b (Cert.ReferenceIdeal.RefValue.norm b)) b) w bias
      = lnRelu h b w bias := by
  rw [flat_col, flat_col, meanR_eq, varR_eq, varK_eq h b hh, lnPerNode_eq]

attribute [local irreducible] StableHlo.after Function.update

/-- The arrays held before item `k` of the run. -/
def Vn : ℕ → Valuation τ sig (Elt Ideal)
  | 0 => V0 m c | 1 => V1 m c | 2 => V2 m (outs m) c | 3 => V3 m (outs m) c | 4 => V4 m (outs m) c | 5 => V5 m (outs m) c
  | 6 => V6 m (outs m) c | 7 => V7 m (outs m) c | 8 => V8 m (outs m) c | 9 => V9 m (outs m) c | 10 => V10 m (outs m) c
  | 11 => V11 m (outs m) c | 12 => V12 m (outs m) c | 13 => V13 m (outs m) c | 14 => V14 m (outs m) c | 15 => V15 m (outs m) c
  | 16 => V16 m (outs m) c | 17 => V17 m (outs m) c | 18 => V18 m (outs m) c | 19 => V19 m (outs m) c | _ => V20 m (outs m) c

/-- What item `k` writes. -/
def Wn : ℕ → List (Ref sig .tc)
  | 0 => hostOps0_W | 1 => [main_v24_0, main_v24_1, main_v24_2] | 2 => hostOps1_W | 3 => [main_v55] | 4 => hostOps2_W
  | 5 => [main_v68_0, main_v68_1, main_v68_2] | 6 => hostOps3_W | 7 => [main_v99] | 8 => hostOps4_W | 9 => [main_v101]
  | 10 => hostOps5_W | 11 => [main_v132_0, main_v132_1, main_v132_2] | 12 => hostOps6_W | 13 => [main_v163] | 14 => hostOps7_W
  | 15 => [main_v176_0, main_v176_1, main_v176_2] | 16 => hostOps8_W | 17 => [main_v207] | 18 => hostOps9_W | 19 => [main_v209] | _ => []

theorem Vn_succ : ∀ k r, r ∉ Wn k → Vn m c (k + 1) r = Vn m c k r
  | 0 => V1_of m c | 1 => V2_of m (outs m) c | 2 => V3_of m (outs m) c | 3 => V4_of m (outs m) c | 4 => V5_of m (outs m) c | 5 => V6_of m (outs m) c
  | 6 => V7_of m (outs m) c | 7 => V8_of m (outs m) c | 8 => V9_of m (outs m) c | 9 => V10_of m (outs m) c | 10 => V11_of m (outs m) c | 11 => V12_of m (outs m) c
  | 12 => V13_of m (outs m) c | 13 => V14_of m (outs m) c | 14 => V15_of m (outs m) c | 15 => V16_of m (outs m) c | 16 => V17_of m (outs m) c | 17 => V18_of m (outs m) c
  | 18 => V19_of m (outs m) c | 19 => V20_of m (outs m) c | _ + 20 => fun _ _ => rfl

/-- An array that no item from `j` up to `k` writes is at `k` what it was at `j`. -/
theorem keep (j k : ℕ) (r : Ref sig .tc) (h : j ≤ k ∧ ∀ i < k, j ≤ i → r ∉ Wn i := by decide +kernel) : Vn m c k r = Vn m c j r := by
  obtain ⟨hjk, h⟩ := h
  induction k, hjk using Nat.le_induction with
  | base => rfl
  | succ k hk ih => exact (Vn_succ m c k r (h k k.lt_succ_self hk)).trans (ih fun i hi => h i (hi.trans k.lt_succ_self))

abbrev hA1 := hA m c (A m c main_arg0) (A m c main_arg1)
abbrev xA1 := xA m c (A m c main_arg0) (A m c main_arg1) (A m c main_arg2)
abbrev hB1 := hB m c (A m c main_arg0) (A m c main_arg1) (A m c main_arg2)
abbrev xB1 := xB m c (A m c main_arg0) (A m c main_arg1) (A m c main_arg2)

theorem g1_norm : Vn m c 1 main_v11 = Cert.ReferenceIdeal.RefValue.norm (A m c main_arg2) := h0_v11 _

theorem g1_c1 : Vn m c 2 main_v24_0 = hA1 m c ∧ Vn m c 2 main_v24_1 = col (rowsum (hA1 m c)) ∧
    Vn m c 2 main_v24_2 = col (rowsum (mulf (hA1 m c) (hA1 m c))) := by
  refine ⟨(hF0 m c 6).symm.trans (final0_6 (Vi0 m) c _ _ _ _ _ _ ?a ?b ?d ?e ?f ?g),
    (hF0 m c 7).symm.trans (final0_7 (Vi0 m) c _ _ _ _ _ _ ?a ?b ?d ?e ?f ?g),
    (hF0 m c 8).symm.trans (final0_8 (Vi0 m) c _ _ _ _ _ _ ?a ?b ?d ?e ?f ?g)⟩
  exacts [keep m c 0 1 main_arg0, (h0_v21 _).trans (agg6_eq _ _), keep m c 0 1 main_arg8, h0_v22 _,
    keep m c 0 1 main_arg10, h0_v23 _]

section
variable {m c} (hr : RealArgs m c)
include hr

theorem g1_n1 : Vn m c 4 main_v55 = xA1 m c := by
  refine (hF1 m c 5).symm.trans ((final1_5 (Vi1 m) c _ _ _ _ _ ((keep m c 2 3 main_v24_0).trans (g1_c1 m c).1)
    (h1_v51 (Vn m c 2)) (h1_v52 (Vn m c 2)) (h1_v53 (Vn m c 2)) (h1_v54 (Vn m c 2))).trans ?_)
  rw [(g1_c1 m c).2.1, (g1_c1 m c).2.2, keep m c 0 2 main_arg2, keep m c 1 2 main_v11, g1_norm m c,
    keep m c 0 2 main_arg12, keep m c 0 2 main_arg13]
  exact ln_sums (hA_real hr hr.a0) _ _ _

theorem g1_agg2 : Vn m c 5 main_v65 = agg64 (xA1 m c) (A m c main_arg1) :=
  (h2_v65 (Vn m c 4)).trans (by
    rw [g1_n1 hr, keep m c 1 4 main_v1, keep m c 1 4 main_v3, show Vn m c 1 main_v1 = _ from h0_v1 _,
      show Vn m c 1 main_v3 = _ from h0_v3 _]
    exact agg64_eq _ _)
theorem g1_x5 : Vn m c 5 main_v55 = xA1 m c := (keep m c 4 5 main_v55).trans (g1_n1 hr)
theorem g1_b3r : Vn m c 5 main_v66 = row (A m c main_arg15) := (h2_v66 _).trans (congrArg row (keep m c 0 4 main_arg15))
theorem g1_b4r : Vn m c 5 main_v67 = row (A m c main_arg17) := (h2_v67 _).trans (congrArg row (keep m c 0 4 main_arg17))
theorem g1_h2 : Vn m c 6 main_v68_0 = hB1 m c :=
  (hF2 m c 6).symm.trans (final2_6 (Vi2 m) c _ _ _ _ _ _ (g1_x5 hr) (g1_agg2 hr) (keep m c 0 5 main_arg14) (g1_b3r hr)
    (keep m c 0 5 main_arg16) (g1_b4r hr))
theorem g1_rs2 : Vn m c 6 main_v68_1 = col (rowsum (hB1 m c)) :=
  (hF2 m c 7).symm.trans (final2_7 (Vi2 m) c _ _ _ _ _ _ (g1_x5 hr) (g1_agg2 hr) (keep m c 0 5 main_arg14) (g1_b3r hr)
    (keep m c 0 5 main_arg16) (g1_b4r hr))
theorem g1_rq2 : Vn m c 6 main_v68_2 = col (rowsum (mulf (hB1 m c) (hB1 m c))) :=
  (hF2 m c 8).symm.trans (final2_8 (Vi2 m) c _ _ _ _ _ _ (g1_x5 hr) (g1_agg2 hr) (keep m c 0 5 main_arg14) (g1_b3r hr)
    (keep m c 0 5 main_arg16) (g1_b4r hr))

theorem g1_n2 : Vn m c 8 main_v99 = xB1 m c := by
  refine (hF3 m c 5).symm.trans ((final3_5 (Vi3 m) c _ _ _ _ _ ((keep m c 6 7 main_v68_0).trans (g1_h2 hr))
    (h3_v95 (Vn m c 6)) (h3_v96 (Vn m c 6)) (h3_v97 (Vn m c 6)) (h3_v98 (Vn m c 6))).trans ?_)
  rw [g1_rs2 hr, g1_rq2 hr, keep m c 0 6 main_arg2, keep m c 1 6 main_v11, g1_norm m c,
    keep m c 0 6 main_arg18, keep m c 0 6 main_arg19]
  exact ln_sums (hB_real hr hr.a0) _ _ _

theorem g1_pool : Vn m c 10 main_v101 = pool (xB1 m c) (A m c main_arg2) :=
  (hF4 m c 2).symm.trans (final4_2 (Vi4 m) c _ _ ((keep m c 8 9 main_v99).trans (g1_n2 hr))
    ((h4_v100 _).trans (congrArg colI (keep m c 0 8 main_arg2))))

theorem g1_emb : Vn m c 11 main_v107 = emb (pool (xB1 m c) (A m c main_arg2)) (A m c main_arg2) := by
  refine (h5_v107 (Vn m c 10)).trans ?_
  rw [g1_pool hr, keep m c 1 10 main_v7, show Vn m c 1 main_v7 = _ from h0_v7 _]
  exact emb_eq _ _

end

abbrev hA2 := hA m c (A m c main_arg3) (A m c main_arg4)
abbrev xA2 := xA m c (A m c main_arg3) (A m c main_arg4) (A m c main_arg5)
abbrev hB2 := hB m c (A m c main_arg3) (A m c main_arg4) (A m c main_arg5)
abbrev xB2 := xB m c (A m c main_arg3) (A m c main_arg4) (A m c main_arg5)

theorem g2_norm : Vn m c 11 main_v119 = Cert.ReferenceIdeal.RefValue.norm (A m c main_arg5) :=
  (h5_v119 _).trans (congrArg Cert.ReferenceIdeal.RefValue.norm (keep m c 0 10 main_arg5))

theorem g2_c1 : Vn m c 12 main_v132_0 = hA2 m c ∧ Vn m c 12 main_v132_1 = col (rowsum (hA2 m c)) ∧
    Vn m c 12 main_v132_2 = col (rowsum (mulf (hA2 m c) (hA2 m c))) := by
  refine ⟨(hF5 m c 6).symm.trans (final5_6 (Vi5 m) c _ _ _ _ _ _ ?a ?b ?d ?e ?f ?g),
    (hF5 m c 7).symm.trans (final5_7 (Vi5 m) c _ _ _ _ _ _ ?a ?b ?d ?e ?f ?g),
    (hF5 m c 8).symm.trans (final5_8 (Vi5 m) c _ _ _ _ _ _ ?a ?b ?d ?e ?f ?g)⟩
  exacts [keep m c 0 11 main_arg3,
    (h5_v129 (Vn m c 10)).trans (by
      rw [keep m c 0 10 main_arg3, keep m c 0 10 main_arg4]
      exact agg6_eq _ _),
    keep m c 0 11 main_arg8, (h5_v130 _).trans (congrArg row (keep m c 0 10 main_arg9)),
    keep m c 0 11 main_arg10, (h5_v131 _).trans (congrArg row (keep m c 0 10 main_arg11))]

section
variable {m c} (hr : RealArgs m c)
include hr

theorem g2_h13 : Vn m c 13 main_v132_0 = hA2 m c := (keep m c 12 13 main_v132_0).trans (g2_c1 m c).1
theorem g2_b12 : Vn m c 12 main_arg5 = A m c main_arg5 := keep m c 0 12 main_arg5
theorem g2_n12 : Vn m c 12 main_v119 = Cert.ReferenceIdeal.RefValue.norm (A m c main_arg5) := (keep m c 11 12 main_v119).trans (g2_norm m c)
theorem g2_n1 : Vn m c 14 main_v163 = xA2 m c := by
  refine (hF6 m c 5).symm.trans ((final6_5 (Vi6 m) c _ _ _ _ _ (g2_h13 hr)
    (h6_v159 (Vn m c 12)) (h6_v160 (Vn m c 12)) (h6_v161 (Vn m c 12)) (h6_v162 (Vn m c 12))).trans ?_)
  rw [(g2_c1 m c).2.1, (g2_c1 m c).2.2, g2_b12 hr, g2_n12 hr, keep m c 0 12 main_arg12, keep m c 0 12 main_arg13]
  exact ln_sums (hA_real hr hr.a3) _ _ _

theorem g2_agg2 : Vn m c 15 main_v173 = agg64 (xA2 m c) (A m c main_arg4) :=
  (h7_v173 (Vn m c 14)).trans (by
    rw [g2_n1 hr, keep m c 11 14 main_v109, keep m c 11 14 main_v111,
      show Vn m c 11 main_v109 = _ from (h5_v109 _).trans (congrArg srcRow (keep m c 0 10 main_arg4)),
      show Vn m c 11 main_v111 = _ from (h5_v111 _).trans (congrArg dstRow (keep m c 0 10 main_arg4))]
    exact agg64_eq _ _)
theorem g2_x5 : Vn m c 15 main_v163 = xA2 m c := (keep m c 14 15 main_v163).trans (g2_n1 hr)
theorem g2_b3r : Vn m c 15 main_v174 = row (A m c main_arg15) := (h7_v174 _).trans (congrArg row (keep m c 0 14 main_arg15))
theorem g2_b4r : Vn m c 15 main_v175 = row (A m c main_arg17) := (h7_v175 _).trans (congrArg row (keep m c 0 14 main_arg17))
theorem g2_h2 : Vn m c 16 main_v176_0 = hB2 m c :=
  (hF7 m c 6).symm.trans (final7_6 (Vi7 m) c _ _ _ _ _ _ (g2_x5 hr) (g2_agg2 hr) (keep m c 0 15 main_arg14) (g2_b3r hr)
    (keep m c 0 15 main_arg16) (g2_b4r hr))
theorem g2_rs2 : Vn m c 16 main_v176_1 = col (rowsum (hB2 m c)) :=
  (hF7 m c 7).symm.trans (final7_7 (Vi7 m) c _ _ _ _ _ _ (g2_x5 hr) (g2_agg2 hr) (keep m c 0 15 main_arg14) (g2_b3r hr)
    (keep m c 0 15 main_arg16) (g2_b4r hr))
theorem g2_rq2 : Vn m c 16 main_v176_2 = col (rowsum (mulf (hB2 m c) (hB2 m c))) :=
  (hF7 m c 8).symm.trans (final7_8 (Vi7 m) c _ _ _ _ _ _ (g2_x5 hr) (g2_agg2 hr) (keep m c 0 15 main_arg14) (g2_b3r hr)
    (keep m c 0 15 main_arg16) (g2_b4r hr))

theorem g2_n2 : Vn m c 18 main_v207 = xB2 m c := by
  refine (hF8 m c 5).symm.trans ((final8_5 (Vi8 m) c _ _ _ _ _ ((keep m c 16 17 main_v176_0).trans (g2_h2 hr))
    (h8_v203 (Vn m c 16)) (h8_v204 (Vn m c 16)) (h8_v205 (Vn m c 16)) (h8_v206 (Vn m c 16))).trans ?_)
  rw [g2_rs2 hr, g2_rq2 hr, keep m c 0 16 main_arg5, keep m c 11 16 main_v119, g2_norm m c,
    keep m c 0 16 main_arg18, keep m c 0 16 main_arg19]
  exact ln_sums (hB_real hr hr.a3) _ _ _

theorem g2_pool : Vn m c 20 main_v209 = pool (xB2 m c) (A m c main_arg5) :=
  (hF9 m c 2).symm.trans (final9_2 (Vi9 m) c _ _ ((keep m c 18 19 main_v207).trans (g2_n2 hr))
    ((h9_v208 _).trans (congrArg colI (keep m c 0 18 main_arg5))))

end

/-- With every float argument real, the run leaves in the result the read-out head of the two graphs' towers. -/
theorem kernel_value (hr : RealArgs m c) : V25 m (outs m) c main_v230
    = head (tower (A m c main_arg0) (A m c main_arg1) (A m c main_arg2) (A m c main_arg8) (A m c main_arg9) (A m c main_arg10) (A m c main_arg11) (A m c main_arg12) (A m c main_arg13) (A m c main_arg14) (A m c main_arg15) (A m c main_arg16) (A m c main_arg17) (A m c main_arg18) (A m c main_arg19))
        (tower (A m c main_arg3) (A m c main_arg4) (A m c main_arg5) (A m c main_arg8) (A m c main_arg9) (A m c main_arg10) (A m c main_arg11) (A m c main_arg12) (A m c main_arg13) (A m c main_arg14) (A m c main_arg15) (A m c main_arg16) (A m c main_arg17) (A m c main_arg18) (A m c main_arg19))
        (A m c main_arg6) (A m c main_arg7) (A m c main_arg20) (A m c main_arg21) (A m c main_arg22) (A m c main_arg23) (A m c main_arg24) (A m c main_arg25) := by
  refine (h10_v230 (Vn m c 20)).trans ?_
  rw [keep m c 11 20 main_v107, g1_emb hr, g2_pool hr, keep m c 11 20 main_v115,
    show Vn m c 11 main_v115 = _ from (h5_v115 _).trans (congrArg cnt (keep m c 0 10 main_arg5)), emb_eq,
    keep m c 0 20 main_arg6, keep m c 0 20 main_arg7, keep m c 0 20 main_arg20,
    keep m c 0 20 main_arg21, keep m c 0 20 main_arg22, keep m c 0 20 main_arg23,
    keep m c 0 20 main_arg24, keep m c 0 20 main_arg25]
  rfl

end Cert.KernelIdeal.Val
-- ==== Proof.lean ====
/- For each of two graphs: two sum-aggregating convolutions, each followed by a normalisation over the graph's nodes and
   channels and a positive part, then the pooled sum plus the pooled mean; the two embeddings and two descriptor arrays go
   through three affine layers. The kernel program takes a graph's variance as the mean of the squares less the squared
   mean, the reference as the mean of the squared deviations: equal on finite inputs, and the only use of finiteness. -/
import proofs.«409413_j30142080483538_1_alg».proof.Defs
import proofs.«409413_j30142080483538_1_alg».proof.Proof.Gen.Kernel
import proofs.«409413_j30142080483538_1_alg».proof.Proof.Gen.KernelIdeal
import proofs.«409413_j30142080483538_1_alg».proof.Proof.Gen.ReferenceIdeal
import proofs.«409413_j30142080483538_1_alg».proof.Proof.Gen.Pre_finite_inputs
import proofs.«409413_j30142080483538_1_alg».proof.Proof.KB.Run
import proofs.«409413_j30142080483538_1_alg».proof.Proof.KI.Run
import proofs.«409413_j30142080483538_1_alg».proof.Proof.Ref.Run
import proofs.«409413_j30142080483538_1_alg».proof.Proof.Ref.PreReal
import proofs.«409413_j30142080483538_1_alg».proof.Proof.Val.Chain
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

theorem realArgs (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Val.RealArgs m c := by
  obtain ⟨h0, h3, h6, h7, h8, h9, h10, h11, h12, h13, h14, h15, h16, h17, h18, h19, h20, h21, h22, h23, h24, h25⟩ := Cert.KernelIdeal.Val.real_of_pre m h c
  exact ⟨h0, h3, h6, h7, h8, h9, h10, h11, h12, h13, h14, h15, h16, h17, h18, h19, h20, h21, h22, h23, h24, h25⟩

set_option maxHeartbeats 4000000 in
open Cert.KernelIdeal in
theorem algebraic : Cert.algebraic_KernelIdeal_ReferenceIdeal := by
  intro m ρ m' ρ' hpre hagree
  refine ⟨fun c => Cert.KernelIdeal.Gen.V25 m (Cert.KernelIdeal.Fr.outs m) c Cert.KernelIdeal.main_v230, ?_, ?_⟩
  · refine (θ_run Cert.KernelIdeal.defs _ _).mono (fun r h c => ?_) (Cert.KernelIdeal.Fr.run_all m ρ)
    have hu : ∀ b : Ref sig .tc, ¬ (Proc.devRef .tc b : DevRef τ sig).isScoped → Proc.devRef .tc b ∈ Pipeline.ucRefs τ sig :=
      fun b hb => Finset.mem_filter.mpr ⟨StableHlo.devRef_mem_tcRefs b, hb⟩
    exact ⟨h c _ (hu main_v230 (by decide)),
      (h c _ (hu main_arg0 (by decide))).trans (Cert.KernelIdeal.Gen.V25_main_arg0 m _ c),
      (h c _ (hu main_arg1 (by decide))).trans (Cert.KernelIdeal.Gen.V25_main_arg1 m _ c),
      (h c _ (hu main_arg2 (by decide))).trans (Cert.KernelIdeal.Gen.V25_main_arg2 m _ c),
      (h c _ (hu main_arg3 (by decide))).trans (Cert.KernelIdeal.Gen.V25_main_arg3 m _ c),
      (h c _ (hu main_arg4 (by decide))).trans (Cert.KernelIdeal.Gen.V25_main_arg4 m _ c),
      (h c _ (hu main_arg5 (by decide))).trans (Cert.KernelIdeal.Gen.V25_main_arg5 m _ c),
      (h c _ (hu main_arg6 (by decide))).trans (Cert.KernelIdeal.Gen.V25_main_arg6 m _ c),
      (h c _ (hu main_arg7 (by decide))).trans (Cert.KernelIdeal.Gen.V25_main_arg7 m _ c),
      (h c _ (hu main_arg8 (by decide))).trans (Cert.KernelIdeal.Gen.V25_main_arg8 m _ c),
      (h c _ (hu main_arg9 (by decide))).trans (Cert.KernelIdeal.Gen.V25_main_arg9 m _ c),
      (h c _ (hu main_arg10 (by decide))).trans (Cert.KernelIdeal.Gen.V25_main_arg10 m _ c),
      (h c _ (hu main_arg11 (by decide))).trans (Cert.KernelIdeal.Gen.V25_main_arg11 m _ c),
      (h c _ (hu main_arg12 (by decide))).trans (Cert.KernelIdeal.Gen.V25_main_arg12 m _ c),
      (h c _ (hu main_arg13 (by decide))).trans (Cert.KernelIdeal.Gen.V25_main_arg13 m _ c),
      (h c _ (hu main_arg14 (by decide))).trans (Cert.KernelIdeal.Gen.V25_main_arg14 m _ c),
      (h c _ (hu main_arg15 (by decide))).trans (Cert.KernelIdeal.Gen.V25_main_arg15 m _ c),
      (h c _ (hu main_arg16 (by decide))).trans (Cert.KernelIdeal.Gen.V25_main_arg16 m _ c),
      (h c _ (hu main_arg17 (by decide))).trans (Cert.KernelIdeal.Gen.V25_main_arg17 m _ c),
      (h c _ (hu main_arg18 (by decide))).trans (Cert.KernelIdeal.Gen.V25_main_arg18 m _ c),
      (h c _ (hu main_arg19 (by decide))).trans (Cert.KernelIdeal.Gen.V25_main_arg19 m _ c),
      (h c _ (hu main_arg20 (by decide))).trans (Cert.KernelIdeal.Gen.V25_main_arg20 m _ c),
      (h c _ (hu main_arg21 (by decide))).trans (Cert.KernelIdeal.Gen.V25_main_arg21 m _ c),
      (h c _ (hu main_arg22 (by decide))).trans (Cert.KernelIdeal.Gen.V25_main_arg22 m _ c),
      (h c _ (hu main_arg23 (by decide))).trans (Cert.KernelIdeal.Gen.V25_main_arg23 m _ c),
      (h c _ (hu main_arg24 (by decide))).trans (Cert.KernelIdeal.Gen.V25_main_arg24 m _ c),
      (h c _ (hu main_arg25 (by decide))).trans (Cert.KernelIdeal.Gen.V25_main_arg25 m _ c)⟩
  · refine (θ_run Cert.ReferenceIdeal.defs _ _).mono (fun r h c => ⟨(h c).1.trans ?_, (h c).2⟩)
      (Cert.ReferenceIdeal.RefValue.run (F := Ideal) m' ρ')
    obtain ⟨e0, e1, e2, e3, e4, e5, e6, e7, e8, e9, e10, e11, e12, e13, e14, e15, e16, e17, e18, e19, e20, e21, e22, e23, e24, e25⟩ := hagree c
    refine Eq.trans ?_ (Cert.KernelIdeal.Val.kernel_value m c (realArgs m hpre c)).symm
    unfold Cert.ReferenceIdeal.RefValue.result
    rw [e0, e1, e2, e3, e4, e5, e6, e7, e8, e9, e10, e11, e12, e13, e14, e15, e16, e17, e18, e19, e20, e21, e22, e23, e24, e25]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
